-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v168)) (v1 : (c : Dev Cert.KernelIdeal.nD) → Buf (Elt Ideal) ((c.tc : Thread Cert.KernelIdeal.nD Cert.KernelIdeal.τ).loc Cert.KernelIdeal.main_v166)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v168) = v0 c
          ∧ r.2.mem ((c.tc : Thread Cert.KernelIdeal.nD Cert.KernelIdeal.τ).loc Cert.KernelIdeal.main_v166) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v288) = v0 c
          ∧ r.2.mem ((c.tc : Thread Cert.ReferenceIdeal.nD Cert.ReferenceIdeal.τ).loc Cert.ReferenceIdeal.main_v285) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S50000x128 : Shape := ⟨2, ![50000, 128]⟩
abbrev S2x800000 : Shape := ⟨2, ![2, 800000]⟩
abbrev S800000 : Shape := ⟨1, ![800000]⟩
abbrev S5x128x128 : Shape := ⟨3, ![5, 128, 128]⟩
abbrev S5x128 : Shape := ⟨2, ![5, 128]⟩
abbrev S_ : Shape := ⟨0, ![]⟩
abbrev S1x800000 : Shape := ⟨2, ![1, 800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S5x128x128 : S_.BroadcastsInDim S5x128x128 (![] : Fin 0 → Fin S5x128x128.rank)
  reducesTo_S5x128x128_S_d0_1_2 : S5x128x128.ReducesTo [0, 1, 2] S_
  bcast_S_S5x128 : S_.BroadcastsInDim S5x128 (![] : Fin 0 → Fin S5x128.rank)
  reducesTo_S5x128_S_d0_1 : S5x128.ReducesTo [0, 1] S_
  slices_S2x800000_S1x800000_0_0 : S2x800000.Slices ![0, 0] S1x800000
  shapeCasts_S1x800000_S800000 : S1x800000.ShapeCasts S800000

variable [Facts]

def fn_part2 {F : FTy → Type} [FloatOps F] (main_arg2 : IVec S2x800000 32) (main_v28 : IVec S_ 1) (main_v33 : IVec S_ 1) : IVec S_ 1 :=
  let main_v34 : IVec S_ 1 := andi main_v28 main_v33
  let main_v35 : IVec S1x800000 32 := (extractStridedSlice S1x800000 ![0, 0] · slices_S2x800000_S1x800000_0_0) main_arg2
  let main_v36 : IVec S800000 32 := shapeCast S800000 main_v35 shapeCasts_S1x800000_S800000
  let main_c_12 : IVec S_ 32 := constantI S_ 32 50000#32
  let main_v37 : IVec S800000 32 := broadcastInDim S800000 ![] bcast_S_S800000 main_c_12
  let main_v38 : IVec S800000 1 := cmpi .slt main_v36 main_v37
  let main_c_13 : IVec S_ 1 := constantI S_ 1 1#1
  let main_v39 : IVec S_ 1 := (fun x v => Host.reduce IntOp.andi x v reducesTo_S800000_S_d0 h_S_) main_v38 main_c_13
  let main_v40 : IVec S_ 1 := andi main_v34 main_v39
  main_v40

def fn_part1 {F : FTy → Type} [FloatOps F] (main_arg2 : IVec S2x800000 32) (main_arg6 : FVec F S5x128 .f32) (main_arg7 : FVec F S5x128 .f32) (main_v13 : IVec S_ 1) (main_v16 : IVec S5x128 1) : IVec S_ 1 :=
  let main_c_5 : IVec S_ 1 := constantI S_ 1 1#1
  let main_v17 : IVec S_ 1 := (fun x v => Host.reduce IntOp.andi x v reducesTo_S5x128_S_d0_1 h_S_) main_v16 main_c_5
  let main_v18 : IVec S_ 1 := andi main_v13 main_v17
  let main_v19 : FVec F S5x128 .f32 := Host.absf main_arg6
  let main_cst_6 : FVec F S_ .f32 := constant S_ .f32 0x7F800000#32
  let main_v20 : FVec F S5x128 .f32 := broadcastInDim S5x128 ![] bcast_S_S5x128 main_cst_6
  let main_v21 : IVec S5x128 1 := cmpf .olt main_v19 main_v20
  let main_c_7 : IVec S_ 1 := constantI S_ 1 1#1
  let main_v22 : IVec S_ 1 := (fun x v => Host.reduce IntOp.andi x v reducesTo_S5x128_S_d0_1 h_S_) main_v21 main_c_7
  let main_v23 : IVec S_ 1 := andi main_v18 main_v22
  let main_v24 : FVec F S5x128 .f32 := Host.absf main_arg7
  let main_cst_8 : FVec F S_ .f32 := constant S_ .f32 0x7F800000#32
  let main_v25 : FVec F S5x128 .f32 := broadcastInDim S5x128 ![] bcast_S_S5x128 main_cst_8
  let main_v26 : IVec S5x128 1 := cmpf .olt main_v24 main_v25
  let main_c_9 : IVec S_ 1 := constantI S_ 1 1#1
  let main_v27 : IVec S_ 1 := (fun x v => Host.reduce IntOp.andi x v reducesTo_S5x128_S_d0_1 h_S_) main_v26 main_c_9
  let main_v28 : IVec S_ 1 := andi main_v23 main_v27
  let main_v29 : IVec S1x800000 32 := (extractStridedSlice S1x800000 ![0, 0] · slices_S2x800000_S1x800000_0_0) main_arg2
  let main_v30 : IVec S800000 32 := shapeCast S800000 main_v29 shapeCasts_S1x800000_S800000
  let main_c_10 : IVec S_ 32 := constantI S_ 32 0#32
  let main_v31 : IVec S800000 32 := broadcastInDim S800000 ![] bcast_S_S800000 main_c_10
  let main_v32 : IVec S800000 1 := cmpi .sge main_v30 main_v31
  let main_c_11 : IVec S_ 1 := constantI S_ 1 1#1
  let main_v33 : IVec S_ 1 := (fun x v => Host.reduce IntOp.andi x v reducesTo_S800000_S_d0 h_S_) main_v32 main_c_11
  fn_part2 (F := F) main_arg2 main_v28 main_v33

def fn {F : FTy → Type} [FloatOps F] (main_arg0 : IVec S50000 32) (main_arg1 : FVec F S50000x128 .f32) (main_arg2 : IVec S2x800000 32) (main_arg3 : FVec F S800000 .f32) (main_arg4 : FVec F S5x128x128 .f32) (main_arg5 : FVec F S5x128 .f32) (main_arg6 : FVec F S5x128 .f32) (main_arg7 : FVec F S5x128 .f32) : IVec S_ 1 :=
  let main_v0 : FVec F S50000x128 .f32 := Host.absf main_arg1
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S5x128x128 .f32 := Host.absf main_arg4
  let main_cst_2 : FVec F S_ .f32 := constant S_ .f32 0x7F800000#32
  let main_v10 : FVec F S5x128x128 .f32 := broadcastInDim S5x128x128 ![] bcast_S_S5x128x128 main_cst_2
  let main_v11 : IVec S5x128x128 1 := cmpf .olt main_v9 main_v10
  let main_c_3 : IVec S_ 1 := constantI S_ 1 1#1
  let main_v12 : IVec S_ 1 := (fun x v => Host.reduce IntOp.andi x v reducesTo_S5x128x128_S_d0_1_2 h_S_) main_v11 main_c_3
  let main_v13 : IVec S_ 1 := andi main_v8 main_v12
  let main_v14 : FVec F S5x128 .f32 := Host.absf main_arg5
  let main_cst_4 : FVec F S_ .f32 := constant S_ .f32 0x7F800000#32
  let main_v15 : FVec F S5x128 .f32 := broadcastInDim S5x128 ![] bcast_S_S5x128 main_cst_4
  let main_v16 : IVec S5x128 1 := cmpf .olt main_v14 main_v15
  fn_part1 (F := F) main_arg2 main_arg6 main_arg7 main_v13 main_v16
-- ==== Kernel.lean ====
abbrev S50000 : Shape := ⟨1, ![50000]⟩
abbrev S50000x128 : Shape := ⟨2, ![50000, 128]⟩
abbrev S2x800000 : Shape := ⟨2, ![2, 800000]⟩
abbrev S800000 : Shape := ⟨1, ![800000]⟩
abbrev S5x128x128 : Shape := ⟨3, ![5, 128, 128]⟩
abbrev S5x128 : Shape := ⟨2, ![5, 128]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S1x128x128 : Shape := ⟨3, ![1, 128, 128]⟩
abbrev S128x128 : Shape := ⟨2, ![128, 128]⟩
abbrev S5000x128 : Shape := ⟨2, ![5000, 128]⟩
abbrev S1 : Shape := ⟨1, ![1]⟩
abbrev S1x1 : Shape := ⟨2, ![1, 1]⟩
abbrev S850000x128 : Shape := ⟨2, ![850000, 128]⟩
abbrev S1x128 : Shape := ⟨2, ![1, 128]⟩
abbrev S128 : Shape := ⟨1, ![128]⟩
abbrev S50000x1 : Shape := ⟨2, ![50000, 1]⟩
abbrev S256x128 : Shape := ⟨2, ![256, 128]⟩
abbrev S5000x1 : Shape := ⟨2, ![5000, 1]⟩
abbrev S5000x256 : Shape := ⟨2, ![5000, 256]⟩

abbrev nBuf : Space → Nat
  | .hbm => 322
  | .vmem => 105
  | .smem => 0
  | _ => 0

abbrev hbmTy0_0 (i : Nat) : BufTy := match i % 128 with
  | 0 => ⟨S50000, .i32⟩
  | 1 => ⟨S50000x128, .f32⟩
  | 2 => ⟨S2x800000, .i32⟩
  | 3 => ⟨S800000, .f32⟩
  | 4 => ⟨S5x128x128, .f32⟩
  | 5 => ⟨S5x128, .f32⟩
  | 6 => ⟨S5x128, .f32⟩
  | 7 => ⟨S5x128, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S50000, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S1x128x128, .f32⟩
  | 51 => ⟨S128x128, .f32⟩
  | 52 => ⟨S50000x128, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S1, .i32⟩
  | 62 => ⟨S_, .i32⟩
  | 63 => ⟨S850000x1, .i32⟩
  | 64 => ⟨S850000x1, .i1⟩
  | 65 => ⟨S1x1, .i32⟩
  | 66 => ⟨S850000x1, .i32⟩
  | 67 => ⟨S850000x1, .i1⟩
  | 68 => ⟨S850000x1, .i1⟩
  | 69 => ⟨S_, .i1⟩
  | 70 => ⟨S850000, .i1⟩
  | 71 => ⟨S850000x128, .f32⟩
  | 72 => ⟨S850000x128, .i1⟩
  | 73 => ⟨S_, .f32⟩
  | 74 => ⟨S850000x128, .f32⟩
  | 75 => ⟨S850000x128, .f32⟩
  | 76 => ⟨S850000x1, .f32⟩
  | 77 => ⟨S850000x128, .f32⟩
  | 78 => ⟨S850000x128, .f32⟩
  | 79 => ⟨S_, .f32⟩
  | 80 => ⟨S50000x128, .f32⟩
  | 81 => ⟨S850000x1, .i32⟩
  | 82 => ⟨S50000x128, .f32⟩
  | 83 => ⟨S1x128, .f32⟩
  | 84 => ⟨S128, .f32⟩
  | 85 => ⟨S1x128, .f32⟩
  | 86 => ⟨S50000x128, .f32⟩
  | 87 => ⟨S1x128, .f32⟩
  | 88 => ⟨S1x128, .f32⟩
  | 89 => ⟨S_, .f32⟩
  | 90 => ⟨S1x128, .f32⟩
  | 91 => ⟨S1x128, .f32⟩
  | 92 => ⟨S_, .f32⟩
  | 93 => ⟨S1x128, .f32⟩
  | 94 => ⟨S1x128, .f32⟩
  | 95 => ⟨S1x128, .f32⟩
  | 96 => ⟨S1x128, .f32⟩
  | 97 => ⟨S1x128, .f32⟩
  | 98 => ⟨S128, .f32⟩
  | 99 => ⟨S1x128, .f32⟩
  | 100 => ⟨S128, .f32⟩
  | 101 => ⟨S1x128, .f32⟩
  | 102 => ⟨S1x128, .f32⟩
  | 103 => ⟨S50000x128, .f32⟩
  | 104 => ⟨S1x128x128, .f32⟩
  | 105 => ⟨S128x128, .f32⟩
  | 106 => ⟨S50000x128, .f32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S1, .i32⟩
  | 116 => ⟨S_, .i32⟩
  | 117 => ⟨S850000x1, .i32⟩
  | 118 => ⟨S850000x1, .i1⟩
  | 119 => ⟨S1x1, .i32⟩
  | 120 => ⟨S850000x1, .i32⟩
  | 121 => ⟨S850000x1, .i1⟩
  | 122 => ⟨S850000x1, .i1⟩
  | 123 => ⟨S_, .i1⟩
  | 124 => ⟨S850000, .i1⟩
  | 125 => ⟨S850000x128, .f32⟩
  | 126 => ⟨S850000x128, .i1⟩
  | 127 => ⟨S_, .f32⟩
  | _ => ⟨S50000, .i32⟩

abbrev hbmTy0_1 (i : Nat) : BufTy := match i % 128 with
  | 0 => ⟨S850000x128, .f32⟩
  | 1 => ⟨S850000x128, .f32⟩
  | 2 => ⟨S850000x1, .f32⟩
  | 3 => ⟨S850000x128, .f32⟩
  | 4 => ⟨S850000x128, .f32⟩
  | 5 => ⟨S_, .f32⟩
  | 6 => ⟨S50000x128, .f32⟩
  | 7 => ⟨S850000x1, .i32⟩
  | 8 => ⟨S50000x128, .f32⟩
  | 9 => ⟨S1x128, .f32⟩
  | 10 => ⟨S128, .f32⟩
  | 11 => ⟨S1x128, .f32⟩
  | 12 => ⟨S50000x128, .f32⟩
  | 13 => ⟨S1x128, .f32⟩
  | 14 => ⟨S1x128, .f32⟩
  | 15 => ⟨S_, .f32⟩
  | 16 => ⟨S1x128, .f32⟩
  | 17 => ⟨S1x128, .f32⟩
  | 18 => ⟨S_, .f32⟩
  | 19 => ⟨S1x128, .f32⟩
  | 20 => ⟨S1x128, .f32⟩
  | 21 => ⟨S1x128, .f32⟩
  | 22 => ⟨S1x128, .f32⟩
  | 23 => ⟨S1x128, .f32⟩
  | 24 => ⟨S128, .f32⟩
  | 25 => ⟨S1x128, .f32⟩
  | 26 => ⟨S128, .f32⟩
  | 27 => ⟨S1x128, .f32⟩
  | 28 => ⟨S1x128, .f32⟩
  | 29 => ⟨S50000x128, .f32⟩
  | 30 => ⟨S1x128x128, .f32⟩
  | 31 => ⟨S128x128, .f32⟩
  | 32 => ⟨S50000x128, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S1, .i32⟩
  | 42 => ⟨S_, .i32⟩
  | 43 => ⟨S850000x1, .i32⟩
  | 44 => ⟨S850000x1, .i1⟩
  | 45 => ⟨S1x1, .i32⟩
  | 46 => ⟨S850000x1, .i32⟩
  | 47 => ⟨S850000x1, .i1⟩
  | 48 => ⟨S850000x1, .i1⟩
  | 49 => ⟨S_, .i1⟩
  | 50 => ⟨S850000, .i1⟩
  | 51 => ⟨S850000x128, .f32⟩
  | 52 => ⟨S850000x128, .i1⟩
  | 53 => ⟨S_, .f32⟩
  | 54 => ⟨S850000x128, .f32⟩
  | 55 => ⟨S850000x128, .f32⟩
  | 56 => ⟨S850000x1, .f32⟩
  | 57 => ⟨S850000x128, .f32⟩
  | 58 => ⟨S850000x128, .f32⟩
  | 59 => ⟨S_, .f32⟩
  | 60 => ⟨S50000x128, .f32⟩
  | 61 => ⟨S850000x1, .i32⟩
  | 62 => ⟨S50000x128, .f32⟩
  | 63 => ⟨S1x128, .f32⟩
  | 64 => ⟨S128, .f32⟩
  | 65 => ⟨S1x128, .f32⟩
  | 66 => ⟨S50000x128, .f32⟩
  | 67 => ⟨S1x128, .f32⟩
  | 68 => ⟨S1x128, .f32⟩
  | 69 => ⟨S_, .f32⟩
  | 70 => ⟨S1x128, .f32⟩
  | 71 => ⟨S1x128, .f32⟩
  | 72 => ⟨S_, .f32⟩
  | 73 => ⟨S1x128, .f32⟩
  | 74 => ⟨S1x128, .f32⟩
  | 75 => ⟨S1x128, .f32⟩
  | 76 => ⟨S1x128, .f32⟩
  | 77 => ⟨S1x128, .f32⟩
  | 78 => ⟨S128, .f32⟩
  | 79 => ⟨S1x128, .f32⟩
  | 80 => ⟨S128, .f32⟩
  | 81 => ⟨S1x128, .f32⟩
  | 82 => ⟨S1x128, .f32⟩
  | 83 => ⟨S50000x128, .f32⟩
  | 84 => ⟨S1x128x128, .f32⟩
  | 85 => ⟨S128x128, .f32⟩
  | 86 => ⟨S50000x128, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S1, .i32⟩
  | 96 => ⟨S_, .i32⟩
  | 97 => ⟨S850000x1, .i32⟩
  | 98 => ⟨S850000x1, .i1⟩
  | 99 => ⟨S1x1, .i32⟩
  | 100 => ⟨S850000x1, .i32⟩
  | 101 => ⟨S850000x1, .i1⟩
  | 102 => ⟨S850000x1, .i1⟩
  | 103 => ⟨S_, .i1⟩
  | 104 => ⟨S850000, .i1⟩
  | 105 => ⟨S850000x128, .f32⟩
  | 106 => ⟨S850000x128, .i1⟩
  | 107 => ⟨S_, .f32⟩
  | 108 => ⟨S850000x128, .f32⟩
  | 109 => ⟨S850000x128, .f32⟩
  | 110 => ⟨S850000x1, .f32⟩
  | 111 => ⟨S850000x128, .f32⟩
  | 112 => ⟨S850000x128, .f32⟩
  | 113 => ⟨S_, .f32⟩
  | 114 => ⟨S50000x128, .f32⟩
  | 115 => ⟨S850000x1, .i32⟩
  | 116 => ⟨S50000x128, .f32⟩
  | 117 => ⟨S1x128, .f32⟩
  | 118 => ⟨S128, .f32⟩
  | 119 => ⟨S1x128, .f32⟩
  | 120 => ⟨S50000x128, .f32⟩
  | 121 => ⟨S1x128, .f32⟩
  | 122 => ⟨S1x128, .f32⟩
  | 123 => ⟨S_, .f32⟩
  | 124 => ⟨S1x128, .f32⟩
  | 125 => ⟨S1x128, .f32⟩
  | 126 => ⟨S_, .f32⟩
  | 127 => ⟨S1x128, .f32⟩
  | _ => ⟨S50000, .i32⟩

abbrev hbmTy0_2 (i : Nat) : BufTy := match i % 128 with
  | 0 => ⟨S1x128, .f32⟩
  | 1 => ⟨S1x128, .f32⟩
  | 2 => ⟨S1x128, .f32⟩
  | 3 => ⟨S1x128, .f32⟩
  | 4 => ⟨S128, .f32⟩
  | 5 => ⟨S1x128, .f32⟩
  | 6 => ⟨S128, .f32⟩
  | 7 => ⟨S1x128, .f32⟩
  | 8 => ⟨S1x128, .f32⟩
  | 9 => ⟨S50000x128, .f32⟩
  | 10 => ⟨S1x128x128, .f32⟩
  | 11 => ⟨S128x128, .f32⟩
  | 12 => ⟨S50000x128, .f32⟩
  | 13 => ⟨S_, .i32⟩
  | 14 => ⟨S850000, .i32⟩
  | 15 => ⟨S850000, .i1⟩
  | 16 => ⟨S_, .i32⟩
  | 17 => ⟨S850000, .i32⟩
  | 18 => ⟨S850000, .i32⟩
  | 19 => ⟨S850000, .i32⟩
  | 20 => ⟨S850000x1, .i32⟩
  | 21 => ⟨S1, .i32⟩
  | 22 => ⟨S_, .i32⟩
  | 23 => ⟨S850000x1, .i32⟩
  | 24 => ⟨S850000x1, .i1⟩
  | 25 => ⟨S1x1, .i32⟩
  | 26 => ⟨S850000x1, .i32⟩
  | 27 => ⟨S850000x1, .i1⟩
  | 28 => ⟨S850000x1, .i1⟩
  | 29 => ⟨S_, .i1⟩
  | 30 => ⟨S850000, .i1⟩
  | 31 => ⟨S850000x128, .f32⟩
  | 32 => ⟨S850000x128, .i1⟩
  | 33 => ⟨S_, .f32⟩
  | 34 => ⟨S850000x128, .f32⟩
  | 35 => ⟨S850000x128, .f32⟩
  | 36 => ⟨S850000x1, .f32⟩
  | 37 => ⟨S850000x128, .f32⟩
  | 38 => ⟨S850000x128, .f32⟩
  | 39 => ⟨S_, .f32⟩
  | 40 => ⟨S50000x128, .f32⟩
  | 41 => ⟨S850000x1, .i32⟩
  | 42 => ⟨S50000x128, .f32⟩
  | 43 => ⟨S1x128, .f32⟩
  | 44 => ⟨S128, .f32⟩
  | 45 => ⟨S1x128, .f32⟩
  | 46 => ⟨S50000x128, .f32⟩
  | 47 => ⟨S1x128, .f32⟩
  | 48 => ⟨S1x128, .f32⟩
  | 49 => ⟨S_, .f32⟩
  | 50 => ⟨S1x128, .f32⟩
  | 51 => ⟨S1x128, .f32⟩
  | 52 => ⟨S_, .f32⟩
  | 53 => ⟨S1x128, .f32⟩
  | 54 => ⟨S1x128, .f32⟩
  | 55 => ⟨S1x128, .f32⟩
  | 56 => ⟨S1x128, .f32⟩
  | 57 => ⟨S1x128, .f32⟩
  | 58 => ⟨S128, .f32⟩
  | 59 => ⟨S1x128, .f32⟩
  | 60 => ⟨S128, .f32⟩
  | 61 => ⟨S1x128, .f32⟩
  | 62 => ⟨S1x128, .f32⟩
  | 63 => ⟨S50000x128, .f32⟩
  | 64 => ⟨S50000x1, .i32⟩
  | 65 => ⟨S256x128, .f32⟩
  | _ => ⟨S50000, .i32⟩

abbrev hbmTy (i : Nat) : BufTy := match i / 128 with
  | 0 => hbmTy0_0 i
  | 1 => hbmTy0_1 i
  | 2 => hbmTy0_2 i
  | _ => ⟨S50000, .i32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S1x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S128x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S5000x128, .f32⟩
  | .local _ .vmem, ⟨67, _⟩ => ⟨S1x128, .f32⟩
  | .local _ .vmem, ⟨68, _⟩ => ⟨S5000x128, .f32⟩
  | .local _ .vmem, ⟨69, _⟩ => ⟨S5000x128, .f32⟩
  | .local _ .vmem, ⟨70, _⟩ => ⟨S1x128, .f32⟩
  | .local _ .vmem, ⟨71, _⟩ => ⟨S1x128, .f32⟩
  | .local _ .vmem, ⟨72, _⟩ => ⟨S5000x128, .f32⟩
  | .local _ .vmem, ⟨73, _⟩ => ⟨S5000x128, .f32⟩
  | .local _ .vmem, ⟨74, _⟩ => ⟨S1x128, .f32⟩
  | .local _ .vmem, ⟨75, _⟩ => ⟨S1x128, .f32⟩
  | .local _ .vmem, ⟨76, _⟩ => ⟨S1x128, .f32⟩
  | .local _ .vmem, ⟨77, _⟩ => ⟨S1x128, .f32⟩
  | .local _ .vmem, ⟨78, _⟩ => ⟨S5000x128, .f32⟩
  | .local _ .vmem, ⟨79, _⟩ => ⟨S5000x128, .f32⟩
  | .local _ .vmem, ⟨80, _⟩ => ⟨S5000x128, .f32⟩
  | .local _ .vmem, ⟨81, _⟩ => ⟨S5000x128, .f32⟩
  | .local _ .vmem, ⟨82, _⟩ => ⟨S128x128, .f32⟩
  | .local _ .vmem, ⟨83, _⟩ => ⟨S5000x128, .f32⟩
  | .local _ .vmem, ⟨84, _⟩ => ⟨S5000x128, .f32⟩
  | .local _ .vmem, ⟨85, _⟩ => ⟨S5000x128, .f32⟩
  | .local _ .vmem, ⟨86, _⟩ => ⟨S5000x128, .f32⟩
  | .local _ .vmem, ⟨87, _⟩ => ⟨S1x128, .f32⟩
  | .local _ .vmem, ⟨88, _⟩ => ⟨S5000x128, .f32⟩
  | .local _ .vmem, ⟨89, _⟩ => ⟨S5000x128, .f32⟩
  | .local _ .vmem, ⟨90, _⟩ => ⟨S1x128, .f32⟩
  | .local _ .vmem, ⟨91, _⟩ => ⟨S1x128, .f32⟩
  | .local _ .vmem, ⟨92, _⟩ => ⟨S5000x128, .f32⟩
  | .local _ .vmem, ⟨93, _⟩ => ⟨S5000x128, .f32⟩
  | .local _ .vmem, ⟨94, _⟩ => ⟨S1x128, .f32⟩
  | .local _ .vmem, ⟨95, _⟩ => ⟨S1x128, .f32⟩
  | .local _ .vmem, ⟨96, _⟩ => ⟨S1x128, .f32⟩
  | .local _ .vmem, ⟨97, _⟩ => ⟨S1x128, .f32⟩
  | .local _ .vmem, ⟨98, _⟩ => ⟨S5000x128, .f32⟩
  | .local _ .vmem, ⟨99, _⟩ => ⟨S5000x128, .f32⟩
  | .local _ .vmem, ⟨100, _⟩ => ⟨S5000x128, .f32⟩
  | .local _ .vmem, ⟨101, _⟩ => ⟨S5000x128, .f32⟩
  | .local _ .vmem, ⟨102, _⟩ => ⟨S5000x1, .i32⟩
  | .local _ .vmem, ⟨103, _⟩ => ⟨S5000x1, .i32⟩
  | .local _ .vmem, ⟨104, _⟩ => ⟨S256x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | _, _ => false

abbrev semScoped : Fin 0 → Bool
  | ⟨_, h⟩ => absurd h (Nat.not_lt_zero _)

abbrev dmaSemScoped : Fin 105 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | _ => false

abbrev sig : RefSig :=
  ofTc nBuf bufTy 0 105 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call1_c : Ref sig .tc := ⟨.hbm, 53, rfl⟩
abbrev main_call1_v0 : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_c_1 : Ref sig .tc := ⟨.hbm, 61, rfl⟩
abbrev main_call1_c_2 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_3 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_call1_cst : Ref sig .tc := ⟨.hbm, 73, rfl⟩
abbrev main_call1_v15 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_cst_6 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45_0 : Ref sig .tc := ⟨.hbm, 86, rfl⟩
abbrev main_v45_1 : Ref sig .tc := ⟨.hbm, 87, rfl⟩
abbrev main_v45_2 : Ref sig .tc := ⟨.hbm, 88, rfl⟩
abbrev main_cst_7 : Ref sig .tc := ⟨.hbm, 89, rfl⟩
abbrev main_v46 : Ref sig .tc := ⟨.hbm, 90, rfl⟩
abbrev main_v47 : Ref sig .tc := ⟨.hbm, 91, rfl⟩
abbrev main_cst_8 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_call2_c : Ref sig .tc := ⟨.hbm, 107, rfl⟩
abbrev main_call2_v0 : Ref sig .tc := ⟨.hbm, 108, rfl⟩
abbrev main_call2_v1 : Ref sig .tc := ⟨.hbm, 109, rfl⟩
abbrev main_call2_c_0 : Ref sig .tc := ⟨.hbm, 110, rfl⟩
abbrev main_call2_v2 : Ref sig .tc := ⟨.hbm, 111, rfl⟩
abbrev main_call2_v3 : Ref sig .tc := ⟨.hbm, 112, rfl⟩
abbrev main_call2_v4 : Ref sig .tc := ⟨.hbm, 113, rfl⟩
abbrev main_call2_v5 : Ref sig .tc := ⟨.hbm, 114, rfl⟩
abbrev main_call2_c_1 : Ref sig .tc := ⟨.hbm, 115, rfl⟩
abbrev main_call2_c_2 : Ref sig .tc := ⟨.hbm, 116, rfl⟩
abbrev main_call2_v6 : Ref sig .tc := ⟨.hbm, 117, rfl⟩
abbrev main_call2_v7 : Ref sig .tc := ⟨.hbm, 118, rfl⟩
abbrev main_call2_v8 : Ref sig .tc := ⟨.hbm, 119, rfl⟩
abbrev main_call2_v9 : Ref sig .tc := ⟨.hbm, 120, rfl⟩
abbrev main_call2_v10 : Ref sig .tc := ⟨.hbm, 121, rfl⟩
abbrev main_call2_v11 : Ref sig .tc := ⟨.hbm, 122, rfl⟩
abbrev main_call2_c_3 : Ref sig .tc := ⟨.hbm, 123, rfl⟩
abbrev main_call2_v12 : Ref sig .tc := ⟨.hbm, 124, rfl⟩
abbrev main_call2_v13 : Ref sig .tc := ⟨.hbm, 125, rfl⟩
abbrev main_call2_v14 : Ref sig .tc := ⟨.hbm, 126, rfl⟩
abbrev main_call2_cst : Ref sig .tc := ⟨.hbm, 127, rfl⟩
abbrev main_call2_v15 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_cst_9 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72_0 : Ref sig .tc := ⟨.hbm, 140, rfl⟩
abbrev main_v72_1 : Ref sig .tc := ⟨.hbm, 141, rfl⟩
abbrev main_v72_2 : Ref sig .tc := ⟨.hbm, 142, rfl⟩
abbrev main_cst_10 : Ref sig .tc := ⟨.hbm, 143, rfl⟩
abbrev main_v73 : Ref sig .tc := ⟨.hbm, 144, rfl⟩
abbrev main_v74 : Ref sig .tc := ⟨.hbm, 145, rfl⟩
abbrev main_cst_11 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_call3_c : Ref sig .tc := ⟨.hbm, 161, rfl⟩
abbrev main_call3_v0 : Ref sig .tc := ⟨.hbm, 162, rfl⟩
abbrev main_call3_v1 : Ref sig .tc := ⟨.hbm, 163, rfl⟩
abbrev main_call3_c_0 : Ref sig .tc := ⟨.hbm, 164, rfl⟩
abbrev main_call3_v2 : Ref sig .tc := ⟨.hbm, 165, rfl⟩
abbrev main_call3_v3 : Ref sig .tc := ⟨.hbm, 166, rfl⟩
abbrev main_call3_v4 : Ref sig .tc := ⟨.hbm, 167, rfl⟩
abbrev main_call3_v5 : Ref sig .tc := ⟨.hbm, 168, rfl⟩
abbrev main_call3_c_1 : Ref sig .tc := ⟨.hbm, 169, rfl⟩
abbrev main_call3_c_2 : Ref sig .tc := ⟨.hbm, 170, rfl⟩
abbrev main_call3_v6 : Ref sig .tc := ⟨.hbm, 171, rfl⟩
abbrev main_call3_v7 : Ref sig .tc := ⟨.hbm, 172, rfl⟩
abbrev main_call3_v8 : Ref sig .tc := ⟨.hbm, 173, rfl⟩
abbrev main_call3_v9 : Ref sig .tc := ⟨.hbm, 174, rfl⟩
abbrev main_call3_v10 : Ref sig .tc := ⟨.hbm, 175, rfl⟩
abbrev main_call3_v11 : Ref sig .tc := ⟨.hbm, 176, rfl⟩
abbrev main_call3_c_3 : Ref sig .tc := ⟨.hbm, 177, rfl⟩
abbrev main_call3_v12 : Ref sig .tc := ⟨.hbm, 178, rfl⟩
abbrev main_call3_v13 : Ref sig .tc := ⟨.hbm, 179, rfl⟩
abbrev main_call3_v14 : Ref sig .tc := ⟨.hbm, 180, rfl⟩
abbrev main_call3_cst : Ref sig .tc := ⟨.hbm, 181, rfl⟩
abbrev main_call3_v15 : Ref sig .tc := ⟨.hbm, 182, rfl⟩
abbrev main_v89 : Ref sig .tc := ⟨.hbm, 183, rfl⟩
abbrev main_v90 : Ref sig .tc := ⟨.hbm, 184, rfl⟩
abbrev main_v91 : Ref sig .tc := ⟨.hbm, 185, rfl⟩
abbrev main_v92 : Ref sig .tc := ⟨.hbm, 186, rfl⟩
abbrev main_cst_12 : Ref sig .tc := ⟨.hbm, 187, rfl⟩
abbrev main_v93 : Ref sig .tc := ⟨.hbm, 188, rfl⟩
abbrev main_v94 : Ref sig .tc := ⟨.hbm, 189, rfl⟩
abbrev main_v95 : Ref sig .tc := ⟨.hbm, 190, rfl⟩
abbrev main_v96 : Ref sig .tc := ⟨.hbm, 191, rfl⟩
abbrev main_v97 : Ref sig .tc := ⟨.hbm, 192, rfl⟩
abbrev main_v98 : Ref sig .tc := ⟨.hbm, 193, rfl⟩
abbrev main_v99_0 : Ref sig .tc := ⟨.hbm, 194, rfl⟩
abbrev main_v99_1 : Ref sig .tc := ⟨.hbm, 195, rfl⟩
abbrev main_v99_2 : Ref sig .tc := ⟨.hbm, 196, rfl⟩
abbrev main_cst_13 : Ref sig .tc := ⟨.hbm, 197, rfl⟩
abbrev main_v100 : Ref sig .tc := ⟨.hbm, 198, rfl⟩
abbrev main_v101 : Ref sig .tc := ⟨.hbm, 199, rfl⟩
abbrev main_cst_14 : Ref sig .tc := ⟨.hbm, 200, rfl⟩
abbrev main_v102 : Ref sig .tc := ⟨.hbm, 201, rfl⟩
abbrev main_v103 : Ref sig .tc := ⟨.hbm, 202, rfl⟩
abbrev main_v104 : Ref sig .tc := ⟨.hbm, 203, rfl⟩
abbrev main_v105 : Ref sig .tc := ⟨.hbm, 204, rfl⟩
abbrev main_v106 : Ref sig .tc := ⟨.hbm, 205, rfl⟩
abbrev main_v107 : Ref sig .tc := ⟨.hbm, 206, rfl⟩
abbrev main_v108 : Ref sig .tc := ⟨.hbm, 207, rfl⟩
abbrev main_v109 : Ref sig .tc := ⟨.hbm, 208, rfl⟩
abbrev main_v110 : Ref sig .tc := ⟨.hbm, 209, rfl⟩
abbrev main_v111 : Ref sig .tc := ⟨.hbm, 210, rfl⟩
abbrev main_v112 : Ref sig .tc := ⟨.hbm, 211, rfl⟩
abbrev main_v113 : Ref sig .tc := ⟨.hbm, 212, rfl⟩
abbrev main_v114 : Ref sig .tc := ⟨.hbm, 213, rfl⟩
abbrev main_v115 : Ref sig .tc := ⟨.hbm, 214, rfl⟩
abbrev main_call4_c : Ref sig .tc := ⟨.hbm, 215, rfl⟩
abbrev main_call4_v0 : Ref sig .tc := ⟨.hbm, 216, rfl⟩
abbrev main_call4_v1 : Ref sig .tc := ⟨.hbm, 217, rfl⟩
abbrev main_call4_c_0 : Ref sig .tc := ⟨.hbm, 218, rfl⟩
abbrev main_call4_v2 : Ref sig .tc := ⟨.hbm, 219, rfl⟩
abbrev main_call4_v3 : Ref sig .tc := ⟨.hbm, 220, rfl⟩
abbrev main_call4_v4 : Ref sig .tc := ⟨.hbm, 221, rfl⟩
abbrev main_call4_v5 : Ref sig .tc := ⟨.hbm, 222, rfl⟩
abbrev main_call4_c_1 : Ref sig .tc := ⟨.hbm, 223, rfl⟩
abbrev main_call4_c_2 : Ref sig .tc := ⟨.hbm, 224, rfl⟩
abbrev main_call4_v6 : Ref sig .tc := ⟨.hbm, 225, rfl⟩
abbrev main_call4_v7 : Ref sig .tc := ⟨.hbm, 226, rfl⟩
abbrev main_call4_v8 : Ref sig .tc := ⟨.hbm, 227, rfl⟩
abbrev main_call4_v9 : Ref sig .tc := ⟨.hbm, 228, rfl⟩
abbrev main_call4_v10 : Ref sig .tc := ⟨.hbm, 229, rfl⟩
abbrev main_call4_v11 : Ref sig .tc := ⟨.hbm, 230, rfl⟩
abbrev main_call4_c_3 : Ref sig .tc := ⟨.hbm, 231, rfl⟩
abbrev main_call4_v12 : Ref sig .tc := ⟨.hbm, 232, rfl⟩
abbrev main_call4_v13 : Ref sig .tc := ⟨.hbm, 233, rfl⟩
abbrev main_call4_v14 : Ref sig .tc := ⟨.hbm, 234, rfl⟩
abbrev main_call4_cst : Ref sig .tc := ⟨.hbm, 235, rfl⟩
abbrev main_call4_v15 : Ref sig .tc := ⟨.hbm, 236, rfl⟩
abbrev main_v116 : Ref sig .tc := ⟨.hbm, 237, rfl⟩
abbrev main_v117 : Ref sig .tc := ⟨.hbm, 238, rfl⟩
abbrev main_v118 : Ref sig .tc := ⟨.hbm, 239, rfl⟩
abbrev main_v119 : Ref sig .tc := ⟨.hbm, 240, rfl⟩
abbrev main_cst_15 : Ref sig .tc := ⟨.hbm, 241, rfl⟩
abbrev main_v120 : Ref sig .tc := ⟨.hbm, 242, rfl⟩
abbrev main_v121 : Ref sig .tc := ⟨.hbm, 243, rfl⟩
abbrev main_v122 : Ref sig .tc := ⟨.hbm, 244, rfl⟩
abbrev main_v123 : Ref sig .tc := ⟨.hbm, 245, rfl⟩
abbrev main_v124 : Ref sig .tc := ⟨.hbm, 246, rfl⟩
abbrev main_v125 : Ref sig .tc := ⟨.hbm, 247, rfl⟩
abbrev main_v126_0 : Ref sig .tc := ⟨.hbm, 248, rfl⟩
abbrev main_v126_1 : Ref sig .tc := ⟨.hbm, 249, rfl⟩
abbrev main_v126_2 : Ref sig .tc := ⟨.hbm, 250, rfl⟩
abbrev main_cst_16 : Ref sig .tc := ⟨.hbm, 251, rfl⟩
abbrev main_v127 : Ref sig .tc := ⟨.hbm, 252, rfl⟩
abbrev main_v128 : Ref sig .tc := ⟨.hbm, 253, rfl⟩
abbrev main_cst_17 : Ref sig .tc := ⟨.hbm, 254, rfl⟩
abbrev main_v129 : Ref sig .tc := ⟨.hbm, 255, rfl⟩
abbrev main_v130 : Ref sig .tc := ⟨.hbm, 256, rfl⟩
abbrev main_v131 : Ref sig .tc := ⟨.hbm, 257, rfl⟩
abbrev main_v132 : Ref sig .tc := ⟨.hbm, 258, rfl⟩
abbrev main_v133 : Ref sig .tc := ⟨.hbm, 259, rfl⟩
abbrev main_v134 : Ref sig .tc := ⟨.hbm, 260, rfl⟩
abbrev main_v135 : Ref sig .tc := ⟨.hbm, 261, rfl⟩
abbrev main_v136 : Ref sig .tc := ⟨.hbm, 262, rfl⟩
abbrev main_v137 : Ref sig .tc := ⟨.hbm, 263, rfl⟩
abbrev main_v138 : Ref sig .tc := ⟨.hbm, 264, rfl⟩
abbrev main_v139 : Ref sig .tc := ⟨.hbm, 265, rfl⟩
abbrev main_v140 : Ref sig .tc := ⟨.hbm, 266, rfl⟩
abbrev main_v141 : Ref sig .tc := ⟨.hbm, 267, rfl⟩
abbrev main_v142 : Ref sig .tc := ⟨.hbm, 268, rfl⟩
abbrev main_call5_c : Ref sig .tc := ⟨.hbm, 269, rfl⟩
abbrev main_call5_v0 : Ref sig .tc := ⟨.hbm, 270, rfl⟩
abbrev main_call5_v1 : Ref sig .tc := ⟨.hbm, 271, rfl⟩
abbrev main_call5_c_0 : Ref sig .tc := ⟨.hbm, 272, rfl⟩
abbrev main_call5_v2 : Ref sig .tc := ⟨.hbm, 273, rfl⟩
abbrev main_call5_v3 : Ref sig .tc := ⟨.hbm, 274, rfl⟩
abbrev main_call5_v4 : Ref sig .tc := ⟨.hbm, 275, rfl⟩
abbrev main_call5_v5 : Ref sig .tc := ⟨.hbm, 276, rfl⟩
abbrev main_call5_c_1 : Ref sig .tc := ⟨.hbm, 277, rfl⟩
abbrev main_call5_c_2 : Ref sig .tc := ⟨.hbm, 278, rfl⟩
abbrev main_call5_v6 : Ref sig .tc := ⟨.hbm, 279, rfl⟩
abbrev main_call5_v7 : Ref sig .tc := ⟨.hbm, 280, rfl⟩
abbrev main_call5_v8 : Ref sig .tc := ⟨.hbm, 281, rfl⟩
abbrev main_call5_v9 : Ref sig .tc := ⟨.hbm, 282, rfl⟩
abbrev main_call5_v10 : Ref sig .tc := ⟨.hbm, 283, rfl⟩
abbrev main_call5_v11 : Ref sig .tc := ⟨.hbm, 284, rfl⟩
abbrev main_call5_c_3 : Ref sig .tc := ⟨.hbm, 285, rfl⟩
abbrev main_call5_v12 : Ref sig .tc := ⟨.hbm, 286, rfl⟩
abbrev main_call5_v13 : Ref sig .tc := ⟨.hbm, 287, rfl⟩
abbrev main_call5_v14 : Ref sig .tc := ⟨.hbm, 288, rfl⟩
abbrev main_call5_cst : Ref sig .tc := ⟨.hbm, 289, rfl⟩
abbrev main_call5_v15 : Ref sig .tc := ⟨.hbm, 290, rfl⟩
abbrev main_v143 : Ref sig .tc := ⟨.hbm, 291, rfl⟩
abbrev main_v144 : Ref sig .tc := ⟨.hbm, 292, rfl⟩
abbrev main_v145 : Ref sig .tc := ⟨.hbm, 293, rfl⟩
abbrev main_v146 : Ref sig .tc := ⟨.hbm, 294, rfl⟩
abbrev main_cst_18 : Ref sig .tc := ⟨.hbm, 295, rfl⟩
abbrev main_v147 : Ref sig .tc := ⟨.hbm, 296, rfl⟩
abbrev main_v148 : Ref sig .tc := ⟨.hbm, 297, rfl⟩
abbrev main_v149 : Ref sig .tc := ⟨.hbm, 298, rfl⟩
abbrev main_v150 : Ref sig .tc := ⟨.hbm, 299, rfl⟩
abbrev main_v151 : Ref sig .tc := ⟨.hbm, 300, rfl⟩
abbrev main_v152 : Ref sig .tc := ⟨.hbm, 301, rfl⟩
abbrev main_v153_0 : Ref sig .tc := ⟨.hbm, 302, rfl⟩
abbrev main_v153_1 : Ref sig .tc := ⟨.hbm, 303, rfl⟩
abbrev main_v153_2 : Ref sig .tc := ⟨.hbm, 304, rfl⟩
abbrev main_cst_19 : Ref sig .tc := ⟨.hbm, 305, rfl⟩
abbrev main_v154 : Ref sig .tc := ⟨.hbm, 306, rfl⟩
abbrev main_v155 : Ref sig .tc := ⟨.hbm, 307, rfl⟩
abbrev main_cst_20 : Ref sig .tc := ⟨.hbm, 308, rfl⟩
abbrev main_v156 : Ref sig .tc := ⟨.hbm, 309, rfl⟩
abbrev main_v157 : Ref sig .tc := ⟨.hbm, 310, rfl⟩
abbrev main_v158 : Ref sig .tc := ⟨.hbm, 311, rfl⟩
abbrev main_v159 : Ref sig .tc := ⟨.hbm, 312, rfl⟩
abbrev main_v160 : Ref sig .tc := ⟨.hbm, 313, rfl⟩
abbrev main_v161 : Ref sig .tc := ⟨.hbm, 314, rfl⟩
abbrev main_v162 : Ref sig .tc := ⟨.hbm, 315, rfl⟩
abbrev main_v163 : Ref sig .tc := ⟨.hbm, 316, rfl⟩
abbrev main_v164 : Ref sig .tc := ⟨.hbm, 317, rfl⟩
abbrev main_v165 : Ref sig .tc := ⟨.hbm, 318, rfl⟩
abbrev main_v166 : Ref sig .tc := ⟨.hbm, 319, rfl⟩
abbrev main_v167 : Ref sig .tc := ⟨.hbm, 320, rfl⟩
abbrev main_v168 : Ref sig .tc := ⟨.hbm, 321, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg4_0 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg4_0 : Ref sig .tc := ⟨.vmem, 37, rfl⟩
abbrev cc5_stg5_0 : Ref sig .tc := ⟨.vmem, 38, rfl⟩
abbrev cc5_stg5_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg2_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg2_0 : Ref sig .tc := ⟨.vmem, 48, rfl⟩
abbrev cc7_stg2_1 : Ref sig .tc := ⟨.vmem, 49, rfl⟩
abbrev cc7_stg3_0 : Ref sig .tc := ⟨.vmem, 50, rfl⟩
abbrev cc7_stg4_0 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg2_0 : Ref sig .tc := ⟨.vmem, 55, rfl⟩
abbrev cc8_stg3_0 : Ref sig .tc := ⟨.vmem, 56, rfl⟩
abbrev cc8_stg4_0 : Ref sig .tc := ⟨.vmem, 57, rfl⟩
abbrev cc8_stg5_0 : Ref sig .tc := ⟨.vmem, 58, rfl⟩
abbrev cc8_stg5_1 : Ref sig .tc := ⟨.vmem, 59, rfl⟩
abbrev cc9_stg0_0 : Ref sig .tc := ⟨.vmem, 60, rfl⟩
abbrev cc9_stg0_1 : Ref sig .tc := ⟨.vmem, 61, rfl⟩
abbrev cc9_stg1_0 : Ref sig .tc := ⟨.vmem, 62, rfl⟩
abbrev cc9_stg2_0 : Ref sig .tc := ⟨.vmem, 63, rfl⟩
abbrev cc9_stg2_1 : Ref sig .tc := ⟨.vmem, 64, rfl⟩
abbrev cc10_stg0_0 : Ref sig .tc := ⟨.vmem, 65, rfl⟩
abbrev cc10_stg0_1 : Ref sig .tc := ⟨.vmem, 66, rfl⟩
abbrev cc10_stg1_0 : Ref sig .tc := ⟨.vmem, 67, rfl⟩
abbrev cc10_stg2_0 : Ref sig .tc := ⟨.vmem, 68, rfl⟩
abbrev cc10_stg2_1 : Ref sig .tc := ⟨.vmem, 69, rfl⟩
abbrev cc10_stg3_0 : Ref sig .tc := ⟨.vmem, 70, rfl⟩
abbrev cc10_stg4_0 : Ref sig .tc := ⟨.vmem, 71, rfl⟩
abbrev cc11_stg0_0 : Ref sig .tc := ⟨.vmem, 72, rfl⟩
abbrev cc11_stg0_1 : Ref sig .tc := ⟨.vmem, 73, rfl⟩
abbrev cc11_stg1_0 : Ref sig .tc := ⟨.vmem, 74, rfl⟩
abbrev cc11_stg2_0 : Ref sig .tc := ⟨.vmem, 75, rfl⟩
abbrev cc11_stg3_0 : Ref sig .tc := ⟨.vmem, 76, rfl⟩
abbrev cc11_stg4_0 : Ref sig .tc := ⟨.vmem, 77, rfl⟩
abbrev cc11_stg5_0 : Ref sig .tc := ⟨.vmem, 78, rfl⟩
abbrev cc11_stg5_1 : Ref sig .tc := ⟨.vmem, 79, rfl⟩
abbrev cc12_stg0_0 : Ref sig .tc := ⟨.vmem, 80, rfl⟩
abbrev cc12_stg0_1 : Ref sig .tc := ⟨.vmem, 81, rfl⟩
abbrev cc12_stg1_0 : Ref sig .tc := ⟨.vmem, 82, rfl⟩
abbrev cc12_stg2_0 : Ref sig .tc := ⟨.vmem, 83, rfl⟩
abbrev cc12_stg2_1 : Ref sig .tc := ⟨.vmem, 84, rfl⟩
abbrev cc13_stg0_0 : Ref sig .tc := ⟨.vmem, 85, rfl⟩
abbrev cc13_stg0_1 : Ref sig .tc := ⟨.vmem, 86, rfl⟩
abbrev cc13_stg1_0 : Ref sig .tc := ⟨.vmem, 87, rfl⟩
abbrev cc13_stg2_0 : Ref sig .tc := ⟨.vmem, 88, rfl⟩
abbrev cc13_stg2_1 : Ref sig .tc := ⟨.vmem, 89, rfl⟩
abbrev cc13_stg3_0 : Ref sig .tc := ⟨.vmem, 90, rfl⟩
abbrev cc13_stg4_0 : Ref sig .tc := ⟨.vmem, 91, rfl⟩
abbrev cc14_stg0_0 : Ref sig .tc := ⟨.vmem, 92, rfl⟩
abbrev cc14_stg0_1 : Ref sig .tc := ⟨.vmem, 93, rfl⟩
abbrev cc14_stg1_0 : Ref sig .tc := ⟨.vmem, 94, rfl⟩
abbrev cc14_stg2_0 : Ref sig .tc := ⟨.vmem, 95, rfl⟩
abbrev cc14_stg3_0 : Ref sig .tc := ⟨.vmem, 96, rfl⟩
abbrev cc14_stg4_0 : Ref sig .tc := ⟨.vmem, 97, rfl⟩
abbrev cc14_stg5_0 : Ref sig .tc := ⟨.vmem, 98, rfl⟩
abbrev cc14_stg5_1 : Ref sig .tc := ⟨.vmem, 99, rfl⟩
abbrev cc15_stg0_0 : Ref sig .tc := ⟨.vmem, 100, rfl⟩
abbrev cc15_stg0_1 : Ref sig .tc := ⟨.vmem, 101, rfl⟩
abbrev cc15_stg1_0 : Ref sig .tc := ⟨.vmem, 102, rfl⟩
abbrev cc15_stg1_1 : Ref sig .tc := ⟨.vmem, 103, rfl⟩
abbrev cc15_stg2_0 : Ref sig .tc := ⟨.vmem, 104, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29
abbrev cc4_sem3_0 : DmaSem sig := 30
abbrev cc4_sem4_0 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem4_0 : DmaSem sig := 37
abbrev cc5_sem5_0 : DmaSem sig := 38
abbrev cc5_sem5_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem2_1 : DmaSem sig := 44
abbrev cc7_sem0_0 : DmaSem sig := 45
abbrev cc7_sem0_1 : DmaSem sig := 46
abbrev cc7_sem1_0 : DmaSem sig := 47
abbrev cc7_sem2_0 : DmaSem sig := 48
abbrev cc7_sem2_1 : DmaSem sig := 49
abbrev cc7_sem3_0 : DmaSem sig := 50
abbrev cc7_sem4_0 : DmaSem sig := 51
abbrev cc8_sem0_0 : DmaSem sig := 52
abbrev cc8_sem0_1 : DmaSem sig := 53
abbrev cc8_sem1_0 : DmaSem sig := 54
abbrev cc8_sem2_0 : DmaSem sig := 55
abbrev cc8_sem3_0 : DmaSem sig := 56
abbrev cc8_sem4_0 : DmaSem sig := 57
abbrev cc8_sem5_0 : DmaSem sig := 58
abbrev cc8_sem5_1 : DmaSem sig := 59
abbrev cc9_sem0_0 : DmaSem sig := 60
abbrev cc9_sem0_1 : DmaSem sig := 61
abbrev cc9_sem1_0 : DmaSem sig := 62
abbrev cc9_sem2_0 : DmaSem sig := 63
abbrev cc9_sem2_1 : DmaSem sig := 64
abbrev cc10_sem0_0 : DmaSem sig := 65
abbrev cc10_sem0_1 : DmaSem sig := 66
abbrev cc10_sem1_0 : DmaSem sig := 67
abbrev cc10_sem2_0 : DmaSem sig := 68
abbrev cc10_sem2_1 : DmaSem sig := 69
abbrev cc10_sem3_0 : DmaSem sig := 70
abbrev cc10_sem4_0 : DmaSem sig := 71
abbrev cc11_sem0_0 : DmaSem sig := 72
abbrev cc11_sem0_1 : DmaSem sig := 73
abbrev cc11_sem1_0 : DmaSem sig := 74
abbrev cc11_sem2_0 : DmaSem sig := 75
abbrev cc11_sem3_0 : DmaSem sig := 76
abbrev cc11_sem4_0 : DmaSem sig := 77
abbrev cc11_sem5_0 : DmaSem sig := 78
abbrev cc11_sem5_1 : DmaSem sig := 79
abbrev cc12_sem0_0 : DmaSem sig := 80
abbrev cc12_sem0_1 : DmaSem sig := 81
abbrev cc12_sem1_0 : DmaSem sig := 82
abbrev cc12_sem2_0 : DmaSem sig := 83
abbrev cc12_sem2_1 : DmaSem sig := 84
abbrev cc13_sem0_0 : DmaSem sig := 85
abbrev cc13_sem0_1 : DmaSem sig := 86
abbrev cc13_sem1_0 : DmaSem sig := 87
abbrev cc13_sem2_0 : DmaSem sig := 88
abbrev cc13_sem2_1 : DmaSem sig := 89
abbrev cc13_sem3_0 : DmaSem sig := 90
abbrev cc13_sem4_0 : DmaSem sig := 91
abbrev cc14_sem0_0 : DmaSem sig := 92
abbrev cc14_sem0_1 : DmaSem sig := 93
abbrev cc14_sem1_0 : DmaSem sig := 94
abbrev cc14_sem2_0 : DmaSem sig := 95
abbrev cc14_sem3_0 : DmaSem sig := 96
abbrev cc14_sem4_0 : DmaSem sig := 97
abbrev cc14_sem5_0 : DmaSem sig := 98
abbrev cc14_sem5_1 : DmaSem sig := 99
abbrev cc15_sem0_0 : DmaSem sig := 100
abbrev cc15_sem0_1 : DmaSem sig := 101
abbrev cc15_sem1_0 : DmaSem sig := 102
abbrev cc15_sem1_1 : DmaSem sig := 103
abbrev cc15_sem2_0 : DmaSem sig := 104

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S5000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S5000x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S5000x128 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S5000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S5000x128 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev stage13_3 : Fin 1 → Memref sig .tc .vmem S1x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x128 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x128 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x128 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S5000x128 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev grid15 : Pipeline.Grid := ⟨1, ![10], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage15_0 : Fin 2 → Memref sig .tc .vmem S5000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S5000x1 .i32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 1 → Memref sig .tc .vmem S256x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  slices_S5x128x128_S1x128x128_0_0_0 : S5x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S850000x1 : S_.BroadcastsInDim S850000x1 (![] : Fin 0 → Fin S850000x1.rank)
  bcast_S1_S1x1_1 : S1.BroadcastsInDim S1x1 (![1] : Fin 1 → Fin S1x1.rank)
  bcast_S1x1_S850000x1_0_1 : S1x1.BroadcastsInDim S850000x1 (![0, 1] : Fin 2 → Fin S850000x1.rank)
  reducesTo_S850000x1_S850000_d1 : S850000x1.ReducesTo [1] S850000
  h_S_ : 0 < S_.numel
  bcast_S850000_S850000x128_0 : S850000.BroadcastsInDim S850000x128 (![0] : Fin 1 → Fin S850000x128.rank)
  bcast_S_S850000x128 : S_.BroadcastsInDim S850000x128 (![] : Fin 0 → Fin S850000x128.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S5x128_S1x128_0_0 : S5x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  shapeCasts_S50000_S50000x1 : S50000.ShapeCasts S50000x1
  inb_S256x128_S256x128_0_0 : ∀ a, (![0, 0] : Fin 2 → Nat) a + S256x128.size a ≤ S256x128.size a
  h_S256x128 : 0 < S256x128.numel
  iota_S5000x256_d1_w32 : S5000x256.Iotas .tc 32 [1]
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  natLt_1_32 : 1 < 32
  shapeCasts_S256x128_S256x128 : S256x128.ShapeCasts S256x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x256_S5000x128_S256x128_0_0_1_1_n_n_wf : DotDims.WF S5000x256 S5000x128 S256x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S50000x128.size a
  hwx7_2 : ∀ i : grid7.Coords, EltTy.bits .f32 = 32 ∨ (Rect.block (s := S50000x128) S5000x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S50000x128.size a
  hwx8_5 : ∀ i : grid8.Coords, EltTy.bits .f32 = 32 ∨ (Rect.block (s := S50000x128) S5000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x128.size a ≤ S50000x128.size a
  hwx9_2 : ∀ i : grid9.Coords, EltTy.bits .f32 = 32 ∨ (Rect.block (s := S50000x128) S5000x128.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x128.size a ≤ S50000x128.size a
  hwx10_2 : ∀ i : grid10.Coords, EltTy.bits .f32 = 32 ∨ (Rect.block (s := S50000x128) S5000x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S50000x128.size a
  hwx11_0 : ∀ i : grid11.Coords, EltTy.bits .f32 = 32 ∨ (Rect.block (s := S50000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S5000x128.size a ≤ S50000x128.size a
  hwx11_5 : ∀ i : grid11.Coords, EltTy.bits .f32 = 32 ∨ (Rect.block (s := S50000x128) S5000x128.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S50000x128.size a
  hwx12_0 : ∀ i : grid12.Coords, EltTy.bits .f32 = 32 ∨ (Rect.block (s := S50000x128) S5000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x128.size a ≤ S128x128.size a
  hwx12_1 : ∀ i : grid12.Coords, EltTy.bits .f32 = 32 ∨ (Rect.block (s := S128x128) S128x128.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S5000x128.size a ≤ S50000x128.size a
  hwx12_2 : ∀ i : grid12.Coords, EltTy.bits .f32 = 32 ∨ (Rect.block (s := S50000x128) S5000x128.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x128.size a ≤ S50000x128.size a
  hwx13_0 : ∀ i : grid13.Coords, EltTy.bits .f32 = 32 ∨ (Rect.block (s := S50000x128) S5000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x128.size a ≤ S1x128.size a
  hwx13_1 : ∀ i : grid13.Coords, EltTy.bits .f32 = 32 ∨ (Rect.block (s := S1x128) S1x128.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S5000x128.size a ≤ S50000x128.size a
  hwx13_2 : ∀ i : grid13.Coords, EltTy.bits .f32 = 32 ∨ (Rect.block (s := S50000x128) S5000x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x128.size a ≤ S1x128.size a
  hwx13_3 : ∀ i : grid13.Coords, EltTy.bits .f32 = 32 ∨ (Rect.block (s := S1x128) S1x128.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x128.size a ≤ S1x128.size a
  hwx13_4 : ∀ i : grid13.Coords, EltTy.bits .f32 = 32 ∨ (Rect.block (s := S1x128) S1x128.size (cc13_transform_4 i) (hinb13_4 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x128.size a ≤ S50000x128.size a
  hwx14_0 : ∀ i : grid14.Coords, EltTy.bits .f32 = 32 ∨ (Rect.block (s := S50000x128) S5000x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x128.size a ≤ S1x128.size a
  hwx14_1 : ∀ i : grid14.Coords, EltTy.bits .f32 = 32 ∨ (Rect.block (s := S1x128) S1x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x128.size a ≤ S1x128.size a
  hwx14_2 : ∀ i : grid14.Coords, EltTy.bits .f32 = 32 ∨ (Rect.block (s := S1x128) S1x128.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x128.size a ≤ S1x128.size a
  hwx14_3 : ∀ i : grid14.Coords, EltTy.bits .f32 = 32 ∨ (Rect.block (s := S1x128) S1x128.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x128.size a ≤ S1x128.size a
  hwx14_4 : ∀ i : grid14.Coords, EltTy.bits .f32 = 32 ∨ (Rect.block (s := S1x128) S1x128.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S5000x128.size a ≤ S50000x128.size a
  hwx14_5 : ∀ i : grid14.Coords, EltTy.bits .f32 = 32 ∨ (Rect.block (s := S50000x128) S5000x128.size (cc14_transform_5 i) (hinb14_5 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S5000x128.size a ≤ S50000x128.size a
  hwx15_0 : ∀ i : grid15.Coords, EltTy.bits .f32 = 32 ∨ (Rect.block (s := S50000x128) S5000x128.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S5000x1.size a ≤ S50000x1.size a
  hwx15_1 : ∀ i : grid15.Coords, EltTy.bits .i32 = 32 ∨ (Rect.block (s := S50000x1) S5000x1.size (cc15_transform_1 i) (hinb15_1 i)).WholeWords (EltTy.packing .i32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S256x128.size a ≤ S256x128.size a
  hwx15_2 : ∀ i : grid15.Coords, EltTy.bits .f32 = 32 ∨ (Rect.block (s := S256x128) S256x128.size (cc15_transform_2 i) (hinb15_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x256_S5000x128_S256x128_0_0_1_1_n_n : DotDims S5000x256 S5000x128 S256x128 where
  lhsContracting := [0]
  rhsContracting := [0]
  lhsNonContracting := [1]
  rhsNonContracting := [1]
  lhsBatch := []
  rhsBatch := []
  wf := dot_S5000x256_S5000x128_S256x128_0_0_1_1_n_n_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45_0) S5000x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45_1) S1x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45_2) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v45_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v68) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v71) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72_0) S5000x128.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v72_1) S1x128.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v72_2) S1x128.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v72_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v78) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v83) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v84) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v85) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v85) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v87) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v88) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v95) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v98) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v99_0) S5000x128.size cc7_transform_2 reads7_2 true false 2 stage7_2 sem7_2
    hrank7 hreads7_2 hinb7_2 nbuf7_2 (Memref.isWhole_whole _) hwx7_2 hstage7_2

abbrev win7_3 : Pipeline.Window sig grid7 :=
  Pipeline.Window.ofSpec (Memref.whole main_v99_1) S1x128.size cc7_transform_3 reads7_3 true true 1 stage7_3 sem7_3
    hrank7 hreads7_3 hinb7_3 nbuf7_3 (Memref.isWhole_whole _) hwx7_3 hstage7_3

abbrev win7_4 : Pipeline.Window sig grid7 :=
  Pipeline.Window.ofSpec (Memref.whole main_v99_2) S1x128.size cc7_transform_4 reads7_4 true true 1 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v99_0) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v101) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v105) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v110) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v111) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v112) S5000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v112) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v114) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v115) S5000x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v122) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v125) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v126_0) S5000x128.size cc10_transform_2 reads10_2 true false 2 stage10_2 sem10_2
    hrank10 hreads10_2 hinb10_2 nbuf10_2 (Memref.isWhole_whole _) hwx10_2 hstage10_2

abbrev win10_3 : Pipeline.Window sig grid10 :=
  Pipeline.Window.ofSpec (Memref.whole main_v126_1) S1x128.size cc10_transform_3 reads10_3 true true 1 stage10_3 sem10_3
    hrank10 hreads10_3 hinb10_3 nbuf10_3 (Memref.isWhole_whole _) hwx10_3 hstage10_3

abbrev win10_4 : Pipeline.Window sig grid10 :=
  Pipeline.Window.ofSpec (Memref.whole main_v126_2) S1x128.size cc10_transform_4 reads10_4 true true 1 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev win11_0 : Pipeline.Window sig grid11 :=
  Pipeline.Window.ofSpec (Memref.whole main_v126_0) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v128) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v132) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v137) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v138) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v139) S5000x128.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v139) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v141) S128x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v142) S5000x128.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v149) S5000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v152) S1x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v153_0) S5000x128.size cc13_transform_2 reads13_2 true false 2 stage13_2 sem13_2
    hrank13 hreads13_2 hinb13_2 nbuf13_2 (Memref.isWhole_whole _) hwx13_2 hstage13_2

abbrev win13_3 : Pipeline.Window sig grid13 :=
  Pipeline.Window.ofSpec (Memref.whole main_v153_1) S1x128.size cc13_transform_3 reads13_3 true true 1 stage13_3 sem13_3
    hrank13 hreads13_3 hinb13_3 nbuf13_3 (Memref.isWhole_whole _) hwx13_3 hstage13_3

abbrev win13_4 : Pipeline.Window sig grid13 :=
  Pipeline.Window.ofSpec (Memref.whole main_v153_2) S1x128.size cc13_transform_4 reads13_4 true true 1 stage13_4 sem13_4
    hrank13 hreads13_4 hinb13_4 nbuf13_4 (Memref.isWhole_whole _) hwx13_4 hstage13_4

abbrev win13 : Fin 5 → Pipeline.Window sig grid13 := fun | 0 => win13_0 | 1 => win13_1 | 2 => win13_2 | 3 => win13_3 | 4 => win13_4 | ⟨_ + 5, h⟩ => absurd h (Nat.not_lt.2 (Nat.le_add_left _ _))
abbrev spec13 : Fin 5 → Pipeline.WinSpec sig grid13.rank := fun w => (win13 w).toWinSpec

abbrev win14_0 : Pipeline.Window sig grid14 :=
  Pipeline.Window.ofSpec (Memref.whole main_v153_0) S5000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v155) S1x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v159) S1x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v164) S1x128.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v165) S1x128.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v166) S5000x128.size cc14_transform_5 reads14_5 true false 2 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

abbrev win15_0 : Pipeline.Window sig grid15 :=
  Pipeline.Window.ofSpec (Memref.whole main_v166) S5000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v167) S5000x1.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v168) S256x128.size cc15_transform_2 reads15_2 true true 1 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

class Facts : Prop extends Facts₀ where

variable [Facts]
-- ==== ReferenceIdeal.lean ====
abbrev S50000 : Shape := ⟨1, ![50000]⟩
abbrev S50000x128 : Shape := ⟨2, ![50000, 128]⟩
abbrev S2x800000 : Shape := ⟨2, ![2, 800000]⟩
abbrev S800000 : Shape := ⟨1, ![800000]⟩
abbrev S5x128x128 : Shape := ⟨3, ![5, 128, 128]⟩
abbrev S5x128 : Shape := ⟨2, ![5, 128]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S1x128x128 : Shape := ⟨3, ![1, 128, 128]⟩
abbrev S128x128 : Shape := ⟨2, ![128, 128]⟩
abbrev S850000x128 : Shape := ⟨2, ![850000, 128]⟩
abbrev S1x128 : Shape := ⟨2, ![1, 128]⟩
abbrev S128 : Shape := ⟨1, ![128]⟩
abbrev S256x128 : Shape := ⟨2, ![256, 128]⟩
abbrev S50000x1 : Shape := ⟨2, ![50000, 1]⟩

abbrev nBuf : Space → Nat
  | .hbm => 356
  | .vmem => 0
  | .smem => 0
  | _ => 0

abbrev hbmTy0_0 (i : Nat) : BufTy := match i % 128 with
  | 0 => ⟨S50000, .i32⟩
  | 1 => ⟨S50000x128, .f32⟩
  | 2 => ⟨S2x800000, .i32⟩
  | 3 => ⟨S800000, .f32⟩
  | 4 => ⟨S5x128x128, .f32⟩
  | 5 => ⟨S5x128, .f32⟩
  | 6 => ⟨S5x128, .f32⟩
  | 7 => ⟨S5x128, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S50000, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S1x128x128, .f32⟩
  | 51 => ⟨S128x128, .f32⟩
  | 52 => ⟨S50000x128, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x128, .f32⟩
  | 62 => ⟨S850000x1, .f32⟩
  | 63 => ⟨S850000x128, .f32⟩
  | 64 => ⟨S850000x128, .f32⟩
  | 65 => ⟨S_, .f32⟩
  | 66 => ⟨S50000x128, .f32⟩
  | 67 => ⟨S850000x1, .i32⟩
  | 68 => ⟨S50000x128, .f32⟩
  | 69 => ⟨S1x128, .f32⟩
  | 70 => ⟨S128, .f32⟩
  | 71 => ⟨S1x128, .f32⟩
  | 72 => ⟨S50000x128, .f32⟩
  | 73 => ⟨S50000x128, .f32⟩
  | 74 => ⟨S1x128, .f32⟩
  | 75 => ⟨S128, .f32⟩
  | 76 => ⟨S1x128, .f32⟩
  | 77 => ⟨S128, .f32⟩
  | 78 => ⟨S_, .f32⟩
  | 79 => ⟨S128, .f32⟩
  | 80 => ⟨S_, .f32⟩
  | 81 => ⟨S128, .f32⟩
  | 82 => ⟨S128, .f32⟩
  | 83 => ⟨S1x128, .f32⟩
  | 84 => ⟨S50000x128, .f32⟩
  | 85 => ⟨S50000x128, .f32⟩
  | 86 => ⟨S50000x128, .f32⟩
  | 87 => ⟨S_, .f32⟩
  | 88 => ⟨S128, .f32⟩
  | 89 => ⟨S_, .f32⟩
  | 90 => ⟨S128, .f32⟩
  | 91 => ⟨S128, .f32⟩
  | 92 => ⟨S1x128, .f32⟩
  | 93 => ⟨S50000x128, .f32⟩
  | 94 => ⟨S50000x128, .f32⟩
  | 95 => ⟨S_, .f32⟩
  | 96 => ⟨S128, .f32⟩
  | 97 => ⟨S128, .f32⟩
  | 98 => ⟨S128, .f32⟩
  | 99 => ⟨S1x128, .f32⟩
  | 100 => ⟨S50000x128, .f32⟩
  | 101 => ⟨S50000x128, .f32⟩
  | 102 => ⟨S1x128, .f32⟩
  | 103 => ⟨S50000x128, .f32⟩
  | 104 => ⟨S50000x128, .f32⟩
  | 105 => ⟨S1x128, .f32⟩
  | 106 => ⟨S50000x128, .f32⟩
  | 107 => ⟨S50000x128, .f32⟩
  | 108 => ⟨S_, .f32⟩
  | 109 => ⟨S50000x128, .f32⟩
  | 110 => ⟨S50000x128, .f32⟩
  | 111 => ⟨S1x128x128, .f32⟩
  | 112 => ⟨S128x128, .f32⟩
  | 113 => ⟨S50000x128, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000x128, .f32⟩
  | 123 => ⟨S850000x1, .f32⟩
  | 124 => ⟨S850000x128, .f32⟩
  | 125 => ⟨S850000x128, .f32⟩
  | 126 => ⟨S_, .f32⟩
  | 127 => ⟨S50000x128, .f32⟩
  | _ => ⟨S50000, .i32⟩

abbrev hbmTy0_1 (i : Nat) : BufTy := match i % 128 with
  | 0 => ⟨S850000x1, .i32⟩
  | 1 => ⟨S50000x128, .f32⟩
  | 2 => ⟨S1x128, .f32⟩
  | 3 => ⟨S128, .f32⟩
  | 4 => ⟨S1x128, .f32⟩
  | 5 => ⟨S50000x128, .f32⟩
  | 6 => ⟨S50000x128, .f32⟩
  | 7 => ⟨S1x128, .f32⟩
  | 8 => ⟨S128, .f32⟩
  | 9 => ⟨S1x128, .f32⟩
  | 10 => ⟨S128, .f32⟩
  | 11 => ⟨S_, .f32⟩
  | 12 => ⟨S128, .f32⟩
  | 13 => ⟨S_, .f32⟩
  | 14 => ⟨S128, .f32⟩
  | 15 => ⟨S128, .f32⟩
  | 16 => ⟨S1x128, .f32⟩
  | 17 => ⟨S50000x128, .f32⟩
  | 18 => ⟨S50000x128, .f32⟩
  | 19 => ⟨S50000x128, .f32⟩
  | 20 => ⟨S_, .f32⟩
  | 21 => ⟨S128, .f32⟩
  | 22 => ⟨S_, .f32⟩
  | 23 => ⟨S128, .f32⟩
  | 24 => ⟨S128, .f32⟩
  | 25 => ⟨S1x128, .f32⟩
  | 26 => ⟨S50000x128, .f32⟩
  | 27 => ⟨S50000x128, .f32⟩
  | 28 => ⟨S_, .f32⟩
  | 29 => ⟨S128, .f32⟩
  | 30 => ⟨S128, .f32⟩
  | 31 => ⟨S128, .f32⟩
  | 32 => ⟨S1x128, .f32⟩
  | 33 => ⟨S50000x128, .f32⟩
  | 34 => ⟨S50000x128, .f32⟩
  | 35 => ⟨S1x128, .f32⟩
  | 36 => ⟨S50000x128, .f32⟩
  | 37 => ⟨S50000x128, .f32⟩
  | 38 => ⟨S1x128, .f32⟩
  | 39 => ⟨S50000x128, .f32⟩
  | 40 => ⟨S50000x128, .f32⟩
  | 41 => ⟨S_, .f32⟩
  | 42 => ⟨S50000x128, .f32⟩
  | 43 => ⟨S50000x128, .f32⟩
  | 44 => ⟨S1x128x128, .f32⟩
  | 45 => ⟨S128x128, .f32⟩
  | 46 => ⟨S50000x128, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x128, .f32⟩
  | 56 => ⟨S850000x1, .f32⟩
  | 57 => ⟨S850000x128, .f32⟩
  | 58 => ⟨S850000x128, .f32⟩
  | 59 => ⟨S_, .f32⟩
  | 60 => ⟨S50000x128, .f32⟩
  | 61 => ⟨S850000x1, .i32⟩
  | 62 => ⟨S50000x128, .f32⟩
  | 63 => ⟨S1x128, .f32⟩
  | 64 => ⟨S128, .f32⟩
  | 65 => ⟨S1x128, .f32⟩
  | 66 => ⟨S50000x128, .f32⟩
  | 67 => ⟨S50000x128, .f32⟩
  | 68 => ⟨S1x128, .f32⟩
  | 69 => ⟨S128, .f32⟩
  | 70 => ⟨S1x128, .f32⟩
  | 71 => ⟨S128, .f32⟩
  | 72 => ⟨S_, .f32⟩
  | 73 => ⟨S128, .f32⟩
  | 74 => ⟨S_, .f32⟩
  | 75 => ⟨S128, .f32⟩
  | 76 => ⟨S128, .f32⟩
  | 77 => ⟨S1x128, .f32⟩
  | 78 => ⟨S50000x128, .f32⟩
  | 79 => ⟨S50000x128, .f32⟩
  | 80 => ⟨S50000x128, .f32⟩
  | 81 => ⟨S_, .f32⟩
  | 82 => ⟨S128, .f32⟩
  | 83 => ⟨S_, .f32⟩
  | 84 => ⟨S128, .f32⟩
  | 85 => ⟨S128, .f32⟩
  | 86 => ⟨S1x128, .f32⟩
  | 87 => ⟨S50000x128, .f32⟩
  | 88 => ⟨S50000x128, .f32⟩
  | 89 => ⟨S_, .f32⟩
  | 90 => ⟨S128, .f32⟩
  | 91 => ⟨S128, .f32⟩
  | 92 => ⟨S128, .f32⟩
  | 93 => ⟨S1x128, .f32⟩
  | 94 => ⟨S50000x128, .f32⟩
  | 95 => ⟨S50000x128, .f32⟩
  | 96 => ⟨S1x128, .f32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S1x128x128, .f32⟩
  | 106 => ⟨S128x128, .f32⟩
  | 107 => ⟨S50000x128, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000x128, .f32⟩
  | 117 => ⟨S850000x1, .f32⟩
  | 118 => ⟨S850000x128, .f32⟩
  | 119 => ⟨S850000x128, .f32⟩
  | 120 => ⟨S_, .f32⟩
  | 121 => ⟨S50000x128, .f32⟩
  | 122 => ⟨S850000x1, .i32⟩
  | 123 => ⟨S50000x128, .f32⟩
  | 124 => ⟨S1x128, .f32⟩
  | 125 => ⟨S128, .f32⟩
  | 126 => ⟨S1x128, .f32⟩
  | 127 => ⟨S50000x128, .f32⟩
  | _ => ⟨S50000, .i32⟩

abbrev hbmTy0_2 (i : Nat) : BufTy := match i % 128 with
  | 0 => ⟨S50000x128, .f32⟩
  | 1 => ⟨S1x128, .f32⟩
  | 2 => ⟨S128, .f32⟩
  | 3 => ⟨S1x128, .f32⟩
  | 4 => ⟨S128, .f32⟩
  | 5 => ⟨S_, .f32⟩
  | 6 => ⟨S128, .f32⟩
  | 7 => ⟨S_, .f32⟩
  | 8 => ⟨S128, .f32⟩
  | 9 => ⟨S128, .f32⟩
  | 10 => ⟨S1x128, .f32⟩
  | 11 => ⟨S50000x128, .f32⟩
  | 12 => ⟨S50000x128, .f32⟩
  | 13 => ⟨S50000x128, .f32⟩
  | 14 => ⟨S_, .f32⟩
  | 15 => ⟨S128, .f32⟩
  | 16 => ⟨S_, .f32⟩
  | 17 => ⟨S128, .f32⟩
  | 18 => ⟨S128, .f32⟩
  | 19 => ⟨S1x128, .f32⟩
  | 20 => ⟨S50000x128, .f32⟩
  | 21 => ⟨S50000x128, .f32⟩
  | 22 => ⟨S_, .f32⟩
  | 23 => ⟨S128, .f32⟩
  | 24 => ⟨S128, .f32⟩
  | 25 => ⟨S128, .f32⟩
  | 26 => ⟨S1x128, .f32⟩
  | 27 => ⟨S50000x128, .f32⟩
  | 28 => ⟨S50000x128, .f32⟩
  | 29 => ⟨S1x128, .f32⟩
  | 30 => ⟨S50000x128, .f32⟩
  | 31 => ⟨S50000x128, .f32⟩
  | 32 => ⟨S1x128, .f32⟩
  | 33 => ⟨S50000x128, .f32⟩
  | 34 => ⟨S50000x128, .f32⟩
  | 35 => ⟨S_, .f32⟩
  | 36 => ⟨S50000x128, .f32⟩
  | 37 => ⟨S50000x128, .f32⟩
  | 38 => ⟨S1x128x128, .f32⟩
  | 39 => ⟨S128x128, .f32⟩
  | 40 => ⟨S50000x128, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000x128, .f32⟩
  | 50 => ⟨S850000x1, .f32⟩
  | 51 => ⟨S850000x128, .f32⟩
  | 52 => ⟨S850000x128, .f32⟩
  | 53 => ⟨S_, .f32⟩
  | 54 => ⟨S50000x128, .f32⟩
  | 55 => ⟨S850000x1, .i32⟩
  | 56 => ⟨S50000x128, .f32⟩
  | 57 => ⟨S1x128, .f32⟩
  | 58 => ⟨S128, .f32⟩
  | 59 => ⟨S1x128, .f32⟩
  | 60 => ⟨S50000x128, .f32⟩
  | 61 => ⟨S50000x128, .f32⟩
  | 62 => ⟨S1x128, .f32⟩
  | 63 => ⟨S128, .f32⟩
  | 64 => ⟨S1x128, .f32⟩
  | 65 => ⟨S128, .f32⟩
  | 66 => ⟨S_, .f32⟩
  | 67 => ⟨S128, .f32⟩
  | 68 => ⟨S_, .f32⟩
  | 69 => ⟨S128, .f32⟩
  | 70 => ⟨S128, .f32⟩
  | 71 => ⟨S1x128, .f32⟩
  | 72 => ⟨S50000x128, .f32⟩
  | 73 => ⟨S50000x128, .f32⟩
  | 74 => ⟨S50000x128, .f32⟩
  | 75 => ⟨S_, .f32⟩
  | 76 => ⟨S128, .f32⟩
  | 77 => ⟨S_, .f32⟩
  | 78 => ⟨S128, .f32⟩
  | 79 => ⟨S128, .f32⟩
  | 80 => ⟨S1x128, .f32⟩
  | 81 => ⟨S50000x128, .f32⟩
  | 82 => ⟨S50000x128, .f32⟩
  | 83 => ⟨S_, .f32⟩
  | 84 => ⟨S128, .f32⟩
  | 85 => ⟨S128, .f32⟩
  | 86 => ⟨S128, .f32⟩
  | 87 => ⟨S1x128, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S_, .f32⟩
  | 97 => ⟨S256x128, .f32⟩
  | 98 => ⟨S50000x1, .i32⟩
  | 99 => ⟨S256x128, .f32⟩
  | _ => ⟨S50000, .i32⟩

abbrev hbmTy (i : Nat) : BufTy := match i / 128 with
  | 0 => hbmTy0_0 i
  | 1 => hbmTy0_1 i
  | 2 => hbmTy0_2 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_11 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_13 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_call1_cst : Ref sig .tc := ⟨.hbm, 108, rfl⟩
abbrev main_call1_v0 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_c_14 : Ref sig .tc := ⟨.hbm, 114, rfl⟩
abbrev main_v86 : Ref sig .tc := ⟨.hbm, 115, rfl⟩
abbrev main_v87 : Ref sig .tc := ⟨.hbm, 116, rfl⟩
abbrev main_c_15 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_16 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_17 : Ref sig .tc := ⟨.hbm, 139, rfl⟩
abbrev main_v108 : Ref sig .tc := ⟨.hbm, 140, rfl⟩
abbrev main_cst_18 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_cst_19 : Ref sig .tc := ⟨.hbm, 148, rfl⟩
abbrev main_v115 : Ref sig .tc := ⟨.hbm, 149, rfl⟩
abbrev main_cst_20 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_cst_21 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_call2_cst : Ref sig .tc := ⟨.hbm, 169, rfl⟩
abbrev main_call2_v0 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_c_22 : Ref sig .tc := ⟨.hbm, 175, rfl⟩
abbrev main_v137 : Ref sig .tc := ⟨.hbm, 176, rfl⟩
abbrev main_v138 : Ref sig .tc := ⟨.hbm, 177, rfl⟩
abbrev main_c_23 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_cst_24 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_cst_25 : Ref sig .tc := ⟨.hbm, 200, rfl⟩
abbrev main_v159 : Ref sig .tc := ⟨.hbm, 201, rfl⟩
abbrev main_cst_26 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_cst_27 : Ref sig .tc := ⟨.hbm, 209, rfl⟩
abbrev main_v166 : Ref sig .tc := ⟨.hbm, 210, rfl⟩
abbrev main_cst_28 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_cst_29 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_call3_cst : Ref sig .tc := ⟨.hbm, 230, rfl⟩
abbrev main_call3_v0 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_c_30 : Ref sig .tc := ⟨.hbm, 236, rfl⟩
abbrev main_v188 : Ref sig .tc := ⟨.hbm, 237, rfl⟩
abbrev main_v189 : Ref sig .tc := ⟨.hbm, 238, rfl⟩
abbrev main_c_31 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_cst_32 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_cst_33 : Ref sig .tc := ⟨.hbm, 261, rfl⟩
abbrev main_v210 : Ref sig .tc := ⟨.hbm, 262, rfl⟩
abbrev main_cst_34 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_cst_35 : Ref sig .tc := ⟨.hbm, 270, rfl⟩
abbrev main_v217 : Ref sig .tc := ⟨.hbm, 271, rfl⟩
abbrev main_cst_36 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_v221 : Ref sig .tc := ⟨.hbm, 276, rfl⟩
abbrev main_v222 : Ref sig .tc := ⟨.hbm, 277, rfl⟩
abbrev main_cst_37 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_v231 : Ref sig .tc := ⟨.hbm, 287, rfl⟩
abbrev main_v232 : Ref sig .tc := ⟨.hbm, 288, rfl⟩
abbrev main_v233 : Ref sig .tc := ⟨.hbm, 289, rfl⟩
abbrev main_v234 : Ref sig .tc := ⟨.hbm, 290, rfl⟩
abbrev main_call4_cst : Ref sig .tc := ⟨.hbm, 291, rfl⟩
abbrev main_call4_v0 : Ref sig .tc := ⟨.hbm, 292, rfl⟩
abbrev main_v235 : Ref sig .tc := ⟨.hbm, 293, rfl⟩
abbrev main_v236 : Ref sig .tc := ⟨.hbm, 294, rfl⟩
abbrev main_v237 : Ref sig .tc := ⟨.hbm, 295, rfl⟩
abbrev main_v238 : Ref sig .tc := ⟨.hbm, 296, rfl⟩
abbrev main_c_38 : Ref sig .tc := ⟨.hbm, 297, rfl⟩
abbrev main_v239 : Ref sig .tc := ⟨.hbm, 298, rfl⟩
abbrev main_v240 : Ref sig .tc := ⟨.hbm, 299, rfl⟩
abbrev main_c_39 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_v245 : Ref sig .tc := ⟨.hbm, 305, rfl⟩
abbrev main_v246 : Ref sig .tc := ⟨.hbm, 306, rfl⟩
abbrev main_v247 : Ref sig .tc := ⟨.hbm, 307, rfl⟩
abbrev main_v248 : Ref sig .tc := ⟨.hbm, 308, rfl⟩
abbrev main_cst_40 : Ref sig .tc := ⟨.hbm, 309, rfl⟩
abbrev main_v249 : Ref sig .tc := ⟨.hbm, 310, rfl⟩
abbrev main_v250 : Ref sig .tc := ⟨.hbm, 311, rfl⟩
abbrev main_v251 : Ref sig .tc := ⟨.hbm, 312, rfl⟩
abbrev main_v252 : Ref sig .tc := ⟨.hbm, 313, rfl⟩
abbrev main_v253 : Ref sig .tc := ⟨.hbm, 314, rfl⟩
abbrev main_v254 : Ref sig .tc := ⟨.hbm, 315, rfl⟩
abbrev main_v255 : Ref sig .tc := ⟨.hbm, 316, rfl⟩
abbrev main_v256 : Ref sig .tc := ⟨.hbm, 317, rfl⟩
abbrev main_v257 : Ref sig .tc := ⟨.hbm, 318, rfl⟩
abbrev main_v258 : Ref sig .tc := ⟨.hbm, 319, rfl⟩
abbrev main_v259 : Ref sig .tc := ⟨.hbm, 320, rfl⟩
abbrev main_v260 : Ref sig .tc := ⟨.hbm, 321, rfl⟩
abbrev main_cst_41 : Ref sig .tc := ⟨.hbm, 322, rfl⟩
abbrev main_v261 : Ref sig .tc := ⟨.hbm, 323, rfl⟩
abbrev main_cst_42 : Ref sig .tc := ⟨.hbm, 324, rfl⟩
abbrev main_v262 : Ref sig .tc := ⟨.hbm, 325, rfl⟩
abbrev main_v263 : Ref sig .tc := ⟨.hbm, 326, rfl⟩
abbrev main_v264 : Ref sig .tc := ⟨.hbm, 327, rfl⟩
abbrev main_v265 : Ref sig .tc := ⟨.hbm, 328, rfl⟩
abbrev main_v266 : Ref sig .tc := ⟨.hbm, 329, rfl⟩
abbrev main_v267 : Ref sig .tc := ⟨.hbm, 330, rfl⟩
abbrev main_cst_43 : Ref sig .tc := ⟨.hbm, 331, rfl⟩
abbrev main_v268 : Ref sig .tc := ⟨.hbm, 332, rfl⟩
abbrev main_cst_44 : Ref sig .tc := ⟨.hbm, 333, rfl⟩
abbrev main_v269 : Ref sig .tc := ⟨.hbm, 334, rfl⟩
abbrev main_v270 : Ref sig .tc := ⟨.hbm, 335, rfl⟩
abbrev main_v271 : Ref sig .tc := ⟨.hbm, 336, rfl⟩
abbrev main_v272 : Ref sig .tc := ⟨.hbm, 337, rfl⟩
abbrev main_v273 : Ref sig .tc := ⟨.hbm, 338, rfl⟩
abbrev main_cst_45 : Ref sig .tc := ⟨.hbm, 339, rfl⟩
abbrev main_v274 : Ref sig .tc := ⟨.hbm, 340, rfl⟩
abbrev main_v275 : Ref sig .tc := ⟨.hbm, 341, rfl⟩
abbrev main_v276 : Ref sig .tc := ⟨.hbm, 342, rfl⟩
abbrev main_v277 : Ref sig .tc := ⟨.hbm, 343, rfl⟩
abbrev main_v278 : Ref sig .tc := ⟨.hbm, 344, rfl⟩
abbrev main_v279 : Ref sig .tc := ⟨.hbm, 345, rfl⟩
abbrev main_v280 : Ref sig .tc := ⟨.hbm, 346, rfl⟩
abbrev main_v281 : Ref sig .tc := ⟨.hbm, 347, rfl⟩
abbrev main_v282 : Ref sig .tc := ⟨.hbm, 348, rfl⟩
abbrev main_v283 : Ref sig .tc := ⟨.hbm, 349, rfl⟩
abbrev main_v284 : Ref sig .tc := ⟨.hbm, 350, rfl⟩
abbrev main_v285 : Ref sig .tc := ⟨.hbm, 351, rfl⟩
abbrev main_cst_46 : Ref sig .tc := ⟨.hbm, 352, rfl⟩
abbrev main_v286 : Ref sig .tc := ⟨.hbm, 353, rfl⟩
abbrev main_v287 : Ref sig .tc := ⟨.hbm, 354, rfl⟩
abbrev main_v288 : Ref sig .tc := ⟨.hbm, 355, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  slices_S5x128x128_S1x128x128_0_0_0 : S5x128x128.Slices ![0, 0, 0] S1x128x128
  shapeCasts_S1x128x128_S128x128 : S1x128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S5x128_S1x128_0_0 : S5x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  bcast_S_S256x128 : S_.BroadcastsInDim S256x128 (![] : Fin 0 → Fin S256x128.rank)
  bcast_S50000_S50000x1_0 : S50000.BroadcastsInDim S50000x1 (![0] : Fin 1 → Fin S50000x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S256x128_S50000x1_S50000x128_1_0_0_1_wf : ScatterDims.WF S256x128 S50000x1 S50000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf

class Facts : Prop extends Facts₀ where

variable [Facts]
-- ==== Proof.Spec.lean ====
/-
  One layer's arithmetic, entry by entry over the extended reals: product with the weights, bias, channel mean,
  the two forms of the channel variance, normalisation, clip.
-/
import Idealize.ShloMosaic.PureOps.Ideal
import Idealize.ShloMosaic.Lib.ValueIdx

noncomputable section

open scoped BigOperators

namespace Cert.Spec

open Idealize.ShloMosaic Idealize.ShloMosaic.ValueIdx

abbrev Nodes : Shape := ⟨2, ![50000, 128]⟩

abbrev Weights : Shape := ⟨2, ![128, 128]⟩

abbrev Graphs : Shape := ⟨2, ![256, 128]⟩

abbrev Feat := Nodes.Idx → EReal
abbrev Chan := Fin 128 → EReal

def count : EReal := Ideal.ofBits .f32 0x47435000#32

def eps : EReal := Ideal.ofBits .f32 0x3727C5AC#32

def Finite (x : EReal) : Prop := ∃ r : ℝ, x = (r : EReal)

def product (h : Feat) (w : Weights.Idx → EReal) : Feat :=
  fun j => ∑ q : Fin 128, h (ix2 (j 0) q) * w (ix2 q (j 1))

def shifted (a : Feat) (b : Chan) : Feat := fun j => a j + b (j 1)

def colSum (x : Feat) : Chan := fun d => ∑ n : Fin 50000, x (ix2 n d)

def colSumSq (x : Feat) : Chan := fun d => ∑ n : Fin 50000, x (ix2 n d) * x (ix2 n d)

def mean (x : Feat) : Chan := fun d => Ideal.div (colSum x d) count

def varOfMoments (x : Feat) : Chan := fun d => Ideal.div (colSumSq x d) count - mean x d * mean x d

def varOfDeviations (x : Feat) : Chan :=
  fun d => Ideal.div (∑ n : Fin 50000, (x (ix2 n d) - mean x d) * (x (ix2 n d) - mean x d)) count

def normalised (x : Feat) (v g b : Chan) : Feat :=
  fun j => (x j - mean x (j 1)) * Ideal.rsqrt (v (j 1) + eps) * g (j 1) + b (j 1)

def affine (x : Feat) (mu v g b : Chan) : Feat :=
  fun j => (x j - mu (j 1)) * Ideal.rsqrt (v (j 1) + eps) * g (j 1) + b (j 1)

def clipped (x : Feat) : Feat := fun j => max (x j) 0

def layer (var : Feat → Chan) (agg : Feat → Feat) (clip : Bool) (h : Feat) (w : Weights.Idx → EReal) (b g β : Chan) : Feat :=
  let x := shifted (agg (product h w)) b
  let y := normalised x (var x) g β
  if clip then clipped y else y

theorem count_eq : count = ((50000 : ℝ) : EReal) := by

  simp [count, Ideal.ofBits, Ideal.ieee, -EReal.coe_mul]; norm_num

theorem eps_pos : ∃ e : ℝ, 0 < e ∧ eps = (e : EReal) := by

  simp [eps, Ideal.ofBits, Ideal.ieee, -EReal.coe_mul]

theorem Finite.coe (r : ℝ) : Finite (r : EReal) := ⟨r, rfl⟩

theorem Finite.add {x y : EReal} (hx : Finite x) (hy : Finite y) : Finite (x + y) := by
  obtain ⟨a, rfl⟩ := hx; obtain ⟨b, rfl⟩ := hy; exact ⟨a + b, (EReal.coe_add a b).symm⟩

theorem Finite.sub {x y : EReal} (hx : Finite x) (hy : Finite y) : Finite (x - y) := by
  obtain ⟨a, rfl⟩ := hx; obtain ⟨b, rfl⟩ := hy; exact ⟨a - b, (EReal.coe_sub a b).symm⟩

theorem Finite.mul {x y : EReal} (hx : Finite x) (hy : Finite y) : Finite (x * y) := by
  obtain ⟨a, rfl⟩ := hx; obtain ⟨b, rfl⟩ := hy; exact ⟨a * b, (EReal.coe_mul a b).symm⟩

theorem Finite.max_zero {x : EReal} (hx : Finite x) : Finite (max x 0) := by
  rcases le_total x 0 with h | h
  · rw [max_eq_right h]; exact ⟨0, EReal.coe_zero.symm⟩
  · rw [max_eq_left h]; exact hx

theorem coe_sum {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem Finite.sum {ι : Type*} (s : Finset ι) (f : ι → EReal) (hf : ∀ i, Finite (f i)) :
    Finite (∑ i ∈ s, f i) := by
  choose r hr using hf
  exact ⟨∑ i ∈ s, r i, by rw [← coe_sum]; exact Finset.sum_congr rfl fun i _ => hr i⟩

theorem div_count_eq (x : EReal) : Ideal.div x count = x * (((1 : ℝ) / 50000 : ℝ) : EReal) := by
  rw [count_eq, Ideal.div_coe (by norm_num)]

theorem Finite.div_count {x : EReal} (hx : Finite x) : Finite (Ideal.div x count) := by
  rw [div_count_eq]; exact hx.mul (Finite.coe _)

private theorem real_var_identity {N : ℕ} (f : Fin N → ℝ) (c : ℝ) (hc : (N : ℝ) * c = 1) :
    (∑ n, f n * f n) * c - ((∑ n, f n) * c) * ((∑ n, f n) * c)
      = (∑ n, (f n - (∑ n, f n) * c) * (f n - (∑ n, f n) * c)) * c := by
  set S := ∑ n, f n with hS
  set Q := ∑ n, f n * f n with hQ
  have hexp : ∑ n, (f n - S * c) * (f n - S * c) = Q - 2 * (S * c) * S + (N : ℝ) * ((S * c) * (S * c)) := by
    have h1 : ∀ n, (f n - S * c) * (f n - S * c) = f n * f n - 2 * (S * c) * f n + (S * c) * (S * c) :=
      fun n => by ring
    simp only [h1, Finset.sum_add_distrib, Finset.sum_sub_distrib, ← Finset.mul_sum, Finset.sum_const,
      Finset.card_univ, Fintype.card_fin, nsmul_eq_mul, ← hS, ← hQ]
    ring
  rw [hexp]
  have : (N : ℝ) * (S * c * (S * c)) * c = S * c * (S * c) * ((N : ℝ) * c) := by ring
  rw [add_mul, this, hc]; ring

private theorem varOfDeviations_coe (x : Feat) (r : Nodes.Idx → ℝ) (hr : ∀ j, x j = (r j : EReal)) (d : Fin 128) :
    varOfDeviations x d
      = (((∑ n : Fin 50000, (r (ix2 n d) - (∑ n : Fin 50000, r (ix2 n d)) * (1 / 50000))
            * (r (ix2 n d) - (∑ n : Fin 50000, r (ix2 n d)) * (1 / 50000))) * (1 / 50000) : ℝ) : EReal) := by
  simp only [varOfDeviations, mean, colSum, div_count_eq, hr, coe_sum, ← EReal.coe_mul, ← EReal.coe_sub]

theorem var_eq (x : Feat) (hx : ∀ j, Finite (x j)) : varOfMoments x = varOfDeviations x := by
  choose r hr using hx
  funext d
  rw [varOfDeviations_coe x r hr d]
  simp only [varOfMoments, mean, colSum, colSumSq, div_count_eq, hr, coe_sum, ← EReal.coe_mul, ← EReal.coe_sub]
  rw [EReal.coe_eq_coe_iff]
  exact real_var_identity (fun n : Fin 50000 => r (ix2 n d)) (1 / 50000) (by norm_num)

theorem varOfDeviations_nonneg (x : Feat) (hx : ∀ j, Finite (x j)) (d : Fin 128) :
    ∃ r : ℝ, 0 ≤ r ∧ varOfDeviations x d = (r : EReal) := by
  choose r hr using hx
  refine ⟨_, ?_, varOfDeviations_coe x r hr d⟩
  exact mul_nonneg (Finset.sum_nonneg fun n _ => mul_self_nonneg _) (by norm_num)

theorem product_finite (h : Feat) (w : Weights.Idx → EReal) (hh : ∀ j, Finite (h j)) (hw : ∀ j, Finite (w j)) :
    ∀ j, Finite (product h w j) :=
  fun _ => Finite.sum _ _ fun _ => (hh _).mul (hw _)

theorem shifted_finite (a : Feat) (b : Chan) (ha : ∀ j, Finite (a j)) (hb : ∀ d, Finite (b d)) :
    ∀ j, Finite (shifted a b j) :=
  fun _ => (ha _).add (hb _)

theorem mean_finite (x : Feat) (hx : ∀ j, Finite (x j)) (d : Fin 128) : Finite (mean x d) :=
  Finite.div_count (Finite.sum _ _ fun _ => hx _)

private theorem rsqrt_finite {r : ℝ} (hr : 0 < r) : Finite (Ideal.rsqrt (r : EReal)) := by
  rw [Ideal.rsqrt_coe, if_neg (not_lt.mpr hr.le), if_neg hr.ne']; exact Finite.coe _

theorem normalised_finite (x : Feat) (v g b : Chan) (hx : ∀ j, Finite (x j))
    (hv : ∀ d, ∃ r : ℝ, 0 ≤ r ∧ v d = (r : EReal)) (hg : ∀ d, Finite (g d)) (hb : ∀ d, Finite (b d)) :
    ∀ j, Finite (normalised x v g b j) := by
  intro j
  obtain ⟨r, hr0, hr⟩ := hv (j 1)
  obtain ⟨e, he0, he⟩ := eps_pos
  have hrs : Finite (Ideal.rsqrt (v (j 1) + eps)) := by
    rw [hr, he, ← EReal.coe_add]; exact rsqrt_finite (add_pos_of_nonneg_of_pos hr0 he0)
  exact ((((hx j).sub (mean_finite x hx _)).mul hrs).mul (hg _)).add (hb _)

theorem clipped_finite (x : Feat) (hx : ∀ j, Finite (x j)) : ∀ j, Finite (clipped x j) :=
  fun _ => (hx _).max_zero

theorem layer_eq (agg : Feat → Feat) (hagg : ∀ a : Feat, (∀ j, Finite (a j)) → ∀ j, Finite (agg a j))
    (clip : Bool) (h : Feat) (w : Weights.Idx → EReal) (b g β : Chan)
    (hh : ∀ j, Finite (h j)) (hw : ∀ j, Finite (w j)) (hb : ∀ d, Finite (b d)) (hg : ∀ d, Finite (g d))
    (hβ : ∀ d, Finite (β d)) :
    layer varOfMoments agg clip h w b g β = layer varOfDeviations agg clip h w b g β
      ∧ ∀ j, Finite (layer varOfDeviations agg clip h w b g β j) := by

  have hx : ∀ j, Finite (shifted (agg (product h w)) b j) :=
    shifted_finite _ _ (hagg _ (product_finite h w hh hw)) hb
  have hy : ∀ j, Finite (normalised (shifted (agg (product h w)) b)
      (varOfDeviations (shifted (agg (product h w)) b)) g β j) :=
    normalised_finite _ _ _ _ hx (varOfDeviations_nonneg _ hx) hg hβ
  refine ⟨?_, ?_⟩
  · simp only [layer, var_eq _ hx]
  · intro j
    cases clip
    · exact hy j
    · exact clipped_finite _ hy j

end Cert.Spec
-- ==== Proof.Network.lean ====
/-
  Five layers composed; on finite data the two variance forms agree through all of them.
-/
import proofs.«402385_j8315056685617_1_alg».proof.Proof.Spec

noncomputable section

namespace Cert.Network

open Idealize.ShloMosaic Idealize.ShloMosaic.ValueIdx Cert.Spec

abbrev WeightStack : Shape := ⟨3, ![5, 128, 128]⟩

abbrev ChanStack : Shape := ⟨2, ![5, 128]⟩

def weight (i : Fin 5) (ws : WeightStack.Idx → EReal) : Weights.Idx → EReal := fun j => ws (ix3 i (j 0) (j 1))

def chan (i : Fin 5) (p : ChanStack.Idx → EReal) : Chan := fun d => p (ix2 i d)

def step (var : Feat → Chan) (agg : Feat → Feat) (i : Fin 5) (clip : Bool) (h : Feat)
    (ws : WeightStack.Idx → EReal) (bs gs βs : ChanStack.Idx → EReal) : Feat :=
  layer var agg clip h (weight i ws) (chan i bs) (chan i gs) (chan i βs)

def net (var : Feat → Chan) (agg : Feat → Feat) (x : Feat) (ws : WeightStack.Idx → EReal)
    (bs gs βs : ChanStack.Idx → EReal) : Feat :=
  step var agg 4 false
    (step var agg 3 true
      (step var agg 2 true
        (step var agg 1 true
          (step var agg 0 true x ws bs gs βs) ws bs gs βs) ws bs gs βs) ws bs gs βs) ws bs gs βs

theorem net_eq (agg : Feat → Feat) (hagg : ∀ a : Feat, (∀ j, Finite (a j)) → ∀ j, Finite (agg a j))
    (x : Feat) (ws : WeightStack.Idx → EReal) (bs gs βs : ChanStack.Idx → EReal)
    (hx : ∀ j, Finite (x j)) (hws : ∀ j, Finite (ws j)) (hbs : ∀ j, Finite (bs j)) (hgs : ∀ j, Finite (gs j))
    (hβs : ∀ j, Finite (βs j)) :
    net varOfMoments agg x ws bs gs βs = net varOfDeviations agg x ws bs gs βs := by
  have step_eq : ∀ (i : Fin 5) (clip : Bool) (h : Feat), (∀ j, Finite (h j)) →
      step varOfMoments agg i clip h ws bs gs βs = step varOfDeviations agg i clip h ws bs gs βs
        ∧ ∀ j, Finite (step varOfDeviations agg i clip h ws bs gs βs j) := fun i clip h hh =>
    layer_eq agg hagg clip h (weight i ws) (chan i bs) (chan i gs) (chan i βs) hh (fun j => hws _) (fun d => hbs _)
      (fun d => hgs _) (fun d => hβs _)
  unfold net
  obtain ⟨e0, f0⟩ := step_eq 0 true x hx
  rw [e0]
  obtain ⟨e1, f1⟩ := step_eq 1 true _ f0
  rw [e1]
  obtain ⟨e2, f2⟩ := step_eq 2 true _ f1
  rw [e2]
  obtain ⟨e3, f3⟩ := step_eq 3 true _ f2
  rw [e3]
  exact (step_eq 4 false _ f3).1

end Cert.Network
-- ==== Proof.Graph.lean ====
/-
  The edge bookkeeping both programs share: sources and targets with the loop edges appended, edge coefficients,
  the lookup of source rows and their accumulation into target rows.
-/
import Idealize.ShloMosaic.PureOps
import Idealize.ShloMosaic.PureOps.Ideal
import Idealize.ShloMosaic.Lib.ValueIdx

noncomputable section

namespace Cert.Graph

open Idealize.ShloMosaic

abbrev S_ : Shape := ⟨0, ![]⟩
abbrev S1 : Shape := ⟨1, ![1]⟩
abbrev S1x1 : Shape := ⟨2, ![1, 1]⟩
abbrev S50000 : Shape := ⟨1, ![50000]⟩
abbrev S800000 : Shape := ⟨1, ![800000]⟩
abbrev S850000 : Shape := ⟨1, ![850000]⟩
abbrev S850000x1 : Shape := ⟨2, ![850000, 1]⟩
abbrev S2x800000 : Shape := ⟨2, ![2, 800000]⟩
abbrev S1x800000 : Shape := ⟨2, ![1, 800000]⟩
abbrev S50000x128 : Shape := ⟨2, ![50000, 128]⟩
abbrev S850000x128 : Shape := ⟨2, ![850000, 128]⟩

theorem slices_row0 : S2x800000.Slices ![0, 0] S1x800000 := by decide
theorem slices_row1 : S2x800000.Slices ![1, 0] S1x800000 := by decide
theorem casts_edges : S1x800000.ShapeCasts S800000 := by decide
theorem concat_edges : Shape.Concatenates [S800000, S50000] S850000 0 := by decide
theorem bcast_S_S50000 : S_.BroadcastsInDim S50000 (![] : Fin 0 → Fin S50000.rank) := by decide
theorem bcast_S_S850000 : S_.BroadcastsInDim S850000 (![] : Fin 0 → Fin S850000.rank) := by decide
theorem bcast_S_S850000x1 : S_.BroadcastsInDim S850000x1 (![] : Fin 0 → Fin S850000x1.rank) := by decide
theorem bcast_S850000_S850000x1_0 : S850000.BroadcastsInDim S850000x1 (![0] : Fin 1 → Fin S850000x1.rank) := by decide
theorem bcast_S1_S1x1_1 : S1.BroadcastsInDim S1x1 (![1] : Fin 1 → Fin S1x1.rank) := by decide
theorem bcast_S1x1_S850000x1_0_1 : S1x1.BroadcastsInDim S850000x1 (![0, 1] : Fin 2 → Fin S850000x1.rank) := by decide
theorem reducesTo_S850000x1_S850000_d1 : S850000x1.ReducesTo [1] S850000 := by decide
theorem h_S_ : 0 < S_.numel := by decide
theorem bcast_S850000_S850000x128_0 : S850000.BroadcastsInDim S850000x128 (![0] : Fin 1 → Fin S850000x128.rank) := by decide
theorem bcast_S_S850000x128 : S_.BroadcastsInDim S850000x128 (![] : Fin 0 → Fin S850000x128.rank) := by decide
theorem bcast_S850000x1_S850000x128_0_1 : S850000x1.BroadcastsInDim S850000x128 (![0, 1] : Fin 2 → Fin S850000x128.rank) := by decide
theorem bcast_S_S50000x128 : S_.BroadcastsInDim S50000x128 (![] : Fin 0 → Fin S50000x128.rank) := by decide
theorem scatterNodes_wf : ScatterDims.WF S50000 S850000x1 S850000 [] [0] [0] 1 := by decide
theorem gatherNodes_wf : GatherDims.WF S50000 S850000x1 S850000 [] [0] [] [0] [] 1 ![1] := by decide
theorem gatherRows_wf : GatherDims.WF S50000x128 S850000x1 S850000x128 [1] [0] [] [0] [] 1 ![1, 128] := by decide
theorem scatterRows_wf : ScatterDims.WF S50000x128 S850000x1 S850000x128 [1] [0] [0] 1 := by decide

def scatterNodes : ScatterDims S50000 S850000x1 S850000 where
  updateWindowDims := []
  insertedWindowDims := [0]
  scatterDimsToOperandDims := [0]
  indexVectorDim := 1
  wf := scatterNodes_wf

def gatherNodes : GatherDims S50000 S850000x1 S850000 where
  offsetDims := []
  collapsedSliceDims := [0]
  operandBatchingDims := []
  startIndicesBatchingDims := []
  startIndexMap := [0]
  indexVectorDim := 1
  sliceSizes := ![1]
  wf := gatherNodes_wf

def gatherRows : GatherDims S50000x128 S850000x1 S850000x128 where
  offsetDims := [1]
  collapsedSliceDims := [0]
  operandBatchingDims := []
  startIndicesBatchingDims := []
  startIndexMap := [0]
  indexVectorDim := 1
  sliceSizes := ![1, 128]
  wf := gatherRows_wf

def scatterRows : ScatterDims S50000x128 S850000x1 S850000x128 where
  updateWindowDims := [1]
  insertedWindowDims := [0]
  scatterDimsToOperandDims := [0]
  indexVectorDim := 1
  wf := scatterRows_wf

def rows (ei : IVec S2x800000 32) : IVec S850000 32 :=
  concatenate S850000 0 [⟨S800000, shapeCast S800000 (extractStridedSlice S1x800000 ![0, 0] ei slices_row0) casts_edges⟩,
    ⟨S50000, iotaInDim S50000 32 0⟩] concat_edges

def cols (ei : IVec S2x800000 32) : IVec S850000 32 :=
  concatenate S850000 0 [⟨S800000, shapeCast S800000 (extractStridedSlice S1x800000 ![1, 0] ei slices_row1) casts_edges⟩,
    ⟨S50000, iotaInDim S50000 32 0⟩] concat_edges

variable {F : FTy → Type} [FloatOps F]

def weights (ew : FVec F S800000 .f32) : FVec F S850000 .f32 :=
  concatenate S850000 0 [⟨S800000, ew⟩,
    ⟨S50000, broadcastInDim S50000 ![] bcast_S_S50000 (constant (F := F) S_ .f32 0x3F800000#32)⟩] concat_edges

def wrapped (idx : IVec S850000 32) : IVec S850000 32 :=
  select (cmpi .slt idx (broadcastInDim S850000 ![] bcast_S_S850000 (constantI S_ 32 0#32)))
    (addi idx (broadcastInDim S850000 ![] bcast_S_S850000 (constantI S_ 32 50000#32))) idx

def asColumn (idx : IVec S850000 32) : IVec S850000x1 32 := broadcastInDim S850000x1 ![0] bcast_S850000_S850000x1_0 idx

def degree (ei : IVec S2x800000 32) (ew : FVec F S800000 .f32) : FVec F S50000 .f32 :=
  Host.scatterAdd scatterNodes (broadcastInDim S50000 ![] bcast_S_S50000 (constant (F := F) S_ .f32 0x00000000#32))
    (asColumn (cols ei)) (weights ew)

def dinv (ei : IVec S2x800000 32) (ew : FVec F S800000 .f32) : FVec F S50000 .f32 :=
  select (cmpf .ogt (degree ei ew) (broadcastInDim S50000 ![] bcast_S_S50000 (constant (F := F) S_ .f32 0x00000000#32)))
    (Host.rsqrt (degree ei ew))
    (broadcastInDim S50000 ![] bcast_S_S50000 (id (constant (F := F) S_ .f32 0x00000000#32)))

def coeff (ei : IVec S2x800000 32) (ew : FVec F S800000 .f32) : FVec F S850000 .f32 :=
  mulf (mulf (Host.gather gatherNodes (dinv ei ew) (asColumn (wrapped (rows ei)))) (weights ew))
    (Host.gather gatherNodes (dinv ei ew) (asColumn (wrapped (cols ei))))

def sourceRows (src : IVec S850000 32) (x : FVec F S50000x128 .f32) : FVec F S850000x128 .f32 :=
  Host.gather gatherRows x (asColumn (wrapped src))

def sourceRowsChecked (src : IVec S850000 32) (x : FVec F S50000x128 .f32) : FVec F S850000x128 .f32 :=
  select
    (broadcastInDim S850000x128 ![0] bcast_S850000_S850000x128_0
      (Host.reduce IntOp.andi
        (andi (cmpi .sge (asColumn (wrapped src)) (broadcastInDim S850000x1 ![] bcast_S_S850000x1 (constantI S_ 32 0#32)))
          (cmpi .sle (asColumn (wrapped src))
            (broadcastInDim S850000x1 ![0, 1] bcast_S1x1_S850000x1_0_1
              (broadcastInDim S1x1 ![1] bcast_S1_S1x1_1 (constantI S1 32 49999#32)))))
        (constantI S_ 1 1#1) reducesTo_S850000x1_S850000_d1 h_S_))
    (Host.gather gatherRows x (asColumn (wrapped src)))
    (broadcastInDim S850000x128 ![] bcast_S_S850000x128 (constant (F := F) S_ .f32 0x7FC00000#32))

def accumulate (tgt : IVec S850000 32) (c : FVec F S850000 .f32) (msg : FVec F S850000x128 .f32) :
    FVec F S50000x128 .f32 :=
  Host.scatterAdd scatterRows (broadcastInDim S50000x128 ![] bcast_S_S50000x128 (constant (F := F) S_ .f32 0x00000000#32))
    (asColumn tgt)
    (mulf msg (broadcastInDim S850000x128 ![0, 1] bcast_S850000x1_S850000x128_0_1
      (broadcastInDim S850000x1 ![0] bcast_S850000_S850000x1_0 c)))

def aggregate (src tgt : IVec S850000 32) (c : FVec F S850000 .f32) (x : FVec F S50000x128 .f32) :
    FVec F S50000x128 .f32 := accumulate tgt c (sourceRows src x)

def aggregateChecked (src tgt : IVec S850000 32) (c : FVec F S850000 .f32) (x : FVec F S50000x128 .f32) :
    FVec F S50000x128 .f32 := accumulate tgt c (sourceRowsChecked src x)

end Cert.Graph
-- ==== Proof.Pool.lean ====
/-
  The sum of the node feature rows of each graph.
-/
import Idealize.ShloMosaic.PureOps
import Idealize.ShloMosaic.PureOps.Ideal
import Idealize.ShloMosaic.PureOps.Ideal.Laws
import Idealize.ShloMosaic.Lib.ValueIdx
import Idealize.ShloMosaic.Lib.IdealHost
import Idealize.ShloMosaic.Lib.FinSumWindow
import proofs.«402385_j8315056685617_1_alg».proof.Proof.Spec

noncomputable section

open scoped BigOperators

namespace Cert.Pool

open Idealize.ShloMosaic Idealize.ShloMosaic.ValueIdx
open Cert.Spec (Nodes Graphs Feat)

abbrev Ids : Shape := ⟨2, ![50000, 1]⟩

abbrev IdVec : Shape := ⟨1, ![50000]⟩

abbrev Scalar0 : Shape := ⟨0, ![]⟩

def pooled (h : Feat) (gid : Fin 50000 → BitVec 32) : Graphs.Idx → EReal :=
  fun j => ∑ n : Fin 50000, if gid n = BitVec.ofNat 32 (j 0).val then h (ix2 n (j 1)) else 0

theorem pooled_apply (h : Feat) (gid : Fin 50000 → BitVec 32) (g : Fin 256) (d : Fin 128) :
    pooled h gid (ix2 g d) = ∑ n : Fin 50000, if gid n = BitVec.ofNat 32 g.val then h (ix2 n d) else 0 := rfl

def pooledBelow (h : Feat) (gid : Fin 50000 → BitVec 32) (m : ℕ) : Graphs.Idx → EReal :=
  fun j => ∑ n : Fin 50000, if n.val < m then (if gid n = BitVec.ofNat 32 (j 0).val then h (ix2 n (j 1)) else 0) else 0

theorem pooledBelow_apply (h : Feat) (gid : Fin 50000 → BitVec 32) (m : ℕ) (g : Fin 256) (d : Fin 128) :
    pooledBelow h gid m (ix2 g d)
      = ∑ n : Fin 50000, if n.val < m then (if gid n = BitVec.ofNat 32 g.val then h (ix2 n d) else 0) else 0 := rfl

theorem pooledBelow_zero (h : Feat) (gid : Fin 50000 → BitVec 32) (j : Graphs.Idx) : pooledBelow h gid 0 j = 0 := by
  unfold pooledBelow
  exact Finset.sum_eq_zero fun n _ => if_neg (Nat.not_lt_zero _)

theorem pooledBelow_all (h : Feat) (gid : Fin 50000 → BitVec 32) {m : ℕ} (hm : 50000 ≤ m) :
    pooledBelow h gid m = pooled h gid := by
  funext j
  unfold pooledBelow pooled
  exact Finset.sum_congr rfl fun n _ => if_pos (lt_of_lt_of_le n.isLt hm)

theorem sum_below_add {N : ℕ} (f : Fin N → EReal) (lo W : ℕ) (hlo : lo + W ≤ N) :
    (∑ n : Fin N, if n.val < lo + W then f n else 0)
      = (∑ n : Fin N, if n.val < lo then f n else 0) + ∑ r : Fin W, f ⟨lo + r.val, by omega⟩ := by

  have split : ∀ n : Fin N, (if n.val < lo + W then f n else 0)
      = (if n.val < lo then f n else 0) + (if lo ≤ n.val ∧ n.val < lo + W then f n else 0) := by
    intro n
    by_cases h1 : n.val < lo
    · rw [if_pos (show n.val < lo + W by omega), if_pos h1, if_neg (show ¬(lo ≤ n.val ∧ n.val < lo + W) by omega), add_zero]
    · by_cases h2 : n.val < lo + W
      · rw [if_pos h2, if_neg h1, if_pos (show lo ≤ n.val ∧ n.val < lo + W from ⟨by omega, h2⟩), zero_add]
      · rw [if_neg h2, if_neg h1, if_neg (show ¬(lo ≤ n.val ∧ n.val < lo + W) by omega), add_zero]
  refine (Finset.sum_congr rfl fun n _ => split n).trans ?_
  rw [Finset.sum_add_distrib]
  congr 1

  rw [FinSumWindow.sum_window lo hlo (fun n : Fin N => if lo ≤ n.val ∧ n.val < lo + W then f n else 0)
    fun P hP => if_neg hP]
  exact Finset.sum_congr rfl fun r _ =>
    if_pos (show lo ≤ lo + r.val ∧ lo + r.val < lo + W from ⟨Nat.le_add_right _ _, Nat.add_lt_add_left r.isLt _⟩)

theorem pooledBelow_add (h : Feat) (gid : Fin 50000 → BitVec 32) (lo W : ℕ) (hlo : lo + W ≤ 50000)
    (g : Fin 256) (d : Fin 128) :
    pooledBelow h gid (lo + W) (ix2 g d)
      = pooledBelow h gid lo (ix2 g d)
        + ∑ r : Fin W, if gid ⟨lo + r.val, by omega⟩ = BitVec.ofNat 32 g.val then h (ix2 ⟨lo + r.val, by omega⟩ d) else 0 := by
  rw [pooledBelow_apply, pooledBelow_apply]
  exact sum_below_add (fun n : Fin 50000 => if gid n = BitVec.ofNat 32 g.val then h (ix2 n d) else 0) lo W hlo

theorem toInt_ofNat_small {g : ℕ} (hg : g < 2 ^ 31) : (BitVec.ofNat 32 g).toInt = (g : Int) := by
  have hn : (BitVec.ofNat 32 g).toNat = g := by
    rw [BitVec.toNat_ofNat]; exact Nat.mod_eq_of_lt (by omega)
  rw [BitVec.toInt_eq_toNat_cond, hn, if_pos (by omega)]

theorem toInt_eq_iff (x : BitVec 32) {g : ℕ} (hg : g < 256) : x.toInt = (g : Int) ↔ x = BitVec.ofNat 32 g := by
  constructor
  · intro hx
    apply BitVec.eq_of_toInt_eq
    rw [hx, toInt_ofNat_small (by omega)]
  · rintro rfl
    exact toInt_ofNat_small (by omega)

theorem poolScatter_wf : ScatterDims.WF Graphs Ids Nodes [1] [0] [0] 1 := by decide

def poolScatter : ScatterDims Graphs Ids Nodes where
  updateWindowDims := [1]
  insertedWindowDims := [0]
  scatterDimsToOperandDims := [0]
  indexVectorDim := 1
  wf := poolScatter_wf

theorem start_graph (j : Nodes.Idx) (idx : IVec Ids 32) : poolScatter.start j idx 0 = (idx (ix2 (j 0) 0)).toInt := by
  unfold ScatterDims.start
  rw [dif_pos (by decide)]
  congr 2
  funext b
  match b with
  | ⟨0, _⟩ => rfl
  | ⟨1, _⟩ => rfl

theorem start_chan (j : Nodes.Idx) (idx : IVec Ids 32) : poolScatter.start j idx 1 = 0 := by
  unfold ScatterDims.start
  rw [dif_neg (by decide)]

theorem window_graph (j : Nodes.Idx) : poolScatter.window j 0 = 0 := by
  unfold ScatterDims.window
  rw [dif_neg (by decide)]

theorem window_chan (j : Nodes.Idx) : poolScatter.window j 1 = (j 1).val := by
  unfold ScatterDims.window
  rw [dif_pos (by decide)]
  rfl

theorem lands_iff (n : Fin 50000) (d' : Fin 128) (idx : IVec Ids 32) (i : Graphs.Idx) :
    poolScatter.resultIdx? (ix2 n d') idx = some i
      ↔ idx (ix2 n 0) = BitVec.ofNat 32 (i 0).val ∧ d' = i 1 := by
  have hi0 : (i 0).val < 256 := idx2_lt0 i
  have hi1 : (i 1).val < 128 := idx2_lt1 i
  have hd : d'.val < 128 := d'.isLt
  rw [← toInt_eq_iff _ hi0]

  have e0 : poolScatter.start (ix2 n d') idx 0 + ((poolScatter.window (ix2 n d') 0 : ℕ) : Int)
      = (idx (ix2 n 0)).toInt := by
    rw [start_graph, window_graph, Nat.cast_zero, add_zero]
  have e1 : poolScatter.start (ix2 n d') idx 1 + ((poolScatter.window (ix2 n d') 1 : ℕ) : Int) = (d'.val : Int) := by
    rw [start_chan, window_chan, zero_add]
  unfold ScatterDims.resultIdx?
  split
  · rename_i hin
    rw [Option.some.injEq]
    constructor
    · intro hf
      have h0 := congrArg (fun k : Graphs.Idx => (k 0).val) hf
      have h1 := congrArg (fun k : Graphs.Idx => (k 1).val) hf
      dsimp only at h0 h1
      have hh0 := hin 0
      rw [e0] at h0 hh0
      rw [e1] at h1
      exact ⟨by omega, Fin.ext (by omega)⟩
    · rintro ⟨hx, rfl⟩
      funext a
      apply Fin.ext
      match a with
      | ⟨0, _⟩ =>
        show (poolScatter.start (ix2 n (i 1)) idx 0 + ((poolScatter.window (ix2 n (i 1)) 0 : ℕ) : Int)).toNat = (i 0).val
        rw [e0, hx, Int.toNat_natCast]
      | ⟨1, _⟩ =>
        show (poolScatter.start (ix2 n (i 1)) idx 1 + ((poolScatter.window (ix2 n (i 1)) 1 : ℕ) : Int)).toNat = (i 1).val
        rw [e1, Int.toNat_natCast]
  · rename_i hout
    constructor
    · intro hf
      exact absurd hf (by simp)
    · rintro ⟨hx, rfl⟩
      exfalso
      apply hout
      intro a
      match a with
      | ⟨0, _⟩ =>
        show 0 ≤ poolScatter.start (ix2 n (i 1)) idx 0 + ((poolScatter.window (ix2 n (i 1)) 0 : ℕ) : Int)
          ∧ poolScatter.start (ix2 n (i 1)) idx 0 + ((poolScatter.window (ix2 n (i 1)) 0 : ℕ) : Int) < ((256 : ℕ) : Int)
        rw [e0, hx]; omega
      | ⟨1, _⟩ =>
        show 0 ≤ poolScatter.start (ix2 n (i 1)) idx 1 + ((poolScatter.window (ix2 n (i 1)) 1 : ℕ) : Int)
          ∧ poolScatter.start (ix2 n (i 1)) idx 1 + ((poolScatter.window (ix2 n (i 1)) 1 : ℕ) : Int) < ((128 : ℕ) : Int)
        rw [e1]; omega

theorem lands_at_iff (n : Fin 50000) (d' : Fin 128) (idx : IVec Ids 32) (g : Fin 256) (d : Fin 128) :
    poolScatter.resultIdx? (ix2 n d') idx = some (ix2 g d)
      ↔ idx (ix2 n 0) = BitVec.ofNat 32 g.val ∧ d' = d :=
  lands_iff n d' idx (ix2 g d)

theorem sum_landing (idx : IVec Ids 32) (upd : Feat) (g : Fin 256) (d : Fin 128) :
    ∑ j ∈ Finset.univ.filter (fun j => poolScatter.resultIdx? j idx = some (ix2 g d)), upd j
      = ∑ n : Fin 50000, if idx (ix2 n 0) = BitVec.ofNat 32 g.val then upd (ix2 n d) else 0 := by

  rw [Finset.sum_filter, sum_idx2]
  refine Finset.sum_congr rfl fun n _ => ?_
  rw [Finset.sum_eq_single d]
  · exact if_congr ((lands_at_iff n d idx g d).trans (and_iff_left rfl)) rfl rfl
  · intro b _ hb
    rw [if_neg]
    rw [lands_at_iff]
    exact fun h => hb h.2
  · intro h
    exact absurd (Finset.mem_univ _) h

theorem scatterAdd_apply (x : Graphs.Idx → EReal) (idx : IVec Ids 32) (h : Feat) (i : Graphs.Idx) :
    Host.scatterAdd (F := Ideal) (φ := .f32) poolScatter x idx h i = x i + pooled h (fun n => idx (ix2 n 0)) i := by
  obtain ⟨g, d, rfl⟩ : ∃ (g : Fin 256) (d : Fin 128), i = ix2 g d := ⟨i 0, i 1, eq_ix2 i⟩
  show Ideal.hostScatterAdd poolScatter x idx h (ix2 g d) = _
  unfold Ideal.hostScatterAdd
  rw [sum_landing, pooled_apply]

theorem scatterAdd_zero (x : Graphs.Idx → EReal) (hx : ∀ i, x i = 0) (idx : IVec Ids 32) (h : Feat) :
    Host.scatterAdd (F := Ideal) (φ := .f32) poolScatter x idx h = pooled h (fun n => idx (ix2 n 0)) := by
  funext i
  rw [scatterAdd_apply, hx, zero_add]

theorem bcast_scalar_graphs : Scalar0.BroadcastsInDim Graphs (![] : Fin 0 → Fin Graphs.rank) := by decide
theorem bcast_idvec_ids : IdVec.BroadcastsInDim Ids (![0] : Fin 1 → Fin Ids.rank) := by decide

theorem scatterAdd_host (gid : IVec IdVec 32) (h : Feat) :
    Host.scatterAdd (F := Ideal) (φ := .f32) poolScatter
        (broadcastInDim Graphs ![] bcast_scalar_graphs (constant (F := Ideal) Scalar0 .f32 0x00000000#32))
        (broadcastInDim Ids ![0] bcast_idvec_ids gid) h
      = pooled h (fun n => gid (ix1 n)) := by
  rw [scatterAdd_zero _ (fun i => by
    rw [broadcastInDim_scalar_apply]
    exact Ideal.ofBits_zero_f32)]
  congr 1
  funext n

  unfold broadcastInDim
  congr 1
  funext a
  match a with
  | ⟨0, _⟩ => rfl

end Cert.Pool

end
-- ==== Proof.KPrologue.lean ====
/-
  The values the host operations before the first region compute.
-/
import proofs.«402385_j8315056685617_1_alg».proof.Proof.Gen.KernelIdeal.Frame
import proofs.«402385_j8315056685617_1_alg».proof.Proof.Graph
import proofs.«402385_j8315056685617_1_alg».proof.Proof.Network
import Idealize.ShloMosaic.Lib.StableHlo.Run
import Idealize.ShloMosaic.Lib.Pipeline.Value
import Idealize.ShloMosaic.Lib.ValueIdx

set_option maxRecDepth 16384

noncomputable section

namespace Cert.KernelIdeal.Chain

open Cert.KernelIdeal Cert.KernelIdeal.Gen
open Idealize.ShloMosaic Idealize.ShloMosaic.TcCoe Idealize.ShloMosaic.ValueIdx Idealize.ShloMosaic.Tactic
open Idealize.SL Idealize.SL.Sem

variable (m : (ℓ : Loc nD τ sig) → Buf (Elt Ideal) ℓ) (ρ : Dev nD → PrngReg) (c : Dev nD)

abbrev passed : List (Ref sig .tc) := [main_arg0, main_arg1, main_arg4, main_arg5, main_arg6, main_arg7]

section Stretches

variable (X : Valuation τ sig (Elt Ideal))

theorem first_rows :
    StableHlo.after hostOps0 X (Proc.devRef .tc main_v3) = Cert.Graph.rows (X (Proc.devRef .tc main_arg2)) := by
  after_results; rfl

theorem first_cols :
    StableHlo.after hostOps0 X (Proc.devRef .tc main_v6) = Cert.Graph.cols (X (Proc.devRef .tc main_arg2)) := by
  after_results; rfl

theorem first_weights :
    StableHlo.after hostOps0 X (Proc.devRef .tc main_v8) = Cert.Graph.weights (F := Ideal) (X (Proc.devRef .tc main_arg3)) := by
  after_results; rfl

theorem first_positive :
    StableHlo.after hostOps0 X (Proc.devRef .tc main_v13)
      = cmpf .ogt (Cert.Graph.degree (X (Proc.devRef .tc main_arg2)) (X (Proc.devRef .tc main_arg3)))
          (broadcastInDim Cert.Graph.S50000 ![] Cert.Graph.bcast_S_S50000
            (constant (F := Ideal) Cert.Graph.S_ .f32 0x00000000#32)) := by
  after_results; rfl

theorem first_rsqrt :
    StableHlo.after hostOps0 X (Proc.devRef .tc main_v14)
      = Host.rsqrt (Cert.Graph.degree (F := Ideal) (X (Proc.devRef .tc main_arg2)) (X (Proc.devRef .tc main_arg3))) := by
  after_results; rfl

theorem first_zero :
    StableHlo.after hostOps0 X (Proc.devRef .tc main_cst_2) = constant (F := Ideal) Cert.Graph.S_ .f32 0x00000000#32 := by
  after_results

set_option maxHeartbeats 1000000 in

theorem first_keeps : ∀ b ∈ passed, StableHlo.after hostOps0 X (Proc.devRef .tc b) = X (Proc.devRef .tc b) := by
  intro b hb
  simp only [passed, List.mem_cons, List.mem_nil_iff, or_false] at hb
  rcases hb with rfl | rfl | rfl | rfl | rfl | rfl <;> after_results

theorem second_dinv :
    StableHlo.after hostOps0_1 X (Proc.devRef .tc main_v15)
      = select (X (Proc.devRef .tc main_v13)) (X (Proc.devRef .tc main_v14))
          (broadcastInDim Cert.Graph.S50000 ![] Cert.Graph.bcast_S_S50000 (id (X (Proc.devRef .tc main_cst_2)))) := by
  after_results; rfl

theorem second_keeps : ∀ b ∈ main_v3 :: main_v6 :: main_v8 :: passed,
    StableHlo.after hostOps0_1 X (Proc.devRef .tc b) = X (Proc.devRef .tc b) := by
  intro b hb
  simp only [passed, List.mem_cons, List.mem_nil_iff, or_false] at hb
  rcases hb with rfl | rfl | rfl | rfl | rfl | rfl | rfl | rfl | rfl <;> after_results

set_option maxHeartbeats 4000000 in

theorem third_coeff :
    StableHlo.after hostOps0_2 X (Proc.devRef .tc main_v31)
      = (mulf (mulf (Host.gather Cert.Graph.gatherNodes (X (Proc.devRef .tc main_v15))
                (Cert.Graph.asColumn (Cert.Graph.wrapped (X (Proc.devRef .tc main_v3)))))
              (X (Proc.devRef .tc main_v8)))
          (Host.gather Cert.Graph.gatherNodes (X (Proc.devRef .tc main_v15))
            (Cert.Graph.asColumn (Cert.Graph.wrapped (X (Proc.devRef .tc main_v6))))) :
          FVec Ideal Cert.Graph.S850000 .f32) := by
  after_results; rfl

theorem slice_zero (ws : FVec Ideal S5x128x128 .f32) (hs : S5x128x128.Slices ![0, 0, 0] S1x128x128)
    (hc : S1x128x128.ShapeCasts S128x128) (p q : Fin 128) :
    shapeCast S128x128 (extractStridedSlice S1x128x128 ![0, 0, 0] ws hs) hc (ix2 p q) = ws (ix3 0 p q) := by
  refine (shapeCast_apply _ hc (ix2 p q) (ix3 (0 : Fin 1) p q) ?_).trans ?_
  · rw [Shape.rowMajor_val_three, Shape.rowMajor_val_two]
    show ((0 : Nat) * 128 + p.val) * 128 + q.val = p.val * 128 + q.val
    omega
  · refine extractStridedSlice_apply _ ws hs _ _ fun a => ?_
    match a with
    | ⟨0, _⟩ => rfl
    | ⟨1, _⟩ => show p.val = 0 + p.val; omega
    | ⟨2, _⟩ => show q.val = 0 + q.val; omega

theorem third_weight :
    StableHlo.after hostOps0_2 X (Proc.devRef .tc main_v33) = Cert.Network.weight 0 (X (Proc.devRef .tc main_arg4)) := by
  after_results
  funext j
  obtain ⟨p, q, rfl⟩ : ∃ (p q : Fin 128), j = ix2 p q := ⟨j 0, j 1, eq_ix2 j⟩
  exact slice_zero (X (Proc.devRef .tc main_arg4)) _ _ p q

set_option maxHeartbeats 1000000 in

theorem third_keeps : ∀ b ∈ main_v3 :: main_v6 :: passed,
    StableHlo.after hostOps0_2 X (Proc.devRef .tc b) = X (Proc.devRef .tc b) := by
  intro b hb
  simp only [passed, List.mem_cons, List.mem_nil_iff, or_false] at hb
  rcases hb with rfl | rfl | rfl | rfl | rfl | rfl | rfl | rfl <;> after_results

end Stretches

theorem W1_rows :
    W1 m ρ c (Proc.devRef .tc main_v3) = Cert.Graph.rows (m ((c.tc : Thread nD τ).loc main_arg2)) :=
  first_rows (W0 m ρ c)

theorem W1_cols :
    W1 m ρ c (Proc.devRef .tc main_v6) = Cert.Graph.cols (m ((c.tc : Thread nD τ).loc main_arg2)) :=
  first_cols (W0 m ρ c)

theorem W1_weights :
    W1 m ρ c (Proc.devRef .tc main_v8) = Cert.Graph.weights (F := Ideal) (m ((c.tc : Thread nD τ).loc main_arg3)) :=
  first_weights (W0 m ρ c)

theorem W1_positive :
    W1 m ρ c (Proc.devRef .tc main_v13)
      = cmpf .ogt (Cert.Graph.degree (m ((c.tc : Thread nD τ).loc main_arg2)) (m ((c.tc : Thread nD τ).loc main_arg3)))
          (broadcastInDim Cert.Graph.S50000 ![] Cert.Graph.bcast_S_S50000
            (constant (F := Ideal) Cert.Graph.S_ .f32 0x00000000#32)) :=
  first_positive (W0 m ρ c)

theorem W1_rsqrt :
    W1 m ρ c (Proc.devRef .tc main_v14)
      = Host.rsqrt (Cert.Graph.degree (F := Ideal) (m ((c.tc : Thread nD τ).loc main_arg2)) (m ((c.tc : Thread nD τ).loc main_arg3))) :=
  first_rsqrt (W0 m ρ c)

theorem W1_zero :
    W1 m ρ c (Proc.devRef .tc main_cst_2) = constant (F := Ideal) Cert.Graph.S_ .f32 0x00000000#32 :=
  first_zero (W0 m ρ c)

theorem W1_passed : ∀ b ∈ passed, W1 m ρ c (Proc.devRef .tc b) = m ((c.tc : Thread nD τ).loc b) :=
  fun b hb => first_keeps (W0 m ρ c) b hb

theorem W2_dinv :
    W2 m ρ c (Proc.devRef .tc main_v15)
      = Cert.Graph.dinv (F := Ideal) (m ((c.tc : Thread nD τ).loc main_arg2)) (m ((c.tc : Thread nD τ).loc main_arg3)) := by
  refine (second_dinv (W1 m ρ c)).trans ?_
  rw [W1_positive, W1_rsqrt, W1_zero]
  rfl

theorem W2_rows :
    W2 m ρ c (Proc.devRef .tc main_v3) = Cert.Graph.rows (m ((c.tc : Thread nD τ).loc main_arg2)) :=
  (second_keeps (W1 m ρ c) main_v3 List.mem_cons_self).trans (W1_rows m ρ c)

theorem W2_cols :
    W2 m ρ c (Proc.devRef .tc main_v6) = Cert.Graph.cols (m ((c.tc : Thread nD τ).loc main_arg2)) :=
  (second_keeps (W1 m ρ c) main_v6 (List.mem_cons_of_mem _ List.mem_cons_self)).trans (W1_cols m ρ c)

theorem W2_weights :
    W2 m ρ c (Proc.devRef .tc main_v8) = Cert.Graph.weights (F := Ideal) (m ((c.tc : Thread nD τ).loc main_arg3)) :=
  (second_keeps (W1 m ρ c) main_v8 (List.mem_cons_of_mem _ (List.mem_cons_of_mem _ List.mem_cons_self))).trans
    (W1_weights m ρ c)

theorem W2_passed : ∀ b ∈ passed, W2 m ρ c (Proc.devRef .tc b) = m ((c.tc : Thread nD τ).loc b) :=
  fun b hb =>
    (second_keeps (W1 m ρ c) b (List.mem_cons_of_mem _ (List.mem_cons_of_mem _ (List.mem_cons_of_mem _ hb)))).trans
      (W1_passed m ρ c b hb)

theorem W3_rows :
    W3 m ρ c (Proc.devRef .tc main_v3) = Cert.Graph.rows (m ((c.tc : Thread nD τ).loc main_arg2)) :=
  (third_keeps (W2 m ρ c) main_v3 List.mem_cons_self).trans (W2_rows m ρ c)

theorem W3_cols :
    W3 m ρ c (Proc.devRef .tc main_v6) = Cert.Graph.cols (m ((c.tc : Thread nD τ).loc main_arg2)) :=
  (third_keeps (W2 m ρ c) main_v6 (List.mem_cons_of_mem _ List.mem_cons_self)).trans (W2_cols m ρ c)

theorem W3_coeff :
    W3 m ρ c (Proc.devRef .tc main_v31)
      = Cert.Graph.coeff (F := Ideal) (m ((c.tc : Thread nD τ).loc main_arg2)) (m ((c.tc : Thread nD τ).loc main_arg3)) := by
  refine (third_coeff (W2 m ρ c)).trans ?_
  rw [W2_dinv, W2_rows, W2_cols, W2_weights]
  rfl

theorem W3_passed : ∀ b ∈ passed, W3 m ρ c (Proc.devRef .tc b) = m ((c.tc : Thread nD τ).loc b) :=
  fun b hb =>
    (third_keeps (W2 m ρ c) b (List.mem_cons_of_mem _ (List.mem_cons_of_mem _ hb))).trans (W2_passed m ρ c b hb)

theorem W3_weight :
    W3 m ρ c (Proc.devRef .tc main_v33) = Cert.Network.weight 0 (m ((c.tc : Thread nD τ).loc main_arg4)) := by
  refine (third_weight (W2 m ρ c)).trans ?_
  rw [W2_passed m ρ c main_arg4 (by decide)]

theorem W3_arg0 : W3 m ρ c (Proc.devRef .tc main_arg0) = m ((c.tc : Thread nD τ).loc main_arg0) :=
  W3_passed m ρ c main_arg0 (by decide)
theorem W3_arg1 : W3 m ρ c (Proc.devRef .tc main_arg1) = m ((c.tc : Thread nD τ).loc main_arg1) :=
  W3_passed m ρ c main_arg1 (by decide)
theorem W3_arg4 : W3 m ρ c (Proc.devRef .tc main_arg4) = m ((c.tc : Thread nD τ).loc main_arg4) :=
  W3_passed m ρ c main_arg4 (by decide)
theorem W3_arg5 : W3 m ρ c (Proc.devRef .tc main_arg5) = m ((c.tc : Thread nD τ).loc main_arg5) :=
  W3_passed m ρ c main_arg5 (by decide)
theorem W3_arg6 : W3 m ρ c (Proc.devRef .tc main_arg6) = m ((c.tc : Thread nD τ).loc main_arg6) :=
  W3_passed m ρ c main_arg6 (by decide)
theorem W3_arg7 : W3 m ρ c (Proc.devRef .tc main_arg7) = m ((c.tc : Thread nD τ).loc main_arg7) :=
  W3_passed m ρ c main_arg7 (by decide)

end Cert.KernelIdeal.Chain

end
-- ==== Proof.LayerLib.lean ====
/-
  What every layer of the kernel program shares: a layer's slices of the stacked parameters, and the bounds-tested
  row lookup as three functions (index table, bounds mask, rows or fill word).
-/
import proofs.«402385_j8315056685617_1_alg».proof.Proof.Gen.KernelIdeal
import proofs.«402385_j8315056685617_1_alg».proof.Proof.Graph
import proofs.«402385_j8315056685617_1_alg».proof.Proof.Network
import Idealize.ShloMosaic.Lib.Pipeline.Value
import Idealize.ShloMosaic.Lib.ValueIdx
import Idealize.ShloMosaic.Lib.ValueLayout

set_option maxRecDepth 16384

noncomputable section

namespace Cert.KernelIdeal.LayerLib

open Cert.KernelIdeal Cert.KernelIdeal.Gen
open Idealize.ShloMosaic Idealize.ShloMosaic.TcCoe Idealize.ShloMosaic.ValueIdx

abbrev row (a : S1x128.Idx → EReal) : Cert.Spec.Chan := fun d => a (ix2 0 d)

theorem weight_slice (i : Fin 5) (ws : S5x128x128.Idx → EReal) (h : S5x128x128.Slices ![i.val, 0, 0] S1x128x128)
    (h' : S1x128x128.ShapeCasts S128x128) :
    shapeCast S128x128 (extractStridedSlice S1x128x128 ![i.val, 0, 0] ws h) h' = Cert.Network.weight i ws := by
  funext j
  obtain ⟨p, q, rfl⟩ : ∃ (p : Fin 128) (q : Fin 128), j = ix2 p q := ⟨j 0, j 1, eq_ix2 j⟩
  rw [shapeCast_1ab_ab_apply]
  exact extractStridedSlice_apply _ _ _ _ (ix3 i p q) (fun a => match a with
    | ⟨0, _⟩ => (Nat.add_zero _).symm | ⟨1, _⟩ => (Nat.zero_add _).symm | ⟨2, _⟩ => (Nat.zero_add _).symm)

theorem chan_slice (i : Fin 5) (ps : S5x128.Idx → EReal) (h : S5x128.Slices ![i.val, 0] S1x128)
    (h1 : S1x128.ShapeCasts S128) (h2 : S128.ShapeCasts S1x128) :
    row (shapeCast S1x128 (shapeCast S128 (extractStridedSlice S1x128 ![i.val, 0] ps h) h1) h2) = Cert.Network.chan i ps := by
  funext d
  show shapeCast S1x128 (shapeCast S128 (extractStridedSlice S1x128 ![i.val, 0] ps h) h1) h2 (ix2 0 d) = _
  rw [shapeCast_a_1a_apply, shapeCast_1a_a_apply]
  exact extractStridedSlice_apply _ _ _ _ (ix2 i d) (fun a => match a with
    | ⟨0, _⟩ => (Nat.add_zero _).symm | ⟨1, _⟩ => (Nat.zero_add _).symm)

section Lookup

variable {F : FTy → Type} [FloatOps F]

def lookupIdx (s : IVec S850000 32) : IVec S850000x1 32 :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

def lookupMask (i : IVec S850000x1 32) : IVec S850000 1 :=
  Host.reduce IntOp.andi
    (andi (cmpi .sge i (broadcastInDim S850000x1 ![] bcast_S_S850000x1 (constantI S_ 32 0#32)))
      (cmpi .sle i
        (broadcastInDim S850000x1 ![0, 1] bcast_S1x1_S850000x1_0_1
          (broadcastInDim S1x1 ![1] bcast_S1_S1x1_1 (constantI S1 32 49999#32)))))
    (constantI S_ 1 1#1) reducesTo_S850000x1_S850000_d1 h_S_

def lookupRows (k : IVec S850000 1) (x : FVec F S50000x128 .f32) (i : IVec S850000x1 32) : FVec F S850000x128 .f32 :=
  select (broadcastInDim S850000x128 ![0] bcast_S850000_S850000x128_0 k)
    (Host.gather gather_S50000x128_S850000x1_S850000x128_1_0_n_n_0_1_1128 x i)
    (broadcastInDim S850000x128 ![] bcast_S_S850000x128 (constant S_ .f32 0x7FC00000#32))

end Lookup

theorem lookup_eq (s : IVec S850000 32) (x : FVec Ideal S50000x128 .f32) :
    lookupRows (F := Ideal) (lookupMask (lookupIdx s)) x (lookupIdx s) = Cert.Graph.sourceRowsChecked s x := rfl

end Cert.KernelIdeal.LayerLib

end
-- ==== Proof.LibDotPlain.lean ====
/-
  A plain matrix product at one entry is the sum over the contracted index.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

def col (k : (DotDims.plain M K N).contr.Idx) : Fin K := contrEquiv1 (DotDims.plain M K N) K rfl rfl k

theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

theorem left_row (e : (⟨2, ![M, N]⟩ : Shape).Idx) (k : (DotDims.plain M K N).contr.Idx) :
    ((DotDims.plain M K N).lhsIdx e k 0).val = (e 0).val := rfl

theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

theorem right_col (e : (⟨2, ![M, N]⟩ : Shape).Idx) (k : (DotDims.plain M K N).contr.Idx) :
    ((DotDims.plain M K N).rhsIdx e k 1).val = (e 1).val := rfl

theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.Region0.lean ====
/-
  The matrix-product region: ten blocks of 5000 feature rows times the weight matrix are the ten row blocks of the
  full product, and together they fill the output.
-/
import proofs.«402385_j8315056685617_1_alg».proof.Proof.Gen.KernelIdeal.Frame
import proofs.«402385_j8315056685617_1_alg».proof.Proof.Spec
import proofs.«402385_j8315056685617_1_alg».proof.Proof.LibDotPlain
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

theorem payload_entry (x : FVec Ideal S5000x128 .f32) (w : FVec Ideal S128x128 .f32) (r : Fin 5000) (d : Fin 128) :
    k0_pay1 (F := Ideal) x w (ix2 r d) = ∑ q : Fin 128, x (ix2 r q) * w (ix2 q d) := by
  unfold k0_pay1
  simp only [shapeCast_self]
  exact Cert.LibDotPlain.matmul_zero_plain 5000 128 128 none _ _ r d

theorem block_numbers : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) ≤ 9 ∧ win0_2.index t (1 : Fin 2) = 0 :=
  (by decide +kernel : ∀ t : Fin grid0.N, _)

theorem block_numbers_onto : ∀ b : Fin 10, ∃ t : Fin cfg0.N, win0_2.index t (0 : Fin 2) = b.val :=
  (by decide +kernel : ∀ b : Fin 10, ∃ t : Fin grid0.N, win0_2.index t (0 : Fin 2) = b.val)

theorem feature_block (c : Dev nD) (t : Fin cfg0.N) (r : Fin 5000) (q : Fin 128) (k : S50000x128.Idx)
    (hrow : (k 0).val = win0_2.index t (0 : Fin 2) * 5000 + r.val) (hcol : (k 1).val = q.val) :
    (iblk0 V c 0 t : FVec Ideal S5000x128 .f32) (ix2 r q)
      = (V c (Pipeline.arrRef spec0 0) : S50000x128.Idx → EReal) k := by
  obtain ⟨erow, ecol, -⟩ := block_numbers t
  show V c (Pipeline.arrRef spec0 0) (((cfg0.win 0).blk t).view.emb (ix2 r q)) = V c (Pipeline.arrRef spec0 0) k
  refine congrArg (V c (Pipeline.arrRef spec0 0)) ?_
  funext a
  apply Fin.ext
  match a with
  | ⟨0, _⟩ => show win0_0.index t (0 : Fin 2) * 5000 + 1 * r.val = (k 0).val; omega
  | ⟨1, _⟩ => show win0_0.index t (1 : Fin 2) * 128 + 1 * q.val = (k 1).val; omega

theorem weight_block (c : Dev nD) (t : Fin cfg0.N) (q d : Fin 128) :
    (iblk0 V c 1 t : FVec Ideal S128x128 .f32) (ix2 q d)
      = (V c (Pipeline.arrRef spec0 1) : S128x128.Idx → EReal) (ix2 q d) := by
  obtain ⟨-, -, erow, ecol, -⟩ := block_numbers t
  show V c (Pipeline.arrRef spec0 1) (((cfg0.win 1).blk t).view.emb (ix2 q d)) = V c (Pipeline.arrRef spec0 1) (ix2 q d)
  refine congrArg (V c (Pipeline.arrRef spec0 1)) ?_
  funext a
  apply Fin.ext
  match a with
  | ⟨0, _⟩ => show win0_1.index t (0 : Fin 2) * 128 + 1 * q.val = q.val; omega
  | ⟨1, _⟩ => show win0_1.index t (1 : Fin 2) * 128 + 1 * d.val = d.val; omega

theorem block_product (c : Dev nD) (t : Fin cfg0.N) (y : S5000x128.Idx) :
    k0_pay1 (F := Ideal) (iblk0 V c 0 t) (iblk0 V c 1 t) y
      = Cert.Spec.product (V c (Pipeline.arrRef spec0 0)) (V c (Pipeline.arrRef spec0 1))
          (((cfg0.win 2).blk t).view.emb y) := by
  obtain ⟨r, d, rfl⟩ : ∃ (r : Fin 5000) (d : Fin 128), y = ix2 r d := ⟨y 0, y 1, eq_ix2 y⟩
  obtain ⟨-, -, -, -, -, ecol⟩ := block_numbers t
  refine (payload_entry (iblk0 V c 0 t) (iblk0 V c 1 t) r d).trans ?_
  unfold Cert.Spec.product
  refine Finset.sum_congr rfl fun q _ => ?_
  refine congrArg₂ (· * ·) ?_ ?_
  · refine feature_block V c t r q _ ?_ rfl
    show win0_2.index t (0 : Fin 2) * 5000 + 1 * r.val = win0_2.index t (0 : Fin 2) * 5000 + r.val
    omega
  · refine (weight_block V c t q d).trans ?_
    refine congrArg (V c (Pipeline.arrRef spec0 1)) ?_
    funext a
    apply Fin.ext
    match a with
    | ⟨0, _⟩ => rfl
    | ⟨1, _⟩ => show d.val = win0_2.index t (1 : Fin 2) * 128 + 1 * d.val; omega

theorem written_back (c : Dev nD) (t : Fin cfg0.N) :
    (dat0 (F := Ideal) V c).flushed 2 t
      = ((cfg0.win 2).blk t).view.read (Elt Ideal)
          (Cert.Spec.product (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero zero_offsets]
  simp only [View.ld_unit_zero (S := S5000x128) zero_offsets, View.ld_unit_zero (S := S128x128) zero_offsets]
  funext j
  exact block_product V c t j

theorem mem_block (t : Fin cfg0.N) (i : S50000x128.Idx) :
    i ∈ ((cfg0.win 2).blk t).view.set
      ↔ ∀ a : Fin 2, win0_2.index t a * S5000x128.size a ≤ (i a).val
          ∧ (i a).val < win0_2.index t a * S5000x128.size a + S5000x128.size a := by
  show i ∈ ((View.whole (Pipeline.arrRef spec0 2)).slice (win0_2.rect t)).set ↔ _
  rw [View.set_slice_whole, Rect.mem_set_unit]
  exact Iff.rfl

theorem covered (i : S50000x128.Idx) :
    ∃ t : Fin cfg0.N, (cfg0.win 2).flush t = true ∧ i ∈ ((cfg0.win 2).blk t).view.set := by
  have hrow : (i 0).val < 50000 := (i 0).isLt
  have hcol : (i 1).val < 128 := (i 1).isLt
  obtain ⟨t, ht⟩ := block_numbers_onto ⟨(i 0).val / 5000, by omega⟩
  have ht' : win0_2.index t (0 : Fin 2) = (i 0).val / 5000 := ht
  obtain ⟨-, -, -, -, -, ecol⟩ := block_numbers t
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

theorem value (c : Dev nD) :
    (dat0 (F := Ideal) V c).arrAt 2 cfg0.N
      = Cert.Spec.product (V c (Pipeline.arrRef spec0 0)) (V c (Pipeline.arrRef spec0 1)) :=
  (dat0 (F := Ideal) V c).arrAt_eq_of_cover 2
    (Cert.Spec.product (V c (Pipeline.arrRef spec0 0)) (V c (Pipeline.arrRef spec0 1)))
    (fun t _ => written_back V c t) (covered)

end Cert.KernelIdeal.Region0

end
-- ==== Proof.Region1.lean ====
/-
  The statistics region: the biased features block by block, and per channel the sum and the sum of squares over
  all nodes, accumulated over the ten blocks (only associativity of addition is used).
-/
import proofs.«402385_j8315056685617_1_alg».proof.Proof.Gen.KernelIdeal.Frame
import proofs.«402385_j8315056685617_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open scoped BigOperators

variable (V : (c : Dev nD) → (b : Ref sig .tc) → Buf (Elt Ideal) ((c : Thread nD τ).loc b))

abbrev biased (c : Dev nD) : Cert.Spec.Feat :=
  Cert.Spec.shifted (V c (Pipeline.arrRef spec1 0)) (fun d => V c (Pipeline.arrRef spec1 1) (ix2 0 d))

variable {F : FTy → Type} [FloatOps F]

theorem offsets_zero : (![0, 0] : Fin 2 → Nat) = fun _ => 0 := funext fun a => by fin_cases a <;> rfl

section Pieces

variable (c : Dev nD) (i : grid1.Coords) (ma : Memref sig .tc .vmem S5000x128 .f32) (hma : ma.IsWhole) (mb : Memref sig .tc .vmem S1x128 .f32) (hmb : mb.IsWhole)
  (mx : Memref sig .tc .vmem S5000x128 .f32) (hmx : mx.IsWhole) (ms : Memref sig .tc .vmem S1x128 .f32) (hms : ms.IsWhole) (mq : Memref sig .tc .vmem S1x128 .f32) (hmq : mq.IsWhole)
  (a : Vec F S5000x128 .f32) (b s q : Vec F S1x128 .f32)

theorem first_biased (hc : cond1_0 i) :
    out1_A_2 c i ma hma mb hmb mx hmx ms hms mq hmq hc a b = k1_pay3 a b := by
  unfold out1_A_2
  rw [View.read_writes_eq_canon _ _ _ (cover1_A_2 c i ma hma mb hmb mx hmx ms hms mq hmq hc a b)]
  unfold kernelRun1_A
  dsimp only
  sl_unfold_words
  rw [View.canon_unit_zero offsets_zero]
  simp only [View.readAt_eq_ld, hma.read_unread, hmb.read_unread, View.ld_unit_zero (S := S5000x128) offsets_zero,
    View.ld_unit_zero (S := S1x128) offsets_zero]

theorem first_sums (hc : cond1_0 i) :
    out1_A_3 c i ma hma mb hmb mx hmx ms hms mq hmq hc a b = k1_pay4 a b (k1_pay1 (F := F)) := by
  unfold out1_A_3
  rw [View.read_writes_eq_canon _ _ _ (cover1_A_3 c i ma hma mb hmb mx hmx ms hms mq hmq hc a b)]
  unfold kernelRun1_A
  dsimp only
  sl_unfold_words
  rw [View.canon_cons_unit_zero (S := S1x128) offsets_zero, View.readCov_unit_zero (S := S1x128) _ offsets_zero]
  simp only [View.readAt_eq_ld, hma.read_unread, hmb.read_unread, View.ld_unit_zero (S := S5000x128) offsets_zero,
    View.ld_unit_zero (S := S1x128) offsets_zero]

theorem first_squares (hc : cond1_0 i) :
    out1_A_4 c i ma hma mb hmb mx hmx ms hms mq hmq hc a b = k1_pay5 a b (k1_pay2 (F := F)) := by
  unfold out1_A_4
  rw [View.read_writes_eq_canon _ _ _ (cover1_A_4 c i ma hma mb hmb mx hmx ms hms mq hmq hc a b)]
  unfold kernelRun1_A
  dsimp only
  sl_unfold_words
  rw [View.canon_cons_unit_zero (S := S1x128) offsets_zero, View.readCov_unit_zero (S := S1x128) _ offsets_zero]
  simp only [View.readAt_eq_ld, hma.read_unread, hmb.read_unread, View.ld_unit_zero (S := S5000x128) offsets_zero,
    View.ld_unit_zero (S := S1x128) offsets_zero]

theorem later_biased (hc : ¬cond1_0 i) :
    out1_B_2 c i ma hma mb hmb mx hmx ms hms mq hmq hc a b s q = k1_pay3 a b := by
  unfold out1_B_2
  rw [View.read_writes_eq_canon _ _ _ (cover1_B_2 c i ma hma mb hmb mx hmx ms hms mq hmq hc a b s q)]
  unfold kernelRun1_B
  dsimp only
  sl_unfold_words
  rw [View.canon_unit_zero offsets_zero]
  simp only [View.readAt_eq_ld, hma.read_unread, hmb.read_unread, View.ld_unit_zero (S := S5000x128) offsets_zero,
    View.ld_unit_zero (S := S1x128) offsets_zero]

theorem later_sums (hc : ¬cond1_0 i) :
    out1_B_3 c i ma hma mb hmb mx hmx ms hms mq hmq hc a b s q = k1_pay4 a b s := by
  unfold out1_B_3
  rw [View.read_writes_eq_canon _ _ _ (cover1_B_3 c i ma hma mb hmb mx hmx ms hms mq hmq hc a b s q)]
  unfold kernelRun1_B
  dsimp only
  sl_unfold_words
  rw [View.canon_unit_zero offsets_zero]
  simp only [View.readAt_eq_ld, hma.read_unread, hmb.read_unread, hms.read_unread, View.ld_unit_zero (S := S5000x128) offsets_zero,
    View.ld_unit_zero (S := S1x128) offsets_zero]

theorem later_squares (hc : ¬cond1_0 i) :
    out1_B_4 c i ma hma mb hmb mx hmx ms hms mq hmq hc a b s q = k1_pay5 a b q := by
  unfold out1_B_4
  rw [View.read_writes_eq_canon _ _ _ (cover1_B_4 c i ma hma mb hmb mx hmx ms hms mq hmq hc a b s q)]
  unfold kernelRun1_B
  dsimp only
  sl_unfold_words
  rw [View.canon_unit_zero offsets_zero]
  simp only [View.readAt_eq_ld, hma.read_unread, hmb.read_unread, hmq.read_unread, View.ld_unit_zero (S := S5000x128) offsets_zero,
    View.ld_unit_zero (S := S1x128) offsets_zero]

end Pieces

theorem row_in_channel (d : Fin 128) (p : Fin 5000) :
    reduces_S5000x128_S128.lift (ix1 d) p = ix2 p d := by
  funext a
  apply Fin.ext
  match a with
  | ⟨0, _⟩ => rfl
  | ⟨1, _⟩ => rfl

theorem biased_block_apply (a : Vec Ideal S5000x128 .f32) (b : Vec Ideal S1x128 .f32) (p : Fin 5000) (d : Fin 128) :
    k1_pay3 a b (ix2 p d) = a (ix2 p d) + b (ix2 0 d) := by
  unfold k1_pay3
  refine (addf_apply _ _ _).trans ?_
  refine congrArg₂ (· + ·) (congrFun (shapeCast_self a _) _) ?_
  refine (broadcastTo_1b_ab_apply _ _ p d).trans ?_
  exact congrFun (shapeCast_self b _) _

theorem zero_row_apply (d : Fin 128) : (k1_pay1 (F := Ideal)) (ix2 0 d) = 0 := by
  unfold k1_pay1
  exact Ideal.ofBits_zero_f32

theorem zero_row_apply' (d : Fin 128) : (k1_pay2 (F := Ideal)) (ix2 0 d) = 0 := by
  unfold k1_pay2
  exact Ideal.ofBits_zero_f32

theorem sums_step_apply (a : Vec Ideal S5000x128 .f32) (b : Vec Ideal S1x128 .f32) (s : Vec Ideal S1x128 .f32) (d : Fin 128) :
    k1_pay4 a b s (ix2 0 d) = s (ix2 0 d) + ∑ p : Fin 5000, k1_pay3 a b (ix2 p d) := by
  unfold k1_pay4
  dsimp only
  refine (addf_apply _ _ _).trans ?_
  refine congrArg₂ (· + ·) (congrFun (shapeCast_self s _) _) ?_
  refine (shapeCast_a_1a_apply _ _ 0 d).trans ?_
  refine (Ideal.multiReduction_add_single _ _ _ _ _ _).trans ?_
  exact Finset.sum_congr rfl fun p _ => congrArg (k1_pay3 a b) (row_in_channel d p)

theorem squares_step_apply (a : Vec Ideal S5000x128 .f32) (b : Vec Ideal S1x128 .f32) (q : Vec Ideal S1x128 .f32) (d : Fin 128) :
    k1_pay5 a b q (ix2 0 d) = q (ix2 0 d) + ∑ p : Fin 5000, k1_pay3 a b (ix2 p d) * k1_pay3 a b (ix2 p d) := by
  unfold k1_pay5
  dsimp only
  refine (addf_apply _ _ _).trans ?_
  refine congrArg₂ (· + ·) (congrFun (shapeCast_self q _) _) ?_
  refine (shapeCast_a_1a_apply _ _ 0 d).trans ?_
  refine (Ideal.multiReduction_add_single _ _ _ _ _ _).trans ?_
  refine Finset.sum_congr rfl fun p _ => ?_
  refine (mulf_apply _ _ _).trans ?_
  rw [row_in_channel d p]

theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

theorem point_lt (t : Fin cfg1.N) : t.val < 10 := lt_of_lt_of_eq t.isLt (show cfg1.N = 10 from N_1)

def rowOf (t : Fin cfg1.N) (p : Fin 5000) : Fin 50000 := ⟨5000 * t.val + p.val, by have := point_lt t; omega⟩

abbrev featBlock (c : Dev nD) (t : Fin cfg1.N) : Vec Ideal S5000x128 .f32 := iblk1 V c 0 t
abbrev biasBlock (c : Dev nD) (t : Fin cfg1.N) : Vec Ideal S1x128 .f32 := iblk1 V c 1 t
abbrev featArr (c : Dev nD) : Vec Ideal S50000x128 .f32 := V c (Pipeline.arrRef spec1 0)
abbrev biasArr (c : Dev nD) : Vec Ideal S1x128 .f32 := V c (Pipeline.arrRef spec1 1)

theorem featBlock_apply (c : Dev nD) (t : Fin cfg1.N) (p : Fin 5000) (d : Fin 128) :
    featBlock V c t (ix2 p d) = featArr V c (ix2 (rowOf t p) d) := by
  obtain ⟨ea, eb, -⟩ := index_facts t
  show V c (Pipeline.arrRef spec1 0) (((cfg1.win 0).blk t).view.emb (ix2 p d)) = V c (Pipeline.arrRef spec1 0) (ix2 (rowOf t p) d)
  refine congrArg _ (funext fun a => Fin.ext ?_)
  match a with
  | ⟨0, _⟩ => show win1_0.index t (0 : Fin 2) * 5000 + 1 * p.val = 5000 * t.val + p.val; omega
  | ⟨1, _⟩ => show win1_0.index t (1 : Fin 2) * 128 + 1 * d.val = d.val; omega

theorem biasBlock_apply (c : Dev nD) (t : Fin cfg1.N) (d : Fin 128) :
    biasBlock V c t (ix2 0 d) = biasArr V c (ix2 0 d) := by
  obtain ⟨-, -, ea, eb, -⟩ := index_facts t
  show V c (Pipeline.arrRef spec1 1) (((cfg1.win 1).blk t).view.emb (ix2 0 d)) = V c (Pipeline.arrRef spec1 1) (ix2 0 d)
  refine congrArg _ (funext fun a => Fin.ext ?_)
  match a with
  | ⟨0, _⟩ => show win1_1.index t (0 : Fin 2) * 1 + 1 * 0 = 0; omega
  | ⟨1, _⟩ => show win1_1.index t (1 : Fin 2) * 128 + 1 * d.val = d.val; omega

theorem stored_block_apply (c : Dev nD) (t : Fin cfg1.N) (p : Fin 5000) (d : Fin 128) :
    k1_pay3 (featBlock V c t) (biasBlock V c t) (ix2 p d) = biased V c (ix2 (rowOf t p) d) := by
  rw [biased_block_apply, featBlock_apply, biasBlock_apply]
  rfl

theorem outs_first (c : Dev nD) (t : Fin cfg1.N) (h : t.val % 10 = 0) :
    outsAt1 V c t.val t.isLt
      = (k1_pay3 (featBlock V c t) (biasBlock V c t),
         k1_pay4 (featBlock V c t) (biasBlock V c t) (k1_pay1 (F := Ideal)),
         k1_pay5 (featBlock V c t) (biasBlock V c t) (k1_pay2 (F := Ideal))) := by
  rw [outsAt1_A V c t h,
    first_biased (F := Ideal) c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) ((hcond1_0 t).mpr h),
    first_sums (F := Ideal) c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) ((hcond1_0 t).mpr h),
    first_squares (F := Ideal) c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) ((hcond1_0 t).mpr h)]

theorem before_lt (t : Fin cfg1.N) : t.val - 1 < cfg1.N := Nat.lt_of_le_of_lt (Nat.sub_le _ _) t.isLt

theorem outs_later (c : Dev nD) (t : Fin cfg1.N) (h : ¬t.val % 10 = 0) :
    outsAt1 V c t.val t.isLt
      = (k1_pay3 (featBlock V c t) (biasBlock V c t),
         k1_pay4 (featBlock V c t) (biasBlock V c t) (outsAt1 V c (t.val - 1) (before_lt t)).2.1,
         k1_pay5 (featBlock V c t) (biasBlock V c t) (outsAt1 V c (t.val - 1) (before_lt t)).2.2) := by
  rw [outsAt1_B V c t h,
    later_biased (F := Ideal) c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) (outsAt1 V c (t.val - 1) (before_lt t)).2.1 (outsAt1 V c (t.val - 1) (before_lt t)).2.2 (fun g => h ((hcond1_0 t).mp g)),
    later_sums (F := Ideal) c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) (outsAt1 V c (t.val - 1) (before_lt t)).2.1 (outsAt1 V c (t.val - 1) (before_lt t)).2.2 (fun g => h ((hcond1_0 t).mp g)),
    later_squares (F := Ideal) c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) (outsAt1 V c (t.val - 1) (before_lt t)).2.1 (outsAt1 V c (t.val - 1) (before_lt t)).2.2 (fun g => h ((hcond1_0 t).mp g))]

def entry (c : Dev nD) (d : Fin 128) (r : ℕ) : EReal :=
  if h : r < 50000 then biased V c (ix2 ⟨r, h⟩ d) else 0

theorem entry_block (c : Dev nD) (d : Fin 128) (t : Fin cfg1.N) (p : Fin 5000) :
    entry V c d (5000 * t.val + p.val) = biased V c (ix2 (rowOf t p) d) := by
  have h : 5000 * t.val + p.val < 50000 := by have := point_lt t; omega
  unfold entry
  rw [dif_pos h]
  rfl

theorem block_sum (c : Dev nD) (d : Fin 128) (t : Fin cfg1.N) :
    ∑ p : Fin 5000, k1_pay3 (featBlock V c t) (biasBlock V c t) (ix2 p d)
      = ∑ x ∈ Finset.range 5000, entry V c d (5000 * t.val + x) := by
  rw [Finset.sum_range]
  exact Finset.sum_congr rfl fun p _ => (stored_block_apply V c t p d).trans (entry_block V c d t p).symm

theorem block_sum_squares (c : Dev nD) (d : Fin 128) (t : Fin cfg1.N) :
    ∑ p : Fin 5000, k1_pay3 (featBlock V c t) (biasBlock V c t) (ix2 p d) * k1_pay3 (featBlock V c t) (biasBlock V c t) (ix2 p d)
      = ∑ x ∈ Finset.range 5000, entry V c d (5000 * t.val + x) * entry V c d (5000 * t.val + x) := by
  rw [Finset.sum_range]
  exact Finset.sum_congr rfl fun p _ => by rw [stored_block_apply V c t p d, entry_block V c d t p]

theorem sums_after (c : Dev nD) (d : Fin 128) : ∀ (n : ℕ) (hn : n < cfg1.N),
    ((outsAt1 V c n hn).2.1 : Vec Ideal S1x128 .f32) (ix2 0 d) = ∑ r ∈ Finset.range (5000 * (n + 1)), entry V c d r
  | 0, hn => by
    rw [show outsAt1 V c 0 hn = _ from outs_first V c ⟨0, hn⟩ rfl]
    dsimp only
    rw [sums_step_apply, zero_row_apply, zero_add, block_sum]
    exact Finset.sum_congr rfl fun x _ => by rw [Nat.mul_zero, Nat.zero_add]
  | n + 1, hn => by
    have hlater : ¬(⟨n + 1, hn⟩ : Fin cfg1.N).val % 10 = 0 := by
      have := point_lt ⟨n + 1, hn⟩; dsimp only at this ⊢; omega
    rw [show outsAt1 V c (n + 1) hn = _ from outs_later V c ⟨n + 1, hn⟩ hlater]
    dsimp only
    rw [sums_step_apply, block_sum]
    have ih := sums_after c d n (Nat.lt_of_succ_lt hn)
    rw [show 5000 * (n + 1 + 1) = 5000 * (n + 1) + 5000 from by ring, Finset.sum_range_add, ← ih]
    rfl

theorem squares_after (c : Dev nD) (d : Fin 128) : ∀ (n : ℕ) (hn : n < cfg1.N),
    ((outsAt1 V c n hn).2.2 : Vec Ideal S1x128 .f32) (ix2 0 d)
      = ∑ r ∈ Finset.range (5000 * (n + 1)), entry V c d r * entry V c d r
  | 0, hn => by
    rw [show outsAt1 V c 0 hn = _ from outs_first V c ⟨0, hn⟩ rfl]
    dsimp only
    rw [squares_step_apply, zero_row_apply', zero_add, block_sum_squares]
    exact Finset.sum_congr rfl fun x _ => by rw [Nat.mul_zero, Nat.zero_add]
  | n + 1, hn => by
    have hlater : ¬(⟨n + 1, hn⟩ : Fin cfg1.N).val % 10 = 0 := by
      have := point_lt ⟨n + 1, hn⟩; dsimp only at this ⊢; omega
    rw [show outsAt1 V c (n + 1) hn = _ from outs_later V c ⟨n + 1, hn⟩ hlater]
    dsimp only
    rw [squares_step_apply, block_sum_squares]
    have ih := squares_after c d n (Nat.lt_of_succ_lt hn)
    rw [show 5000 * (n + 1 + 1) = 5000 * (n + 1) + 5000 from by ring, Finset.sum_range_add, ← ih]
    rfl

theorem sum_entries (c : Dev nD) (d : Fin 128) :
    ∑ r ∈ Finset.range 50000, entry V c d r = Cert.Spec.colSum (biased V c) d := by
  rw [Finset.sum_range]
  exact Finset.sum_congr rfl fun n _ => by unfold entry; rw [dif_pos n.isLt]

theorem sum_entries_squares (c : Dev nD) (d : Fin 128) :
    ∑ r ∈ Finset.range 50000, entry V c d r * entry V c d r = Cert.Spec.colSumSq (biased V c) d := by
  rw [Finset.sum_range]
  exact Finset.sum_congr rfl fun n _ => by unfold entry; rw [dif_pos n.isLt]

theorem stored_at (c : Dev nD) (t : Fin cfg1.N) :
    (outsAt1 V c t.val t.isLt).1 = k1_pay3 (featBlock V c t) (biasBlock V c t) := by
  by_cases h : t.val % 10 = 0
  · rw [outs_first V c t h]
  · rw [outs_later V c t h]

theorem flushed_biased (c : Dev nD) (t : Fin cfg1.N) :
    (dat1 (F := Ideal) V c).flushed 2 t = ((cfg1.win 2).blk t).view.read (Elt Ideal) (biased V c) := by
  show (cfg1.win 2).cut (grid1.coords t) ((dat1 (F := Ideal) V c).after 2 t) = _
  rw [after1_2, stored_at]
  obtain ⟨-, -, -, -, ea, eb, -⟩ := index_facts t
  funext j
  show k1_pay3 (featBlock V c t) (biasBlock V c t) j = biased V c (((cfg1.win 2).blk t).view.emb j)
  have hemb : ((cfg1.win 2).blk t).view.emb j = ix2 (rowOf t (j 0)) (j 1) := by
    funext a
    apply Fin.ext
    match a with
    | ⟨0, _⟩ => show win1_2.index t (0 : Fin 2) * 5000 + 1 * (j 0).val = 5000 * t.val + (j 0).val; omega
    | ⟨1, _⟩ => show win1_2.index t (1 : Fin 2) * 128 + 1 * (j 1).val = (j 1).val; omega
  rw [hemb]
  exact (congrArg (k1_pay3 (featBlock V c t) (biasBlock V c t)) (eq_ix2 j)).trans (stored_block_apply V c t (j 0) (j 1))

theorem mem_block (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole (Pipeline.arrRef spec1 2)).slice (win1_2.rect t)).set ↔ _
  rw [View.set_slice_whole, Rect.mem_set_unit]
  exact Iff.rfl

theorem covered (i : S50000x128.Idx) :
    ∃ t : Fin cfg1.N, (cfg1.win 2).flush t = true ∧ i ∈ ((cfg1.win 2).blk t).view.set := by
  have hr : (i 0).val < 50000 := (i 0).isLt
  have hd : (i 1).val < 128 := (i 1).isLt
  have hN : cfg1.N = 10 := N_1
  have hq : (i 0).val / 5000 < cfg1.N := by omega
  obtain ⟨-, -, -, -, ea, eb, -⟩ := index_facts ⟨(i 0).val / 5000, hq⟩
  have ea' : win1_2.index ⟨(i 0).val / 5000, hq⟩ (0 : Fin 2) = (i 0).val / 5000 := ea
  refine ⟨⟨(i 0).val / 5000, hq⟩, flush1_2 _, ?_⟩
  rw [mem_block]
  intro a
  match a with
  | ⟨0, _⟩ =>
    show win1_2.index ⟨(i 0).val / 5000, hq⟩ (0 : Fin 2) * 5000 ≤ (i 0).val
      ∧ (i 0).val < win1_2.index ⟨(i 0).val / 5000, hq⟩ (0 : Fin 2) * 5000 + 5000
    omega
  | ⟨1, _⟩ =>
    show win1_2.index ⟨(i 0).val / 5000, hq⟩ (1 : Fin 2) * 128 ≤ (i 1).val
      ∧ (i 1).val < win1_2.index ⟨(i 0).val / 5000, hq⟩ (1 : Fin 2) * 128 + 128
    omega

theorem value2 (c : Dev nD) : (dat1 (F := Ideal) V c).arrAt 2 cfg1.N = biased V c :=
  (dat1 (F := Ideal) V c).arrAt_eq_of_cover 2 (biased V c) (fun t _ => flushed_biased V c t) covered

def lastPoint : Fin cfg1.N := ⟨9, by rw [show cfg1.N = 10 from N_1]; decide⟩

theorem row_emb (t : Fin cfg1.N) (j : S1x128.Idx) :
    (((cfg1.win 3).blk t).view.emb j : S1x128.Idx) = j ∧ (((cfg1.win 4).blk t).view.emb j : S1x128.Idx) = j := by
  obtain ⟨-, -, -, -, -, -, ea, eb, ec, ed⟩ := index_facts t
  have hu : (j 0).val < 1 := (j 0).isLt
  refine ⟨funext fun a => Fin.ext ?_, funext fun a => Fin.ext ?_⟩
  · match a with
    | ⟨0, _⟩ => show win1_3.index t (0 : Fin 2) * 1 + 1 * (j 0).val = (j 0).val; omega
    | ⟨1, _⟩ => show win1_3.index t (1 : Fin 2) * 128 + 1 * (j 1).val = (j 1).val; omega
  · match a with
    | ⟨0, _⟩ => show win1_4.index t (0 : Fin 2) * 1 + 1 * (j 0).val = (j 0).val; omega
    | ⟨1, _⟩ => show win1_4.index t (1 : Fin 2) * 128 + 1 * (j 1).val = (j 1).val; omega

theorem row_index (j : S1x128.Idx) : j = @ix2 1 128 (0 : Fin 1) (j 1) := by
  have hu : (j 0).val < 1 := (j 0).isLt
  refine (eq_ix2 j).trans ?_
  congr 1
  exact Fin.ext (by show (j 0).val = 0; omega)

theorem written_row (t : Fin cfg1.N) (X : Vec Ideal S1x128 .f32) :
    ((cfg1.win 3).cut (grid1.coords t) X : S1x128.Idx → EReal) = X
      ∧ ((cfg1.win 4).cut (grid1.coords t) X : S1x128.Idx → EReal) = X := ⟨rfl, rfl⟩

theorem read_row (t : Fin cfg1.N) (G : S1x128.Idx → EReal) :
    (((cfg1.win 3).blk t).view.read (Elt Ideal) G : S1x128.Idx → EReal) = G
      ∧ (((cfg1.win 4).blk t).view.read (Elt Ideal) G : S1x128.Idx → EReal) = G :=
  ⟨funext fun j => (show _ = G (((cfg1.win 3).blk t).view.emb j) from rfl).trans (congrArg G (row_emb t j).1),
   funext fun j => (show _ = G (((cfg1.win 4).blk t).view.emb j) from rfl).trans (congrArg G (row_emb t j).2)⟩

theorem flushed_sums (c : Dev nD) (t : Fin cfg1.N) (hf : (cfg1.win 3).flush t = true) :
    (dat1 (F := Ideal) V c).flushed 3 t
      = ((cfg1.win 3).blk t).view.read (Elt Ideal) (fun j => Cert.Spec.colSum (biased V c) (j 1) : S1x128.Idx → EReal) := by
  have ht : t.val = 9 := by have := (flush1_3 t).mp hf; have := point_lt t; omega
  show (cfg1.win 3).cut (grid1.coords t) ((dat1 (F := Ideal) V c).after 3 t) = _
  rw [after1_3]
  refine ((written_row t _).1).trans ?_
  refine Eq.trans ?_ (read_row t _).1.symm
  funext j
  obtain ⟨d, rfl⟩ : ∃ d : Fin 128, j = ix2 0 d := ⟨j 1, row_index j⟩
  refine (sums_after V c d t.val t.isLt).trans ?_
  rw [ht]
  exact sum_entries V c d

theorem flushed_squares (c : Dev nD) (t : Fin cfg1.N) (hf : (cfg1.win 4).flush t = true) :
    (dat1 (F := Ideal) V c).flushed 4 t
      = ((cfg1.win 4).blk t).view.read (Elt Ideal) (fun j => Cert.Spec.colSumSq (biased V c) (j 1) : S1x128.Idx → EReal) := by
  have ht : t.val = 9 := by have := (flush1_4 t).mp hf; have := point_lt t; omega
  show (cfg1.win 4).cut (grid1.coords t) ((dat1 (F := Ideal) V c).after 4 t) = _
  rw [after1_4]
  refine ((written_row t _).2).trans ?_
  refine Eq.trans ?_ (read_row t _).2.symm
  funext j
  obtain ⟨d, rfl⟩ : ∃ d : Fin 128, j = ix2 0 d := ⟨j 1, row_index j⟩
  refine (squares_after V c d t.val t.isLt).trans ?_
  rw [ht]
  exact sum_entries_squares V c d

theorem row_covered (i : S1x128.Idx) :
    i ∈ ((cfg1.win 3).blk lastPoint).view.set ∧ i ∈ ((cfg1.win 4).blk lastPoint).view.set := by
  obtain ⟨-, -, -, -, -, -, ea, eb, ec, ed⟩ := index_facts lastPoint
  have hu : (i 0).val < 1 := (i 0).isLt
  have hd : (i 1).val < 128 := (i 1).isLt
  constructor
  · show i ∈ ((View.whole (Pipeline.arrRef spec1 3)).slice (win1_3.rect lastPoint)).set
    rw [View.set_slice_whole, Rect.mem_set_unit]
    intro a
    match a with
    | ⟨0, _⟩ => show win1_3.index lastPoint (0 : Fin 2) * 1 ≤ (i 0).val ∧ (i 0).val < win1_3.index lastPoint (0 : Fin 2) * 1 + 1; omega
    | ⟨1, _⟩ => show win1_3.index lastPoint (1 : Fin 2) * 128 ≤ (i 1).val ∧ (i 1).val < win1_3.index lastPoint (1 : Fin 2) * 128 + 128; omega
  · show i ∈ ((View.whole (Pipeline.arrRef spec1 4)).slice (win1_4.rect lastPoint)).set
    rw [View.set_slice_whole, Rect.mem_set_unit]
    intro a
    match a with
    | ⟨0, _⟩ => show win1_4.index lastPoint (0 : Fin 2) * 1 ≤ (i 0).val ∧ (i 0).val < win1_4.index lastPoint (0 : Fin 2) * 1 + 1; omega
    | ⟨1, _⟩ => show win1_4.index lastPoint (1 : Fin 2) * 128 ≤ (i 1).val ∧ (i 1).val < win1_4.index lastPoint (1 : Fin 2) * 128 + 128; omega

theorem value3 (c : Dev nD) :
    (dat1 (F := Ideal) V c).arrAt 3 cfg1.N = (fun j => Cert.Spec.colSum (biased V c) (j 1) : S1x128.Idx → EReal) :=
  (dat1 (F := Ideal) V c).arrAt_eq_of_cover 3 (fun j => Cert.Spec.colSum (biased V c) (j 1) : S1x128.Idx → EReal) (flushed_sums V c) fun i =>
    ⟨lastPoint, (flush1_3 lastPoint).mpr rfl, (row_covered i).1⟩

theorem value4 (c : Dev nD) :
    (dat1 (F := Ideal) V c).arrAt 4 cfg1.N = (fun j => Cert.Spec.colSumSq (biased V c) (j 1) : S1x128.Idx → EReal) :=
  (dat1 (F := Ideal) V c).arrAt_eq_of_cover 4 (fun j => Cert.Spec.colSumSq (biased V c) (j 1) : S1x128.Idx → EReal) (flushed_squares V c) fun i =>
    ⟨lastPoint, (flush1_4 lastPoint).mpr rfl, (row_covered i).2⟩

end Cert.KernelIdeal.Region1

end
-- ==== Proof.Region2.lean ====
/-
  The normalisation region with the final clip: each block of 5000 rows is the same entrywise function of the
  feature array and the four channel rows.
-/
import proofs.«402385_j8315056685617_1_alg».proof.Proof.Gen.KernelIdeal.Frame
import proofs.«402385_j8315056685617_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable (V : (c : Dev nD) → (b : Ref sig .tc) → Buf (Elt Ideal) ((c : Thread nD τ).loc b))

abbrev chan (a : S1x128.Idx → EReal) : Cert.Spec.Chan := fun d => a (ix2 0 d)

abbrev result (c : Dev nD) : Cert.Spec.Feat :=
  Cert.Spec.clipped (Cert.Spec.affine (V c (Pipeline.arrRef spec2 0))
    (chan (V c (Pipeline.arrRef spec2 1))) (chan (V c (Pipeline.arrRef spec2 2)))
    (chan (V c (Pipeline.arrRef spec2 3))) (chan (V c (Pipeline.arrRef spec2 4))))

theorem rsqrt_apply {s : Shape} {φ : FTy} (a : FVec Ideal s φ) (i : s.Idx) : rsqrt a i = Ideal.rsqrt (a i) := rfl

theorem payload_apply (var : Vec Ideal S1x128 .f32) (x : Vec Ideal S5000x128 .f32) (mu g b : Vec Ideal S1x128 .f32)
    (p : Fin 5000) (d : Fin 128) :
    k2_pay1 var x mu g b (ix2 p d)
      = max ((x (ix2 p d) - mu (ix2 0 d)) * Ideal.rsqrt (var (ix2 0 d) + Cert.Spec.eps) * g (ix2 0 d) + b (ix2 0 d)) 0 := by
  unfold k2_pay1
  simp only [shapeCast_self, maximumf_apply, addf_apply, mulf_apply, subf_apply, broadcast_apply, rsqrt_apply,
    broadcastTo_1b_ab_apply, Ideal.ofBits_def, Ideal.ofBits_zero_f32, Cert.Spec.eps]

theorem hz : (![0, 0] : Fin 2 → Nat) = fun _ => 0 := funext fun a => by fin_cases a <;> rfl

theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem point_lt (t : Fin cfg2.N) : t.val < 10 := by
  have h : t.val < grid2.N := t.isLt
  rw [N_2] at h; exact h

def rowOf (t : Fin cfg2.N) (p : Fin 5000) : Fin 50000 :=
  ⟨t.val * 5000 + p.val, by have := point_lt t; have := p.isLt; omega⟩

theorem emb_out (t : Fin cfg2.N) (p : Fin 5000) (d : Fin 128) :
    (((cfg2.win 5).blk t).view.emb (ix2 p d) : S50000x128.Idx) = ix2 (rowOf t p) d := by
  obtain ⟨-, -, -, -, -, -, -, -, -, -, e0, e1⟩ := idx_facts t
  funext a; apply Fin.ext
  match a with
  | ⟨0, _⟩ => show win2_5.index t (0 : Fin 2) * 5000 + 1 * p.val = t.val * 5000 + p.val; omega
  | ⟨1, _⟩ => show win2_5.index t (1 : Fin 2) * 128 + 1 * d.val = d.val; omega

theorem read_x (c : Dev nD) (t : Fin cfg2.N) (p : Fin 5000) (d : Fin 128) :
    iblk2 V c 0 t (ix2 p d) = (V c (Pipeline.arrRef spec2 0) : S50000x128.Idx → EReal) (ix2 (rowOf t p) d) := by
  obtain ⟨e0, e1, -⟩ := idx_facts t
  show (V c (Pipeline.arrRef spec2 0) : S50000x128.Idx → EReal) (((cfg2.win 0).blk t).view.emb (ix2 p d)) = _
  refine congrArg _ (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * d.val = d.val; omega

theorem read_mean (c : Dev nD) (t : Fin cfg2.N) (d : Fin 128) :
    iblk2 V c 1 t (ix2 0 d) = (V c (Pipeline.arrRef spec2 1) : S1x128.Idx → EReal) (ix2 0 d) := by
  obtain ⟨-, -, e0, e1, -⟩ := idx_facts t
  show (V c (Pipeline.arrRef spec2 1) : S1x128.Idx → EReal) (((cfg2.win 1).blk t).view.emb (ix2 0 d)) = _
  refine congrArg _ (funext fun a => Fin.ext ?_)
  match a with
  | ⟨0, _⟩ => show win2_1.index t (0 : Fin 2) * 1 + 1 * 0 = 0; omega
  | ⟨1, _⟩ => show win2_1.index t (1 : Fin 2) * 128 + 1 * d.val = d.val; omega

theorem read_var (c : Dev nD) (t : Fin cfg2.N) (d : Fin 128) :
    iblk2 V c 2 t (ix2 0 d) = (V c (Pipeline.arrRef spec2 2) : S1x128.Idx → EReal) (ix2 0 d) := by
  obtain ⟨-, -, -, -, e0, e1, -⟩ := idx_facts t
  show (V c (Pipeline.arrRef spec2 2) : S1x128.Idx → EReal) (((cfg2.win 2).blk t).view.emb (ix2 0 d)) = _
  refine congrArg _ (funext fun a => Fin.ext ?_)
  match a with
  | ⟨0, _⟩ => show win2_2.index t (0 : Fin 2) * 1 + 1 * 0 = 0; omega
  | ⟨1, _⟩ => show win2_2.index t (1 : Fin 2) * 128 + 1 * d.val = d.val; omega

theorem read_scale (c : Dev nD) (t : Fin cfg2.N) (d : Fin 128) :
    iblk2 V c 3 t (ix2 0 d) = (V c (Pipeline.arrRef spec2 3) : S1x128.Idx → EReal) (ix2 0 d) := by
  obtain ⟨-, -, -, -, -, -, e0, e1, -⟩ := idx_facts t
  show (V c (Pipeline.arrRef spec2 3) : S1x128.Idx → EReal) (((cfg2.win 3).blk t).view.emb (ix2 0 d)) = _
  refine congrArg _ (funext fun a => Fin.ext ?_)
  match a with
  | ⟨0, _⟩ => show win2_3.index t (0 : Fin 2) * 1 + 1 * 0 = 0; omega
  | ⟨1, _⟩ => show win2_3.index t (1 : Fin 2) * 128 + 1 * d.val = d.val; omega

theorem read_shift (c : Dev nD) (t : Fin cfg2.N) (d : Fin 128) :
    iblk2 V c 4 t (ix2 0 d) = (V c (Pipeline.arrRef spec2 4) : S1x128.Idx → EReal) (ix2 0 d) := by
  obtain ⟨-, -, -, -, -, -, -, -, e0, e1, -⟩ := idx_facts t
  show (V c (Pipeline.arrRef spec2 4) : S1x128.Idx → EReal) (((cfg2.win 4).blk t).view.emb (ix2 0 d)) = _
  refine congrArg _ (funext fun a => Fin.ext ?_)
  match a with
  | ⟨0, _⟩ => show win2_4.index t (0 : Fin 2) * 1 + 1 * 0 = 0; omega
  | ⟨1, _⟩ => show win2_4.index t (1 : Fin 2) * 128 + 1 * d.val = d.val; omega

theorem flushed_eq (c : Dev nD) (t : Fin cfg2.N) :
    (dat2 V c).flushed 5 t = ((cfg2.win 5).blk t).view.read (Elt Ideal) (result V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S1x128) hz]
  funext j
  obtain ⟨p, d, rfl⟩ : ∃ (p : Fin 5000) (d : Fin 128), j = ix2 p d := ⟨j 0, j 1, eq_ix2 j⟩
  show k2_pay1 (iblk2 V c 2 t) (iblk2 V c 0 t) (iblk2 V c 1 t) (iblk2 V c 3 t) (iblk2 V c 4 t) (ix2 p d)
      = result V c (((cfg2.win 5).blk t).view.emb (ix2 p d))
  rw [emb_out]
  refine (payload_apply (iblk2 V c 2 t) (iblk2 V c 0 t) (iblk2 V c 1 t) (iblk2 V c 3 t) (iblk2 V c 4 t) p d).trans ?_
  rw [read_x V c t p d, read_mean V c t d, read_var V c t d, read_scale V c t d, read_shift V c t d]
  rfl

theorem mem_blk (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole (Pipeline.arrRef spec2 5)).slice (win2_5.rect t)).set ↔ _
  rw [View.set_slice_whole, Rect.mem_set_unit]
  exact Iff.rfl

theorem cover (i : S50000x128.Idx) :
    ∃ t : Fin cfg2.N, (cfg2.win 5).flush t = true ∧ i ∈ ((cfg2.win 5).blk t).view.set := by
  have hi0 : (i 0).val < 50000 := idx2_lt0 i
  have hi1 : (i 1).val < 128 := idx2_lt1 i
  have hN : (i 0).val / 5000 < cfg2.N := by show _ < grid2.N; rw [N_2]; omega
  obtain ⟨-, -, -, -, -, -, -, -, -, -, e0, e1⟩ := idx_facts ⟨(i 0).val / 5000, hN⟩
  refine ⟨⟨(i 0).val / 5000, hN⟩, flush2_5 _, ?_⟩
  rw [mem_blk]
  intro a
  match a with
  | ⟨0, _⟩ =>
    show win2_5.index ⟨(i 0).val / 5000, hN⟩ (0 : Fin 2) * 5000 ≤ (i 0).val
      ∧ (i 0).val < win2_5.index ⟨(i 0).val / 5000, hN⟩ (0 : Fin 2) * 5000 + 5000
    rw [e0]
    show (i 0).val / 5000 * 5000 ≤ (i 0).val ∧ (i 0).val < (i 0).val / 5000 * 5000 + 5000
    omega
  | ⟨1, _⟩ =>
    show win2_5.index ⟨(i 0).val / 5000, hN⟩ (1 : Fin 2) * 128 ≤ (i 1).val
      ∧ (i 1).val < win2_5.index ⟨(i 0).val / 5000, hN⟩ (1 : Fin 2) * 128 + 128
    omega

theorem value (c : Dev nD) :
    (dat2 V c).arrAt 5 cfg2.N
      = Cert.Spec.clipped (Cert.Spec.affine (V c (Pipeline.arrRef spec2 0))
          (chan (V c (Pipeline.arrRef spec2 1))) (chan (V c (Pipeline.arrRef spec2 2)))
          (chan (V c (Pipeline.arrRef spec2 3))) (chan (V c (Pipeline.arrRef spec2 4)))) :=
  (dat2 V c).arrAt_eq_of_cover 5 (result V c) (fun t _ => flushed_eq V c t) cover

end Cert.KernelIdeal.Region2

end
-- ==== Proof.KLayer0.lean ====
/-
  One layer of the kernel program as values, from the boundary where the layer begins to the one where the next
  begins: product, bounds-tested aggregation, bias and moments, mean and variance from the moments, normalisation.
-/
import proofs.«402385_j8315056685617_1_alg».proof.Proof.Gen.KernelIdeal.Frame
import proofs.«402385_j8315056685617_1_alg».proof.Proof.Spec
import proofs.«402385_j8315056685617_1_alg».proof.Proof.Graph
import proofs.«402385_j8315056685617_1_alg».proof.Proof.Network
import proofs.«402385_j8315056685617_1_alg».proof.Proof.LayerLib
import proofs.«402385_j8315056685617_1_alg».proof.Proof.Region0
import proofs.«402385_j8315056685617_1_alg».proof.Proof.Region1
import proofs.«402385_j8315056685617_1_alg».proof.Proof.Region2
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Layer0

open Cert.KernelIdeal Cert.KernelIdeal.Gen
open Idealize.ShloMosaic Idealize.ShloMosaic.TcCoe Idealize.ShloMosaic.ValueIdx
open Idealize.SL.Sem
open Cert.KernelIdeal.LayerLib

variable (m : (ℓ : Loc nD τ sig) → Buf (Elt Ideal) ℓ) (ρ : Dev nD → PrngReg) (c : Dev nD)

abbrev thisLayer : Fin 5 := 0
abbrev nextLayer : Fin 5 := 1

section Lookup

variable {F : FTy → Type} [FloatOps F]

variable (V : Valuation τ sig (Elt F))

theorem hostOps1_parts :
    (hostOps1 : List (HloOp τ sig (Elt F)))
      = List.take 8 hostOps1 ++ (List.take 10 (List.drop 8 hostOps1) ++ List.drop 10 (List.drop 8 hostOps1)) := by
  rw [List.take_append_drop, List.take_append_drop]

theorem hostOps1_first_main_call1_v5 :
    StableHlo.after (List.take 8 (hostOps1 (F := F))) V (Proc.devRef .tc main_call1_v5)
      = lookupIdx (V (Proc.devRef .tc main_v3)) := by
  simp only [hostOps1, List.take_succ_cons, List.take_zero]
  after_results
  rfl

theorem hostOps1_first_main_v34 :
    StableHlo.after (List.take 8 (hostOps1 (F := F))) V (Proc.devRef .tc main_v34) = V (Proc.devRef .tc main_v34) := by
  simp only [hostOps1, List.take_succ_cons, List.take_zero]
  after_results

theorem hostOps1_second_main_call1_v12 :
    StableHlo.after (List.take 10 (List.drop 8 (hostOps1 (F := F)))) V (Proc.devRef .tc main_call1_v12)
      = lookupMask (V (Proc.devRef .tc main_call1_v5)) := by
  simp only [hostOps1, List.drop_succ_cons, List.drop_zero, List.take_succ_cons, List.take_zero]
  after_results
  simp only [StableHlo.TRef.ofBuf, StableHlo.TRef.toBuf, cast_eq]
  rfl

theorem hostOps1_second_main_call1_v5 :
    StableHlo.after (List.take 10 (List.drop 8 (hostOps1 (F := F)))) V (Proc.devRef .tc main_call1_v5)
      = V (Proc.devRef .tc main_call1_v5) := by
  simp only [hostOps1, List.drop_succ_cons, List.drop_zero, List.take_succ_cons, List.take_zero]
  after_results

theorem hostOps1_second_main_v34 :
    StableHlo.after (List.take 10 (List.drop 8 (hostOps1 (F := F)))) V (Proc.devRef .tc main_v34)
      = V (Proc.devRef .tc main_v34) := by
  simp only [hostOps1, List.drop_succ_cons, List.drop_zero, List.take_succ_cons, List.take_zero]
  after_results

theorem hostOps1_third_main_v35 :
    StableHlo.after (List.drop 10 (List.drop 8 (hostOps1 (F := F)))) V (Proc.devRef .tc main_v35)
      = lookupRows (V (Proc.devRef .tc main_call1_v12)) (V (Proc.devRef .tc main_v34)) (V (Proc.devRef .tc main_call1_v5)) := by
  simp only [hostOps1, List.drop_succ_cons, List.drop_zero]
  after_results
  rfl

theorem hostOps1_main_v35_any :
    StableHlo.after (hostOps1 (F := F)) V (Proc.devRef .tc main_v35)
      = lookupRows (lookupMask (lookupIdx (V (Proc.devRef .tc main_v3)))) (V (Proc.devRef .tc main_v34))
          (lookupIdx (V (Proc.devRef .tc main_v3))) := by
  rw [hostOps1_parts, StableHlo.after_append, StableHlo.after_append, hostOps1_third_main_v35,
    hostOps1_second_main_call1_v12, hostOps1_second_main_v34, hostOps1_second_main_call1_v5,
    hostOps1_first_main_call1_v5, hostOps1_first_main_v34]

end Lookup

section Stretches

variable (V : Valuation τ sig (Elt Ideal))

abbrev hostOps1_W : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v35]

theorem hostOps1_writes :
    (hostOps1 : List (HloOp τ sig (Elt Ideal))).Forall fun op => op.writes ⊆ (hostOps1_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem hostOps1_keeps (r : Ref sig .tc) (h : r ∉ hostOps1_W) :
    StableHlo.after hostOps1 V (Proc.devRef .tc r) = V (Proc.devRef .tc r) :=
  StableHlo.after_of_writes_sub hostOps1 V hostOps1_writes h

theorem hostOps1_main_v35 :
    StableHlo.after hostOps1 V (Proc.devRef .tc main_v35)
      = Cert.Graph.sourceRowsChecked (F := Ideal) (V (Proc.devRef .tc main_v3)) (V (Proc.devRef .tc main_v34)) := by
  exact (hostOps1_main_v35_any V).trans (lookup_eq _ _)

abbrev hostOps1_1_W : List (Ref sig .tc) :=
  [main_v36, main_v37, main_v38, main_cst_6, main_v39, main_v40, main_v41, main_v42, main_v43, main_v44]

theorem hostOps1_1_writes :
    (hostOps1_1 : List (HloOp τ sig (Elt Ideal))).Forall fun op => op.writes ⊆ (hostOps1_1_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem hostOps1_1_keeps (r : Ref sig .tc) (h : r ∉ hostOps1_1_W) :
    StableHlo.after hostOps1_1 V (Proc.devRef .tc r) = V (Proc.devRef .tc r) :=
  StableHlo.after_of_writes_sub hostOps1_1 V hostOps1_1_writes h

theorem hostOps1_1_main_v41 :
    StableHlo.after hostOps1_1 V (Proc.devRef .tc main_v41)
      = Cert.Graph.accumulate (F := Ideal) (V (Proc.devRef .tc main_v6)) (V (Proc.devRef .tc main_v31)) (V (Proc.devRef .tc main_v35)) := by
  after_results
  rfl

theorem hostOps1_1_main_v44 :
    row (StableHlo.after hostOps1_1 V (Proc.devRef .tc main_v44))
      = Cert.Network.chan thisLayer (V (Proc.devRef .tc main_arg5)) := by
  after_results
  exact chan_slice thisLayer _ _ _ _

abbrev hostOps2_W : List (Ref sig .tc) :=
  [main_cst_7, main_v46, main_v47, main_cst_8, main_v48, main_v49, main_v50, main_v51, main_v52, main_v53, main_v54, main_v55, main_v56, main_v57]

theorem hostOps2_writes :
    (hostOps2 : List (HloOp τ sig (Elt Ideal))).Forall fun op => op.writes ⊆ (hostOps2_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem hostOps2_keeps (r : Ref sig .tc) (h : r ∉ hostOps2_W) :
    StableHlo.after hostOps2 V (Proc.devRef .tc r) = V (Proc.devRef .tc r) :=
  StableHlo.after_of_writes_sub hostOps2 V hostOps2_writes h

theorem hostOps2_main_v47 :
    row (StableHlo.after hostOps2 V (Proc.devRef .tc main_v47))
      = fun d => Ideal.div (row (V (Proc.devRef .tc main_v45_1)) d) Cert.Spec.count := by
  after_results
  rfl

theorem hostOps2_main_v51 :
    row (StableHlo.after hostOps2 V (Proc.devRef .tc main_v51))
      = fun d => Ideal.div (row (V (Proc.devRef .tc main_v45_2)) d) Cert.Spec.count
          - Ideal.div (row (V (Proc.devRef .tc main_v45_1)) d) Cert.Spec.count
            * Ideal.div (row (V (Proc.devRef .tc main_v45_1)) d) Cert.Spec.count := by
  after_results
  rfl

theorem hostOps2_main_v56 :
    row (StableHlo.after hostOps2 V (Proc.devRef .tc main_v56))
      = Cert.Network.chan thisLayer (V (Proc.devRef .tc main_arg6)) := by
  after_results
  exact chan_slice thisLayer _ _ _ _

theorem hostOps2_main_v57 :
    row (StableHlo.after hostOps2 V (Proc.devRef .tc main_v57))
      = Cert.Network.chan thisLayer (V (Proc.devRef .tc main_arg7)) := by
  after_results
  exact chan_slice thisLayer _ _ _ _

abbrev hostOps3_W : List (Ref sig .tc) :=
  [main_v59, main_v60]

theorem hostOps3_writes :
    (hostOps3 : List (HloOp τ sig (Elt Ideal))).Forall fun op => op.writes ⊆ (hostOps3_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem hostOps3_keeps (r : Ref sig .tc) (h : r ∉ hostOps3_W) :
    StableHlo.after hostOps3 V (Proc.devRef .tc r) = V (Proc.devRef .tc r) :=
  StableHlo.after_of_writes_sub hostOps3 V hostOps3_writes h

theorem hostOps3_main_v60 :
    StableHlo.after hostOps3 V (Proc.devRef .tc main_v60)
      = Cert.Network.weight nextLayer (V (Proc.devRef .tc main_arg4)) := by
  after_results
  exact weight_slice nextLayer _ _ _

end Stretches

structure Entry (H : Cert.Spec.Feat) (Wm : Cert.Spec.Weights.Idx → EReal) (R C : IVec Cert.Graph.S850000 32)
    (K : FVec Ideal Cert.Graph.S850000 .f32) : Prop where
  feat : W3 m ρ c (Proc.devRef .tc main_arg1) = H
  wmat : W3 m ρ c (Proc.devRef .tc main_v33) = Wm
  src : W3 m ρ c (Proc.devRef .tc main_v3) = R
  tgt : W3 m ρ c (Proc.devRef .tc main_v6) = C
  coef : W3 m ρ c (Proc.devRef .tc main_v31) = K
  arg0 : W3 m ρ c (Proc.devRef .tc main_arg0) = m ((c : Thread nD τ).loc main_arg0)
  arg4 : W3 m ρ c (Proc.devRef .tc main_arg4) = m ((c : Thread nD τ).loc main_arg4)
  arg5 : W3 m ρ c (Proc.devRef .tc main_arg5) = m ((c : Thread nD τ).loc main_arg5)
  arg6 : W3 m ρ c (Proc.devRef .tc main_arg6) = m ((c : Thread nD τ).loc main_arg6)
  arg7 : W3 m ρ c (Proc.devRef .tc main_arg7) = m ((c : Thread nD τ).loc main_arg7)

abbrev bias : Cert.Spec.Chan := Cert.Network.chan thisLayer (m ((c : Thread nD τ).loc main_arg5))
abbrev scale : Cert.Spec.Chan := Cert.Network.chan thisLayer (m ((c : Thread nD τ).loc main_arg6))
abbrev shift : Cert.Spec.Chan := Cert.Network.chan thisLayer (m ((c : Thread nD τ).loc main_arg7))

abbrev biased (H : Cert.Spec.Feat) (Wm : Cert.Spec.Weights.Idx → EReal) (R C : IVec Cert.Graph.S850000 32)
    (K : FVec Ideal Cert.Graph.S850000 .f32) : Cert.Spec.Feat :=
  Cert.Spec.shifted (Cert.Graph.aggregateChecked R C K (Cert.Spec.product H Wm)) (bias m c)

section Kept

variable (r : Ref sig .tc)

theorem keepW4 (g0 : ∀ w, Pipeline.arrRef spec0 w ≠ r) :
    W4 m ρ c (Proc.devRef .tc r) = W3 m ρ c (Proc.devRef .tc r) :=
  W4_of_ne m ρ c r g0

theorem keepW5 (g0 : ∀ w, Pipeline.arrRef spec0 w ≠ r) (h1 : r ∉ hostOps1_W) :
    W5 m ρ c (Proc.devRef .tc r) = W3 m ρ c (Proc.devRef .tc r) :=
  (hostOps1_keeps (W4 m ρ c) r h1).trans (keepW4 m ρ c r g0)

theorem keepW6 (g0 : ∀ w, Pipeline.arrRef spec0 w ≠ r) (h1 : r ∉ hostOps1_W) (h1_1 : r ∉ hostOps1_1_W) :
    W6 m ρ c (Proc.devRef .tc r) = W3 m ρ c (Proc.devRef .tc r) :=
  (hostOps1_1_keeps (W5 m ρ c) r h1_1).trans (keepW5 m ρ c r g0 h1)

theorem keepW7 (g0 : ∀ w, Pipeline.arrRef spec0 w ≠ r) (h1 : r ∉ hostOps1_W) (h1_1 : r ∉ hostOps1_1_W)
    (g1 : ∀ w, Pipeline.arrRef spec1 w ≠ r) :
    W7 m ρ c (Proc.devRef .tc r) = W3 m ρ c (Proc.devRef .tc r) :=
  (W7_of_ne m ρ c r g1).trans (keepW6 m ρ c r g0 h1 h1_1)

theorem keepW8 (g0 : ∀ w, Pipeline.arrRef spec0 w ≠ r) (h1 : r ∉ hostOps1_W) (h1_1 : r ∉ hostOps1_1_W)
    (g1 : ∀ w, Pipeline.arrRef spec1 w ≠ r) (h2 : r ∉ hostOps2_W) :
    W8 m ρ c (Proc.devRef .tc r) = W3 m ρ c (Proc.devRef .tc r) :=
  (hostOps2_keeps (W7 m ρ c) r h2).trans (keepW7 m ρ c r g0 h1 h1_1 g1)

theorem keepW9 (g0 : ∀ w, Pipeline.arrRef spec0 w ≠ r) (h1 : r ∉ hostOps1_W) (h1_1 : r ∉ hostOps1_1_W)
    (g1 : ∀ w, Pipeline.arrRef spec1 w ≠ r) (h2 : r ∉ hostOps2_W) (g2 : ∀ w, Pipeline.arrRef spec2 w ≠ r) :
    W9 m ρ c (Proc.devRef .tc r) = W3 m ρ c (Proc.devRef .tc r) :=
  (W9_of_ne m ρ c r g2).trans (keepW8 m ρ c r g0 h1 h1_1 g1 h2)

theorem keepW10 (g0 : ∀ w, Pipeline.arrRef spec0 w ≠ r) (h1 : r ∉ hostOps1_W) (h1_1 : r ∉ hostOps1_1_W)
    (g1 : ∀ w, Pipeline.arrRef spec1 w ≠ r) (h2 : r ∉ hostOps2_W) (g2 : ∀ w, Pipeline.arrRef spec2 w ≠ r)
    (h3 : r ∉ hostOps3_W) :
    W10 m ρ c (Proc.devRef .tc r) = W3 m ρ c (Proc.devRef .tc r) :=
  (hostOps3_keeps (W9 m ρ c) r h3).trans (keepW9 m ρ c r g0 h1 h1_1 g1 h2 g2)

end Kept

variable {H : Cert.Spec.Feat} {Wm : Cert.Spec.Weights.Idx → EReal} {R C : IVec Cert.Graph.S850000 32}
  {K : FVec Ideal Cert.Graph.S850000 .f32}

theorem W4_main_v34 (e : Entry m ρ c H Wm R C K) :
    W4 m ρ c (Proc.devRef .tc main_v34) = Cert.Spec.product H Wm :=
  (W4_arr m ρ c 2).trans <| (Cert.KernelIdeal.Region0.value (V3 m ρ) c).trans <| by
    show Cert.Spec.product (W3 m ρ c (Proc.devRef .tc main_arg1)) (W3 m ρ c (Proc.devRef .tc main_v33)) = _
    rewrite [e.feat, e.wmat]
    rfl

theorem W5_main_v35 (e : Entry m ρ c H Wm R C K) :
    W5 m ρ c (Proc.devRef .tc main_v35) = Cert.Graph.sourceRowsChecked (F := Ideal) R (Cert.Spec.product H Wm) := by
  show StableHlo.after hostOps1 (W4 m ρ c) (Proc.devRef .tc main_v35) = _
  rewrite [hostOps1_main_v35, keepW4 m ρ c main_v3 (by decide), e.src, W4_main_v34 m ρ c e]
  rfl

theorem W6_main_v41 (e : Entry m ρ c H Wm R C K) :
    W6 m ρ c (Proc.devRef .tc main_v41) = Cert.Graph.aggregateChecked (F := Ideal) R C K (Cert.Spec.product H Wm) := by
  show StableHlo.after hostOps1_1 (W5 m ρ c) (Proc.devRef .tc main_v41) = _
  rewrite [hostOps1_1_main_v41, keepW5 m ρ c main_v6 (by decide) (by decide), e.tgt,
    keepW5 m ρ c main_v31 (by decide) (by decide), e.coef, W5_main_v35 m ρ c e]
  rfl

theorem W6_main_v44 (e : Entry m ρ c H Wm R C K) :
    row (W6 m ρ c (Proc.devRef .tc main_v44)) = bias m c := by
  show row (StableHlo.after hostOps1_1 (W5 m ρ c) (Proc.devRef .tc main_v44)) = _
  rewrite [hostOps1_1_main_v44, keepW5 m ρ c main_arg5 (by decide) (by decide), e.arg5]
  rfl

theorem entry1_biased (e : Entry m ρ c H Wm R C K) :
    Cert.KernelIdeal.Region1.biased (V6 m ρ) c = biased m c H Wm R C K := by
  show Cert.Spec.shifted (W6 m ρ c (Proc.devRef .tc main_v41)) (row (W6 m ρ c (Proc.devRef .tc main_v44))) = _
  rewrite [W6_main_v41 m ρ c e, W6_main_v44 m ρ c e]
  rfl

theorem W7_main_v45_0 (e : Entry m ρ c H Wm R C K) :
    W7 m ρ c (Proc.devRef .tc main_v45_0) = biased m c H Wm R C K :=
  (W7_arr m ρ c 2).trans <| (Cert.KernelIdeal.Region1.value2 (V6 m ρ) c).trans (entry1_biased m ρ c e)

theorem W7_main_v45_1 (e : Entry m ρ c H Wm R C K) :
    row (W7 m ρ c (Proc.devRef .tc main_v45_1)) = Cert.Spec.colSum (biased m c H Wm R C K) := by
  have h : W7 m ρ c (Proc.devRef .tc main_v45_1)
      = (fun j => Cert.Spec.colSum (Cert.KernelIdeal.Region1.biased (V6 m ρ) c) (j 1) : S1x128.Idx → EReal) :=
    (W7_arr m ρ c 3).trans (Cert.KernelIdeal.Region1.value3 (V6 m ρ) c)
  funext d
  show W7 m ρ c (Proc.devRef .tc main_v45_1) (ix2 0 d) = _
  rw [h, entry1_biased m ρ c e]

theorem W7_main_v45_2 (e : Entry m ρ c H Wm R C K) :
    row (W7 m ρ c (Proc.devRef .tc main_v45_2)) = Cert.Spec.colSumSq (biased m c H Wm R C K) := by
  have h : W7 m ρ c (Proc.devRef .tc main_v45_2)
      = (fun j => Cert.Spec.colSumSq (Cert.KernelIdeal.Region1.biased (V6 m ρ) c) (j 1) : S1x128.Idx → EReal) :=
    (W7_arr m ρ c 4).trans (Cert.KernelIdeal.Region1.value4 (V6 m ρ) c)
  funext d
  show W7 m ρ c (Proc.devRef .tc main_v45_2) (ix2 0 d) = _
  rw [h, entry1_biased m ρ c e]

theorem W8_main_v45_0 (e : Entry m ρ c H Wm R C K) :
    W8 m ρ c (Proc.devRef .tc main_v45_0) = biased m c H Wm R C K :=
  (hostOps2_keeps (W7 m ρ c) main_v45_0 (by decide)).trans (W7_main_v45_0 m ρ c e)

theorem W8_main_v47 (e : Entry m ρ c H Wm R C K) :
    row (W8 m ρ c (Proc.devRef .tc main_v47)) = Cert.Spec.mean (biased m c H Wm R C K) := by
  show row (StableHlo.after hostOps2 (W7 m ρ c) (Proc.devRef .tc main_v47)) = _
  rewrite [hostOps2_main_v47, W7_main_v45_1 m ρ c e]
  rfl

theorem W8_main_v51 (e : Entry m ρ c H Wm R C K) :
    row (W8 m ρ c (Proc.devRef .tc main_v51)) = Cert.Spec.varOfMoments (biased m c H Wm R C K) := by
  show row (StableHlo.after hostOps2 (W7 m ρ c) (Proc.devRef .tc main_v51)) = _
  rewrite [hostOps2_main_v51, W7_main_v45_1 m ρ c e, W7_main_v45_2 m ρ c e]
  rfl

theorem W8_main_v56 (e : Entry m ρ c H Wm R C K) :
    row (W8 m ρ c (Proc.devRef .tc main_v56)) = scale m c := by
  show row (StableHlo.after hostOps2 (W7 m ρ c) (Proc.devRef .tc main_v56)) = _
  rewrite [hostOps2_main_v56, keepW7 m ρ c main_arg6 (by decide) (by decide) (by decide) (by decide), e.arg6]
  rfl

theorem W8_main_v57 (e : Entry m ρ c H Wm R C K) :
    row (W8 m ρ c (Proc.devRef .tc main_v57)) = shift m c := by
  show row (StableHlo.after hostOps2 (W7 m ρ c) (Proc.devRef .tc main_v57)) = _
  rewrite [hostOps2_main_v57, keepW7 m ρ c main_arg7 (by decide) (by decide) (by decide) (by decide), e.arg7]
  rfl

theorem W9_main_v58 (e : Entry m ρ c H Wm R C K) :
    W9 m ρ c (Proc.devRef .tc main_v58)
      = Cert.Spec.layer Cert.Spec.varOfMoments (Cert.Graph.aggregateChecked R C K) true H Wm
          (bias m c) (scale m c) (shift m c) :=
  (W9_arr m ρ c 5).trans <| (Cert.KernelIdeal.Region2.value (V8 m ρ) c).trans <| by
    show Cert.Spec.clipped (Cert.Spec.affine (W8 m ρ c (Proc.devRef .tc main_v45_0))
      (row (W8 m ρ c (Proc.devRef .tc main_v47))) (row (W8 m ρ c (Proc.devRef .tc main_v51)))
      (row (W8 m ρ c (Proc.devRef .tc main_v56))) (row (W8 m ρ c (Proc.devRef .tc main_v57)))) = _
    rewrite [W8_main_v45_0 m ρ c e, W8_main_v47 m ρ c e, W8_main_v51 m ρ c e, W8_main_v56 m ρ c e, W8_main_v57 m ρ c e]
    rfl

theorem exit_feat (e : Entry m ρ c H Wm R C K) :
    W10 m ρ c (Proc.devRef .tc main_v58)
      = Cert.Spec.layer Cert.Spec.varOfMoments (Cert.Graph.aggregateChecked R C K) true H Wm
          (Cert.Network.chan thisLayer (m ((c : Thread nD τ).loc main_arg5)))
          (Cert.Network.chan thisLayer (m ((c : Thread nD τ).loc main_arg6)))
          (Cert.Network.chan thisLayer (m ((c : Thread nD τ).loc main_arg7))) :=
  (hostOps3_keeps (W9 m ρ c) main_v58 (by decide)).trans (W9_main_v58 m ρ c e)

theorem exit_wmat (e : Entry m ρ c H Wm R C K) :
    W10 m ρ c (Proc.devRef .tc main_v60) = Cert.Network.weight nextLayer (m ((c : Thread nD τ).loc main_arg4)) := by
  show StableHlo.after hostOps3 (W9 m ρ c) (Proc.devRef .tc main_v60) = _
  rewrite [hostOps3_main_v60,
    keepW9 m ρ c main_arg4 (by decide) (by decide) (by decide) (by decide) (by decide) (by decide), e.arg4]
  rfl

theorem exit_src (e : Entry m ρ c H Wm R C K) : W10 m ρ c (Proc.devRef .tc main_v3) = R :=
  (keepW10 m ρ c main_v3 (by decide) (by decide) (by decide) (by decide) (by decide) (by decide) (by decide)).trans e.src
theorem exit_tgt (e : Entry m ρ c H Wm R C K) : W10 m ρ c (Proc.devRef .tc main_v6) = C :=
  (keepW10 m ρ c main_v6 (by decide) (by decide) (by decide) (by decide) (by decide) (by decide) (by decide)).trans e.tgt
theorem exit_coef (e : Entry m ρ c H Wm R C K) : W10 m ρ c (Proc.devRef .tc main_v31) = K :=
  (keepW10 m ρ c main_v31 (by decide) (by decide) (by decide) (by decide) (by decide) (by decide) (by decide)).trans e.coef
theorem exit_arg0 (e : Entry m ρ c H Wm R C K) :
    W10 m ρ c (Proc.devRef .tc main_arg0) = m ((c : Thread nD τ).loc main_arg0) :=
  (keepW10 m ρ c main_arg0 (by decide) (by decide) (by decide) (by decide) (by decide) (by decide) (by decide)).trans e.arg0
theorem exit_arg4 (e : Entry m ρ c H Wm R C K) :
    W10 m ρ c (Proc.devRef .tc main_arg4) = m ((c : Thread nD τ).loc main_arg4) :=
  (keepW10 m ρ c main_arg4 (by decide) (by decide) (by decide) (by decide) (by decide) (by decide) (by decide)).trans e.arg4
theorem exit_arg5 (e : Entry m ρ c H Wm R C K) :
    W10 m ρ c (Proc.devRef .tc main_arg5) = m ((c : Thread nD τ).loc main_arg5) :=
  (keepW10 m ρ c main_arg5 (by decide) (by decide) (by decide) (by decide) (by decide) (by decide) (by decide)).trans e.arg5
theorem exit_arg6 (e : Entry m ρ c H Wm R C K) :
    W10 m ρ c (Proc.devRef .tc main_arg6) = m ((c : Thread nD τ).loc main_arg6) :=
  (keepW10 m ρ c main_arg6 (by decide) (by decide) (by decide) (by decide) (by decide) (by decide) (by decide)).trans e.arg6
theorem exit_arg7 (e : Entry m ρ c H Wm R C K) :
    W10 m ρ c (Proc.devRef .tc main_arg7) = m ((c : Thread nD τ).loc main_arg7) :=
  (keepW10 m ρ c main_arg7 (by decide) (by decide) (by decide) (by decide) (by decide) (by decide) (by decide)).trans e.arg7

end Cert.KernelIdeal.Layer0

end
-- ==== Proof.Region3.lean ====
/-
  The matrix-product region: ten blocks of 5000 feature rows times the weight matrix are the ten row blocks of the
  full product, and together they fill the output.
-/
import proofs.«402385_j8315056685617_1_alg».proof.Proof.Gen.KernelIdeal.Frame
import proofs.«402385_j8315056685617_1_alg».proof.Proof.Spec
import proofs.«402385_j8315056685617_1_alg».proof.Proof.LibDotPlain
import Idealize.ShloMosaic.Lib.Pipeline.Value
import Idealize.ShloMosaic.Lib.ValueIdx

set_option maxRecDepth 16384

noncomputable section

namespace Cert.KernelIdeal.Region3

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

theorem payload_entry (x : FVec Ideal S5000x128 .f32) (w : FVec Ideal S128x128 .f32) (r : Fin 5000) (d : Fin 128) :
    k3_pay1 (F := Ideal) x w (ix2 r d) = ∑ q : Fin 128, x (ix2 r q) * w (ix2 q d) := by
  unfold k3_pay1
  simp only [shapeCast_self]
  exact Cert.LibDotPlain.matmul_zero_plain 5000 128 128 none _ _ r d

theorem block_numbers : ∀ t : Fin cfg3.N,
    win3_0.index t (0 : Fin 2) = win3_2.index t (0 : Fin 2) ∧ win3_0.index t (1 : Fin 2) = 0
    ∧ win3_1.index t (0 : Fin 2) = 0 ∧ win3_1.index t (1 : Fin 2) = 0
    ∧ win3_2.index t (0 : Fin 2) ≤ 9 ∧ win3_2.index t (1 : Fin 2) = 0 :=
  (by decide +kernel : ∀ t : Fin grid3.N, _)

theorem block_numbers_onto : ∀ b : Fin 10, ∃ t : Fin cfg3.N, win3_2.index t (0 : Fin 2) = b.val :=
  (by decide +kernel : ∀ b : Fin 10, ∃ t : Fin grid3.N, win3_2.index t (0 : Fin 2) = b.val)

theorem feature_block (c : Dev nD) (t : Fin cfg3.N) (r : Fin 5000) (q : Fin 128) (k : S50000x128.Idx)
    (hrow : (k 0).val = win3_2.index t (0 : Fin 2) * 5000 + r.val) (hcol : (k 1).val = q.val) :
    (iblk3 V c 0 t : FVec Ideal S5000x128 .f32) (ix2 r q)
      = (V c (Pipeline.arrRef spec3 0) : S50000x128.Idx → EReal) k := by
  obtain ⟨erow, ecol, -⟩ := block_numbers t
  show V c (Pipeline.arrRef spec3 0) (((cfg3.win 0).blk t).view.emb (ix2 r q)) = V c (Pipeline.arrRef spec3 0) k
  refine congrArg (V c (Pipeline.arrRef spec3 0)) ?_
  funext a
  apply Fin.ext
  match a with
  | ⟨0, _⟩ => show win3_0.index t (0 : Fin 2) * 5000 + 1 * r.val = (k 0).val; omega
  | ⟨1, _⟩ => show win3_0.index t (1 : Fin 2) * 128 + 1 * q.val = (k 1).val; omega

theorem weight_block (c : Dev nD) (t : Fin cfg3.N) (q d : Fin 128) :
    (iblk3 V c 1 t : FVec Ideal S128x128 .f32) (ix2 q d)
      = (V c (Pipeline.arrRef spec3 1) : S128x128.Idx → EReal) (ix2 q d) := by
  obtain ⟨-, -, erow, ecol, -⟩ := block_numbers t
  show V c (Pipeline.arrRef spec3 1) (((cfg3.win 1).blk t).view.emb (ix2 q d)) = V c (Pipeline.arrRef spec3 1) (ix2 q d)
  refine congrArg (V c (Pipeline.arrRef spec3 1)) ?_
  funext a
  apply Fin.ext
  match a with
  | ⟨0, _⟩ => show win3_1.index t (0 : Fin 2) * 128 + 1 * q.val = q.val; omega
  | ⟨1, _⟩ => show win3_1.index t (1 : Fin 2) * 128 + 1 * d.val = d.val; omega

theorem block_product (c : Dev nD) (t : Fin cfg3.N) (y : S5000x128.Idx) :
    k3_pay1 (F := Ideal) (iblk3 V c 0 t) (iblk3 V c 1 t) y
      = Cert.Spec.product (V c (Pipeline.arrRef spec3 0)) (V c (Pipeline.arrRef spec3 1))
          (((cfg3.win 2).blk t).view.emb y) := by
  obtain ⟨r, d, rfl⟩ : ∃ (r : Fin 5000) (d : Fin 128), y = ix2 r d := ⟨y 0, y 1, eq_ix2 y⟩
  obtain ⟨-, -, -, -, -, ecol⟩ := block_numbers t
  refine (payload_entry (iblk3 V c 0 t) (iblk3 V c 1 t) r d).trans ?_
  unfold Cert.Spec.product
  refine Finset.sum_congr rfl fun q _ => ?_
  refine congrArg₂ (· * ·) ?_ ?_
  · refine feature_block V c t r q _ ?_ rfl
    show win3_2.index t (0 : Fin 2) * 5000 + 1 * r.val = win3_2.index t (0 : Fin 2) * 5000 + r.val
    omega
  · refine (weight_block V c t q d).trans ?_
    refine congrArg (V c (Pipeline.arrRef spec3 1)) ?_
    funext a
    apply Fin.ext
    match a with
    | ⟨0, _⟩ => rfl
    | ⟨1, _⟩ => show d.val = win3_2.index t (1 : Fin 2) * 128 + 1 * d.val; omega

theorem written_back (c : Dev nD) (t : Fin cfg3.N) :
    (dat3 (F := Ideal) V c).flushed 2 t
      = ((cfg3.win 2).blk t).view.read (Elt Ideal)
          (Cert.Spec.product (V c (Pipeline.arrRef spec3 0)) (V c (Pipeline.arrRef spec3 1))) := by
  show (cfg3.win 2).cut (grid3.coords t) ((dat3 (F := Ideal) V c).after 2 t) = _
  rw [after3_2]
  unfold out3_2
  rw [View.canon_unit_zero zero_offsets]
  simp only [View.ld_unit_zero (S := S5000x128) zero_offsets, View.ld_unit_zero (S := S128x128) zero_offsets]
  funext j
  exact block_product V c t j

theorem mem_block (t : Fin cfg3.N) (i : S50000x128.Idx) :
    i ∈ ((cfg3.win 2).blk t).view.set
      ↔ ∀ a : Fin 2, win3_2.index t a * S5000x128.size a ≤ (i a).val
          ∧ (i a).val < win3_2.index t a * S5000x128.size a + S5000x128.size a := by
  show i ∈ ((View.whole (Pipeline.arrRef spec3 2)).slice (win3_2.rect t)).set ↔ _
  rw [View.set_slice_whole, Rect.mem_set_unit]
  exact Iff.rfl

theorem covered (i : S50000x128.Idx) :
    ∃ t : Fin cfg3.N, (cfg3.win 2).flush t = true ∧ i ∈ ((cfg3.win 2).blk t).view.set := by
  have hrow : (i 0).val < 50000 := (i 0).isLt
  have hcol : (i 1).val < 128 := (i 1).isLt
  obtain ⟨t, ht⟩ := block_numbers_onto ⟨(i 0).val / 5000, by omega⟩
  have ht' : win3_2.index t (0 : Fin 2) = (i 0).val / 5000 := ht
  obtain ⟨-, -, -, -, -, ecol⟩ := block_numbers t
  refine ⟨t, flush3_2 t, ?_⟩
  rw [mem_block]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 128 ≤ (i 1).val ∧ (i 1).val < win3_2.index t (1 : Fin 2) * 128 + 128
    omega

theorem value (c : Dev nD) :
    (dat3 (F := Ideal) V c).arrAt 2 cfg3.N
      = Cert.Spec.product (V c (Pipeline.arrRef spec3 0)) (V c (Pipeline.arrRef spec3 1)) :=
  (dat3 (F := Ideal) V c).arrAt_eq_of_cover 2
    (Cert.Spec.product (V c (Pipeline.arrRef spec3 0)) (V c (Pipeline.arrRef spec3 1)))
    (fun t _ => written_back V c t) (covered)

end Cert.KernelIdeal.Region3

end
-- ==== Proof.Region4.lean ====
/-
  The statistics region: the biased features block by block, and per channel the sum and the sum of squares over
  all nodes, accumulated over the ten blocks (only associativity of addition is used).
-/
import proofs.«402385_j8315056685617_1_alg».proof.Proof.Gen.KernelIdeal.Frame
import proofs.«402385_j8315056685617_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open scoped BigOperators

variable (V : (c : Dev nD) → (b : Ref sig .tc) → Buf (Elt Ideal) ((c : Thread nD τ).loc b))

abbrev biased (c : Dev nD) : Cert.Spec.Feat :=
  Cert.Spec.shifted (V c (Pipeline.arrRef spec4 0)) (fun d => V c (Pipeline.arrRef spec4 1) (ix2 0 d))

variable {F : FTy → Type} [FloatOps F]

theorem offsets_zero : (![0, 0] : Fin 2 → Nat) = fun _ => 0 := funext fun a => by fin_cases a <;> rfl

section Pieces

variable (c : Dev nD) (i : grid4.Coords) (ma : Memref sig .tc .vmem S5000x128 .f32) (hma : ma.IsWhole) (mb : Memref sig .tc .vmem S1x128 .f32) (hmb : mb.IsWhole)
  (mx : Memref sig .tc .vmem S5000x128 .f32) (hmx : mx.IsWhole) (ms : Memref sig .tc .vmem S1x128 .f32) (hms : ms.IsWhole) (mq : Memref sig .tc .vmem S1x128 .f32) (hmq : mq.IsWhole)
  (a : Vec F S5000x128 .f32) (b s q : Vec F S1x128 .f32)

theorem first_biased (hc : cond4_0 i) :
    out4_A_2 c i ma hma mb hmb mx hmx ms hms mq hmq hc a b = k4_pay3 a b := by
  unfold out4_A_2
  rw [View.read_writes_eq_canon _ _ _ (cover4_A_2 c i ma hma mb hmb mx hmx ms hms mq hmq hc a b)]
  unfold kernelRun4_A
  dsimp only
  sl_unfold_words
  rw [View.canon_unit_zero offsets_zero]
  simp only [View.readAt_eq_ld, hma.read_unread, hmb.read_unread, View.ld_unit_zero (S := S5000x128) offsets_zero,
    View.ld_unit_zero (S := S1x128) offsets_zero]

theorem first_sums (hc : cond4_0 i) :
    out4_A_3 c i ma hma mb hmb mx hmx ms hms mq hmq hc a b = k4_pay4 a b (k4_pay1 (F := F)) := by
  unfold out4_A_3
  rw [View.read_writes_eq_canon _ _ _ (cover4_A_3 c i ma hma mb hmb mx hmx ms hms mq hmq hc a b)]
  unfold kernelRun4_A
  dsimp only
  sl_unfold_words
  rw [View.canon_cons_unit_zero (S := S1x128) offsets_zero, View.readCov_unit_zero (S := S1x128) _ offsets_zero]
  simp only [View.readAt_eq_ld, hma.read_unread, hmb.read_unread, View.ld_unit_zero (S := S5000x128) offsets_zero,
    View.ld_unit_zero (S := S1x128) offsets_zero]

theorem first_squares (hc : cond4_0 i) :
    out4_A_4 c i ma hma mb hmb mx hmx ms hms mq hmq hc a b = k4_pay5 a b (k4_pay2 (F := F)) := by
  unfold out4_A_4
  rw [View.read_writes_eq_canon _ _ _ (cover4_A_4 c i ma hma mb hmb mx hmx ms hms mq hmq hc a b)]
  unfold kernelRun4_A
  dsimp only
  sl_unfold_words
  rw [View.canon_cons_unit_zero (S := S1x128) offsets_zero, View.readCov_unit_zero (S := S1x128) _ offsets_zero]
  simp only [View.readAt_eq_ld, hma.read_unread, hmb.read_unread, View.ld_unit_zero (S := S5000x128) offsets_zero,
    View.ld_unit_zero (S := S1x128) offsets_zero]

theorem later_biased (hc : ¬cond4_0 i) :
    out4_B_2 c i ma hma mb hmb mx hmx ms hms mq hmq hc a b s q = k4_pay3 a b := by
  unfold out4_B_2
  rw [View.read_writes_eq_canon _ _ _ (cover4_B_2 c i ma hma mb hmb mx hmx ms hms mq hmq hc a b s q)]
  unfold kernelRun4_B
  dsimp only
  sl_unfold_words
  rw [View.canon_unit_zero offsets_zero]
  simp only [View.readAt_eq_ld, hma.read_unread, hmb.read_unread, View.ld_unit_zero (S := S5000x128) offsets_zero,
    View.ld_unit_zero (S := S1x128) offsets_zero]

theorem later_sums (hc : ¬cond4_0 i) :
    out4_B_3 c i ma hma mb hmb mx hmx ms hms mq hmq hc a b s q = k4_pay4 a b s := by
  unfold out4_B_3
  rw [View.read_writes_eq_canon _ _ _ (cover4_B_3 c i ma hma mb hmb mx hmx ms hms mq hmq hc a b s q)]
  unfold kernelRun4_B
  dsimp only
  sl_unfold_words
  rw [View.canon_unit_zero offsets_zero]
  simp only [View.readAt_eq_ld, hma.read_unread, hmb.read_unread, hms.read_unread, View.ld_unit_zero (S := S5000x128) offsets_zero,
    View.ld_unit_zero (S := S1x128) offsets_zero]

theorem later_squares (hc : ¬cond4_0 i) :
    out4_B_4 c i ma hma mb hmb mx hmx ms hms mq hmq hc a b s q = k4_pay5 a b q := by
  unfold out4_B_4
  rw [View.read_writes_eq_canon _ _ _ (cover4_B_4 c i ma hma mb hmb mx hmx ms hms mq hmq hc a b s q)]
  unfold kernelRun4_B
  dsimp only
  sl_unfold_words
  rw [View.canon_unit_zero offsets_zero]
  simp only [View.readAt_eq_ld, hma.read_unread, hmb.read_unread, hmq.read_unread, View.ld_unit_zero (S := S5000x128) offsets_zero,
    View.ld_unit_zero (S := S1x128) offsets_zero]

end Pieces

theorem row_in_channel (d : Fin 128) (p : Fin 5000) :
    reduces_S5000x128_S128.lift (ix1 d) p = ix2 p d := by
  funext a
  apply Fin.ext
  match a with
  | ⟨0, _⟩ => rfl
  | ⟨1, _⟩ => rfl

theorem biased_block_apply (a : Vec Ideal S5000x128 .f32) (b : Vec Ideal S1x128 .f32) (p : Fin 5000) (d : Fin 128) :
    k4_pay3 a b (ix2 p d) = a (ix2 p d) + b (ix2 0 d) := by
  unfold k4_pay3
  refine (addf_apply _ _ _).trans ?_
  refine congrArg₂ (· + ·) (congrFun (shapeCast_self a _) _) ?_
  refine (broadcastTo_1b_ab_apply _ _ p d).trans ?_
  exact congrFun (shapeCast_self b _) _

theorem zero_row_apply (d : Fin 128) : (k4_pay1 (F := Ideal)) (ix2 0 d) = 0 := by
  unfold k4_pay1
  exact Ideal.ofBits_zero_f32

theorem zero_row_apply' (d : Fin 128) : (k4_pay2 (F := Ideal)) (ix2 0 d) = 0 := by
  unfold k4_pay2
  exact Ideal.ofBits_zero_f32

theorem sums_step_apply (a : Vec Ideal S5000x128 .f32) (b : Vec Ideal S1x128 .f32) (s : Vec Ideal S1x128 .f32) (d : Fin 128) :
    k4_pay4 a b s (ix2 0 d) = s (ix2 0 d) + ∑ p : Fin 5000, k4_pay3 a b (ix2 p d) := by
  unfold k4_pay4
  dsimp only
  refine (addf_apply _ _ _).trans ?_
  refine congrArg₂ (· + ·) (congrFun (shapeCast_self s _) _) ?_
  refine (shapeCast_a_1a_apply _ _ 0 d).trans ?_
  refine (Ideal.multiReduction_add_single _ _ _ _ _ _).trans ?_
  exact Finset.sum_congr rfl fun p _ => congrArg (k4_pay3 a b) (row_in_channel d p)

theorem squares_step_apply (a : Vec Ideal S5000x128 .f32) (b : Vec Ideal S1x128 .f32) (q : Vec Ideal S1x128 .f32) (d : Fin 128) :
    k4_pay5 a b q (ix2 0 d) = q (ix2 0 d) + ∑ p : Fin 5000, k4_pay3 a b (ix2 p d) * k4_pay3 a b (ix2 p d) := by
  unfold k4_pay5
  dsimp only
  refine (addf_apply _ _ _).trans ?_
  refine congrArg₂ (· + ·) (congrFun (shapeCast_self q _) _) ?_
  refine (shapeCast_a_1a_apply _ _ 0 d).trans ?_
  refine (Ideal.multiReduction_add_single _ _ _ _ _ _).trans ?_
  refine Finset.sum_congr rfl fun p _ => ?_
  refine (mulf_apply _ _ _).trans ?_
  rw [row_in_channel d p]

theorem index_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

theorem point_lt (t : Fin cfg4.N) : t.val < 10 := lt_of_lt_of_eq t.isLt (show cfg4.N = 10 from N_4)

def rowOf (t : Fin cfg4.N) (p : Fin 5000) : Fin 50000 := ⟨5000 * t.val + p.val, by have := point_lt t; omega⟩

abbrev featBlock (c : Dev nD) (t : Fin cfg4.N) : Vec Ideal S5000x128 .f32 := iblk4 V c 0 t
abbrev biasBlock (c : Dev nD) (t : Fin cfg4.N) : Vec Ideal S1x128 .f32 := iblk4 V c 1 t
abbrev featArr (c : Dev nD) : Vec Ideal S50000x128 .f32 := V c (Pipeline.arrRef spec4 0)
abbrev biasArr (c : Dev nD) : Vec Ideal S1x128 .f32 := V c (Pipeline.arrRef spec4 1)

theorem featBlock_apply (c : Dev nD) (t : Fin cfg4.N) (p : Fin 5000) (d : Fin 128) :
    featBlock V c t (ix2 p d) = featArr V c (ix2 (rowOf t p) d) := by
  obtain ⟨ea, eb, -⟩ := index_facts t
  show V c (Pipeline.arrRef spec4 0) (((cfg4.win 0).blk t).view.emb (ix2 p d)) = V c (Pipeline.arrRef spec4 0) (ix2 (rowOf t p) d)
  refine congrArg _ (funext fun a => Fin.ext ?_)
  match a with
  | ⟨0, _⟩ => show win4_0.index t (0 : Fin 2) * 5000 + 1 * p.val = 5000 * t.val + p.val; omega
  | ⟨1, _⟩ => show win4_0.index t (1 : Fin 2) * 128 + 1 * d.val = d.val; omega

theorem biasBlock_apply (c : Dev nD) (t : Fin cfg4.N) (d : Fin 128) :
    biasBlock V c t (ix2 0 d) = biasArr V c (ix2 0 d) := by
  obtain ⟨-, -, ea, eb, -⟩ := index_facts t
  show V c (Pipeline.arrRef spec4 1) (((cfg4.win 1).blk t).view.emb (ix2 0 d)) = V c (Pipeline.arrRef spec4 1) (ix2 0 d)
  refine congrArg _ (funext fun a => Fin.ext ?_)
  match a with
  | ⟨0, _⟩ => show win4_1.index t (0 : Fin 2) * 1 + 1 * 0 = 0; omega
  | ⟨1, _⟩ => show win4_1.index t (1 : Fin 2) * 128 + 1 * d.val = d.val; omega

theorem stored_block_apply (c : Dev nD) (t : Fin cfg4.N) (p : Fin 5000) (d : Fin 128) :
    k4_pay3 (featBlock V c t) (biasBlock V c t) (ix2 p d) = biased V c (ix2 (rowOf t p) d) := by
  rw [biased_block_apply, featBlock_apply, biasBlock_apply]
  rfl

theorem outs_first (c : Dev nD) (t : Fin cfg4.N) (h : t.val % 10 = 0) :
    outsAt4 V c t.val t.isLt
      = (k4_pay3 (featBlock V c t) (biasBlock V c t),
         k4_pay4 (featBlock V c t) (biasBlock V c t) (k4_pay1 (F := Ideal)),
         k4_pay5 (featBlock V c t) (biasBlock V c t) (k4_pay2 (F := Ideal))) := by
  rw [outsAt4_A V c t h,
    first_biased (F := Ideal) c (grid4.coords t) (ms4_0 t) (hs4_0 t) (ms4_1 t) (hs4_1 t) (ms4_2 t) (hs4_2 t) (ms4_3 t) (hs4_3 t) (ms4_4 t) (hs4_4 t) (iblk4 V c 0 t) (iblk4 V c 1 t) ((hcond4_0 t).mpr h),
    first_sums (F := Ideal) c (grid4.coords t) (ms4_0 t) (hs4_0 t) (ms4_1 t) (hs4_1 t) (ms4_2 t) (hs4_2 t) (ms4_3 t) (hs4_3 t) (ms4_4 t) (hs4_4 t) (iblk4 V c 0 t) (iblk4 V c 1 t) ((hcond4_0 t).mpr h),
    first_squares (F := Ideal) c (grid4.coords t) (ms4_0 t) (hs4_0 t) (ms4_1 t) (hs4_1 t) (ms4_2 t) (hs4_2 t) (ms4_3 t) (hs4_3 t) (ms4_4 t) (hs4_4 t) (iblk4 V c 0 t) (iblk4 V c 1 t) ((hcond4_0 t).mpr h)]

theorem before_lt (t : Fin cfg4.N) : t.val - 1 < cfg4.N := Nat.lt_of_le_of_lt (Nat.sub_le _ _) t.isLt

theorem outs_later (c : Dev nD) (t : Fin cfg4.N) (h : ¬t.val % 10 = 0) :
    outsAt4 V c t.val t.isLt
      = (k4_pay3 (featBlock V c t) (biasBlock V c t),
         k4_pay4 (featBlock V c t) (biasBlock V c t) (outsAt4 V c (t.val - 1) (before_lt t)).2.1,
         k4_pay5 (featBlock V c t) (biasBlock V c t) (outsAt4 V c (t.val - 1) (before_lt t)).2.2) := by
  rw [outsAt4_B V c t h,
    later_biased (F := Ideal) c (grid4.coords t) (ms4_0 t) (hs4_0 t) (ms4_1 t) (hs4_1 t) (ms4_2 t) (hs4_2 t) (ms4_3 t) (hs4_3 t) (ms4_4 t) (hs4_4 t) (iblk4 V c 0 t) (iblk4 V c 1 t) (outsAt4 V c (t.val - 1) (before_lt t)).2.1 (outsAt4 V c (t.val - 1) (before_lt t)).2.2 (fun g => h ((hcond4_0 t).mp g)),
    later_sums (F := Ideal) c (grid4.coords t) (ms4_0 t) (hs4_0 t) (ms4_1 t) (hs4_1 t) (ms4_2 t) (hs4_2 t) (ms4_3 t) (hs4_3 t) (ms4_4 t) (hs4_4 t) (iblk4 V c 0 t) (iblk4 V c 1 t) (outsAt4 V c (t.val - 1) (before_lt t)).2.1 (outsAt4 V c (t.val - 1) (before_lt t)).2.2 (fun g => h ((hcond4_0 t).mp g)),
    later_squares (F := Ideal) c (grid4.coords t) (ms4_0 t) (hs4_0 t) (ms4_1 t) (hs4_1 t) (ms4_2 t) (hs4_2 t) (ms4_3 t) (hs4_3 t) (ms4_4 t) (hs4_4 t) (iblk4 V c 0 t) (iblk4 V c 1 t) (outsAt4 V c (t.val - 1) (before_lt t)).2.1 (outsAt4 V c (t.val - 1) (before_lt t)).2.2 (fun g => h ((hcond4_0 t).mp g))]

def entry (c : Dev nD) (d : Fin 128) (r : ℕ) : EReal :=
  if h : r < 50000 then biased V c (ix2 ⟨r, h⟩ d) else 0

theorem entry_block (c : Dev nD) (d : Fin 128) (t : Fin cfg4.N) (p : Fin 5000) :
    entry V c d (5000 * t.val + p.val) = biased V c (ix2 (rowOf t p) d) := by
  have h : 5000 * t.val + p.val < 50000 := by have := point_lt t; omega
  unfold entry
  rw [dif_pos h]
  rfl

theorem block_sum (c : Dev nD) (d : Fin 128) (t : Fin cfg4.N) :
    ∑ p : Fin 5000, k4_pay3 (featBlock V c t) (biasBlock V c t) (ix2 p d)
      = ∑ x ∈ Finset.range 5000, entry V c d (5000 * t.val + x) := by
  rw [Finset.sum_range]
  exact Finset.sum_congr rfl fun p _ => (stored_block_apply V c t p d).trans (entry_block V c d t p).symm

theorem block_sum_squares (c : Dev nD) (d : Fin 128) (t : Fin cfg4.N) :
    ∑ p : Fin 5000, k4_pay3 (featBlock V c t) (biasBlock V c t) (ix2 p d) * k4_pay3 (featBlock V c t) (biasBlock V c t) (ix2 p d)
      = ∑ x ∈ Finset.range 5000, entry V c d (5000 * t.val + x) * entry V c d (5000 * t.val + x) := by
  rw [Finset.sum_range]
  exact Finset.sum_congr rfl fun p _ => by rw [stored_block_apply V c t p d, entry_block V c d t p]

theorem sums_after (c : Dev nD) (d : Fin 128) : ∀ (n : ℕ) (hn : n < cfg4.N),
    ((outsAt4 V c n hn).2.1 : Vec Ideal S1x128 .f32) (ix2 0 d) = ∑ r ∈ Finset.range (5000 * (n + 1)), entry V c d r
  | 0, hn => by
    rw [show outsAt4 V c 0 hn = _ from outs_first V c ⟨0, hn⟩ rfl]
    dsimp only
    rw [sums_step_apply, zero_row_apply, zero_add, block_sum]
    exact Finset.sum_congr rfl fun x _ => by rw [Nat.mul_zero, Nat.zero_add]
  | n + 1, hn => by
    have hlater : ¬(⟨n + 1, hn⟩ : Fin cfg4.N).val % 10 = 0 := by
      have := point_lt ⟨n + 1, hn⟩; dsimp only at this ⊢; omega
    rw [show outsAt4 V c (n + 1) hn = _ from outs_later V c ⟨n + 1, hn⟩ hlater]
    dsimp only
    rw [sums_step_apply, block_sum]
    have ih := sums_after c d n (Nat.lt_of_succ_lt hn)
    rw [show 5000 * (n + 1 + 1) = 5000 * (n + 1) + 5000 from by ring, Finset.sum_range_add, ← ih]
    rfl

theorem squares_after (c : Dev nD) (d : Fin 128) : ∀ (n : ℕ) (hn : n < cfg4.N),
    ((outsAt4 V c n hn).2.2 : Vec Ideal S1x128 .f32) (ix2 0 d)
      = ∑ r ∈ Finset.range (5000 * (n + 1)), entry V c d r * entry V c d r
  | 0, hn => by
    rw [show outsAt4 V c 0 hn = _ from outs_first V c ⟨0, hn⟩ rfl]
    dsimp only
    rw [squares_step_apply, zero_row_apply', zero_add, block_sum_squares]
    exact Finset.sum_congr rfl fun x _ => by rw [Nat.mul_zero, Nat.zero_add]
  | n + 1, hn => by
    have hlater : ¬(⟨n + 1, hn⟩ : Fin cfg4.N).val % 10 = 0 := by
      have := point_lt ⟨n + 1, hn⟩; dsimp only at this ⊢; omega
    rw [show outsAt4 V c (n + 1) hn = _ from outs_later V c ⟨n + 1, hn⟩ hlater]
    dsimp only
    rw [squares_step_apply, block_sum_squares]
    have ih := squares_after c d n (Nat.lt_of_succ_lt hn)
    rw [show 5000 * (n + 1 + 1) = 5000 * (n + 1) + 5000 from by ring, Finset.sum_range_add, ← ih]
    rfl

theorem sum_entries (c : Dev nD) (d : Fin 128) :
    ∑ r ∈ Finset.range 50000, entry V c d r = Cert.Spec.colSum (biased V c) d := by
  rw [Finset.sum_range]
  exact Finset.sum_congr rfl fun n _ => by unfold entry; rw [dif_pos n.isLt]

theorem sum_entries_squares (c : Dev nD) (d : Fin 128) :
    ∑ r ∈ Finset.range 50000, entry V c d r * entry V c d r = Cert.Spec.colSumSq (biased V c) d := by
  rw [Finset.sum_range]
  exact Finset.sum_congr rfl fun n _ => by unfold entry; rw [dif_pos n.isLt]

theorem stored_at (c : Dev nD) (t : Fin cfg4.N) :
    (outsAt4 V c t.val t.isLt).1 = k4_pay3 (featBlock V c t) (biasBlock V c t) := by
  by_cases h : t.val % 10 = 0
  · rw [outs_first V c t h]
  · rw [outs_later V c t h]

theorem flushed_biased (c : Dev nD) (t : Fin cfg4.N) :
    (dat4 (F := Ideal) V c).flushed 2 t = ((cfg4.win 2).blk t).view.read (Elt Ideal) (biased V c) := by
  show (cfg4.win 2).cut (grid4.coords t) ((dat4 (F := Ideal) V c).after 2 t) = _
  rw [after4_2, stored_at]
  obtain ⟨-, -, -, -, ea, eb, -⟩ := index_facts t
  funext j
  show k4_pay3 (featBlock V c t) (biasBlock V c t) j = biased V c (((cfg4.win 2).blk t).view.emb j)
  have hemb : ((cfg4.win 2).blk t).view.emb j = ix2 (rowOf t (j 0)) (j 1) := by
    funext a
    apply Fin.ext
    match a with
    | ⟨0, _⟩ => show win4_2.index t (0 : Fin 2) * 5000 + 1 * (j 0).val = 5000 * t.val + (j 0).val; omega
    | ⟨1, _⟩ => show win4_2.index t (1 : Fin 2) * 128 + 1 * (j 1).val = (j 1).val; omega
  rw [hemb]
  exact (congrArg (k4_pay3 (featBlock V c t) (biasBlock V c t)) (eq_ix2 j)).trans (stored_block_apply V c t (j 0) (j 1))

theorem mem_block (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole (Pipeline.arrRef spec4 2)).slice (win4_2.rect t)).set ↔ _
  rw [View.set_slice_whole, Rect.mem_set_unit]
  exact Iff.rfl

theorem covered (i : S50000x128.Idx) :
    ∃ t : Fin cfg4.N, (cfg4.win 2).flush t = true ∧ i ∈ ((cfg4.win 2).blk t).view.set := by
  have hr : (i 0).val < 50000 := (i 0).isLt
  have hd : (i 1).val < 128 := (i 1).isLt
  have hN : cfg4.N = 10 := N_4
  have hq : (i 0).val / 5000 < cfg4.N := by omega
  obtain ⟨-, -, -, -, ea, eb, -⟩ := index_facts ⟨(i 0).val / 5000, hq⟩
  have ea' : win4_2.index ⟨(i 0).val / 5000, hq⟩ (0 : Fin 2) = (i 0).val / 5000 := ea
  refine ⟨⟨(i 0).val / 5000, hq⟩, flush4_2 _, ?_⟩
  rw [mem_block]
  intro a
  match a with
  | ⟨0, _⟩ =>
    show win4_2.index ⟨(i 0).val / 5000, hq⟩ (0 : Fin 2) * 5000 ≤ (i 0).val
      ∧ (i 0).val < win4_2.index ⟨(i 0).val / 5000, hq⟩ (0 : Fin 2) * 5000 + 5000
    omega
  | ⟨1, _⟩ =>
    show win4_2.index ⟨(i 0).val / 5000, hq⟩ (1 : Fin 2) * 128 ≤ (i 1).val
      ∧ (i 1).val < win4_2.index ⟨(i 0).val / 5000, hq⟩ (1 : Fin 2) * 128 + 128
    omega

theorem value2 (c : Dev nD) : (dat4 (F := Ideal) V c).arrAt 2 cfg4.N = biased V c :=
  (dat4 (F := Ideal) V c).arrAt_eq_of_cover 2 (biased V c) (fun t _ => flushed_biased V c t) covered

def lastPoint : Fin cfg4.N := ⟨9, by rw [show cfg4.N = 10 from N_4]; decide⟩

theorem row_emb (t : Fin cfg4.N) (j : S1x128.Idx) :
    (((cfg4.win 3).blk t).view.emb j : S1x128.Idx) = j ∧ (((cfg4.win 4).blk t).view.emb j : S1x128.Idx) = j := by
  obtain ⟨-, -, -, -, -, -, ea, eb, ec, ed⟩ := index_facts t
  have hu : (j 0).val < 1 := (j 0).isLt
  refine ⟨funext fun a => Fin.ext ?_, funext fun a => Fin.ext ?_⟩
  · match a with
    | ⟨0, _⟩ => show win4_3.index t (0 : Fin 2) * 1 + 1 * (j 0).val = (j 0).val; omega
    | ⟨1, _⟩ => show win4_3.index t (1 : Fin 2) * 128 + 1 * (j 1).val = (j 1).val; omega
  · match a with
    | ⟨0, _⟩ => show win4_4.index t (0 : Fin 2) * 1 + 1 * (j 0).val = (j 0).val; omega
    | ⟨1, _⟩ => show win4_4.index t (1 : Fin 2) * 128 + 1 * (j 1).val = (j 1).val; omega

theorem row_index (j : S1x128.Idx) : j = @ix2 1 128 (0 : Fin 1) (j 1) := by
  have hu : (j 0).val < 1 := (j 0).isLt
  refine (eq_ix2 j).trans ?_
  congr 1
  exact Fin.ext (by show (j 0).val = 0; omega)

theorem written_row (t : Fin cfg4.N) (X : Vec Ideal S1x128 .f32) :
    ((cfg4.win 3).cut (grid4.coords t) X : S1x128.Idx → EReal) = X
      ∧ ((cfg4.win 4).cut (grid4.coords t) X : S1x128.Idx → EReal) = X := ⟨rfl, rfl⟩

theorem read_row (t : Fin cfg4.N) (G : S1x128.Idx → EReal) :
    (((cfg4.win 3).blk t).view.read (Elt Ideal) G : S1x128.Idx → EReal) = G
      ∧ (((cfg4.win 4).blk t).view.read (Elt Ideal) G : S1x128.Idx → EReal) = G :=
  ⟨funext fun j => (show _ = G (((cfg4.win 3).blk t).view.emb j) from rfl).trans (congrArg G (row_emb t j).1),
   funext fun j => (show _ = G (((cfg4.win 4).blk t).view.emb j) from rfl).trans (congrArg G (row_emb t j).2)⟩

theorem flushed_sums (c : Dev nD) (t : Fin cfg4.N) (hf : (cfg4.win 3).flush t = true) :
    (dat4 (F := Ideal) V c).flushed 3 t
      = ((cfg4.win 3).blk t).view.read (Elt Ideal) (fun j => Cert.Spec.colSum (biased V c) (j 1) : S1x128.Idx → EReal) := by
  have ht : t.val = 9 := by have := (flush4_3 t).mp hf; have := point_lt t; omega
  show (cfg4.win 3).cut (grid4.coords t) ((dat4 (F := Ideal) V c).after 3 t) = _
  rw [after4_3]
  refine ((written_row t _).1).trans ?_
  refine Eq.trans ?_ (read_row t _).1.symm
  funext j
  obtain ⟨d, rfl⟩ : ∃ d : Fin 128, j = ix2 0 d := ⟨j 1, row_index j⟩
  refine (sums_after V c d t.val t.isLt).trans ?_
  rw [ht]
  exact sum_entries V c d

theorem flushed_squares (c : Dev nD) (t : Fin cfg4.N) (hf : (cfg4.win 4).flush t = true) :
    (dat4 (F := Ideal) V c).flushed 4 t
      = ((cfg4.win 4).blk t).view.read (Elt Ideal) (fun j => Cert.Spec.colSumSq (biased V c) (j 1) : S1x128.Idx → EReal) := by
  have ht : t.val = 9 := by have := (flush4_4 t).mp hf; have := point_lt t; omega
  show (cfg4.win 4).cut (grid4.coords t) ((dat4 (F := Ideal) V c).after 4 t) = _
  rw [after4_4]
  refine ((written_row t _).2).trans ?_
  refine Eq.trans ?_ (read_row t _).2.symm
  funext j
  obtain ⟨d, rfl⟩ : ∃ d : Fin 128, j = ix2 0 d := ⟨j 1, row_index j⟩
  refine (squares_after V c d t.val t.isLt).trans ?_
  rw [ht]
  exact sum_entries_squares V c d

theorem row_covered (i : S1x128.Idx) :
    i ∈ ((cfg4.win 3).blk lastPoint).view.set ∧ i ∈ ((cfg4.win 4).blk lastPoint).view.set := by
  obtain ⟨-, -, -, -, -, -, ea, eb, ec, ed⟩ := index_facts lastPoint
  have hu : (i 0).val < 1 := (i 0).isLt
  have hd : (i 1).val < 128 := (i 1).isLt
  constructor
  · show i ∈ ((View.whole (Pipeline.arrRef spec4 3)).slice (win4_3.rect lastPoint)).set
    rw [View.set_slice_whole, Rect.mem_set_unit]
    intro a
    match a with
    | ⟨0, _⟩ => show win4_3.index lastPoint (0 : Fin 2) * 1 ≤ (i 0).val ∧ (i 0).val < win4_3.index lastPoint (0 : Fin 2) * 1 + 1; omega
    | ⟨1, _⟩ => show win4_3.index lastPoint (1 : Fin 2) * 128 ≤ (i 1).val ∧ (i 1).val < win4_3.index lastPoint (1 : Fin 2) * 128 + 128; omega
  · show i ∈ ((View.whole (Pipeline.arrRef spec4 4)).slice (win4_4.rect lastPoint)).set
    rw [View.set_slice_whole, Rect.mem_set_unit]
    intro a
    match a with
    | ⟨0, _⟩ => show win4_4.index lastPoint (0 : Fin 2) * 1 ≤ (i 0).val ∧ (i 0).val < win4_4.index lastPoint (0 : Fin 2) * 1 + 1; omega
    | ⟨1, _⟩ => show win4_4.index lastPoint (1 : Fin 2) * 128 ≤ (i 1).val ∧ (i 1).val < win4_4.index lastPoint (1 : Fin 2) * 128 + 128; omega

theorem value3 (c : Dev nD) :
    (dat4 (F := Ideal) V c).arrAt 3 cfg4.N = (fun j => Cert.Spec.colSum (biased V c) (j 1) : S1x128.Idx → EReal) :=
  (dat4 (F := Ideal) V c).arrAt_eq_of_cover 3 (fun j => Cert.Spec.colSum (biased V c) (j 1) : S1x128.Idx → EReal) (flushed_sums V c) fun i =>
    ⟨lastPoint, (flush4_3 lastPoint).mpr rfl, (row_covered i).1⟩

theorem value4 (c : Dev nD) :
    (dat4 (F := Ideal) V c).arrAt 4 cfg4.N = (fun j => Cert.Spec.colSumSq (biased V c) (j 1) : S1x128.Idx → EReal) :=
  (dat4 (F := Ideal) V c).arrAt_eq_of_cover 4 (fun j => Cert.Spec.colSumSq (biased V c) (j 1) : S1x128.Idx → EReal) (flushed_squares V c) fun i =>
    ⟨lastPoint, (flush4_4 lastPoint).mpr rfl, (row_covered i).2⟩

end Cert.KernelIdeal.Region4

end
-- ==== Proof.Region5.lean ====
/-
  The normalisation region with the final clip: each block of 5000 rows is the same entrywise function of the
  feature array and the four channel rows.
-/
import proofs.«402385_j8315056685617_1_alg».proof.Proof.Gen.KernelIdeal.Frame
import proofs.«402385_j8315056685617_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region5

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable (V : (c : Dev nD) → (b : Ref sig .tc) → Buf (Elt Ideal) ((c : Thread nD τ).loc b))

abbrev chan (a : S1x128.Idx → EReal) : Cert.Spec.Chan := fun d => a (ix2 0 d)

abbrev result (c : Dev nD) : Cert.Spec.Feat :=
  Cert.Spec.clipped (Cert.Spec.affine (V c (Pipeline.arrRef spec5 0))
    (chan (V c (Pipeline.arrRef spec5 1))) (chan (V c (Pipeline.arrRef spec5 2)))
    (chan (V c (Pipeline.arrRef spec5 3))) (chan (V c (Pipeline.arrRef spec5 4))))

theorem rsqrt_apply {s : Shape} {φ : FTy} (a : FVec Ideal s φ) (i : s.Idx) : rsqrt a i = Ideal.rsqrt (a i) := rfl

theorem payload_apply (var : Vec Ideal S1x128 .f32) (x : Vec Ideal S5000x128 .f32) (mu g b : Vec Ideal S1x128 .f32)
    (p : Fin 5000) (d : Fin 128) :
    k5_pay1 var x mu g b (ix2 p d)
      = max ((x (ix2 p d) - mu (ix2 0 d)) * Ideal.rsqrt (var (ix2 0 d) + Cert.Spec.eps) * g (ix2 0 d) + b (ix2 0 d)) 0 := by
  unfold k5_pay1
  simp only [shapeCast_self, maximumf_apply, addf_apply, mulf_apply, subf_apply, broadcast_apply, rsqrt_apply,
    broadcastTo_1b_ab_apply, Ideal.ofBits_def, Ideal.ofBits_zero_f32, Cert.Spec.eps]

theorem hz : (![0, 0] : Fin 2 → Nat) = fun _ => 0 := funext fun a => by fin_cases a <;> rfl

theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

theorem point_lt (t : Fin cfg5.N) : t.val < 10 := by
  have h : t.val < grid5.N := t.isLt
  rw [N_5] at h; exact h

def rowOf (t : Fin cfg5.N) (p : Fin 5000) : Fin 50000 :=
  ⟨t.val * 5000 + p.val, by have := point_lt t; have := p.isLt; omega⟩

theorem emb_out (t : Fin cfg5.N) (p : Fin 5000) (d : Fin 128) :
    (((cfg5.win 5).blk t).view.emb (ix2 p d) : S50000x128.Idx) = ix2 (rowOf t p) d := by
  obtain ⟨-, -, -, -, -, -, -, -, -, -, e0, e1⟩ := idx_facts t
  funext a; apply Fin.ext
  match a with
  | ⟨0, _⟩ => show win5_5.index t (0 : Fin 2) * 5000 + 1 * p.val = t.val * 5000 + p.val; omega
  | ⟨1, _⟩ => show win5_5.index t (1 : Fin 2) * 128 + 1 * d.val = d.val; omega

theorem read_x (c : Dev nD) (t : Fin cfg5.N) (p : Fin 5000) (d : Fin 128) :
    iblk5 V c 0 t (ix2 p d) = (V c (Pipeline.arrRef spec5 0) : S50000x128.Idx → EReal) (ix2 (rowOf t p) d) := by
  obtain ⟨e0, e1, -⟩ := idx_facts t
  show (V c (Pipeline.arrRef spec5 0) : S50000x128.Idx → EReal) (((cfg5.win 0).blk t).view.emb (ix2 p d)) = _
  refine congrArg _ (funext fun a => Fin.ext ?_)
  match a with
  | ⟨0, _⟩ => show win5_0.index t (0 : Fin 2) * 5000 + 1 * p.val = t.val * 5000 + p.val; omega
  | ⟨1, _⟩ => show win5_0.index t (1 : Fin 2) * 128 + 1 * d.val = d.val; omega

theorem read_mean (c : Dev nD) (t : Fin cfg5.N) (d : Fin 128) :
    iblk5 V c 1 t (ix2 0 d) = (V c (Pipeline.arrRef spec5 1) : S1x128.Idx → EReal) (ix2 0 d) := by
  obtain ⟨-, -, e0, e1, -⟩ := idx_facts t
  show (V c (Pipeline.arrRef spec5 1) : S1x128.Idx → EReal) (((cfg5.win 1).blk t).view.emb (ix2 0 d)) = _
  refine congrArg _ (funext fun a => Fin.ext ?_)
  match a with
  | ⟨0, _⟩ => show win5_1.index t (0 : Fin 2) * 1 + 1 * 0 = 0; omega
  | ⟨1, _⟩ => show win5_1.index t (1 : Fin 2) * 128 + 1 * d.val = d.val; omega

theorem read_var (c : Dev nD) (t : Fin cfg5.N) (d : Fin 128) :
    iblk5 V c 2 t (ix2 0 d) = (V c (Pipeline.arrRef spec5 2) : S1x128.Idx → EReal) (ix2 0 d) := by
  obtain ⟨-, -, -, -, e0, e1, -⟩ := idx_facts t
  show (V c (Pipeline.arrRef spec5 2) : S1x128.Idx → EReal) (((cfg5.win 2).blk t).view.emb (ix2 0 d)) = _
  refine congrArg _ (funext fun a => Fin.ext ?_)
  match a with
  | ⟨0, _⟩ => show win5_2.index t (0 : Fin 2) * 1 + 1 * 0 = 0; omega
  | ⟨1, _⟩ => show win5_2.index t (1 : Fin 2) * 128 + 1 * d.val = d.val; omega

theorem read_scale (c : Dev nD) (t : Fin cfg5.N) (d : Fin 128) :
    iblk5 V c 3 t (ix2 0 d) = (V c (Pipeline.arrRef spec5 3) : S1x128.Idx → EReal) (ix2 0 d) := by
  obtain ⟨-, -, -, -, -, -, e0, e1, -⟩ := idx_facts t
  show (V c (Pipeline.arrRef spec5 3) : S1x128.Idx → EReal) (((cfg5.win 3).blk t).view.emb (ix2 0 d)) = _
  refine congrArg _ (funext fun a => Fin.ext ?_)
  match a with
  | ⟨0, _⟩ => show win5_3.index t (0 : Fin 2) * 1 + 1 * 0 = 0; omega
  | ⟨1, _⟩ => show win5_3.index t (1 : Fin 2) * 128 + 1 * d.val = d.val; omega

theorem read_shift (c : Dev nD) (t : Fin cfg5.N) (d : Fin 128) :
    iblk5 V c 4 t (ix2 0 d) = (V c (Pipeline.arrRef spec5 4) : S1x128.Idx → EReal) (ix2 0 d) := by
  obtain ⟨-, -, -, -, -, -, -, -, e0, e1, -⟩ := idx_facts t
  show (V c (Pipeline.arrRef spec5 4) : S1x128.Idx → EReal) (((cfg5.win 4).blk t).view.emb (ix2 0 d)) = _
  refine congrArg _ (funext fun a => Fin.ext ?_)
  match a with
  | ⟨0, _⟩ => show win5_4.index t (0 : Fin 2) * 1 + 1 * 0 = 0; omega
  | ⟨1, _⟩ => show win5_4.index t (1 : Fin 2) * 128 + 1 * d.val = d.val; omega

theorem flushed_eq (c : Dev nD) (t : Fin cfg5.N) :
    (dat5 V c).flushed 5 t = ((cfg5.win 5).blk t).view.read (Elt Ideal) (result V c) := by
  show (cfg5.win 5).cut (grid5.coords t) ((dat5 V c).after 5 t) = _
  rw [after5_5]
  unfold out5_5
  rw [View.canon_unit_zero hz]
  simp only [View.ld_unit_zero (S := S5000x128) hz, View.ld_unit_zero (S := S1x128) hz]
  funext j
  obtain ⟨p, d, rfl⟩ : ∃ (p : Fin 5000) (d : Fin 128), j = ix2 p d := ⟨j 0, j 1, eq_ix2 j⟩
  show k5_pay1 (iblk5 V c 2 t) (iblk5 V c 0 t) (iblk5 V c 1 t) (iblk5 V c 3 t) (iblk5 V c 4 t) (ix2 p d)
      = result V c (((cfg5.win 5).blk t).view.emb (ix2 p d))
  rw [emb_out]
  refine (payload_apply (iblk5 V c 2 t) (iblk5 V c 0 t) (iblk5 V c 1 t) (iblk5 V c 3 t) (iblk5 V c 4 t) p d).trans ?_
  rw [read_x V c t p d, read_mean V c t d, read_var V c t d, read_scale V c t d, read_shift V c t d]
  rfl

theorem mem_blk (t : Fin cfg5.N) (i : S50000x128.Idx) :
    i ∈ ((cfg5.win 5).blk t).view.set ↔ ∀ a : Fin 2, win5_5.index t a * S5000x128.size a ≤ (i a).val
      ∧ (i a).val < win5_5.index t a * S5000x128.size a + S5000x128.size a := by
  show i ∈ ((View.whole (Pipeline.arrRef spec5 5)).slice (win5_5.rect t)).set ↔ _
  rw [View.set_slice_whole, Rect.mem_set_unit]
  exact Iff.rfl

theorem cover (i : S50000x128.Idx) :
    ∃ t : Fin cfg5.N, (cfg5.win 5).flush t = true ∧ i ∈ ((cfg5.win 5).blk t).view.set := by
  have hi0 : (i 0).val < 50000 := idx2_lt0 i
  have hi1 : (i 1).val < 128 := idx2_lt1 i
  have hN : (i 0).val / 5000 < cfg5.N := by show _ < grid5.N; rw [N_5]; omega
  obtain ⟨-, -, -, -, -, -, -, -, -, -, e0, e1⟩ := idx_facts ⟨(i 0).val / 5000, hN⟩
  refine ⟨⟨(i 0).val / 5000, hN⟩, flush5_5 _, ?_⟩
  rw [mem_blk]
  intro a
  match a with
  | ⟨0, _⟩ =>
    show win5_5.index ⟨(i 0).val / 5000, hN⟩ (0 : Fin 2) * 5000 ≤ (i 0).val
      ∧ (i 0).val < win5_5.index ⟨(i 0).val / 5000, hN⟩ (0 : Fin 2) * 5000 + 5000
    rw [e0]
    show (i 0).val / 5000 * 5000 ≤ (i 0).val ∧ (i 0).val < (i 0).val / 5000 * 5000 + 5000
    omega
  | ⟨1, _⟩ =>
    show win5_5.index ⟨(i 0).val / 5000, hN⟩ (1 : Fin 2) * 128 ≤ (i 1).val
      ∧ (i 1).val < win5_5.index ⟨(i 0).val / 5000, hN⟩ (1 : Fin 2) * 128 + 128
    omega

theorem value (c : Dev nD) :
    (dat5 V c).arrAt 5 cfg5.N
      = Cert.Spec.clipped (Cert.Spec.affine (V c (Pipeline.arrRef spec5 0))
          (chan (V c (Pipeline.arrRef spec5 1))) (chan (V c (Pipeline.arrRef spec5 2)))
          (chan (V c (Pipeline.arrRef spec5 3))) (chan (V c (Pipeline.arrRef spec5 4)))) :=
  (dat5 V c).arrAt_eq_of_cover 5 (result V c) (fun t _ => flushed_eq V c t) cover

end Cert.KernelIdeal.Region5

end
-- ==== Proof.KLayer1.lean ====
/-
  One layer of the kernel program as values, from the boundary where the layer begins to the one where the next
  begins: product, bounds-tested aggregation, bias and moments, mean and variance from the moments, normalisation.
-/
import proofs.«402385_j8315056685617_1_alg».proof.Proof.Gen.KernelIdeal.Frame
import proofs.«402385_j8315056685617_1_alg».proof.Proof.Spec
import proofs.«402385_j8315056685617_1_alg».proof.Proof.Graph
import proofs.«402385_j8315056685617_1_alg».proof.Proof.Network
import proofs.«402385_j8315056685617_1_alg».proof.Proof.LayerLib
import proofs.«402385_j8315056685617_1_alg».proof.Proof.Region3
import proofs.«402385_j8315056685617_1_alg».proof.Proof.Region4
import proofs.«402385_j8315056685617_1_alg».proof.Proof.Region5
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Layer1

open Cert.KernelIdeal Cert.KernelIdeal.Gen
open Idealize.ShloMosaic Idealize.ShloMosaic.TcCoe Idealize.ShloMosaic.ValueIdx
open Idealize.SL.Sem
open Cert.KernelIdeal.LayerLib

variable (m : (ℓ : Loc nD τ sig) → Buf (Elt Ideal) ℓ) (ρ : Dev nD → PrngReg) (c : Dev nD)

abbrev thisLayer : Fin 5 := 1
abbrev nextLayer : Fin 5 := 2

section Lookup

variable {F : FTy → Type} [FloatOps F]

variable (V : Valuation τ sig (Elt F))

theorem hostOps1_parts :
    (hostOps4 : List (HloOp τ sig (Elt F)))
      = List.take 8 hostOps4 ++ (List.take 10 (List.drop 8 hostOps4) ++ List.drop 10 (List.drop 8 hostOps4)) := by
  rw [List.take_append_drop, List.take_append_drop]

theorem hostOps1_first_main_call1_v5 :
    StableHlo.after (List.take 8 (hostOps4 (F := F))) V (Proc.devRef .tc main_call2_v5)
      = lookupIdx (V (Proc.devRef .tc main_v3)) := by
  simp only [hostOps4, List.take_succ_cons, List.take_zero]
  after_results
  rfl

theorem hostOps1_first_main_v34 :
    StableHlo.after (List.take 8 (hostOps4 (F := F))) V (Proc.devRef .tc main_v61) = V (Proc.devRef .tc main_v61) := by
  simp only [hostOps4, List.take_succ_cons, List.take_zero]
  after_results

theorem hostOps1_second_main_call1_v12 :
    StableHlo.after (List.take 10 (List.drop 8 (hostOps4 (F := F)))) V (Proc.devRef .tc main_call2_v12)
      = lookupMask (V (Proc.devRef .tc main_call2_v5)) := by
  simp only [hostOps4, List.drop_succ_cons, List.drop_zero, List.take_succ_cons, List.take_zero]
  after_results
  simp only [StableHlo.TRef.ofBuf, StableHlo.TRef.toBuf, cast_eq]
  rfl

theorem hostOps1_second_main_call1_v5 :
    StableHlo.after (List.take 10 (List.drop 8 (hostOps4 (F := F)))) V (Proc.devRef .tc main_call2_v5)
      = V (Proc.devRef .tc main_call2_v5) := by
  simp only [hostOps4, List.drop_succ_cons, List.drop_zero, List.take_succ_cons, List.take_zero]
  after_results

theorem hostOps1_second_main_v34 :
    StableHlo.after (List.take 10 (List.drop 8 (hostOps4 (F := F)))) V (Proc.devRef .tc main_v61)
      = V (Proc.devRef .tc main_v61) := by
  simp only [hostOps4, List.drop_succ_cons, List.drop_zero, List.take_succ_cons, List.take_zero]
  after_results

theorem hostOps1_third_main_v35 :
    StableHlo.after (List.drop 10 (List.drop 8 (hostOps4 (F := F)))) V (Proc.devRef .tc main_v62)
      = lookupRows (V (Proc.devRef .tc main_call2_v12)) (V (Proc.devRef .tc main_v61)) (V (Proc.devRef .tc main_call2_v5)) := by
  simp only [hostOps4, List.drop_succ_cons, List.drop_zero]
  after_results
  rfl

theorem hostOps1_main_v35_any :
    StableHlo.after (hostOps4 (F := F)) V (Proc.devRef .tc main_v62)
      = lookupRows (lookupMask (lookupIdx (V (Proc.devRef .tc main_v3)))) (V (Proc.devRef .tc main_v61))
          (lookupIdx (V (Proc.devRef .tc main_v3))) := by
  rw [hostOps1_parts, StableHlo.after_append, StableHlo.after_append, hostOps1_third_main_v35,
    hostOps1_second_main_call1_v12, hostOps1_second_main_v34, hostOps1_second_main_call1_v5,
    hostOps1_first_main_call1_v5, hostOps1_first_main_v34]

end Lookup

section Stretches

variable (V : Valuation τ sig (Elt Ideal))

abbrev hostOps1_W : List (Ref sig .tc) :=
  [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v62]

theorem hostOps1_writes :
    (hostOps4 : List (HloOp τ sig (Elt Ideal))).Forall fun op => op.writes ⊆ (hostOps1_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem hostOps1_keeps (r : Ref sig .tc) (h : r ∉ hostOps1_W) :
    StableHlo.after hostOps4 V (Proc.devRef .tc r) = V (Proc.devRef .tc r) :=
  StableHlo.after_of_writes_sub hostOps4 V hostOps1_writes h

theorem hostOps1_main_v35 :
    StableHlo.after hostOps4 V (Proc.devRef .tc main_v62)
      = Cert.Graph.sourceRowsChecked (F := Ideal) (V (Proc.devRef .tc main_v3)) (V (Proc.devRef .tc main_v61)) := by
  exact (hostOps1_main_v35_any V).trans (lookup_eq _ _)

abbrev hostOps1_1_W : List (Ref sig .tc) :=
  [main_v63, main_v64, main_v65, main_cst_9, main_v66, main_v67, main_v68, main_v69, main_v70, main_v71]

theorem hostOps1_1_writes :
    (hostOps4_1 : List (HloOp τ sig (Elt Ideal))).Forall fun op => op.writes ⊆ (hostOps1_1_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem hostOps1_1_keeps (r : Ref sig .tc) (h : r ∉ hostOps1_1_W) :
    StableHlo.after hostOps4_1 V (Proc.devRef .tc r) = V (Proc.devRef .tc r) :=
  StableHlo.after_of_writes_sub hostOps4_1 V hostOps1_1_writes h

theorem hostOps1_1_main_v41 :
    StableHlo.after hostOps4_1 V (Proc.devRef .tc main_v68)
      = Cert.Graph.accumulate (F := Ideal) (V (Proc.devRef .tc main_v6)) (V (Proc.devRef .tc main_v31)) (V (Proc.devRef .tc main_v62)) := by
  after_results
  rfl

theorem hostOps1_1_main_v44 :
    row (StableHlo.after hostOps4_1 V (Proc.devRef .tc main_v71))
      = Cert.Network.chan thisLayer (V (Proc.devRef .tc main_arg5)) := by
  after_results
  exact chan_slice thisLayer _ _ _ _

abbrev hostOps2_W : List (Ref sig .tc) :=
  [main_cst_10, main_v73, main_v74, main_cst_11, main_v75, main_v76, main_v77, main_v78, main_v79, main_v80, main_v81, main_v82, main_v83, main_v84]

theorem hostOps2_writes :
    (hostOps5 : List (HloOp τ sig (Elt Ideal))).Forall fun op => op.writes ⊆ (hostOps2_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem hostOps2_keeps (r : Ref sig .tc) (h : r ∉ hostOps2_W) :
    StableHlo.after hostOps5 V (Proc.devRef .tc r) = V (Proc.devRef .tc r) :=
  StableHlo.after_of_writes_sub hostOps5 V hostOps2_writes h

theorem hostOps2_main_v47 :
    row (StableHlo.after hostOps5 V (Proc.devRef .tc main_v74))
      = fun d => Ideal.div (row (V (Proc.devRef .tc main_v72_1)) d) Cert.Spec.count := by
  after_results
  rfl

theorem hostOps2_main_v51 :
    row (StableHlo.after hostOps5 V (Proc.devRef .tc main_v78))
      = fun d => Ideal.div (row (V (Proc.devRef .tc main_v72_2)) d) Cert.Spec.count
          - Ideal.div (row (V (Proc.devRef .tc main_v72_1)) d) Cert.Spec.count
            * Ideal.div (row (V (Proc.devRef .tc main_v72_1)) d) Cert.Spec.count := by
  after_results
  rfl

theorem hostOps2_main_v56 :
    row (StableHlo.after hostOps5 V (Proc.devRef .tc main_v83))
      = Cert.Network.chan thisLayer (V (Proc.devRef .tc main_arg6)) := by
  after_results
  exact chan_slice thisLayer _ _ _ _

theorem hostOps2_main_v57 :
    row (StableHlo.after hostOps5 V (Proc.devRef .tc main_v84))
      = Cert.Network.chan thisLayer (V (Proc.devRef .tc main_arg7)) := by
  after_results
  exact chan_slice thisLayer _ _ _ _

abbrev hostOps3_W : List (Ref sig .tc) :=
  [main_v86, main_v87]

theorem hostOps3_writes :
    (hostOps6 : List (HloOp τ sig (Elt Ideal))).Forall fun op => op.writes ⊆ (hostOps3_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem hostOps3_keeps (r : Ref sig .tc) (h : r ∉ hostOps3_W) :
    StableHlo.after hostOps6 V (Proc.devRef .tc r) = V (Proc.devRef .tc r) :=
  StableHlo.after_of_writes_sub hostOps6 V hostOps3_writes h

theorem hostOps3_main_v60 :
    StableHlo.after hostOps6 V (Proc.devRef .tc main_v87)
      = Cert.Network.weight nextLayer (V (Proc.devRef .tc main_arg4)) := by
  after_results
  exact weight_slice nextLayer _ _ _

end Stretches

structure Entry (H : Cert.Spec.Feat) (Wm : Cert.Spec.Weights.Idx → EReal) (R C : IVec Cert.Graph.S850000 32)
    (K : FVec Ideal Cert.Graph.S850000 .f32) : Prop where
  feat : W10 m ρ c (Proc.devRef .tc main_v58) = H
  wmat : W10 m ρ c (Proc.devRef .tc main_v60) = Wm
  src : W10 m ρ c (Proc.devRef .tc main_v3) = R
  tgt : W10 m ρ c (Proc.devRef .tc main_v6) = C
  coef : W10 m ρ c (Proc.devRef .tc main_v31) = K
  arg0 : W10 m ρ c (Proc.devRef .tc main_arg0) = m ((c : Thread nD τ).loc main_arg0)
  arg4 : W10 m ρ c (Proc.devRef .tc main_arg4) = m ((c : Thread nD τ).loc main_arg4)
  arg5 : W10 m ρ c (Proc.devRef .tc main_arg5) = m ((c : Thread nD τ).loc main_arg5)
  arg6 : W10 m ρ c (Proc.devRef .tc main_arg6) = m ((c : Thread nD τ).loc main_arg6)
  arg7 : W10 m ρ c (Proc.devRef .tc main_arg7) = m ((c : Thread nD τ).loc main_arg7)

abbrev bias : Cert.Spec.Chan := Cert.Network.chan thisLayer (m ((c : Thread nD τ).loc main_arg5))
abbrev scale : Cert.Spec.Chan := Cert.Network.chan thisLayer (m ((c : Thread nD τ).loc main_arg6))
abbrev shift : Cert.Spec.Chan := Cert.Network.chan thisLayer (m ((c : Thread nD τ).loc main_arg7))

abbrev biased (H : Cert.Spec.Feat) (Wm : Cert.Spec.Weights.Idx → EReal) (R C : IVec Cert.Graph.S850000 32)
    (K : FVec Ideal Cert.Graph.S850000 .f32) : Cert.Spec.Feat :=
  Cert.Spec.shifted (Cert.Graph.aggregateChecked R C K (Cert.Spec.product H Wm)) (bias m c)

section Kept

variable (r : Ref sig .tc)

theorem keepW4 (g0 : ∀ w, Pipeline.arrRef spec3 w ≠ r) :
    W11 m ρ c (Proc.devRef .tc r) = W10 m ρ c (Proc.devRef .tc r) :=
  W11_of_ne m ρ c r g0

theorem keepW5 (g0 : ∀ w, Pipeline.arrRef spec3 w ≠ r) (h1 : r ∉ hostOps1_W) :
    W12 m ρ c (Proc.devRef .tc r) = W10 m ρ c (Proc.devRef .tc r) :=
  (hostOps1_keeps (W11 m ρ c) r h1).trans (keepW4 m ρ c r g0)

theorem keepW6 (g0 : ∀ w, Pipeline.arrRef spec3 w ≠ r) (h1 : r ∉ hostOps1_W) (h1_1 : r ∉ hostOps1_1_W) :
    W13 m ρ c (Proc.devRef .tc r) = W10 m ρ c (Proc.devRef .tc r) :=
  (hostOps1_1_keeps (W12 m ρ c) r h1_1).trans (keepW5 m ρ c r g0 h1)

theorem keepW7 (g0 : ∀ w, Pipeline.arrRef spec3 w ≠ r) (h1 : r ∉ hostOps1_W) (h1_1 : r ∉ hostOps1_1_W)
    (g1 : ∀ w, Pipeline.arrRef spec4 w ≠ r) :
    W14 m ρ c (Proc.devRef .tc r) = W10 m ρ c (Proc.devRef .tc r) :=
  (W14_of_ne m ρ c r g1).trans (keepW6 m ρ c r g0 h1 h1_1)

theorem keepW8 (g0 : ∀ w, Pipeline.arrRef spec3 w ≠ r) (h1 : r ∉ hostOps1_W) (h1_1 : r ∉ hostOps1_1_W)
    (g1 : ∀ w, Pipeline.arrRef spec4 w ≠ r) (h2 : r ∉ hostOps2_W) :
    W15 m ρ c (Proc.devRef .tc r) = W10 m ρ c (Proc.devRef .tc r) :=
  (hostOps2_keeps (W14 m ρ c) r h2).trans (keepW7 m ρ c r g0 h1 h1_1 g1)

theorem keepW9 (g0 : ∀ w, Pipeline.arrRef spec3 w ≠ r) (h1 : r ∉ hostOps1_W) (h1_1 : r ∉ hostOps1_1_W)
    (g1 : ∀ w, Pipeline.arrRef spec4 w ≠ r) (h2 : r ∉ hostOps2_W) (g2 : ∀ w, Pipeline.arrRef spec5 w ≠ r) :
    W16 m ρ c (Proc.devRef .tc r) = W10 m ρ c (Proc.devRef .tc r) :=
  (W16_of_ne m ρ c r g2).trans (keepW8 m ρ c r g0 h1 h1_1 g1 h2)

theorem keepW10 (g0 : ∀ w, Pipeline.arrRef spec3 w ≠ r) (h1 : r ∉ hostOps1_W) (h1_1 : r ∉ hostOps1_1_W)
    (g1 : ∀ w, Pipeline.arrRef spec4 w ≠ r) (h2 : r ∉ hostOps2_W) (g2 : ∀ w, Pipeline.arrRef spec5 w ≠ r)
    (h3 : r ∉ hostOps3_W) :
    W17 m ρ c (Proc.devRef .tc r) = W10 m ρ c (Proc.devRef .tc r) :=
  (hostOps3_keeps (W16 m ρ c) r h3).trans (keepW9 m ρ c r g0 h1 h1_1 g1 h2 g2)

end Kept

variable {H : Cert.Spec.Feat} {Wm : Cert.Spec.Weights.Idx → EReal} {R C : IVec Cert.Graph.S850000 32}
  {K : FVec Ideal Cert.Graph.S850000 .f32}

theorem W4_main_v34 (e : Entry m ρ c H Wm R C K) :
    W11 m ρ c (Proc.devRef .tc main_v61) = Cert.Spec.product H Wm :=
  (W11_arr m ρ c 2).trans <| (Cert.KernelIdeal.Region3.value (V10 m ρ) c).trans <| by
    show Cert.Spec.product (W10 m ρ c (Proc.devRef .tc main_v58)) (W10 m ρ c (Proc.devRef .tc main_v60)) = _
    rewrite [e.feat, e.wmat]
    rfl

theorem W5_main_v35 (e : Entry m ρ c H Wm R C K) :
    W12 m ρ c (Proc.devRef .tc main_v62) = Cert.Graph.sourceRowsChecked (F := Ideal) R (Cert.Spec.product H Wm) := by
  show StableHlo.after hostOps4 (W11 m ρ c) (Proc.devRef .tc main_v62) = _
  rewrite [hostOps1_main_v35, keepW4 m ρ c main_v3 (by decide), e.src, W4_main_v34 m ρ c e]
  rfl

theorem W6_main_v41 (e : Entry m ρ c H Wm R C K) :
    W13 m ρ c (Proc.devRef .tc main_v68) = Cert.Graph.aggregateChecked (F := Ideal) R C K (Cert.Spec.product H Wm) := by
  show StableHlo.after hostOps4_1 (W12 m ρ c) (Proc.devRef .tc main_v68) = _
  rewrite [hostOps1_1_main_v41, keepW5 m ρ c main_v6 (by decide) (by decide), e.tgt,
    keepW5 m ρ c main_v31 (by decide) (by decide), e.coef, W5_main_v35 m ρ c e]
  rfl

theorem W6_main_v44 (e : Entry m ρ c H Wm R C K) :
    row (W13 m ρ c (Proc.devRef .tc main_v71)) = bias m c := by
  show row (StableHlo.after hostOps4_1 (W12 m ρ c) (Proc.devRef .tc main_v71)) = _
  rewrite [hostOps1_1_main_v44, keepW5 m ρ c main_arg5 (by decide) (by decide), e.arg5]
  rfl

theorem entry1_biased (e : Entry m ρ c H Wm R C K) :
    Cert.KernelIdeal.Region4.biased (V13 m ρ) c = biased m c H Wm R C K := by
  show Cert.Spec.shifted (W13 m ρ c (Proc.devRef .tc main_v68)) (row (W13 m ρ c (Proc.devRef .tc main_v71))) = _
  rewrite [W6_main_v41 m ρ c e, W6_main_v44 m ρ c e]
  rfl

theorem W7_main_v45_0 (e : Entry m ρ c H Wm R C K) :
    W14 m ρ c (Proc.devRef .tc main_v72_0) = biased m c H Wm R C K :=
  (W14_arr m ρ c 2).trans <| (Cert.KernelIdeal.Region4.value2 (V13 m ρ) c).trans (entry1_biased m ρ c e)

theorem W7_main_v45_1 (e : Entry m ρ c H Wm R C K) :
    row (W14 m ρ c (Proc.devRef .tc main_v72_1)) = Cert.Spec.colSum (biased m c H Wm R C K) := by
  have h : W14 m ρ c (Proc.devRef .tc main_v72_1)
      = (fun j => Cert.Spec.colSum (Cert.KernelIdeal.Region4.biased (V13 m ρ) c) (j 1) : S1x128.Idx → EReal) :=
    (W14_arr m ρ c 3).trans (Cert.KernelIdeal.Region4.value3 (V13 m ρ) c)
  funext d
  show W14 m ρ c (Proc.devRef .tc main_v72_1) (ix2 0 d) = _
  rw [h, entry1_biased m ρ c e]

theorem W7_main_v45_2 (e : Entry m ρ c H Wm R C K) :
    row (W14 m ρ c (Proc.devRef .tc main_v72_2)) = Cert.Spec.colSumSq (biased m c H Wm R C K) := by
  have h : W14 m ρ c (Proc.devRef .tc main_v72_2)
      = (fun j => Cert.Spec.colSumSq (Cert.KernelIdeal.Region4.biased (V13 m ρ) c) (j 1) : S1x128.Idx → EReal) :=
    (W14_arr m ρ c 4).trans (Cert.KernelIdeal.Region4.value4 (V13 m ρ) c)
  funext d
  show W14 m ρ c (Proc.devRef .tc main_v72_2) (ix2 0 d) = _
  rw [h, entry1_biased m ρ c e]

theorem W8_main_v45_0 (e : Entry m ρ c H Wm R C K) :
    W15 m ρ c (Proc.devRef .tc main_v72_0) = biased m c H Wm R C K :=
  (hostOps2_keeps (W14 m ρ c) main_v72_0 (by decide)).trans (W7_main_v45_0 m ρ c e)

theorem W8_main_v47 (e : Entry m ρ c H Wm R C K) :
    row (W15 m ρ c (Proc.devRef .tc main_v74)) = Cert.Spec.mean (biased m c H Wm R C K) := by
  show row (StableHlo.after hostOps5 (W14 m ρ c) (Proc.devRef .tc main_v74)) = _
  rewrite [hostOps2_main_v47, W7_main_v45_1 m ρ c e]
  rfl

theorem W8_main_v51 (e : Entry m ρ c H Wm R C K) :
    row (W15 m ρ c (Proc.devRef .tc main_v78)) = Cert.Spec.varOfMoments (biased m c H Wm R C K) := by
  show row (StableHlo.after hostOps5 (W14 m ρ c) (Proc.devRef .tc main_v78)) = _
  rewrite [hostOps2_main_v51, W7_main_v45_1 m ρ c e, W7_main_v45_2 m ρ c e]
  rfl

theorem W8_main_v56 (e : Entry m ρ c H Wm R C K) :
    row (W15 m ρ c (Proc.devRef .tc main_v83)) = scale m c := by
  show row (StableHlo.after hostOps5 (W14 m ρ c) (Proc.devRef .tc main_v83)) = _
  rewrite [hostOps2_main_v56, keepW7 m ρ c main_arg6 (by decide) (by decide) (by decide) (by decide), e.arg6]
  rfl

theorem W8_main_v57 (e : Entry m ρ c H Wm R C K) :
    row (W15 m ρ c (Proc.devRef .tc main_v84)) = shift m c := by
  show row (StableHlo.after hostOps5 (W14 m ρ c) (Proc.devRef .tc main_v84)) = _
  rewrite [hostOps2_main_v57, keepW7 m ρ c main_arg7 (by decide) (by decide) (by decide) (by decide), e.arg7]
  rfl

theorem W9_main_v58 (e : Entry m ρ c H Wm R C K) :
    W16 m ρ c (Proc.devRef .tc main_v85)
      = Cert.Spec.layer Cert.Spec.varOfMoments (Cert.Graph.aggregateChecked R C K) true H Wm
          (bias m c) (scale m c) (shift m c) :=
  (W16_arr m ρ c 5).trans <| (Cert.KernelIdeal.Region5.value (V15 m ρ) c).trans <| by
    show Cert.Spec.clipped (Cert.Spec.affine (W15 m ρ c (Proc.devRef .tc main_v72_0))
      (row (W15 m ρ c (Proc.devRef .tc main_v74))) (row (W15 m ρ c (Proc.devRef .tc main_v78)))
      (row (W15 m ρ c (Proc.devRef .tc main_v83))) (row (W15 m ρ c (Proc.devRef .tc main_v84)))) = _
    rewrite [W8_main_v45_0 m ρ c e, W8_main_v47 m ρ c e, W8_main_v51 m ρ c e, W8_main_v56 m ρ c e, W8_main_v57 m ρ c e]
    rfl

theorem exit_feat (e : Entry m ρ c H Wm R C K) :
    W17 m ρ c (Proc.devRef .tc main_v85)
      = Cert.Spec.layer Cert.Spec.varOfMoments (Cert.Graph.aggregateChecked R C K) true H Wm
          (Cert.Network.chan thisLayer (m ((c : Thread nD τ).loc main_arg5)))
          (Cert.Network.chan thisLayer (m ((c : Thread nD τ).loc main_arg6)))
          (Cert.Network.chan thisLayer (m ((c : Thread nD τ).loc main_arg7))) :=
  (hostOps3_keeps (W16 m ρ c) main_v85 (by decide)).trans (W9_main_v58 m ρ c e)

theorem exit_wmat (e : Entry m ρ c H Wm R C K) :
    W17 m ρ c (Proc.devRef .tc main_v87) = Cert.Network.weight nextLayer (m ((c : Thread nD τ).loc main_arg4)) := by
  show StableHlo.after hostOps6 (W16 m ρ c) (Proc.devRef .tc main_v87) = _
  rewrite [hostOps3_main_v60,
    keepW9 m ρ c main_arg4 (by decide) (by decide) (by decide) (by decide) (by decide) (by decide), e.arg4]
  rfl

theorem exit_src (e : Entry m ρ c H Wm R C K) : W17 m ρ c (Proc.devRef .tc main_v3) = R :=
  (keepW10 m ρ c main_v3 (by decide) (by decide) (by decide) (by decide) (by decide) (by decide) (by decide)).trans e.src
theorem exit_tgt (e : Entry m ρ c H Wm R C K) : W17 m ρ c (Proc.devRef .tc main_v6) = C :=
  (keepW10 m ρ c main_v6 (by decide) (by decide) (by decide) (by decide) (by decide) (by decide) (by decide)).trans e.tgt
theorem exit_coef (e : Entry m ρ c H Wm R C K) : W17 m ρ c (Proc.devRef .tc main_v31) = K :=
  (keepW10 m ρ c main_v31 (by decide) (by decide) (by decide) (by decide) (by decide) (by decide) (by decide)).trans e.coef
theorem exit_arg0 (e : Entry m ρ c H Wm R C K) :
    W17 m ρ c (Proc.devRef .tc main_arg0) = m ((c : Thread nD τ).loc main_arg0) :=
  (keepW10 m ρ c main_arg0 (by decide) (by decide) (by decide) (by decide) (by decide) (by decide) (by decide)).trans e.arg0
theorem exit_arg4 (e : Entry m ρ c H Wm R C K) :
    W17 m ρ c (Proc.devRef .tc main_arg4) = m ((c : Thread nD τ).loc main_arg4) :=
  (keepW10 m ρ c main_arg4 (by decide) (by decide) (by decide) (by decide) (by decide) (by decide) (by decide)).trans e.arg4
theorem exit_arg5 (e : Entry m ρ c H Wm R C K) :
    W17 m ρ c (Proc.devRef .tc main_arg5) = m ((c : Thread nD τ).loc main_arg5) :=
  (keepW10 m ρ c main_arg5 (by decide) (by decide) (by decide) (by decide) (by decide) (by decide) (by decide)).trans e.arg5
theorem exit_arg6 (e : Entry m ρ c H Wm R C K) :
    W17 m ρ c (Proc.devRef .tc main_arg6) = m ((c : Thread nD τ).loc main_arg6) :=
  (keepW10 m ρ c main_arg6 (by decide) (by decide) (by decide) (by decide) (by decide) (by decide) (by decide)).trans e.arg6
theorem exit_arg7 (e : Entry m ρ c H Wm R C K) :
    W17 m ρ c (Proc.devRef .tc main_arg7) = m ((c : Thread nD τ).loc main_arg7) :=
  (keepW10 m ρ c main_arg7 (by decide) (by decide) (by decide) (by decide) (by decide) (by decide) (by decide)).trans e.arg7

end Cert.KernelIdeal.Layer1

end
-- ==== Proof.Region6.lean ====
/-
  The matrix-product region: ten blocks of 5000 feature rows times the weight matrix are the ten row blocks of the
  full product, and together they fill the output.
-/
import proofs.«402385_j8315056685617_1_alg».proof.Proof.Gen.KernelIdeal.Frame
import proofs.«402385_j8315056685617_1_alg».proof.Proof.Spec
import proofs.«402385_j8315056685617_1_alg».proof.Proof.LibDotPlain
import Idealize.ShloMosaic.Lib.Pipeline.Value
import Idealize.ShloMosaic.Lib.ValueIdx

set_option maxRecDepth 16384

noncomputable section

namespace Cert.KernelIdeal.Region6

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

theorem payload_entry (x : FVec Ideal S5000x128 .f32) (w : FVec Ideal S128x128 .f32) (r : Fin 5000) (d : Fin 128) :
    k6_pay1 (F := Ideal) x w (ix2 r d) = ∑ q : Fin 128, x (ix2 r q) * w (ix2 q d) := by
  unfold k6_pay1
  simp only [shapeCast_self]
  exact Cert.LibDotPlain.matmul_zero_plain 5000 128 128 none _ _ r d

theorem block_numbers : ∀ t : Fin cfg6.N,
    win6_0.index t (0 : Fin 2) = win6_2.index t (0 : Fin 2) ∧ win6_0.index t (1 : Fin 2) = 0
    ∧ win6_1.index t (0 : Fin 2) = 0 ∧ win6_1.index t (1 : Fin 2) = 0
    ∧ win6_2.index t (0 : Fin 2) ≤ 9 ∧ win6_2.index t (1 : Fin 2) = 0 :=
  (by decide +kernel : ∀ t : Fin grid6.N, _)

theorem block_numbers_onto : ∀ b : Fin 10, ∃ t : Fin cfg6.N, win6_2.index t (0 : Fin 2) = b.val :=
  (by decide +kernel : ∀ b : Fin 10, ∃ t : Fin grid6.N, win6_2.index t (0 : Fin 2) = b.val)

theorem feature_block (c : Dev nD) (t : Fin cfg6.N) (r : Fin 5000) (q : Fin 128) (k : S50000x128.Idx)
    (hrow : (k 0).val = win6_2.index t (0 : Fin 2) * 5000 + r.val) (hcol : (k 1).val = q.val) :
    (iblk6 V c 0 t : FVec Ideal S5000x128 .f32) (ix2 r q)
      = (V c (Pipeline.arrRef spec6 0) : S50000x128.Idx → EReal) k := by
  obtain ⟨erow, ecol, -⟩ := block_numbers t
  show V c (Pipeline.arrRef spec6 0) (((cfg6.win 0).blk t).view.emb (ix2 r q)) = V c (Pipeline.arrRef spec6 0) k
  refine congrArg (V c (Pipeline.arrRef spec6 0)) ?_
  funext a
  apply Fin.ext
  match a with
  | ⟨0, _⟩ => show win6_0.index t (0 : Fin 2) * 5000 + 1 * r.val = (k 0).val; omega
  | ⟨1, _⟩ => show win6_0.index t (1 : Fin 2) * 128 + 1 * q.val = (k 1).val; omega

theorem weight_block (c : Dev nD) (t : Fin cfg6.N) (q d : Fin 128) :
    (iblk6 V c 1 t : FVec Ideal S128x128 .f32) (ix2 q d)
      = (V c (Pipeline.arrRef spec6 1) : S128x128.Idx → EReal) (ix2 q d) := by
  obtain ⟨-, -, erow, ecol, -⟩ := block_numbers t
  show V c (Pipeline.arrRef spec6 1) (((cfg6.win 1).blk t).view.emb (ix2 q d)) = V c (Pipeline.arrRef spec6 1) (ix2 q d)
  refine congrArg (V c (Pipeline.arrRef spec6 1)) ?_
  funext a
  apply Fin.ext
  match a with
  | ⟨0, _⟩ => show win6_1.index t (0 : Fin 2) * 128 + 1 * q.val = q.val; omega
  | ⟨1, _⟩ => show win6_1.index t (1 : Fin 2) * 128 + 1 * d.val = d.val; omega

theorem block_product (c : Dev nD) (t : Fin cfg6.N) (y : S5000x128.Idx) :
    k6_pay1 (F := Ideal) (iblk6 V c 0 t) (iblk6 V c 1 t) y
      = Cert.Spec.product (V c (Pipeline.arrRef spec6 0)) (V c (Pipeline.arrRef spec6 1))
          (((cfg6.win 2).blk t).view.emb y) := by
  obtain ⟨r, d, rfl⟩ : ∃ (r : Fin 5000) (d : Fin 128), y = ix2 r d := ⟨y 0, y 1, eq_ix2 y⟩
  obtain ⟨-, -, -, -, -, ecol⟩ := block_numbers t
  refine (payload_entry (iblk6 V c 0 t) (iblk6 V c 1 t) r d).trans ?_
  unfold Cert.Spec.product
  refine Finset.sum_congr rfl fun q _ => ?_
  refine congrArg₂ (· * ·) ?_ ?_
  · refine feature_block V c t r q _ ?_ rfl
    show win6_2.index t (0 : Fin 2) * 5000 + 1 * r.val = win6_2.index t (0 : Fin 2) * 5000 + r.val
    omega
  · refine (weight_block V c t q d).trans ?_
    refine congrArg (V c (Pipeline.arrRef spec6 1)) ?_
    funext a
    apply Fin.ext
    match a with
    | ⟨0, _⟩ => rfl
    | ⟨1, _⟩ => show d.val = win6_2.index t (1 : Fin 2) * 128 + 1 * d.val; omega

theorem written_back (c : Dev nD) (t : Fin cfg6.N) :
    (dat6 (F := Ideal) V c).flushed 2 t
      = ((cfg6.win 2).blk t).view.read (Elt Ideal)
          (Cert.Spec.product (V c (Pipeline.arrRef spec6 0)) (V c (Pipeline.arrRef spec6 1))) := by
  show (cfg6.win 2).cut (grid6.coords t) ((dat6 (F := Ideal) V c).after 2 t) = _
  rw [after6_2]
  unfold out6_2
  rw [View.canon_unit_zero zero_offsets]
  simp only [View.ld_unit_zero (S := S5000x128) zero_offsets, View.ld_unit_zero (S := S128x128) zero_offsets]
  funext j
  exact block_product V c t j

theorem mem_block (t : Fin cfg6.N) (i : S50000x128.Idx) :
    i ∈ ((cfg6.win 2).blk t).view.set
      ↔ ∀ a : Fin 2, win6_2.index t a * S5000x128.size a ≤ (i a).val
          ∧ (i a).val < win6_2.index t a * S5000x128.size a + S5000x128.size a := by
  show i ∈ ((View.whole (Pipeline.arrRef spec6 2)).slice (win6_2.rect t)).set ↔ _
  rw [View.set_slice_whole, Rect.mem_set_unit]
  exact Iff.rfl

theorem covered (i : S50000x128.Idx) :
    ∃ t : Fin cfg6.N, (cfg6.win 2).flush t = true ∧ i ∈ ((cfg6.win 2).blk t).view.set := by
  have hrow : (i 0).val < 50000 := (i 0).isLt
  have hcol : (i 1).val < 128 := (i 1).isLt
  obtain ⟨t, ht⟩ := block_numbers_onto ⟨(i 0).val / 5000, by omega⟩
  have ht' : win6_2.index t (0 : Fin 2) = (i 0).val / 5000 := ht
  obtain ⟨-, -, -, -, -, ecol⟩ := block_numbers t
  refine ⟨t, flush6_2 t, ?_⟩
  rw [mem_block]
  intro a
  match a with
  | ⟨0, _⟩ =>
    show win6_2.index t (0 : Fin 2) * 5000 ≤ (i 0).val ∧ (i 0).val < win6_2.index t (0 : Fin 2) * 5000 + 5000
    omega
  | ⟨1, _⟩ =>
    show win6_2.index t (1 : Fin 2) * 128 ≤ (i 1).val ∧ (i 1).val < win6_2.index t (1 : Fin 2) * 128 + 128
    omega

theorem value (c : Dev nD) :
    (dat6 (F := Ideal) V c).arrAt 2 cfg6.N
      = Cert.Spec.product (V c (Pipeline.arrRef spec6 0)) (V c (Pipeline.arrRef spec6 1)) :=
  (dat6 (F := Ideal) V c).arrAt_eq_of_cover 2
    (Cert.Spec.product (V c (Pipeline.arrRef spec6 0)) (V c (Pipeline.arrRef spec6 1)))
    (fun t _ => written_back V c t) (covered)

end Cert.KernelIdeal.Region6

end
-- ==== Proof.Region7.lean ====
/-
  The statistics region: the biased features block by block, and per channel the sum and the sum of squares over
  all nodes, accumulated over the ten blocks (only associativity of addition is used).
-/
import proofs.«402385_j8315056685617_1_alg».proof.Proof.Gen.KernelIdeal.Frame
import proofs.«402385_j8315056685617_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region7

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open scoped BigOperators

variable (V : (c : Dev nD) → (b : Ref sig .tc) → Buf (Elt Ideal) ((c : Thread nD τ).loc b))

abbrev biased (c : Dev nD) : Cert.Spec.Feat :=
  Cert.Spec.shifted (V c (Pipeline.arrRef spec7 0)) (fun d => V c (Pipeline.arrRef spec7 1) (ix2 0 d))

variable {F : FTy → Type} [FloatOps F]

theorem offsets_zero : (![0, 0] : Fin 2 → Nat) = fun _ => 0 := funext fun a => by fin_cases a <;> rfl

section Pieces

variable (c : Dev nD) (i : grid7.Coords) (ma : Memref sig .tc .vmem S5000x128 .f32) (hma : ma.IsWhole) (mb : Memref sig .tc .vmem S1x128 .f32) (hmb : mb.IsWhole)
  (mx : Memref sig .tc .vmem S5000x128 .f32) (hmx : mx.IsWhole) (ms : Memref sig .tc .vmem S1x128 .f32) (hms : ms.IsWhole) (mq : Memref sig .tc .vmem S1x128 .f32) (hmq : mq.IsWhole)
  (a : Vec F S5000x128 .f32) (b s q : Vec F S1x128 .f32)

theorem first_biased (hc : cond7_0 i) :
    out7_A_2 c i ma hma mb hmb mx hmx ms hms mq hmq hc a b = k7_pay3 a b := by
  unfold out7_A_2
  rw [View.read_writes_eq_canon _ _ _ (cover7_A_2 c i ma hma mb hmb mx hmx ms hms mq hmq hc a b)]
  unfold kernelRun7_A
  dsimp only
  sl_unfold_words
  rw [View.canon_unit_zero offsets_zero]
  simp only [View.readAt_eq_ld, hma.read_unread, hmb.read_unread, View.ld_unit_zero (S := S5000x128) offsets_zero,
    View.ld_unit_zero (S := S1x128) offsets_zero]

theorem first_sums (hc : cond7_0 i) :
    out7_A_3 c i ma hma mb hmb mx hmx ms hms mq hmq hc a b = k7_pay4 a b (k7_pay1 (F := F)) := by
  unfold out7_A_3
  rw [View.read_writes_eq_canon _ _ _ (cover7_A_3 c i ma hma mb hmb mx hmx ms hms mq hmq hc a b)]
  unfold kernelRun7_A
  dsimp only
  sl_unfold_words
  rw [View.canon_cons_unit_zero (S := S1x128) offsets_zero, View.readCov_unit_zero (S := S1x128) _ offsets_zero]
  simp only [View.readAt_eq_ld, hma.read_unread, hmb.read_unread, View.ld_unit_zero (S := S5000x128) offsets_zero,
    View.ld_unit_zero (S := S1x128) offsets_zero]

theorem first_squares (hc : cond7_0 i) :
    out7_A_4 c i ma hma mb hmb mx hmx ms hms mq hmq hc a b = k7_pay5 a b (k7_pay2 (F := F)) := by
  unfold out7_A_4
  rw [View.read_writes_eq_canon _ _ _ (cover7_A_4 c i ma hma mb hmb mx hmx ms hms mq hmq hc a b)]
  unfold kernelRun7_A
  dsimp only
  sl_unfold_words
  rw [View.canon_cons_unit_zero (S := S1x128) offsets_zero, View.readCov_unit_zero (S := S1x128) _ offsets_zero]
  simp only [View.readAt_eq_ld, hma.read_unread, hmb.read_unread, View.ld_unit_zero (S := S5000x128) offsets_zero,
    View.ld_unit_zero (S := S1x128) offsets_zero]

theorem later_biased (hc : ¬cond7_0 i) :
    out7_B_2 c i ma hma mb hmb mx hmx ms hms mq hmq hc a b s q = k7_pay3 a b := by
  unfold out7_B_2
  rw [View.read_writes_eq_canon _ _ _ (cover7_B_2 c i ma hma mb hmb mx hmx ms hms mq hmq hc a b s q)]
  unfold kernelRun7_B
  dsimp only
  sl_unfold_words
  rw [View.canon_unit_zero offsets_zero]
  simp only [View.readAt_eq_ld, hma.read_unread, hmb.read_unread, View.ld_unit_zero (S := S5000x128) offsets_zero,
    View.ld_unit_zero (S := S1x128) offsets_zero]

theorem later_sums (hc : ¬cond7_0 i) :
    out7_B_3 c i ma hma mb hmb mx hmx ms hms mq hmq hc a b s q = k7_pay4 a b s := by
  unfold out7_B_3
  rw [View.read_writes_eq_canon _ _ _ (cover7_B_3 c i ma hma mb hmb mx hmx ms hms mq hmq hc a b s q)]
  unfold kernelRun7_B
  dsimp only
  sl_unfold_words
  rw [View.canon_unit_zero offsets_zero]
  simp only [View.readAt_eq_ld, hma.read_unread, hmb.read_unread, hms.read_unread, View.ld_unit_zero (S := S5000x128) offsets_zero,
    View.ld_unit_zero (S := S1x128) offsets_zero]

theorem later_squares (hc : ¬cond7_0 i) :
    out7_B_4 c i ma hma mb hmb mx hmx ms hms mq hmq hc a b s q = k7_pay5 a b q := by
  unfold out7_B_4
  rw [View.read_writes_eq_canon _ _ _ (cover7_B_4 c i ma hma mb hmb mx hmx ms hms mq hmq hc a b s q)]
  unfold kernelRun7_B
  dsimp only
  sl_unfold_words
  rw [View.canon_unit_zero offsets_zero]
  simp only [View.readAt_eq_ld, hma.read_unread, hmb.read_unread, hmq.read_unread, View.ld_unit_zero (S := S5000x128) offsets_zero,
    View.ld_unit_zero (S := S1x128) offsets_zero]

end Pieces

theorem row_in_channel (d : Fin 128) (p : Fin 5000) :
    reduces_S5000x128_S128.lift (ix1 d) p = ix2 p d := by
  funext a
  apply Fin.ext
  match a with
  | ⟨0, _⟩ => rfl
  | ⟨1, _⟩ => rfl

theorem biased_block_apply (a : Vec Ideal S5000x128 .f32) (b : Vec Ideal S1x128 .f32) (p : Fin 5000) (d : Fin 128) :
    k7_pay3 a b (ix2 p d) = a (ix2 p d) + b (ix2 0 d) := by
  unfold k7_pay3
  refine (addf_apply _ _ _).trans ?_
  refine congrArg₂ (· + ·) (congrFun (shapeCast_self a _) _) ?_
  refine (broadcastTo_1b_ab_apply _ _ p d).trans ?_
  exact congrFun (shapeCast_self b _) _

theorem zero_row_apply (d : Fin 128) : (k7_pay1 (F := Ideal)) (ix2 0 d) = 0 := by
  unfold k7_pay1
  exact Ideal.ofBits_zero_f32

theorem zero_row_apply' (d : Fin 128) : (k7_pay2 (F := Ideal)) (ix2 0 d) = 0 := by
  unfold k7_pay2
  exact Ideal.ofBits_zero_f32

theorem sums_step_apply (a : Vec Ideal S5000x128 .f32) (b : Vec Ideal S1x128 .f32) (s : Vec Ideal S1x128 .f32) (d : Fin 128) :
    k7_pay4 a b s (ix2 0 d) = s (ix2 0 d) + ∑ p : Fin 5000, k7_pay3 a b (ix2 p d) := by
  unfold k7_pay4
  dsimp only
  refine (addf_apply _ _ _).trans ?_
  refine congrArg₂ (· + ·) (congrFun (shapeCast_self s _) _) ?_
  refine (shapeCast_a_1a_apply _ _ 0 d).trans ?_
  refine (Ideal.multiReduction_add_single _ _ _ _ _ _).trans ?_
  exact Finset.sum_congr rfl fun p _ => congrArg (k7_pay3 a b) (row_in_channel d p)

theorem squares_step_apply (a : Vec Ideal S5000x128 .f32) (b : Vec Ideal S1x128 .f32) (q : Vec Ideal S1x128 .f32) (d : Fin 128) :
    k7_pay5 a b q (ix2 0 d) = q (ix2 0 d) + ∑ p : Fin 5000, k7_pay3 a b (ix2 p d) * k7_pay3 a b (ix2 p d) := by
  unfold k7_pay5
  dsimp only
  refine (addf_apply _ _ _).trans ?_
  refine congrArg₂ (· + ·) (congrFun (shapeCast_self q _) _) ?_
  refine (shapeCast_a_1a_apply _ _ 0 d).trans ?_
  refine (Ideal.multiReduction_add_single _ _ _ _ _ _).trans ?_
  refine Finset.sum_congr rfl fun p _ => ?_
  refine (mulf_apply _ _ _).trans ?_
  rw [row_in_channel d p]

theorem index_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0 :=
  (by decide +kernel : ∀ t : Fin grid7.N, _)

theorem point_lt (t : Fin cfg7.N) : t.val < 10 := lt_of_lt_of_eq t.isLt (show cfg7.N = 10 from N_7)

def rowOf (t : Fin cfg7.N) (p : Fin 5000) : Fin 50000 := ⟨5000 * t.val + p.val, by have := point_lt t; omega⟩

abbrev featBlock (c : Dev nD) (t : Fin cfg7.N) : Vec Ideal S5000x128 .f32 := iblk7 V c 0 t
abbrev biasBlock (c : Dev nD) (t : Fin cfg7.N) : Vec Ideal S1x128 .f32 := iblk7 V c 1 t
abbrev featArr (c : Dev nD) : Vec Ideal S50000x128 .f32 := V c (Pipeline.arrRef spec7 0)
abbrev biasArr (c : Dev nD) : Vec Ideal S1x128 .f32 := V c (Pipeline.arrRef spec7 1)

theorem featBlock_apply (c : Dev nD) (t : Fin cfg7.N) (p : Fin 5000) (d : Fin 128) :
    featBlock V c t (ix2 p d) = featArr V c (ix2 (rowOf t p) d) := by
  obtain ⟨ea, eb, -⟩ := index_facts t
  show V c (Pipeline.arrRef spec7 0) (((cfg7.win 0).blk t).view.emb (ix2 p d)) = V c (Pipeline.arrRef spec7 0) (ix2 (rowOf t p) d)
  refine congrArg _ (funext fun a => Fin.ext ?_)
  match a with
  | ⟨0, _⟩ => show win7_0.index t (0 : Fin 2) * 5000 + 1 * p.val = 5000 * t.val + p.val; omega
  | ⟨1, _⟩ => show win7_0.index t (1 : Fin 2) * 128 + 1 * d.val = d.val; omega

theorem biasBlock_apply (c : Dev nD) (t : Fin cfg7.N) (d : Fin 128) :
    biasBlock V c t (ix2 0 d) = biasArr V c (ix2 0 d) := by
  obtain ⟨-, -, ea, eb, -⟩ := index_facts t
  show V c (Pipeline.arrRef spec7 1) (((cfg7.win 1).blk t).view.emb (ix2 0 d)) = V c (Pipeline.arrRef spec7 1) (ix2 0 d)
  refine congrArg _ (funext fun a => Fin.ext ?_)
  match a with
  | ⟨0, _⟩ => show win7_1.index t (0 : Fin 2) * 1 + 1 * 0 = 0; omega
  | ⟨1, _⟩ => show win7_1.index t (1 : Fin 2) * 128 + 1 * d.val = d.val; omega

theorem stored_block_apply (c : Dev nD) (t : Fin cfg7.N) (p : Fin 5000) (d : Fin 128) :
    k7_pay3 (featBlock V c t) (biasBlock V c t) (ix2 p d) = biased V c (ix2 (rowOf t p) d) := by
  rw [biased_block_apply, featBlock_apply, biasBlock_apply]
  rfl

theorem outs_first (c : Dev nD) (t : Fin cfg7.N) (h : t.val % 10 = 0) :
    outsAt7 V c t.val t.isLt
      = (k7_pay3 (featBlock V c t) (biasBlock V c t),
         k7_pay4 (featBlock V c t) (biasBlock V c t) (k7_pay1 (F := Ideal)),
         k7_pay5 (featBlock V c t) (biasBlock V c t) (k7_pay2 (F := Ideal))) := by
  rw [outsAt7_A V c t h,
    first_biased (F := Ideal) c (grid7.coords t) (ms7_0 t) (hs7_0 t) (ms7_1 t) (hs7_1 t) (ms7_2 t) (hs7_2 t) (ms7_3 t) (hs7_3 t) (ms7_4 t) (hs7_4 t) (iblk7 V c 0 t) (iblk7 V c 1 t) ((hcond7_0 t).mpr h),
    first_sums (F := Ideal) c (grid7.coords t) (ms7_0 t) (hs7_0 t) (ms7_1 t) (hs7_1 t) (ms7_2 t) (hs7_2 t) (ms7_3 t) (hs7_3 t) (ms7_4 t) (hs7_4 t) (iblk7 V c 0 t) (iblk7 V c 1 t) ((hcond7_0 t).mpr h),
    first_squares (F := Ideal) c (grid7.coords t) (ms7_0 t) (hs7_0 t) (ms7_1 t) (hs7_1 t) (ms7_2 t) (hs7_2 t) (ms7_3 t) (hs7_3 t) (ms7_4 t) (hs7_4 t) (iblk7 V c 0 t) (iblk7 V c 1 t) ((hcond7_0 t).mpr h)]

theorem before_lt (t : Fin cfg7.N) : t.val - 1 < cfg7.N := Nat.lt_of_le_of_lt (Nat.sub_le _ _) t.isLt

theorem outs_later (c : Dev nD) (t : Fin cfg7.N) (h : ¬t.val % 10 = 0) :
    outsAt7 V c t.val t.isLt
      = (k7_pay3 (featBlock V c t) (biasBlock V c t),
         k7_pay4 (featBlock V c t) (biasBlock V c t) (outsAt7 V c (t.val - 1) (before_lt t)).2.1,
         k7_pay5 (featBlock V c t) (biasBlock V c t) (outsAt7 V c (t.val - 1) (before_lt t)).2.2) := by
  rw [outsAt7_B V c t h,
    later_biased (F := Ideal) c (grid7.coords t) (ms7_0 t) (hs7_0 t) (ms7_1 t) (hs7_1 t) (ms7_2 t) (hs7_2 t) (ms7_3 t) (hs7_3 t) (ms7_4 t) (hs7_4 t) (iblk7 V c 0 t) (iblk7 V c 1 t) (outsAt7 V c (t.val - 1) (before_lt t)).2.1 (outsAt7 V c (t.val - 1) (before_lt t)).2.2 (fun g => h ((hcond7_0 t).mp g)),
    later_sums (F := Ideal) c (grid7.coords t) (ms7_0 t) (hs7_0 t) (ms7_1 t) (hs7_1 t) (ms7_2 t) (hs7_2 t) (ms7_3 t) (hs7_3 t) (ms7_4 t) (hs7_4 t) (iblk7 V c 0 t) (iblk7 V c 1 t) (outsAt7 V c (t.val - 1) (before_lt t)).2.1 (outsAt7 V c (t.val - 1) (before_lt t)).2.2 (fun g => h ((hcond7_0 t).mp g)),
    later_squares (F := Ideal) c (grid7.coords t) (ms7_0 t) (hs7_0 t) (ms7_1 t) (hs7_1 t) (ms7_2 t) (hs7_2 t) (ms7_3 t) (hs7_3 t) (ms7_4 t) (hs7_4 t) (iblk7 V c 0 t) (iblk7 V c 1 t) (outsAt7 V c (t.val - 1) (before_lt t)).2.1 (outsAt7 V c (t.val - 1) (before_lt t)).2.2 (fun g => h ((hcond7_0 t).mp g))]

def entry (c : Dev nD) (d : Fin 128) (r : ℕ) : EReal :=
  if h : r < 50000 then biased V c (ix2 ⟨r, h⟩ d) else 0

theorem entry_block (c : Dev nD) (d : Fin 128) (t : Fin cfg7.N) (p : Fin 5000) :
    entry V c d (5000 * t.val + p.val) = biased V c (ix2 (rowOf t p) d) := by
  have h : 5000 * t.val + p.val < 50000 := by have := point_lt t; omega
  unfold entry
  rw [dif_pos h]
  rfl

theorem block_sum (c : Dev nD) (d : Fin 128) (t : Fin cfg7.N) :
    ∑ p : Fin 5000, k7_pay3 (featBlock V c t) (biasBlock V c t) (ix2 p d)
      = ∑ x ∈ Finset.range 5000, entry V c d (5000 * t.val + x) := by
  rw [Finset.sum_range]
  exact Finset.sum_congr rfl fun p _ => (stored_block_apply V c t p d).trans (entry_block V c d t p).symm

theorem block_sum_squares (c : Dev nD) (d : Fin 128) (t : Fin cfg7.N) :
    ∑ p : Fin 5000, k7_pay3 (featBlock V c t) (biasBlock V c t) (ix2 p d) * k7_pay3 (featBlock V c t) (biasBlock V c t) (ix2 p d)
      = ∑ x ∈ Finset.range 5000, entry V c d (5000 * t.val + x) * entry V c d (5000 * t.val + x) := by
  rw [Finset.sum_range]
  exact Finset.sum_congr rfl fun p _ => by rw [stored_block_apply V c t p d, entry_block V c d t p]

theorem sums_after (c : Dev nD) (d : Fin 128) : ∀ (n : ℕ) (hn : n < cfg7.N),
    ((outsAt7 V c n hn).2.1 : Vec Ideal S1x128 .f32) (ix2 0 d) = ∑ r ∈ Finset.range (5000 * (n + 1)), entry V c d r
  | 0, hn => by
    rw [show outsAt7 V c 0 hn = _ from outs_first V c ⟨0, hn⟩ rfl]
    dsimp only
    rw [sums_step_apply, zero_row_apply, zero_add, block_sum]
    exact Finset.sum_congr rfl fun x _ => by rw [Nat.mul_zero, Nat.zero_add]
  | n + 1, hn => by
    have hlater : ¬(⟨n + 1, hn⟩ : Fin cfg7.N).val % 10 = 0 := by
      have := point_lt ⟨n + 1, hn⟩; dsimp only at this ⊢; omega
    rw [show outsAt7 V c (n + 1) hn = _ from outs_later V c ⟨n + 1, hn⟩ hlater]
    dsimp only
    rw [sums_step_apply, block_sum]
    have ih := sums_after c d n (Nat.lt_of_succ_lt hn)
    rw [show 5000 * (n + 1 + 1) = 5000 * (n + 1) + 5000 from by ring, Finset.sum_range_add, ← ih]
    rfl

theorem squares_after (c : Dev nD) (d : Fin 128) : ∀ (n : ℕ) (hn : n < cfg7.N),
    ((outsAt7 V c n hn).2.2 : Vec Ideal S1x128 .f32) (ix2 0 d)
      = ∑ r ∈ Finset.range (5000 * (n + 1)), entry V c d r * entry V c d r
  | 0, hn => by
    rw [show outsAt7 V c 0 hn = _ from outs_first V c ⟨0, hn⟩ rfl]
    dsimp only
    rw [squares_step_apply, zero_row_apply', zero_add, block_sum_squares]
    exact Finset.sum_congr rfl fun x _ => by rw [Nat.mul_zero, Nat.zero_add]
  | n + 1, hn => by
    have hlater : ¬(⟨n + 1, hn⟩ : Fin cfg7.N).val % 10 = 0 := by
      have := point_lt ⟨n + 1, hn⟩; dsimp only at this ⊢; omega
    rw [show outsAt7 V c (n + 1) hn = _ from outs_later V c ⟨n + 1, hn⟩ hlater]
    dsimp only
    rw [squares_step_apply, block_sum_squares]
    have ih := squares_after c d n (Nat.lt_of_succ_lt hn)
    rw [show 5000 * (n + 1 + 1) = 5000 * (n + 1) + 5000 from by ring, Finset.sum_range_add, ← ih]
    rfl

theorem sum_entries (c : Dev nD) (d : Fin 128) :
    ∑ r ∈ Finset.range 50000, entry V c d r = Cert.Spec.colSum (biased V c) d := by
  rw [Finset.sum_range]
  exact Finset.sum_congr rfl fun n _ => by unfold entry; rw [dif_pos n.isLt]

theorem sum_entries_squares (c : Dev nD) (d : Fin 128) :
    ∑ r ∈ Finset.range 50000, entry V c d r * entry V c d r = Cert.Spec.colSumSq (biased V c) d := by
  rw [Finset.sum_range]
  exact Finset.sum_congr rfl fun n _ => by unfold entry; rw [dif_pos n.isLt]

theorem stored_at (c : Dev nD) (t : Fin cfg7.N) :
    (outsAt7 V c t.val t.isLt).1 = k7_pay3 (featBlock V c t) (biasBlock V c t) := by
  by_cases h : t.val % 10 = 0
  · rw [outs_first V c t h]
  · rw [outs_later V c t h]

theorem flushed_biased (c : Dev nD) (t : Fin cfg7.N) :
    (dat7 (F := Ideal) V c).flushed 2 t = ((cfg7.win 2).blk t).view.read (Elt Ideal) (biased V c) := by
  show (cfg7.win 2).cut (grid7.coords t) ((dat7 (F := Ideal) V c).after 2 t) = _
  rw [after7_2, stored_at]
  obtain ⟨-, -, -, -, ea, eb, -⟩ := index_facts t
  funext j
  show k7_pay3 (featBlock V c t) (biasBlock V c t) j = biased V c (((cfg7.win 2).blk t).view.emb j)
  have hemb : ((cfg7.win 2).blk t).view.emb j = ix2 (rowOf t (j 0)) (j 1) := by
    funext a
    apply Fin.ext
    match a with
    | ⟨0, _⟩ => show win7_2.index t (0 : Fin 2) * 5000 + 1 * (j 0).val = 5000 * t.val + (j 0).val; omega
    | ⟨1, _⟩ => show win7_2.index t (1 : Fin 2) * 128 + 1 * (j 1).val = (j 1).val; omega
  rw [hemb]
  exact (congrArg (k7_pay3 (featBlock V c t) (biasBlock V c t)) (eq_ix2 j)).trans (stored_block_apply V c t (j 0) (j 1))

theorem mem_block (t : Fin cfg7.N) (i : S50000x128.Idx) :
    i ∈ ((cfg7.win 2).blk t).view.set ↔ ∀ a : Fin 2, win7_2.index t a * S5000x128.size a ≤ (i a).val ∧ (i a).val < win7_2.index t a * S5000x128.size a + S5000x128.size a := by
  show i ∈ ((View.whole (Pipeline.arrRef spec7 2)).slice (win7_2.rect t)).set ↔ _
  rw [View.set_slice_whole, Rect.mem_set_unit]
  exact Iff.rfl

theorem covered (i : S50000x128.Idx) :
    ∃ t : Fin cfg7.N, (cfg7.win 2).flush t = true ∧ i ∈ ((cfg7.win 2).blk t).view.set := by
  have hr : (i 0).val < 50000 := (i 0).isLt
  have hd : (i 1).val < 128 := (i 1).isLt
  have hN : cfg7.N = 10 := N_7
  have hq : (i 0).val / 5000 < cfg7.N := by omega
  obtain ⟨-, -, -, -, ea, eb, -⟩ := index_facts ⟨(i 0).val / 5000, hq⟩
  have ea' : win7_2.index ⟨(i 0).val / 5000, hq⟩ (0 : Fin 2) = (i 0).val / 5000 := ea
  refine ⟨⟨(i 0).val / 5000, hq⟩, flush7_2 _, ?_⟩
  rw [mem_block]
  intro a
  match a with
  | ⟨0, _⟩ =>
    show win7_2.index ⟨(i 0).val / 5000, hq⟩ (0 : Fin 2) * 5000 ≤ (i 0).val
      ∧ (i 0).val < win7_2.index ⟨(i 0).val / 5000, hq⟩ (0 : Fin 2) * 5000 + 5000
    omega
  | ⟨1, _⟩ =>
    show win7_2.index ⟨(i 0).val / 5000, hq⟩ (1 : Fin 2) * 128 ≤ (i 1).val
      ∧ (i 1).val < win7_2.index ⟨(i 0).val / 5000, hq⟩ (1 : Fin 2) * 128 + 128
    omega

theorem value2 (c : Dev nD) : (dat7 (F := Ideal) V c).arrAt 2 cfg7.N = biased V c :=
  (dat7 (F := Ideal) V c).arrAt_eq_of_cover 2 (biased V c) (fun t _ => flushed_biased V c t) covered

def lastPoint : Fin cfg7.N := ⟨9, by rw [show cfg7.N = 10 from N_7]; decide⟩

theorem row_emb (t : Fin cfg7.N) (j : S1x128.Idx) :
    (((cfg7.win 3).blk t).view.emb j : S1x128.Idx) = j ∧ (((cfg7.win 4).blk t).view.emb j : S1x128.Idx) = j := by
  obtain ⟨-, -, -, -, -, -, ea, eb, ec, ed⟩ := index_facts t
  have hu : (j 0).val < 1 := (j 0).isLt
  refine ⟨funext fun a => Fin.ext ?_, funext fun a => Fin.ext ?_⟩
  · match a with
    | ⟨0, _⟩ => show win7_3.index t (0 : Fin 2) * 1 + 1 * (j 0).val = (j 0).val; omega
    | ⟨1, _⟩ => show win7_3.index t (1 : Fin 2) * 128 + 1 * (j 1).val = (j 1).val; omega
  · match a with
    | ⟨0, _⟩ => show win7_4.index t (0 : Fin 2) * 1 + 1 * (j 0).val = (j 0).val; omega
    | ⟨1, _⟩ => show win7_4.index t (1 : Fin 2) * 128 + 1 * (j 1).val = (j 1).val; omega

theorem row_index (j : S1x128.Idx) : j = @ix2 1 128 (0 : Fin 1) (j 1) := by
  have hu : (j 0).val < 1 := (j 0).isLt
  refine (eq_ix2 j).trans ?_
  congr 1
  exact Fin.ext (by show (j 0).val = 0; omega)

theorem written_row (t : Fin cfg7.N) (X : Vec Ideal S1x128 .f32) :
    ((cfg7.win 3).cut (grid7.coords t) X : S1x128.Idx → EReal) = X
      ∧ ((cfg7.win 4).cut (grid7.coords t) X : S1x128.Idx → EReal) = X := ⟨rfl, rfl⟩

theorem read_row (t : Fin cfg7.N) (G : S1x128.Idx → EReal) :
    (((cfg7.win 3).blk t).view.read (Elt Ideal) G : S1x128.Idx → EReal) = G
      ∧ (((cfg7.win 4).blk t).view.read (Elt Ideal) G : S1x128.Idx → EReal) = G :=
  ⟨funext fun j => (show _ = G (((cfg7.win 3).blk t).view.emb j) from rfl).trans (congrArg G (row_emb t j).1),
   funext fun j => (show _ = G (((cfg7.win 4).blk t).view.emb j) from rfl).trans (congrArg G (row_emb t j).2)⟩

theorem flushed_sums (c : Dev nD) (t : Fin cfg7.N) (hf : (cfg7.win 3).flush t = true) :
    (dat7 (F := Ideal) V c).flushed 3 t
      = ((cfg7.win 3).blk t).view.read (Elt Ideal) (fun j => Cert.Spec.colSum (biased V c) (j 1) : S1x128.Idx → EReal) := by
  have ht : t.val = 9 := by have := (flush7_3 t).mp hf; have := point_lt t; omega
  show (cfg7.win 3).cut (grid7.coords t) ((dat7 (F := Ideal) V c).after 3 t) = _
  rw [after7_3]
  refine ((written_row t _).1).trans ?_
  refine Eq.trans ?_ (read_row t _).1.symm
  funext j
  obtain ⟨d, rfl⟩ : ∃ d : Fin 128, j = ix2 0 d := ⟨j 1, row_index j⟩
  refine (sums_after V c d t.val t.isLt).trans ?_
  rw [ht]
  exact sum_entries V c d

theorem flushed_squares (c : Dev nD) (t : Fin cfg7.N) (hf : (cfg7.win 4).flush t = true) :
    (dat7 (F := Ideal) V c).flushed 4 t
      = ((cfg7.win 4).blk t).view.read (Elt Ideal) (fun j => Cert.Spec.colSumSq (biased V c) (j 1) : S1x128.Idx → EReal) := by
  have ht : t.val = 9 := by have := (flush7_4 t).mp hf; have := point_lt t; omega
  show (cfg7.win 4).cut (grid7.coords t) ((dat7 (F := Ideal) V c).after 4 t) = _
  rw [after7_4]
  refine ((written_row t _).2).trans ?_
  refine Eq.trans ?_ (read_row t _).2.symm
  funext j
  obtain ⟨d, rfl⟩ : ∃ d : Fin 128, j = ix2 0 d := ⟨j 1, row_index j⟩
  refine (squares_after V c d t.val t.isLt).trans ?_
  rw [ht]
  exact sum_entries_squares V c d

theorem row_covered (i : S1x128.Idx) :
    i ∈ ((cfg7.win 3).blk lastPoint).view.set ∧ i ∈ ((cfg7.win 4).blk lastPoint).view.set := by
  obtain ⟨-, -, -, -, -, -, ea, eb, ec, ed⟩ := index_facts lastPoint
  have hu : (i 0).val < 1 := (i 0).isLt
  have hd : (i 1).val < 128 := (i 1).isLt
  constructor
  · show i ∈ ((View.whole (Pipeline.arrRef spec7 3)).slice (win7_3.rect lastPoint)).set
    rw [View.set_slice_whole, Rect.mem_set_unit]
    intro a
    match a with
    | ⟨0, _⟩ => show win7_3.index lastPoint (0 : Fin 2) * 1 ≤ (i 0).val ∧ (i 0).val < win7_3.index lastPoint (0 : Fin 2) * 1 + 1; omega
    | ⟨1, _⟩ => show win7_3.index lastPoint (1 : Fin 2) * 128 ≤ (i 1).val ∧ (i 1).val < win7_3.index lastPoint (1 : Fin 2) * 128 + 128; omega
  · show i ∈ ((View.whole (Pipeline.arrRef spec7 4)).slice (win7_4.rect lastPoint)).set
    rw [View.set_slice_whole, Rect.mem_set_unit]
    intro a
    match a with
    | ⟨0, _⟩ => show win7_4.index lastPoint (0 : Fin 2) * 1 ≤ (i 0).val ∧ (i 0).val < win7_4.index lastPoint (0 : Fin 2) * 1 + 1; omega
    | ⟨1, _⟩ => show win7_4.index lastPoint (1 : Fin 2) * 128 ≤ (i 1).val ∧ (i 1).val < win7_4.index lastPoint (1 : Fin 2) * 128 + 128; omega

theorem value3 (c : Dev nD) :
    (dat7 (F := Ideal) V c).arrAt 3 cfg7.N = (fun j => Cert.Spec.colSum (biased V c) (j 1) : S1x128.Idx → EReal) :=
  (dat7 (F := Ideal) V c).arrAt_eq_of_cover 3 (fun j => Cert.Spec.colSum (biased V c) (j 1) : S1x128.Idx → EReal) (flushed_sums V c) fun i =>
    ⟨lastPoint, (flush7_3 lastPoint).mpr rfl, (row_covered i).1⟩

theorem value4 (c : Dev nD) :
    (dat7 (F := Ideal) V c).arrAt 4 cfg7.N = (fun j => Cert.Spec.colSumSq (biased V c) (j 1) : S1x128.Idx → EReal) :=
  (dat7 (F := Ideal) V c).arrAt_eq_of_cover 4 (fun j => Cert.Spec.colSumSq (biased V c) (j 1) : S1x128.Idx → EReal) (flushed_squares V c) fun i =>
    ⟨lastPoint, (flush7_4 lastPoint).mpr rfl, (row_covered i).2⟩

end Cert.KernelIdeal.Region7

end
-- ==== Proof.Region8.lean ====
/-
  The normalisation region with the final clip: each block of 5000 rows is the same entrywise function of the
  feature array and the four channel rows.
-/
import proofs.«402385_j8315056685617_1_alg».proof.Proof.Gen.KernelIdeal.Frame
import proofs.«402385_j8315056685617_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region8

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable (V : (c : Dev nD) → (b : Ref sig .tc) → Buf (Elt Ideal) ((c : Thread nD τ).loc b))

abbrev chan (a : S1x128.Idx → EReal) : Cert.Spec.Chan := fun d => a (ix2 0 d)

abbrev result (c : Dev nD) : Cert.Spec.Feat :=
  Cert.Spec.clipped (Cert.Spec.affine (V c (Pipeline.arrRef spec8 0))
    (chan (V c (Pipeline.arrRef spec8 1))) (chan (V c (Pipeline.arrRef spec8 2)))
    (chan (V c (Pipeline.arrRef spec8 3))) (chan (V c (Pipeline.arrRef spec8 4))))

theorem rsqrt_apply {s : Shape} {φ : FTy} (a : FVec Ideal s φ) (i : s.Idx) : rsqrt a i = Ideal.rsqrt (a i) := rfl

theorem payload_apply (var : Vec Ideal S1x128 .f32) (x : Vec Ideal S5000x128 .f32) (mu g b : Vec Ideal S1x128 .f32)
    (p : Fin 5000) (d : Fin 128) :
    k8_pay1 var x mu g b (ix2 p d)
      = max ((x (ix2 p d) - mu (ix2 0 d)) * Ideal.rsqrt (var (ix2 0 d) + Cert.Spec.eps) * g (ix2 0 d) + b (ix2 0 d)) 0 := by
  unfold k8_pay1
  simp only [shapeCast_self, maximumf_apply, addf_apply, mulf_apply, subf_apply, broadcast_apply, rsqrt_apply,
    broadcastTo_1b_ab_apply, Ideal.ofBits_def, Ideal.ofBits_zero_f32, Cert.Spec.eps]

theorem hz : (![0, 0] : Fin 2 → Nat) = fun _ => 0 := funext fun a => by fin_cases a <;> rfl

theorem idx_facts : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

theorem point_lt (t : Fin cfg8.N) : t.val < 10 := by
  have h : t.val < grid8.N := t.isLt
  rw [N_8] at h; exact h

def rowOf (t : Fin cfg8.N) (p : Fin 5000) : Fin 50000 :=
  ⟨t.val * 5000 + p.val, by have := point_lt t; have := p.isLt; omega⟩

theorem emb_out (t : Fin cfg8.N) (p : Fin 5000) (d : Fin 128) :
    (((cfg8.win 5).blk t).view.emb (ix2 p d) : S50000x128.Idx) = ix2 (rowOf t p) d := by
  obtain ⟨-, -, -, -, -, -, -, -, -, -, e0, e1⟩ := idx_facts t
  funext a; apply Fin.ext
  match a with
  | ⟨0, _⟩ => show win8_5.index t (0 : Fin 2) * 5000 + 1 * p.val = t.val * 5000 + p.val; omega
  | ⟨1, _⟩ => show win8_5.index t (1 : Fin 2) * 128 + 1 * d.val = d.val; omega

theorem read_x (c : Dev nD) (t : Fin cfg8.N) (p : Fin 5000) (d : Fin 128) :
    iblk8 V c 0 t (ix2 p d) = (V c (Pipeline.arrRef spec8 0) : S50000x128.Idx → EReal) (ix2 (rowOf t p) d) := by
  obtain ⟨e0, e1, -⟩ := idx_facts t
  show (V c (Pipeline.arrRef spec8 0) : S50000x128.Idx → EReal) (((cfg8.win 0).blk t).view.emb (ix2 p d)) = _
  refine congrArg _ (funext fun a => Fin.ext ?_)
  match a with
  | ⟨0, _⟩ => show win8_0.index t (0 : Fin 2) * 5000 + 1 * p.val = t.val * 5000 + p.val; omega
  | ⟨1, _⟩ => show win8_0.index t (1 : Fin 2) * 128 + 1 * d.val = d.val; omega

theorem read_mean (c : Dev nD) (t : Fin cfg8.N) (d : Fin 128) :
    iblk8 V c 1 t (ix2 0 d) = (V c (Pipeline.arrRef spec8 1) : S1x128.Idx → EReal) (ix2 0 d) := by
  obtain ⟨-, -, e0, e1, -⟩ := idx_facts t
  show (V c (Pipeline.arrRef spec8 1) : S1x128.Idx → EReal) (((cfg8.win 1).blk t).view.emb (ix2 0 d)) = _
  refine congrArg _ (funext fun a => Fin.ext ?_)
  match a with
  | ⟨0, _⟩ => show win8_1.index t (0 : Fin 2) * 1 + 1 * 0 = 0; omega
  | ⟨1, _⟩ => show win8_1.index t (1 : Fin 2) * 128 + 1 * d.val = d.val; omega

theorem read_var (c : Dev nD) (t : Fin cfg8.N) (d : Fin 128) :
    iblk8 V c 2 t (ix2 0 d) = (V c (Pipeline.arrRef spec8 2) : S1x128.Idx → EReal) (ix2 0 d) := by
  obtain ⟨-, -, -, -, e0, e1, -⟩ := idx_facts t
  show (V c (Pipeline.arrRef spec8 2) : S1x128.Idx → EReal) (((cfg8.win 2).blk t).view.emb (ix2 0 d)) = _
  refine congrArg _ (funext fun a => Fin.ext ?_)
  match a with
  | ⟨0, _⟩ => show win8_2.index t (0 : Fin 2) * 1 + 1 * 0 = 0; omega
  | ⟨1, _⟩ => show win8_2.index t (1 : Fin 2) * 128 + 1 * d.val = d.val; omega

theorem read_scale (c : Dev nD) (t : Fin cfg8.N) (d : Fin 128) :
    iblk8 V c 3 t (ix2 0 d) = (V c (Pipeline.arrRef spec8 3) : S1x128.Idx → EReal) (ix2 0 d) := by
  obtain ⟨-, -, -, -, -, -, e0, e1, -⟩ := idx_facts t
  show (V c (Pipeline.arrRef spec8 3) : S1x128.Idx → EReal) (((cfg8.win 3).blk t).view.emb (ix2 0 d)) = _
  refine congrArg _ (funext fun a => Fin.ext ?_)
  match a with
  | ⟨0, _⟩ => show win8_3.index t (0 : Fin 2) * 1 + 1 * 0 = 0; omega
  | ⟨1, _⟩ => show win8_3.index t (1 : Fin 2) * 128 + 1 * d.val = d.val; omega

theorem read_shift (c : Dev nD) (t : Fin cfg8.N) (d : Fin 128) :
    iblk8 V c 4 t (ix2 0 d) = (V c (Pipeline.arrRef spec8 4) : S1x128.Idx → EReal) (ix2 0 d) := by
  obtain ⟨-, -, -, -, -, -, -, -, e0, e1, -⟩ := idx_facts t
  show (V c (Pipeline.arrRef spec8 4) : S1x128.Idx → EReal) (((cfg8.win 4).blk t).view.emb (ix2 0 d)) = _
  refine congrArg _ (funext fun a => Fin.ext ?_)
  match a with
  | ⟨0, _⟩ => show win8_4.index t (0 : Fin 2) * 1 + 1 * 0 = 0; omega
  | ⟨1, _⟩ => show win8_4.index t (1 : Fin 2) * 128 + 1 * d.val = d.val; omega

theorem flushed_eq (c : Dev nD) (t : Fin cfg8.N) :
    (dat8 V c).flushed 5 t = ((cfg8.win 5).blk t).view.read (Elt Ideal) (result V c) := by
  show (cfg8.win 5).cut (grid8.coords t) ((dat8 V c).after 5 t) = _
  rw [after8_5]
  unfold out8_5
  rw [View.canon_unit_zero hz]
  simp only [View.ld_unit_zero (S := S5000x128) hz, View.ld_unit_zero (S := S1x128) hz]
  funext j
  obtain ⟨p, d, rfl⟩ : ∃ (p : Fin 5000) (d : Fin 128), j = ix2 p d := ⟨j 0, j 1, eq_ix2 j⟩
  show k8_pay1 (iblk8 V c 2 t) (iblk8 V c 0 t) (iblk8 V c 1 t) (iblk8 V c 3 t) (iblk8 V c 4 t) (ix2 p d)
      = result V c (((cfg8.win 5).blk t).view.emb (ix2 p d))
  rw [emb_out]
  refine (payload_apply (iblk8 V c 2 t) (iblk8 V c 0 t) (iblk8 V c 1 t) (iblk8 V c 3 t) (iblk8 V c 4 t) p d).trans ?_
  rw [read_x V c t p d, read_mean V c t d, read_var V c t d, read_scale V c t d, read_shift V c t d]
  rfl

theorem mem_blk (t : Fin cfg8.N) (i : S50000x128.Idx) :
    i ∈ ((cfg8.win 5).blk t).view.set ↔ ∀ a : Fin 2, win8_5.index t a * S5000x128.size a ≤ (i a).val
      ∧ (i a).val < win8_5.index t a * S5000x128.size a + S5000x128.size a := by
  show i ∈ ((View.whole (Pipeline.arrRef spec8 5)).slice (win8_5.rect t)).set ↔ _
  rw [View.set_slice_whole, Rect.mem_set_unit]
  exact Iff.rfl

theorem cover (i : S50000x128.Idx) :
    ∃ t : Fin cfg8.N, (cfg8.win 5).flush t = true ∧ i ∈ ((cfg8.win 5).blk t).view.set := by
  have hi0 : (i 0).val < 50000 := idx2_lt0 i
  have hi1 : (i 1).val < 128 := idx2_lt1 i
  have hN : (i 0).val / 5000 < cfg8.N := by show _ < grid8.N; rw [N_8]; omega
  obtain ⟨-, -, -, -, -, -, -, -, -, -, e0, e1⟩ := idx_facts ⟨(i 0).val / 5000, hN⟩
  refine ⟨⟨(i 0).val / 5000, hN⟩, flush8_5 _, ?_⟩
  rw [mem_blk]
  intro a
  match a with
  | ⟨0, _⟩ =>
    show win8_5.index ⟨(i 0).val / 5000, hN⟩ (0 : Fin 2) * 5000 ≤ (i 0).val
      ∧ (i 0).val < win8_5.index ⟨(i 0).val / 5000, hN⟩ (0 : Fin 2) * 5000 + 5000
    rw [e0]
    show (i 0).val / 5000 * 5000 ≤ (i 0).val ∧ (i 0).val < (i 0).val / 5000 * 5000 + 5000
    omega
  | ⟨1, _⟩ =>
    show win8_5.index ⟨(i 0).val / 5000, hN⟩ (1 : Fin 2) * 128 ≤ (i 1).val
      ∧ (i 1).val < win8_5.index ⟨(i 0).val / 5000, hN⟩ (1 : Fin 2) * 128 + 128
    omega

theorem value (c : Dev nD) :
    (dat8 V c).arrAt 5 cfg8.N
      = Cert.Spec.clipped (Cert.Spec.affine (V c (Pipeline.arrRef spec8 0))
          (chan (V c (Pipeline.arrRef spec8 1))) (chan (V c (Pipeline.arrRef spec8 2)))
          (chan (V c (Pipeline.arrRef spec8 3))) (chan (V c (Pipeline.arrRef spec8 4)))) :=
  (dat8 V c).arrAt_eq_of_cover 5 (result V c) (fun t _ => flushed_eq V c t) cover

end Cert.KernelIdeal.Region8

end
-- ==== Proof.KLayer2.lean ====
/-
  One layer of the kernel program as values, from the boundary where the layer begins to the one where the next
  begins: product, bounds-tested aggregation, bias and moments, mean and variance from the moments, normalisation.
-/
import proofs.«402385_j8315056685617_1_alg».proof.Proof.Gen.KernelIdeal.Frame
import proofs.«402385_j8315056685617_1_alg».proof.Proof.Spec
import proofs.«402385_j8315056685617_1_alg».proof.Proof.Graph
import proofs.«402385_j8315056685617_1_alg».proof.Proof.Network
import proofs.«402385_j8315056685617_1_alg».proof.Proof.LayerLib
import proofs.«402385_j8315056685617_1_alg».proof.Proof.Region6
import proofs.«402385_j8315056685617_1_alg».proof.Proof.Region7
import proofs.«402385_j8315056685617_1_alg».proof.Proof.Region8
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Layer2

open Cert.KernelIdeal Cert.KernelIdeal.Gen
open Idealize.ShloMosaic Idealize.ShloMosaic.TcCoe Idealize.ShloMosaic.ValueIdx
open Idealize.SL.Sem
open Cert.KernelIdeal.LayerLib

variable (m : (ℓ : Loc nD τ sig) → Buf (Elt Ideal) ℓ) (ρ : Dev nD → PrngReg) (c : Dev nD)

abbrev thisLayer : Fin 5 := 2
abbrev nextLayer : Fin 5 := 3

section Lookup

variable {F : FTy → Type} [FloatOps F]

variable (V : Valuation τ sig (Elt F))

theorem hostOps1_parts :
    (hostOps7 : List (HloOp τ sig (Elt F)))
      = List.take 8 hostOps7 ++ (List.take 10 (List.drop 8 hostOps7) ++ List.drop 10 (List.drop 8 hostOps7)) := by
  rw [List.take_append_drop, List.take_append_drop]

theorem hostOps1_first_main_call1_v5 :
    StableHlo.after (List.take 8 (hostOps7 (F := F))) V (Proc.devRef .tc main_call3_v5)
      = lookupIdx (V (Proc.devRef .tc main_v3)) := by
  simp only [hostOps7, List.take_succ_cons, List.take_zero]
  after_results
  rfl

theorem hostOps1_first_main_v34 :
    StableHlo.after (List.take 8 (hostOps7 (F := F))) V (Proc.devRef .tc main_v88) = V (Proc.devRef .tc main_v88) := by
  simp only [hostOps7, List.take_succ_cons, List.take_zero]
  after_results

theorem hostOps1_second_main_call1_v12 :
    StableHlo.after (List.take 10 (List.drop 8 (hostOps7 (F := F)))) V (Proc.devRef .tc main_call3_v12)
      = lookupMask (V (Proc.devRef .tc main_call3_v5)) := by
  simp only [hostOps7, List.drop_succ_cons, List.drop_zero, List.take_succ_cons, List.take_zero]
  after_results
  simp only [StableHlo.TRef.ofBuf, StableHlo.TRef.toBuf, cast_eq]
  rfl

theorem hostOps1_second_main_call1_v5 :
    StableHlo.after (List.take 10 (List.drop 8 (hostOps7 (F := F)))) V (Proc.devRef .tc main_call3_v5)
      = V (Proc.devRef .tc main_call3_v5) := by
  simp only [hostOps7, List.drop_succ_cons, List.drop_zero, List.take_succ_cons, List.take_zero]
  after_results

theorem hostOps1_second_main_v34 :
    StableHlo.after (List.take 10 (List.drop 8 (hostOps7 (F := F)))) V (Proc.devRef .tc main_v88)
      = V (Proc.devRef .tc main_v88) := by
  simp only [hostOps7, List.drop_succ_cons, List.drop_zero, List.take_succ_cons, List.take_zero]
  after_results

theorem hostOps1_third_main_v35 :
    StableHlo.after (List.drop 10 (List.drop 8 (hostOps7 (F := F)))) V (Proc.devRef .tc main_v89)
      = lookupRows (V (Proc.devRef .tc main_call3_v12)) (V (Proc.devRef .tc main_v88)) (V (Proc.devRef .tc main_call3_v5)) := by
  simp only [hostOps7, List.drop_succ_cons, List.drop_zero]
  after_results
  rfl

theorem hostOps1_main_v35_any :
    StableHlo.after (hostOps7 (F := F)) V (Proc.devRef .tc main_v89)
      = lookupRows (lookupMask (lookupIdx (V (Proc.devRef .tc main_v3)))) (V (Proc.devRef .tc main_v88))
          (lookupIdx (V (Proc.devRef .tc main_v3))) := by
  rw [hostOps1_parts, StableHlo.after_append, StableHlo.after_append, hostOps1_third_main_v35,
    hostOps1_second_main_call1_v12, hostOps1_second_main_v34, hostOps1_second_main_call1_v5,
    hostOps1_first_main_call1_v5, hostOps1_first_main_v34]

end Lookup

section Stretches

variable (V : Valuation τ sig (Elt Ideal))

abbrev hostOps1_W : List (Ref sig .tc) :=
  [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v89]

theorem hostOps1_writes :
    (hostOps7 : List (HloOp τ sig (Elt Ideal))).Forall fun op => op.writes ⊆ (hostOps1_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem hostOps1_keeps (r : Ref sig .tc) (h : r ∉ hostOps1_W) :
    StableHlo.after hostOps7 V (Proc.devRef .tc r) = V (Proc.devRef .tc r) :=
  StableHlo.after_of_writes_sub hostOps7 V hostOps1_writes h

theorem hostOps1_main_v35 :
    StableHlo.after hostOps7 V (Proc.devRef .tc main_v89)
      = Cert.Graph.sourceRowsChecked (F := Ideal) (V (Proc.devRef .tc main_v3)) (V (Proc.devRef .tc main_v88)) := by
  exact (hostOps1_main_v35_any V).trans (lookup_eq _ _)

abbrev hostOps1_1_W : List (Ref sig .tc) :=
  [main_v90, main_v91, main_v92, main_cst_12, main_v93, main_v94, main_v95, main_v96, main_v97, main_v98]

theorem hostOps1_1_writes :
    (hostOps7_1 : List (HloOp τ sig (Elt Ideal))).Forall fun op => op.writes ⊆ (hostOps1_1_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem hostOps1_1_keeps (r : Ref sig .tc) (h : r ∉ hostOps1_1_W) :
    StableHlo.after hostOps7_1 V (Proc.devRef .tc r) = V (Proc.devRef .tc r) :=
  StableHlo.after_of_writes_sub hostOps7_1 V hostOps1_1_writes h

theorem hostOps1_1_main_v41 :
    StableHlo.after hostOps7_1 V (Proc.devRef .tc main_v95)
      = Cert.Graph.accumulate (F := Ideal) (V (Proc.devRef .tc main_v6)) (V (Proc.devRef .tc main_v31)) (V (Proc.devRef .tc main_v89)) := by
  after_results
  rfl

theorem hostOps1_1_main_v44 :
    row (StableHlo.after hostOps7_1 V (Proc.devRef .tc main_v98))
      = Cert.Network.chan thisLayer (V (Proc.devRef .tc main_arg5)) := by
  after_results
  exact chan_slice thisLayer _ _ _ _

abbrev hostOps2_W : List (Ref sig .tc) :=
  [main_cst_13, main_v100, main_v101, main_cst_14, main_v102, main_v103, main_v104, main_v105, main_v106, main_v107, main_v108, main_v109, main_v110, main_v111]

theorem hostOps2_writes :
    (hostOps8 : List (HloOp τ sig (Elt Ideal))).Forall fun op => op.writes ⊆ (hostOps2_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem hostOps2_keeps (r : Ref sig .tc) (h : r ∉ hostOps2_W) :
    StableHlo.after hostOps8 V (Proc.devRef .tc r) = V (Proc.devRef .tc r) :=
  StableHlo.after_of_writes_sub hostOps8 V hostOps2_writes h

theorem hostOps2_main_v47 :
    row (StableHlo.after hostOps8 V (Proc.devRef .tc main_v101))
      = fun d => Ideal.div (row (V (Proc.devRef .tc main_v99_1)) d) Cert.Spec.count := by
  after_results
  rfl

theorem hostOps2_main_v51 :
    row (StableHlo.after hostOps8 V (Proc.devRef .tc main_v105))
      = fun d => Ideal.div (row (V (Proc.devRef .tc main_v99_2)) d) Cert.Spec.count
          - Ideal.div (row (V (Proc.devRef .tc main_v99_1)) d) Cert.Spec.count
            * Ideal.div (row (V (Proc.devRef .tc main_v99_1)) d) Cert.Spec.count := by
  after_results
  rfl

theorem hostOps2_main_v56 :
    row (StableHlo.after hostOps8 V (Proc.devRef .tc main_v110))
      = Cert.Network.chan thisLayer (V (Proc.devRef .tc main_arg6)) := by
  after_results
  exact chan_slice thisLayer _ _ _ _

theorem hostOps2_main_v57 :
    row (StableHlo.after hostOps8 V (Proc.devRef .tc main_v111))
      = Cert.Network.chan thisLayer (V (Proc.devRef .tc main_arg7)) := by
  after_results
  exact chan_slice thisLayer _ _ _ _

abbrev hostOps3_W : List (Ref sig .tc) :=
  [main_v113, main_v114]

theorem hostOps3_writes :
    (hostOps9 : List (HloOp τ sig (Elt Ideal))).Forall fun op => op.writes ⊆ (hostOps3_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem hostOps3_keeps (r : Ref sig .tc) (h : r ∉ hostOps3_W) :
    StableHlo.after hostOps9 V (Proc.devRef .tc r) = V (Proc.devRef .tc r) :=
  StableHlo.after_of_writes_sub hostOps9 V hostOps3_writes h

theorem hostOps3_main_v60 :
    StableHlo.after hostOps9 V (Proc.devRef .tc main_v114)
      = Cert.Network.weight nextLayer (V (Proc.devRef .tc main_arg4)) := by
  after_results
  exact weight_slice nextLayer _ _ _

end Stretches

structure Entry (H : Cert.Spec.Feat) (Wm : Cert.Spec.Weights.Idx → EReal) (R C : IVec Cert.Graph.S850000 32)
    (K : FVec Ideal Cert.Graph.S850000 .f32) : Prop where
  feat : W17 m ρ c (Proc.devRef .tc main_v85) = H
  wmat : W17 m ρ c (Proc.devRef .tc main_v87) = Wm
  src : W17 m ρ c (Proc.devRef .tc main_v3) = R
  tgt : W17 m ρ c (Proc.devRef .tc main_v6) = C
  coef : W17 m ρ c (Proc.devRef .tc main_v31) = K
  arg0 : W17 m ρ c (Proc.devRef .tc main_arg0) = m ((c : Thread nD τ).loc main_arg0)
  arg4 : W17 m ρ c (Proc.devRef .tc main_arg4) = m ((c : Thread nD τ).loc main_arg4)
  arg5 : W17 m ρ c (Proc.devRef .tc main_arg5) = m ((c : Thread nD τ).loc main_arg5)
  arg6 : W17 m ρ c (Proc.devRef .tc main_arg6) = m ((c : Thread nD τ).loc main_arg6)
  arg7 : W17 m ρ c (Proc.devRef .tc main_arg7) = m ((c : Thread nD τ).loc main_arg7)

abbrev bias : Cert.Spec.Chan := Cert.Network.chan thisLayer (m ((c : Thread nD τ).loc main_arg5))
abbrev scale : Cert.Spec.Chan := Cert.Network.chan thisLayer (m ((c : Thread nD τ).loc main_arg6))
abbrev shift : Cert.Spec.Chan := Cert.Network.chan thisLayer (m ((c : Thread nD τ).loc main_arg7))

abbrev biased (H : Cert.Spec.Feat) (Wm : Cert.Spec.Weights.Idx → EReal) (R C : IVec Cert.Graph.S850000 32)
    (K : FVec Ideal Cert.Graph.S850000 .f32) : Cert.Spec.Feat :=
  Cert.Spec.shifted (Cert.Graph.aggregateChecked R C K (Cert.Spec.product H Wm)) (bias m c)

section Kept

variable (r : Ref sig .tc)

theorem keepW4 (g0 : ∀ w, Pipeline.arrRef spec6 w ≠ r) :
    W18 m ρ c (Proc.devRef .tc r) = W17 m ρ c (Proc.devRef .tc r) :=
  W18_of_ne m ρ c r g0

theorem keepW5 (g0 : ∀ w, Pipeline.arrRef spec6 w ≠ r) (h1 : r ∉ hostOps1_W) :
    W19 m ρ c (Proc.devRef .tc r) = W17 m ρ c (Proc.devRef .tc r) :=
  (hostOps1_keeps (W18 m ρ c) r h1).trans (keepW4 m ρ c r g0)

theorem keepW6 (g0 : ∀ w, Pipeline.arrRef spec6 w ≠ r) (h1 : r ∉ hostOps1_W) (h1_1 : r ∉ hostOps1_1_W) :
    W20 m ρ c (Proc.devRef .tc r) = W17 m ρ c (Proc.devRef .tc r) :=
  (hostOps1_1_keeps (W19 m ρ c) r h1_1).trans (keepW5 m ρ c r g0 h1)

theorem keepW7 (g0 : ∀ w, Pipeline.arrRef spec6 w ≠ r) (h1 : r ∉ hostOps1_W) (h1_1 : r ∉ hostOps1_1_W)
    (g1 : ∀ w, Pipeline.arrRef spec7 w ≠ r) :
    W21 m ρ c (Proc.devRef .tc r) = W17 m ρ c (Proc.devRef .tc r) :=
  (W21_of_ne m ρ c r g1).trans (keepW6 m ρ c r g0 h1 h1_1)

theorem keepW8 (g0 : ∀ w, Pipeline.arrRef spec6 w ≠ r) (h1 : r ∉ hostOps1_W) (h1_1 : r ∉ hostOps1_1_W)
    (g1 : ∀ w, Pipeline.arrRef spec7 w ≠ r) (h2 : r ∉ hostOps2_W) :
    W22 m ρ c (Proc.devRef .tc r) = W17 m ρ c (Proc.devRef .tc r) :=
  (hostOps2_keeps (W21 m ρ c) r h2).trans (keepW7 m ρ c r g0 h1 h1_1 g1)

theorem keepW9 (g0 : ∀ w, Pipeline.arrRef spec6 w ≠ r) (h1 : r ∉ hostOps1_W) (h1_1 : r ∉ hostOps1_1_W)
    (g1 : ∀ w, Pipeline.arrRef spec7 w ≠ r) (h2 : r ∉ hostOps2_W) (g2 : ∀ w, Pipeline.arrRef spec8 w ≠ r) :
    W23 m ρ c (Proc.devRef .tc r) = W17 m ρ c (Proc.devRef .tc r) :=
  (W23_of_ne m ρ c r g2).trans (keepW8 m ρ c r g0 h1 h1_1 g1 h2)

theorem keepW10 (g0 : ∀ w, Pipeline.arrRef spec6 w ≠ r) (h1 : r ∉ hostOps1_W) (h1_1 : r ∉ hostOps1_1_W)
    (g1 : ∀ w, Pipeline.arrRef spec7 w ≠ r) (h2 : r ∉ hostOps2_W) (g2 : ∀ w, Pipeline.arrRef spec8 w ≠ r)
    (h3 : r ∉ hostOps3_W) :
    W24 m ρ c (Proc.devRef .tc r) = W17 m ρ c (Proc.devRef .tc r) :=
  (hostOps3_keeps (W23 m ρ c) r h3).trans (keepW9 m ρ c r g0 h1 h1_1 g1 h2 g2)

end Kept

variable {H : Cert.Spec.Feat} {Wm : Cert.Spec.Weights.Idx → EReal} {R C : IVec Cert.Graph.S850000 32}
  {K : FVec Ideal Cert.Graph.S850000 .f32}

theorem W4_main_v34 (e : Entry m ρ c H Wm R C K) :
    W18 m ρ c (Proc.devRef .tc main_v88) = Cert.Spec.product H Wm :=
  (W18_arr m ρ c 2).trans <| (Cert.KernelIdeal.Region6.value (V17 m ρ) c).trans <| by
    show Cert.Spec.product (W17 m ρ c (Proc.devRef .tc main_v85)) (W17 m ρ c (Proc.devRef .tc main_v87)) = _
    rewrite [e.feat, e.wmat]
    rfl

theorem W5_main_v35 (e : Entry m ρ c H Wm R C K) :
    W19 m ρ c (Proc.devRef .tc main_v89) = Cert.Graph.sourceRowsChecked (F := Ideal) R (Cert.Spec.product H Wm) := by
  show StableHlo.after hostOps7 (W18 m ρ c) (Proc.devRef .tc main_v89) = _
  rewrite [hostOps1_main_v35, keepW4 m ρ c main_v3 (by decide), e.src, W4_main_v34 m ρ c e]
  rfl

theorem W6_main_v41 (e : Entry m ρ c H Wm R C K) :
    W20 m ρ c (Proc.devRef .tc main_v95) = Cert.Graph.aggregateChecked (F := Ideal) R C K (Cert.Spec.product H Wm) := by
  show StableHlo.after hostOps7_1 (W19 m ρ c) (Proc.devRef .tc main_v95) = _
  rewrite [hostOps1_1_main_v41, keepW5 m ρ c main_v6 (by decide) (by decide), e.tgt,
    keepW5 m ρ c main_v31 (by decide) (by decide), e.coef, W5_main_v35 m ρ c e]
  rfl

theorem W6_main_v44 (e : Entry m ρ c H Wm R C K) :
    row (W20 m ρ c (Proc.devRef .tc main_v98)) = bias m c := by
  show row (StableHlo.after hostOps7_1 (W19 m ρ c) (Proc.devRef .tc main_v98)) = _
  rewrite [hostOps1_1_main_v44, keepW5 m ρ c main_arg5 (by decide) (by decide), e.arg5]
  rfl

theorem entry1_biased (e : Entry m ρ c H Wm R C K) :
    Cert.KernelIdeal.Region7.biased (V20 m ρ) c = biased m c H Wm R C K := by
  show Cert.Spec.shifted (W20 m ρ c (Proc.devRef .tc main_v95)) (row (W20 m ρ c (Proc.devRef .tc main_v98))) = _
  rewrite [W6_main_v41 m ρ c e, W6_main_v44 m ρ c e]
  rfl

theorem W7_main_v45_0 (e : Entry m ρ c H Wm R C K) :
    W21 m ρ c (Proc.devRef .tc main_v99_0) = biased m c H Wm R C K :=
  (W21_arr m ρ c 2).trans <| (Cert.KernelIdeal.Region7.value2 (V20 m ρ) c).trans (entry1_biased m ρ c e)

theorem W7_main_v45_1 (e : Entry m ρ c H Wm R C K) :
    row (W21 m ρ c (Proc.devRef .tc main_v99_1)) = Cert.Spec.colSum (biased m c H Wm R C K) := by
  have h : W21 m ρ c (Proc.devRef .tc main_v99_1)
      = (fun j => Cert.Spec.colSum (Cert.KernelIdeal.Region7.biased (V20 m ρ) c) (j 1) : S1x128.Idx → EReal) :=
    (W21_arr m ρ c 3).trans (Cert.KernelIdeal.Region7.value3 (V20 m ρ) c)
  funext d
  show W21 m ρ c (Proc.devRef .tc main_v99_1) (ix2 0 d) = _
  rw [h, entry1_biased m ρ c e]

theorem W7_main_v45_2 (e : Entry m ρ c H Wm R C K) :
    row (W21 m ρ c (Proc.devRef .tc main_v99_2)) = Cert.Spec.colSumSq (biased m c H Wm R C K) := by
  have h : W21 m ρ c (Proc.devRef .tc main_v99_2)
      = (fun j => Cert.Spec.colSumSq (Cert.KernelIdeal.Region7.biased (V20 m ρ) c) (j 1) : S1x128.Idx → EReal) :=
    (W21_arr m ρ c 4).trans (Cert.KernelIdeal.Region7.value4 (V20 m ρ) c)
  funext d
  show W21 m ρ c (Proc.devRef .tc main_v99_2) (ix2 0 d) = _
  rw [h, entry1_biased m ρ c e]

theorem W8_main_v45_0 (e : Entry m ρ c H Wm R C K) :
    W22 m ρ c (Proc.devRef .tc main_v99_0) = biased m c H Wm R C K :=
  (hostOps2_keeps (W21 m ρ c) main_v99_0 (by decide)).trans (W7_main_v45_0 m ρ c e)

theorem W8_main_v47 (e : Entry m ρ c H Wm R C K) :
    row (W22 m ρ c (Proc.devRef .tc main_v101)) = Cert.Spec.mean (biased m c H Wm R C K) := by
  show row (StableHlo.after hostOps8 (W21 m ρ c) (Proc.devRef .tc main_v101)) = _
  rewrite [hostOps2_main_v47, W7_main_v45_1 m ρ c e]
  rfl

theorem W8_main_v51 (e : Entry m ρ c H Wm R C K) :
    row (W22 m ρ c (Proc.devRef .tc main_v105)) = Cert.Spec.varOfMoments (biased m c H Wm R C K) := by
  show row (StableHlo.after hostOps8 (W21 m ρ c) (Proc.devRef .tc main_v105)) = _
  rewrite [hostOps2_main_v51, W7_main_v45_1 m ρ c e, W7_main_v45_2 m ρ c e]
  rfl

theorem W8_main_v56 (e : Entry m ρ c H Wm R C K) :
    row (W22 m ρ c (Proc.devRef .tc main_v110)) = scale m c := by
  show row (StableHlo.after hostOps8 (W21 m ρ c) (Proc.devRef .tc main_v110)) = _
  rewrite [hostOps2_main_v56, keepW7 m ρ c main_arg6 (by decide) (by decide) (by decide) (by decide), e.arg6]
  rfl

theorem W8_main_v57 (e : Entry m ρ c H Wm R C K) :
    row (W22 m ρ c (Proc.devRef .tc main_v111)) = shift m c := by
  show row (StableHlo.after hostOps8 (W21 m ρ c) (Proc.devRef .tc main_v111)) = _
  rewrite [hostOps2_main_v57, keepW7 m ρ c main_arg7 (by decide) (by decide) (by decide) (by decide), e.arg7]
  rfl

theorem W9_main_v58 (e : Entry m ρ c H Wm R C K) :
    W23 m ρ c (Proc.devRef .tc main_v112)
      = Cert.Spec.layer Cert.Spec.varOfMoments (Cert.Graph.aggregateChecked R C K) true H Wm
          (bias m c) (scale m c) (shift m c) :=
  (W23_arr m ρ c 5).trans <| (Cert.KernelIdeal.Region8.value (V22 m ρ) c).trans <| by
    show Cert.Spec.clipped (Cert.Spec.affine (W22 m ρ c (Proc.devRef .tc main_v99_0))
      (row (W22 m ρ c (Proc.devRef .tc main_v101))) (row (W22 m ρ c (Proc.devRef .tc main_v105)))
      (row (W22 m ρ c (Proc.devRef .tc main_v110))) (row (W22 m ρ c (Proc.devRef .tc main_v111)))) = _
    rewrite [W8_main_v45_0 m ρ c e, W8_main_v47 m ρ c e, W8_main_v51 m ρ c e, W8_main_v56 m ρ c e, W8_main_v57 m ρ c e]
    rfl

theorem exit_feat (e : Entry m ρ c H Wm R C K) :
    W24 m ρ c (Proc.devRef .tc main_v112)
      = Cert.Spec.layer Cert.Spec.varOfMoments (Cert.Graph.aggregateChecked R C K) true H Wm
          (Cert.Network.chan thisLayer (m ((c : Thread nD τ).loc main_arg5)))
          (Cert.Network.chan thisLayer (m ((c : Thread nD τ).loc main_arg6)))
          (Cert.Network.chan thisLayer (m ((c : Thread nD τ).loc main_arg7))) :=
  (hostOps3_keeps (W23 m ρ c) main_v112 (by decide)).trans (W9_main_v58 m ρ c e)

theorem exit_wmat (e : Entry m ρ c H Wm R C K) :
    W24 m ρ c (Proc.devRef .tc main_v114) = Cert.Network.weight nextLayer (m ((c : Thread nD τ).loc main_arg4)) := by
  show StableHlo.after hostOps9 (W23 m ρ c) (Proc.devRef .tc main_v114) = _
  rewrite [hostOps3_main_v60,
    keepW9 m ρ c main_arg4 (by decide) (by decide) (by decide) (by decide) (by decide) (by decide), e.arg4]
  rfl

theorem exit_src (e : Entry m ρ c H Wm R C K) : W24 m ρ c (Proc.devRef .tc main_v3) = R :=
  (keepW10 m ρ c main_v3 (by decide) (by decide) (by decide) (by decide) (by decide) (by decide) (by decide)).trans e.src
theorem exit_tgt (e : Entry m ρ c H Wm R C K) : W24 m ρ c (Proc.devRef .tc main_v6) = C :=
  (keepW10 m ρ c main_v6 (by decide) (by decide) (by decide) (by decide) (by decide) (by decide) (by decide)).trans e.tgt
theorem exit_coef (e : Entry m ρ c H Wm R C K) : W24 m ρ c (Proc.devRef .tc main_v31) = K :=
  (keepW10 m ρ c main_v31 (by decide) (by decide) (by decide) (by decide) (by decide) (by decide) (by decide)).trans e.coef
theorem exit_arg0 (e : Entry m ρ c H Wm R C K) :
    W24 m ρ c (Proc.devRef .tc main_arg0) = m ((c : Thread nD τ).loc main_arg0) :=
  (keepW10 m ρ c main_arg0 (by decide) (by decide) (by decide) (by decide) (by decide) (by decide) (by decide)).trans e.arg0
theorem exit_arg4 (e : Entry m ρ c H Wm R C K) :
    W24 m ρ c (Proc.devRef .tc main_arg4) = m ((c : Thread nD τ).loc main_arg4) :=
  (keepW10 m ρ c main_arg4 (by decide) (by decide) (by decide) (by decide) (by decide) (by decide) (by decide)).trans e.arg4
theorem exit_arg5 (e : Entry m ρ c H Wm R C K) :
    W24 m ρ c (Proc.devRef .tc main_arg5) = m ((c : Thread nD τ).loc main_arg5) :=
  (keepW10 m ρ c main_arg5 (by decide) (by decide) (by decide) (by decide) (by decide) (by decide) (by decide)).trans e.arg5
theorem exit_arg6 (e : Entry m ρ c H Wm R C K) :
    W24 m ρ c (Proc.devRef .tc main_arg6) = m ((c : Thread nD τ).loc main_arg6) :=
  (keepW10 m ρ c main_arg6 (by decide) (by decide) (by decide) (by decide) (by decide) (by decide) (by decide)).trans e.arg6
theorem exit_arg7 (e : Entry m ρ c H Wm R C K) :
    W24 m ρ c (Proc.devRef .tc main_arg7) = m ((c : Thread nD τ).loc main_arg7) :=
  (keepW10 m ρ c main_arg7 (by decide) (by decide) (by decide) (by decide) (by decide) (by decide) (by decide)).trans e.arg7

end Cert.KernelIdeal.Layer2

end
-- ==== Proof.Region9.lean ====
/-
  The matrix-product region: ten blocks of 5000 feature rows times the weight matrix are the ten row blocks of the
  full product, and together they fill the output.
-/
import proofs.«402385_j8315056685617_1_alg».proof.Proof.Gen.KernelIdeal.Frame
import proofs.«402385_j8315056685617_1_alg».proof.Proof.Spec
import proofs.«402385_j8315056685617_1_alg».proof.Proof.LibDotPlain
import Idealize.ShloMosaic.Lib.Pipeline.Value
import Idealize.ShloMosaic.Lib.ValueIdx

set_option maxRecDepth 16384

noncomputable section

namespace Cert.KernelIdeal.Region9

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

theorem payload_entry (x : FVec Ideal S5000x128 .f32) (w : FVec Ideal S128x128 .f32) (r : Fin 5000) (d : Fin 128) :
    k9_pay1 (F := Ideal) x w (ix2 r d) = ∑ q : Fin 128, x (ix2 r q) * w (ix2 q d) := by
  unfold k9_pay1
  simp only [shapeCast_self]
  exact Cert.LibDotPlain.matmul_zero_plain 5000 128 128 none _ _ r d

theorem block_numbers : ∀ t : Fin cfg9.N,
    win9_0.index t (0 : Fin 2) = win9_2.index t (0 : Fin 2) ∧ win9_0.index t (1 : Fin 2) = 0
    ∧ win9_1.index t (0 : Fin 2) = 0 ∧ win9_1.index t (1 : Fin 2) = 0
    ∧ win9_2.index t (0 : Fin 2) ≤ 9 ∧ win9_2.index t (1 : Fin 2) = 0 :=
  (by decide +kernel : ∀ t : Fin grid9.N, _)

theorem block_numbers_onto : ∀ b : Fin 10, ∃ t : Fin cfg9.N, win9_2.index t (0 : Fin 2) = b.val :=
  (by decide +kernel : ∀ b : Fin 10, ∃ t : Fin grid9.N, win9_2.index t (0 : Fin 2) = b.val)

theorem feature_block (c : Dev nD) (t : Fin cfg9.N) (r : Fin 5000) (q : Fin 128) (k : S50000x128.Idx)
    (hrow : (k 0).val = win9_2.index t (0 : Fin 2) * 5000 + r.val) (hcol : (k 1).val = q.val) :
    (iblk9 V c 0 t : FVec Ideal S5000x128 .f32) (ix2 r q)
      = (V c (Pipeline.arrRef spec9 0) : S50000x128.Idx → EReal) k := by
  obtain ⟨erow, ecol, -⟩ := block_numbers t
  show V c (Pipeline.arrRef spec9 0) (((cfg9.win 0).blk t).view.emb (ix2 r q)) = V c (Pipeline.arrRef spec9 0) k
  refine congrArg (V c (Pipeline.arrRef spec9 0)) ?_
  funext a
  apply Fin.ext
  match a with
  | ⟨0, _⟩ => show win9_0.index t (0 : Fin 2) * 5000 + 1 * r.val = (k 0).val; omega
  | ⟨1, _⟩ => show win9_0.index t (1 : Fin 2) * 128 + 1 * q.val = (k 1).val; omega

theorem weight_block (c : Dev nD) (t : Fin cfg9.N) (q d : Fin 128) :
    (iblk9 V c 1 t : FVec Ideal S128x128 .f32) (ix2 q d)
      = (V c (Pipeline.arrRef spec9 1) : S128x128.Idx → EReal) (ix2 q d) := by
  obtain ⟨-, -, erow, ecol, -⟩ := block_numbers t
  show V c (Pipeline.arrRef spec9 1) (((cfg9.win 1).blk t).view.emb (ix2 q d)) = V c (Pipeline.arrRef spec9 1) (ix2 q d)
  refine congrArg (V c (Pipeline.arrRef spec9 1)) ?_
  funext a
  apply Fin.ext
  match a with
  | ⟨0, _⟩ => show win9_1.index t (0 : Fin 2) * 128 + 1 * q.val = q.val; omega
  | ⟨1, _⟩ => show win9_1.index t (1 : Fin 2) * 128 + 1 * d.val = d.val; omega

theorem block_product (c : Dev nD) (t : Fin cfg9.N) (y : S5000x128.Idx) :
    k9_pay1 (F := Ideal) (iblk9 V c 0 t) (iblk9 V c 1 t) y
      = Cert.Spec.product (V c (Pipeline.arrRef spec9 0)) (V c (Pipeline.arrRef spec9 1))
          (((cfg9.win 2).blk t).view.emb y) := by
  obtain ⟨r, d, rfl⟩ : ∃ (r : Fin 5000) (d : Fin 128), y = ix2 r d := ⟨y 0, y 1, eq_ix2 y⟩
  obtain ⟨-, -, -, -, -, ecol⟩ := block_numbers t
  refine (payload_entry (iblk9 V c 0 t) (iblk9 V c 1 t) r d).trans ?_
  unfold Cert.Spec.product
  refine Finset.sum_congr rfl fun q _ => ?_
  refine congrArg₂ (· * ·) ?_ ?_
  · refine feature_block V c t r q _ ?_ rfl
    show win9_2.index t (0 : Fin 2) * 5000 + 1 * r.val = win9_2.index t (0 : Fin 2) * 5000 + r.val
    omega
  · refine (weight_block V c t q d).trans ?_
    refine congrArg (V c (Pipeline.arrRef spec9 1)) ?_
    funext a
    apply Fin.ext
    match a with
    | ⟨0, _⟩ => rfl
    | ⟨1, _⟩ => show d.val = win9_2.index t (1 : Fin 2) * 128 + 1 * d.val; omega

theorem written_back (c : Dev nD) (t : Fin cfg9.N) :
    (dat9 (F := Ideal) V c).flushed 2 t
      = ((cfg9.win 2).blk t).view.read (Elt Ideal)
          (Cert.Spec.product (V c (Pipeline.arrRef spec9 0)) (V c (Pipeline.arrRef spec9 1))) := by
  show (cfg9.win 2).cut (grid9.coords t) ((dat9 (F := Ideal) V c).after 2 t) = _
  rw [after9_2]
  unfold out9_2
  rw [View.canon_unit_zero zero_offsets]
  simp only [View.ld_unit_zero (S := S5000x128) zero_offsets, View.ld_unit_zero (S := S128x128) zero_offsets]
  funext j
  exact block_product V c t j

theorem mem_block (t : Fin cfg9.N) (i : S50000x128.Idx) :
    i ∈ ((cfg9.win 2).blk t).view.set
      ↔ ∀ a : Fin 2, win9_2.index t a * S5000x128.size a ≤ (i a).val
          ∧ (i a).val < win9_2.index t a * S5000x128.size a + S5000x128.size a := by
  show i ∈ ((View.whole (Pipeline.arrRef spec9 2)).slice (win9_2.rect t)).set ↔ _
  rw [View.set_slice_whole, Rect.mem_set_unit]
  exact Iff.rfl

theorem covered (i : S50000x128.Idx) :
    ∃ t : Fin cfg9.N, (cfg9.win 2).flush t = true ∧ i ∈ ((cfg9.win 2).blk t).view.set := by
  have hrow : (i 0).val < 50000 := (i 0).isLt
  have hcol : (i 1).val < 128 := (i 1).isLt
  obtain ⟨t, ht⟩ := block_numbers_onto ⟨(i 0).val / 5000, by omega⟩
  have ht' : win9_2.index t (0 : Fin 2) = (i 0).val / 5000 := ht
  obtain ⟨-, -, -, -, -, ecol⟩ := block_numbers t
  refine ⟨t, flush9_2 t, ?_⟩
  rw [mem_block]
  intro a
  match a with
  | ⟨0, _⟩ =>
    show win9_2.index t (0 : Fin 2) * 5000 ≤ (i 0).val ∧ (i 0).val < win9_2.index t (0 : Fin 2) * 5000 + 5000
    omega
  | ⟨1, _⟩ =>
    show win9_2.index t (1 : Fin 2) * 128 ≤ (i 1).val ∧ (i 1).val < win9_2.index t (1 : Fin 2) * 128 + 128
    omega

theorem value (c : Dev nD) :
    (dat9 (F := Ideal) V c).arrAt 2 cfg9.N
      = Cert.Spec.product (V c (Pipeline.arrRef spec9 0)) (V c (Pipeline.arrRef spec9 1)) :=
  (dat9 (F := Ideal) V c).arrAt_eq_of_cover 2
    (Cert.Spec.product (V c (Pipeline.arrRef spec9 0)) (V c (Pipeline.arrRef spec9 1)))
    (fun t _ => written_back V c t) (covered)

end Cert.KernelIdeal.Region9

end
-- ==== Proof.Region10.lean ====
/-
  The statistics region: the biased features block by block, and per channel the sum and the sum of squares over
  all nodes, accumulated over the ten blocks (only associativity of addition is used).
-/
import proofs.«402385_j8315056685617_1_alg».proof.Proof.Gen.KernelIdeal.Frame
import proofs.«402385_j8315056685617_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region10

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open scoped BigOperators

variable (V : (c : Dev nD) → (b : Ref sig .tc) → Buf (Elt Ideal) ((c : Thread nD τ).loc b))

abbrev biased (c : Dev nD) : Cert.Spec.Feat :=
  Cert.Spec.shifted (V c (Pipeline.arrRef spec10 0)) (fun d => V c (Pipeline.arrRef spec10 1) (ix2 0 d))

variable {F : FTy → Type} [FloatOps F]

theorem offsets_zero : (![0, 0] : Fin 2 → Nat) = fun _ => 0 := funext fun a => by fin_cases a <;> rfl

section Pieces

variable (c : Dev nD) (i : grid10.Coords) (ma : Memref sig .tc .vmem S5000x128 .f32) (hma : ma.IsWhole) (mb : Memref sig .tc .vmem S1x128 .f32) (hmb : mb.IsWhole)
  (mx : Memref sig .tc .vmem S5000x128 .f32) (hmx : mx.IsWhole) (ms : Memref sig .tc .vmem S1x128 .f32) (hms : ms.IsWhole) (mq : Memref sig .tc .vmem S1x128 .f32) (hmq : mq.IsWhole)
  (a : Vec F S5000x128 .f32) (b s q : Vec F S1x128 .f32)

theorem first_biased (hc : cond10_0 i) :
    out10_A_2 c i ma hma mb hmb mx hmx ms hms mq hmq hc a b = k10_pay3 a b := by
  unfold out10_A_2
  rw [View.read_writes_eq_canon _ _ _ (cover10_A_2 c i ma hma mb hmb mx hmx ms hms mq hmq hc a b)]
  unfold kernelRun10_A
  dsimp only
  sl_unfold_words
  rw [View.canon_unit_zero offsets_zero]
  simp only [View.readAt_eq_ld, hma.read_unread, hmb.read_unread, View.ld_unit_zero (S := S5000x128) offsets_zero,
    View.ld_unit_zero (S := S1x128) offsets_zero]

theorem first_sums (hc : cond10_0 i) :
    out10_A_3 c i ma hma mb hmb mx hmx ms hms mq hmq hc a b = k10_pay4 a b (k10_pay1 (F := F)) := by
  unfold out10_A_3
  rw [View.read_writes_eq_canon _ _ _ (cover10_A_3 c i ma hma mb hmb mx hmx ms hms mq hmq hc a b)]
  unfold kernelRun10_A
  dsimp only
  sl_unfold_words
  rw [View.canon_cons_unit_zero (S := S1x128) offsets_zero, View.readCov_unit_zero (S := S1x128) _ offsets_zero]
  simp only [View.readAt_eq_ld, hma.read_unread, hmb.read_unread, View.ld_unit_zero (S := S5000x128) offsets_zero,
    View.ld_unit_zero (S := S1x128) offsets_zero]

theorem first_squares (hc : cond10_0 i) :
    out10_A_4 c i ma hma mb hmb mx hmx ms hms mq hmq hc a b = k10_pay5 a b (k10_pay2 (F := F)) := by
  unfold out10_A_4
  rw [View.read_writes_eq_canon _ _ _ (cover10_A_4 c i ma hma mb hmb mx hmx ms hms mq hmq hc a b)]
  unfold kernelRun10_A
  dsimp only
  sl_unfold_words
  rw [View.canon_cons_unit_zero (S := S1x128) offsets_zero, View.readCov_unit_zero (S := S1x128) _ offsets_zero]
  simp only [View.readAt_eq_ld, hma.read_unread, hmb.read_unread, View.ld_unit_zero (S := S5000x128) offsets_zero,
    View.ld_unit_zero (S := S1x128) offsets_zero]

theorem later_biased (hc : ¬cond10_0 i) :
    out10_B_2 c i ma hma mb hmb mx hmx ms hms mq hmq hc a b s q = k10_pay3 a b := by
  unfold out10_B_2
  rw [View.read_writes_eq_canon _ _ _ (cover10_B_2 c i ma hma mb hmb mx hmx ms hms mq hmq hc a b s q)]
  unfold kernelRun10_B
  dsimp only
  sl_unfold_words
  rw [View.canon_unit_zero offsets_zero]
  simp only [View.readAt_eq_ld, hma.read_unread, hmb.read_unread, View.ld_unit_zero (S := S5000x128) offsets_zero,
    View.ld_unit_zero (S := S1x128) offsets_zero]

theorem later_sums (hc : ¬cond10_0 i) :
    out10_B_3 c i ma hma mb hmb mx hmx ms hms mq hmq hc a b s q = k10_pay4 a b s := by
  unfold out10_B_3
  rw [View.read_writes_eq_canon _ _ _ (cover10_B_3 c i ma hma mb hmb mx hmx ms hms mq hmq hc a b s q)]
  unfold kernelRun10_B
  dsimp only
  sl_unfold_words
  rw [View.canon_unit_zero offsets_zero]
  simp only [View.readAt_eq_ld, hma.read_unread, hmb.read_unread, hms.read_unread, View.ld_unit_zero (S := S5000x128) offsets_zero,
    View.ld_unit_zero (S := S1x128) offsets_zero]

theorem later_squares (hc : ¬cond10_0 i) :
    out10_B_4 c i ma hma mb hmb mx hmx ms hms mq hmq hc a b s q = k10_pay5 a b q := by
  unfold out10_B_4
  rw [View.read_writes_eq_canon _ _ _ (cover10_B_4 c i ma hma mb hmb mx hmx ms hms mq hmq hc a b s q)]
  unfold kernelRun10_B
  dsimp only
  sl_unfold_words
  rw [View.canon_unit_zero offsets_zero]
  simp only [View.readAt_eq_ld, hma.read_unread, hmb.read_unread, hmq.read_unread, View.ld_unit_zero (S := S5000x128) offsets_zero,
    View.ld_unit_zero (S := S1x128) offsets_zero]

end Pieces

theorem row_in_channel (d : Fin 128) (p : Fin 5000) :
    reduces_S5000x128_S128.lift (ix1 d) p = ix2 p d := by
  funext a
  apply Fin.ext
  match a with
  | ⟨0, _⟩ => rfl
  | ⟨1, _⟩ => rfl

theorem biased_block_apply (a : Vec Ideal S5000x128 .f32) (b : Vec Ideal S1x128 .f32) (p : Fin 5000) (d : Fin 128) :
    k10_pay3 a b (ix2 p d) = a (ix2 p d) + b (ix2 0 d) := by
  unfold k10_pay3
  refine (addf_apply _ _ _).trans ?_
  refine congrArg₂ (· + ·) (congrFun (shapeCast_self a _) _) ?_
  refine (broadcastTo_1b_ab_apply _ _ p d).trans ?_
  exact congrFun (shapeCast_self b _) _

theorem zero_row_apply (d : Fin 128) : (k10_pay1 (F := Ideal)) (ix2 0 d) = 0 := by
  unfold k10_pay1
  exact Ideal.ofBits_zero_f32

theorem zero_row_apply' (d : Fin 128) : (k10_pay2 (F := Ideal)) (ix2 0 d) = 0 := by
  unfold k10_pay2
  exact Ideal.ofBits_zero_f32

theorem sums_step_apply (a : Vec Ideal S5000x128 .f32) (b : Vec Ideal S1x128 .f32) (s : Vec Ideal S1x128 .f32) (d : Fin 128) :
    k10_pay4 a b s (ix2 0 d) = s (ix2 0 d) + ∑ p : Fin 5000, k10_pay3 a b (ix2 p d) := by
  unfold k10_pay4
  dsimp only
  refine (addf_apply _ _ _).trans ?_
  refine congrArg₂ (· + ·) (congrFun (shapeCast_self s _) _) ?_
  refine (shapeCast_a_1a_apply _ _ 0 d).trans ?_
  refine (Ideal.multiReduction_add_single _ _ _ _ _ _).trans ?_
  exact Finset.sum_congr rfl fun p _ => congrArg (k10_pay3 a b) (row_in_channel d p)

theorem squares_step_apply (a : Vec Ideal S5000x128 .f32) (b : Vec Ideal S1x128 .f32) (q : Vec Ideal S1x128 .f32) (d : Fin 128) :
    k10_pay5 a b q (ix2 0 d) = q (ix2 0 d) + ∑ p : Fin 5000, k10_pay3 a b (ix2 p d) * k10_pay3 a b (ix2 p d) := by
  unfold k10_pay5
  dsimp only
  refine (addf_apply _ _ _).trans ?_
  refine congrArg₂ (· + ·) (congrFun (shapeCast_self q _) _) ?_
  refine (shapeCast_a_1a_apply _ _ 0 d).trans ?_
  refine (Ideal.multiReduction_add_single _ _ _ _ _ _).trans ?_
  refine Finset.sum_congr rfl fun p _ => ?_
  refine (mulf_apply _ _ _).trans ?_
  rw [row_in_channel d p]

theorem index_facts : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0 :=
  (by decide +kernel : ∀ t : Fin grid10.N, _)

theorem point_lt (t : Fin cfg10.N) : t.val < 10 := lt_of_lt_of_eq t.isLt (show cfg10.N = 10 from N_10)

def rowOf (t : Fin cfg10.N) (p : Fin 5000) : Fin 50000 := ⟨5000 * t.val + p.val, by have := point_lt t; omega⟩

abbrev featBlock (c : Dev nD) (t : Fin cfg10.N) : Vec Ideal S5000x128 .f32 := iblk10 V c 0 t
abbrev biasBlock (c : Dev nD) (t : Fin cfg10.N) : Vec Ideal S1x128 .f32 := iblk10 V c 1 t
abbrev featArr (c : Dev nD) : Vec Ideal S50000x128 .f32 := V c (Pipeline.arrRef spec10 0)
abbrev biasArr (c : Dev nD) : Vec Ideal S1x128 .f32 := V c (Pipeline.arrRef spec10 1)

theorem featBlock_apply (c : Dev nD) (t : Fin cfg10.N) (p : Fin 5000) (d : Fin 128) :
    featBlock V c t (ix2 p d) = featArr V c (ix2 (rowOf t p) d) := by
  obtain ⟨ea, eb, -⟩ := index_facts t
  show V c (Pipeline.arrRef spec10 0) (((cfg10.win 0).blk t).view.emb (ix2 p d)) = V c (Pipeline.arrRef spec10 0) (ix2 (rowOf t p) d)
  refine congrArg _ (funext fun a => Fin.ext ?_)
  match a with
  | ⟨0, _⟩ => show win10_0.index t (0 : Fin 2) * 5000 + 1 * p.val = 5000 * t.val + p.val; omega
  | ⟨1, _⟩ => show win10_0.index t (1 : Fin 2) * 128 + 1 * d.val = d.val; omega

theorem biasBlock_apply (c : Dev nD) (t : Fin cfg10.N) (d : Fin 128) :
    biasBlock V c t (ix2 0 d) = biasArr V c (ix2 0 d) := by
  obtain ⟨-, -, ea, eb, -⟩ := index_facts t
  show V c (Pipeline.arrRef spec10 1) (((cfg10.win 1).blk t).view.emb (ix2 0 d)) = V c (Pipeline.arrRef spec10 1) (ix2 0 d)
  refine congrArg _ (funext fun a => Fin.ext ?_)
  match a with
  | ⟨0, _⟩ => show win10_1.index t (0 : Fin 2) * 1 + 1 * 0 = 0; omega
  | ⟨1, _⟩ => show win10_1.index t (1 : Fin 2) * 128 + 1 * d.val = d.val; omega

theorem stored_block_apply (c : Dev nD) (t : Fin cfg10.N) (p : Fin 5000) (d : Fin 128) :
    k10_pay3 (featBlock V c t) (biasBlock V c t) (ix2 p d) = biased V c (ix2 (rowOf t p) d) := by
  rw [biased_block_apply, featBlock_apply, biasBlock_apply]
  rfl

theorem outs_first (c : Dev nD) (t : Fin cfg10.N) (h : t.val % 10 = 0) :
    outsAt10 V c t.val t.isLt
      = (k10_pay3 (featBlock V c t) (biasBlock V c t),
         k10_pay4 (featBlock V c t) (biasBlock V c t) (k10_pay1 (F := Ideal)),
         k10_pay5 (featBlock V c t) (biasBlock V c t) (k10_pay2 (F := Ideal))) := by
  rw [outsAt10_A V c t h,
    first_biased (F := Ideal) c (grid10.coords t) (ms10_0 t) (hs10_0 t) (ms10_1 t) (hs10_1 t) (ms10_2 t) (hs10_2 t) (ms10_3 t) (hs10_3 t) (ms10_4 t) (hs10_4 t) (iblk10 V c 0 t) (iblk10 V c 1 t) ((hcond10_0 t).mpr h),
    first_sums (F := Ideal) c (grid10.coords t) (ms10_0 t) (hs10_0 t) (ms10_1 t) (hs10_1 t) (ms10_2 t) (hs10_2 t) (ms10_3 t) (hs10_3 t) (ms10_4 t) (hs10_4 t) (iblk10 V c 0 t) (iblk10 V c 1 t) ((hcond10_0 t).mpr h),
    first_squares (F := Ideal) c (grid10.coords t) (ms10_0 t) (hs10_0 t) (ms10_1 t) (hs10_1 t) (ms10_2 t) (hs10_2 t) (ms10_3 t) (hs10_3 t) (ms10_4 t) (hs10_4 t) (iblk10 V c 0 t) (iblk10 V c 1 t) ((hcond10_0 t).mpr h)]

theorem before_lt (t : Fin cfg10.N) : t.val - 1 < cfg10.N := Nat.lt_of_le_of_lt (Nat.sub_le _ _) t.isLt

theorem outs_later (c : Dev nD) (t : Fin cfg10.N) (h : ¬t.val % 10 = 0) :
    outsAt10 V c t.val t.isLt
      = (k10_pay3 (featBlock V c t) (biasBlock V c t),
         k10_pay4 (featBlock V c t) (biasBlock V c t) (outsAt10 V c (t.val - 1) (before_lt t)).2.1,
         k10_pay5 (featBlock V c t) (biasBlock V c t) (outsAt10 V c (t.val - 1) (before_lt t)).2.2) := by
  rw [outsAt10_B V c t h,
    later_biased (F := Ideal) c (grid10.coords t) (ms10_0 t) (hs10_0 t) (ms10_1 t) (hs10_1 t) (ms10_2 t) (hs10_2 t) (ms10_3 t) (hs10_3 t) (ms10_4 t) (hs10_4 t) (iblk10 V c 0 t) (iblk10 V c 1 t) (outsAt10 V c (t.val - 1) (before_lt t)).2.1 (outsAt10 V c (t.val - 1) (before_lt t)).2.2 (fun g => h ((hcond10_0 t).mp g)),
    later_sums (F := Ideal) c (grid10.coords t) (ms10_0 t) (hs10_0 t) (ms10_1 t) (hs10_1 t) (ms10_2 t) (hs10_2 t) (ms10_3 t) (hs10_3 t) (ms10_4 t) (hs10_4 t) (iblk10 V c 0 t) (iblk10 V c 1 t) (outsAt10 V c (t.val - 1) (before_lt t)).2.1 (outsAt10 V c (t.val - 1) (before_lt t)).2.2 (fun g => h ((hcond10_0 t).mp g)),
    later_squares (F := Ideal) c (grid10.coords t) (ms10_0 t) (hs10_0 t) (ms10_1 t) (hs10_1 t) (ms10_2 t) (hs10_2 t) (ms10_3 t) (hs10_3 t) (ms10_4 t) (hs10_4 t) (iblk10 V c 0 t) (iblk10 V c 1 t) (outsAt10 V c (t.val - 1) (before_lt t)).2.1 (outsAt10 V c (t.val - 1) (before_lt t)).2.2 (fun g => h ((hcond10_0 t).mp g))]

def entry (c : Dev nD) (d : Fin 128) (r : ℕ) : EReal :=
  if h : r < 50000 then biased V c (ix2 ⟨r, h⟩ d) else 0

theorem entry_block (c : Dev nD) (d : Fin 128) (t : Fin cfg10.N) (p : Fin 5000) :
    entry V c d (5000 * t.val + p.val) = biased V c (ix2 (rowOf t p) d) := by
  have h : 5000 * t.val + p.val < 50000 := by have := point_lt t; omega
  unfold entry
  rw [dif_pos h]
  rfl

theorem block_sum (c : Dev nD) (d : Fin 128) (t : Fin cfg10.N) :
    ∑ p : Fin 5000, k10_pay3 (featBlock V c t) (biasBlock V c t) (ix2 p d)
      = ∑ x ∈ Finset.range 5000, entry V c d (5000 * t.val + x) := by
  rw [Finset.sum_range]
  exact Finset.sum_congr rfl fun p _ => (stored_block_apply V c t p d).trans (entry_block V c d t p).symm

theorem block_sum_squares (c : Dev nD) (d : Fin 128) (t : Fin cfg10.N) :
    ∑ p : Fin 5000, k10_pay3 (featBlock V c t) (biasBlock V c t) (ix2 p d) * k10_pay3 (featBlock V c t) (biasBlock V c t) (ix2 p d)
      = ∑ x ∈ Finset.range 5000, entry V c d (5000 * t.val + x) * entry V c d (5000 * t.val + x) := by
  rw [Finset.sum_range]
  exact Finset.sum_congr rfl fun p _ => by rw [stored_block_apply V c t p d, entry_block V c d t p]

theorem sums_after (c : Dev nD) (d : Fin 128) : ∀ (n : ℕ) (hn : n < cfg10.N),
    ((outsAt10 V c n hn).2.1 : Vec Ideal S1x128 .f32) (ix2 0 d) = ∑ r ∈ Finset.range (5000 * (n + 1)), entry V c d r
  | 0, hn => by
    rw [show outsAt10 V c 0 hn = _ from outs_first V c ⟨0, hn⟩ rfl]
    dsimp only
    rw [sums_step_apply, zero_row_apply, zero_add, block_sum]
    exact Finset.sum_congr rfl fun x _ => by rw [Nat.mul_zero, Nat.zero_add]
  | n + 1, hn => by
    have hlater : ¬(⟨n + 1, hn⟩ : Fin cfg10.N).val % 10 = 0 := by
      have := point_lt ⟨n + 1, hn⟩; dsimp only at this ⊢; omega
    rw [show outsAt10 V c (n + 1) hn = _ from outs_later V c ⟨n + 1, hn⟩ hlater]
    dsimp only
    rw [sums_step_apply, block_sum]
    have ih := sums_after c d n (Nat.lt_of_succ_lt hn)
    rw [show 5000 * (n + 1 + 1) = 5000 * (n + 1) + 5000 from by ring, Finset.sum_range_add, ← ih]
    rfl

theorem squares_after (c : Dev nD) (d : Fin 128) : ∀ (n : ℕ) (hn : n < cfg10.N),
    ((outsAt10 V c n hn).2.2 : Vec Ideal S1x128 .f32) (ix2 0 d)
      = ∑ r ∈ Finset.range (5000 * (n + 1)), entry V c d r * entry V c d r
  | 0, hn => by
    rw [show outsAt10 V c 0 hn = _ from outs_first V c ⟨0, hn⟩ rfl]
    dsimp only
    rw [squares_step_apply, zero_row_apply', zero_add, block_sum_squares]
    exact Finset.sum_congr rfl fun x _ => by rw [Nat.mul_zero, Nat.zero_add]
  | n + 1, hn => by
    have hlater : ¬(⟨n + 1, hn⟩ : Fin cfg10.N).val % 10 = 0 := by
      have := point_lt ⟨n + 1, hn⟩; dsimp only at this ⊢; omega
    rw [show outsAt10 V c (n + 1) hn = _ from outs_later V c ⟨n + 1, hn⟩ hlater]
    dsimp only
    rw [squares_step_apply, block_sum_squares]
    have ih := squares_after c d n (Nat.lt_of_succ_lt hn)
    rw [show 5000 * (n + 1 + 1) = 5000 * (n + 1) + 5000 from by ring, Finset.sum_range_add, ← ih]
    rfl

theorem sum_entries (c : Dev nD) (d : Fin 128) :
    ∑ r ∈ Finset.range 50000, entry V c d r = Cert.Spec.colSum (biased V c) d := by
  rw [Finset.sum_range]
  exact Finset.sum_congr rfl fun n _ => by unfold entry; rw [dif_pos n.isLt]

theorem sum_entries_squares (c : Dev nD) (d : Fin 128) :
    ∑ r ∈ Finset.range 50000, entry V c d r * entry V c d r = Cert.Spec.colSumSq (biased V c) d := by
  rw [Finset.sum_range]
  exact Finset.sum_congr rfl fun n _ => by unfold entry; rw [dif_pos n.isLt]

theorem stored_at (c : Dev nD) (t : Fin cfg10.N) :
    (outsAt10 V c t.val t.isLt).1 = k10_pay3 (featBlock V c t) (biasBlock V c t) := by
  by_cases h : t.val % 10 = 0
  · rw [outs_first V c t h]
  · rw [outs_later V c t h]

theorem flushed_biased (c : Dev nD) (t : Fin cfg10.N) :
    (dat10 (F := Ideal) V c).flushed 2 t = ((cfg10.win 2).blk t).view.read (Elt Ideal) (biased V c) := by
  show (cfg10.win 2).cut (grid10.coords t) ((dat10 (F := Ideal) V c).after 2 t) = _
  rw [after10_2, stored_at]
  obtain ⟨-, -, -, -, ea, eb, -⟩ := index_facts t
  funext j
  show k10_pay3 (featBlock V c t) (biasBlock V c t) j = biased V c (((cfg10.win 2).blk t).view.emb j)
  have hemb : ((cfg10.win 2).blk t).view.emb j = ix2 (rowOf t (j 0)) (j 1) := by
    funext a
    apply Fin.ext
    match a with
    | ⟨0, _⟩ => show win10_2.index t (0 : Fin 2) * 5000 + 1 * (j 0).val = 5000 * t.val + (j 0).val; omega
    | ⟨1, _⟩ => show win10_2.index t (1 : Fin 2) * 128 + 1 * (j 1).val = (j 1).val; omega
  rw [hemb]
  exact (congrArg (k10_pay3 (featBlock V c t) (biasBlock V c t)) (eq_ix2 j)).trans (stored_block_apply V c t (j 0) (j 1))

theorem mem_block (t : Fin cfg10.N) (i : S50000x128.Idx) :
    i ∈ ((cfg10.win 2).blk t).view.set ↔ ∀ a : Fin 2, win10_2.index t a * S5000x128.size a ≤ (i a).val ∧ (i a).val < win10_2.index t a * S5000x128.size a + S5000x128.size a := by
  show i ∈ ((View.whole (Pipeline.arrRef spec10 2)).slice (win10_2.rect t)).set ↔ _
  rw [View.set_slice_whole, Rect.mem_set_unit]
  exact Iff.rfl

theorem covered (i : S50000x128.Idx) :
    ∃ t : Fin cfg10.N, (cfg10.win 2).flush t = true ∧ i ∈ ((cfg10.win 2).blk t).view.set := by
  have hr : (i 0).val < 50000 := (i 0).isLt
  have hd : (i 1).val < 128 := (i 1).isLt
  have hN : cfg10.N = 10 := N_10
  have hq : (i 0).val / 5000 < cfg10.N := by omega
  obtain ⟨-, -, -, -, ea, eb, -⟩ := index_facts ⟨(i 0).val / 5000, hq⟩
  have ea' : win10_2.index ⟨(i 0).val / 5000, hq⟩ (0 : Fin 2) = (i 0).val / 5000 := ea
  refine ⟨⟨(i 0).val / 5000, hq⟩, flush10_2 _, ?_⟩
  rw [mem_block]
  intro a
  match a with
  | ⟨0, _⟩ =>
    show win10_2.index ⟨(i 0).val / 5000, hq⟩ (0 : Fin 2) * 5000 ≤ (i 0).val
      ∧ (i 0).val < win10_2.index ⟨(i 0).val / 5000, hq⟩ (0 : Fin 2) * 5000 + 5000
    omega
  | ⟨1, _⟩ =>
    show win10_2.index ⟨(i 0).val / 5000, hq⟩ (1 : Fin 2) * 128 ≤ (i 1).val
      ∧ (i 1).val < win10_2.index ⟨(i 0).val / 5000, hq⟩ (1 : Fin 2) * 128 + 128
    omega

theorem value2 (c : Dev nD) : (dat10 (F := Ideal) V c).arrAt 2 cfg10.N = biased V c :=
  (dat10 (F := Ideal) V c).arrAt_eq_of_cover 2 (biased V c) (fun t _ => flushed_biased V c t) covered

def lastPoint : Fin cfg10.N := ⟨9, by rw [show cfg10.N = 10 from N_10]; decide⟩

theorem row_emb (t : Fin cfg10.N) (j : S1x128.Idx) :
    (((cfg10.win 3).blk t).view.emb j : S1x128.Idx) = j ∧ (((cfg10.win 4).blk t).view.emb j : S1x128.Idx) = j := by
  obtain ⟨-, -, -, -, -, -, ea, eb, ec, ed⟩ := index_facts t
  have hu : (j 0).val < 1 := (j 0).isLt
  refine ⟨funext fun a => Fin.ext ?_, funext fun a => Fin.ext ?_⟩
  · match a with
    | ⟨0, _⟩ => show win10_3.index t (0 : Fin 2) * 1 + 1 * (j 0).val = (j 0).val; omega
    | ⟨1, _⟩ => show win10_3.index t (1 : Fin 2) * 128 + 1 * (j 1).val = (j 1).val; omega
  · match a with
    | ⟨0, _⟩ => show win10_4.index t (0 : Fin 2) * 1 + 1 * (j 0).val = (j 0).val; omega
    | ⟨1, _⟩ => show win10_4.index t (1 : Fin 2) * 128 + 1 * (j 1).val = (j 1).val; omega

theorem row_index (j : S1x128.Idx) : j = @ix2 1 128 (0 : Fin 1) (j 1) := by
  have hu : (j 0).val < 1 := (j 0).isLt
  refine (eq_ix2 j).trans ?_
  congr 1
  exact Fin.ext (by show (j 0).val = 0; omega)

theorem written_row (t : Fin cfg10.N) (X : Vec Ideal S1x128 .f32) :
    ((cfg10.win 3).cut (grid10.coords t) X : S1x128.Idx → EReal) = X
      ∧ ((cfg10.win 4).cut (grid10.coords t) X : S1x128.Idx → EReal) = X := ⟨rfl, rfl⟩

theorem read_row (t : Fin cfg10.N) (G : S1x128.Idx → EReal) :
    (((cfg10.win 3).blk t).view.read (Elt Ideal) G : S1x128.Idx → EReal) = G
      ∧ (((cfg10.win 4).blk t).view.read (Elt Ideal) G : S1x128.Idx → EReal) = G :=
  ⟨funext fun j => (show _ = G (((cfg10.win 3).blk t).view.emb j) from rfl).trans (congrArg G (row_emb t j).1),
   funext fun j => (show _ = G (((cfg10.win 4).blk t).view.emb j) from rfl).trans (congrArg G (row_emb t j).2)⟩

theorem flushed_sums (c : Dev nD) (t : Fin cfg10.N) (hf : (cfg10.win 3).flush t = true) :
    (dat10 (F := Ideal) V c).flushed 3 t
      = ((cfg10.win 3).blk t).view.read (Elt Ideal) (fun j => Cert.Spec.colSum (biased V c) (j 1) : S1x128.Idx → EReal) := by
  have ht : t.val = 9 := by have := (flush10_3 t).mp hf; have := point_lt t; omega
  show (cfg10.win 3).cut (grid10.coords t) ((dat10 (F := Ideal) V c).after 3 t) = _
  rw [after10_3]
  refine ((written_row t _).1).trans ?_
  refine Eq.trans ?_ (read_row t _).1.symm
  funext j
  obtain ⟨d, rfl⟩ : ∃ d : Fin 128, j = ix2 0 d := ⟨j 1, row_index j⟩
  refine (sums_after V c d t.val t.isLt).trans ?_
  rw [ht]
  exact sum_entries V c d

theorem flushed_squares (c : Dev nD) (t : Fin cfg10.N) (hf : (cfg10.win 4).flush t = true) :
    (dat10 (F := Ideal) V c).flushed 4 t
      = ((cfg10.win 4).blk t).view.read (Elt Ideal) (fun j => Cert.Spec.colSumSq (biased V c) (j 1) : S1x128.Idx → EReal) := by
  have ht : t.val = 9 := by have := (flush10_4 t).mp hf; have := point_lt t; omega
  show (cfg10.win 4).cut (grid10.coords t) ((dat10 (F := Ideal) V c).after 4 t) = _
  rw [after10_4]
  refine ((written_row t _).2).trans ?_
  refine Eq.trans ?_ (read_row t _).2.symm
  funext j
  obtain ⟨d, rfl⟩ : ∃ d : Fin 128, j = ix2 0 d := ⟨j 1, row_index j⟩
  refine (squares_after V c d t.val t.isLt).trans ?_
  rw [ht]
  exact sum_entries_squares V c d

theorem row_covered (i : S1x128.Idx) :
    i ∈ ((cfg10.win 3).blk lastPoint).view.set ∧ i ∈ ((cfg10.win 4).blk lastPoint).view.set := by
  obtain ⟨-, -, -, -, -, -, ea, eb, ec, ed⟩ := index_facts lastPoint
  have hu : (i 0).val < 1 := (i 0).isLt
  have hd : (i 1).val < 128 := (i 1).isLt
  constructor
  · show i ∈ ((View.whole (Pipeline.arrRef spec10 3)).slice (win10_3.rect lastPoint)).set
    rw [View.set_slice_whole, Rect.mem_set_unit]
    intro a
    match a with
    | ⟨0, _⟩ => show win10_3.index lastPoint (0 : Fin 2) * 1 ≤ (i 0).val ∧ (i 0).val < win10_3.index lastPoint (0 : Fin 2) * 1 + 1; omega
    | ⟨1, _⟩ => show win10_3.index lastPoint (1 : Fin 2) * 128 ≤ (i 1).val ∧ (i 1).val < win10_3.index lastPoint (1 : Fin 2) * 128 + 128; omega
  · show i ∈ ((View.whole (Pipeline.arrRef spec10 4)).slice (win10_4.rect lastPoint)).set
    rw [View.set_slice_whole, Rect.mem_set_unit]
    intro a
    match a with
    | ⟨0, _⟩ => show win10_4.index lastPoint (0 : Fin 2) * 1 ≤ (i 0).val ∧ (i 0).val < win10_4.index lastPoint (0 : Fin 2) * 1 + 1; omega
    | ⟨1, _⟩ => show win10_4.index lastPoint (1 : Fin 2) * 128 ≤ (i 1).val ∧ (i 1).val < win10_4.index lastPoint (1 : Fin 2) * 128 + 128; omega

theorem value3 (c : Dev nD) :
    (dat10 (F := Ideal) V c).arrAt 3 cfg10.N = (fun j => Cert.Spec.colSum (biased V c) (j 1) : S1x128.Idx → EReal) :=
  (dat10 (F := Ideal) V c).arrAt_eq_of_cover 3 (fun j => Cert.Spec.colSum (biased V c) (j 1) : S1x128.Idx → EReal) (flushed_sums V c) fun i =>
    ⟨lastPoint, (flush10_3 lastPoint).mpr rfl, (row_covered i).1⟩

theorem value4 (c : Dev nD) :
    (dat10 (F := Ideal) V c).arrAt 4 cfg10.N = (fun j => Cert.Spec.colSumSq (biased V c) (j 1) : S1x128.Idx → EReal) :=
  (dat10 (F := Ideal) V c).arrAt_eq_of_cover 4 (fun j => Cert.Spec.colSumSq (biased V c) (j 1) : S1x128.Idx → EReal) (flushed_squares V c) fun i =>
    ⟨lastPoint, (flush10_4 lastPoint).mpr rfl, (row_covered i).2⟩

end Cert.KernelIdeal.Region10

end
-- ==== Proof.Region11.lean ====
/-
  The normalisation region with the final clip: each block of 5000 rows is the same entrywise function of the
  feature array and the four channel rows.
-/
import proofs.«402385_j8315056685617_1_alg».proof.Proof.Gen.KernelIdeal.Frame
import proofs.«402385_j8315056685617_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region11

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable (V : (c : Dev nD) → (b : Ref sig .tc) → Buf (Elt Ideal) ((c : Thread nD τ).loc b))

abbrev chan (a : S1x128.Idx → EReal) : Cert.Spec.Chan := fun d => a (ix2 0 d)

abbrev result (c : Dev nD) : Cert.Spec.Feat :=
  Cert.Spec.clipped (Cert.Spec.affine (V c (Pipeline.arrRef spec11 0))
    (chan (V c (Pipeline.arrRef spec11 1))) (chan (V c (Pipeline.arrRef spec11 2)))
    (chan (V c (Pipeline.arrRef spec11 3))) (chan (V c (Pipeline.arrRef spec11 4))))

theorem rsqrt_apply {s : Shape} {φ : FTy} (a : FVec Ideal s φ) (i : s.Idx) : rsqrt a i = Ideal.rsqrt (a i) := rfl

theorem payload_apply (var : Vec Ideal S1x128 .f32) (x : Vec Ideal S5000x128 .f32) (mu g b : Vec Ideal S1x128 .f32)
    (p : Fin 5000) (d : Fin 128) :
    k11_pay1 var x mu g b (ix2 p d)
      = max ((x (ix2 p d) - mu (ix2 0 d)) * Ideal.rsqrt (var (ix2 0 d) + Cert.Spec.eps) * g (ix2 0 d) + b (ix2 0 d)) 0 := by
  unfold k11_pay1
  simp only [shapeCast_self, maximumf_apply, addf_apply, mulf_apply, subf_apply, broadcast_apply, rsqrt_apply,
    broadcastTo_1b_ab_apply, Ideal.ofBits_def, Ideal.ofBits_zero_f32, Cert.Spec.eps]

theorem hz : (![0, 0] : Fin 2 → Nat) = fun _ => 0 := funext fun a => by fin_cases a <;> rfl

theorem idx_facts : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

theorem point_lt (t : Fin cfg11.N) : t.val < 10 := by
  have h : t.val < grid11.N := t.isLt
  rw [N_11] at h; exact h

def rowOf (t : Fin cfg11.N) (p : Fin 5000) : Fin 50000 :=
  ⟨t.val * 5000 + p.val, by have := point_lt t; have := p.isLt; omega⟩

theorem emb_out (t : Fin cfg11.N) (p : Fin 5000) (d : Fin 128) :
    (((cfg11.win 5).blk t).view.emb (ix2 p d) : S50000x128.Idx) = ix2 (rowOf t p) d := by
  obtain ⟨-, -, -, -, -, -, -, -, -, -, e0, e1⟩ := idx_facts t
  funext a; apply Fin.ext
  match a with
  | ⟨0, _⟩ => show win11_5.index t (0 : Fin 2) * 5000 + 1 * p.val = t.val * 5000 + p.val; omega
  | ⟨1, _⟩ => show win11_5.index t (1 : Fin 2) * 128 + 1 * d.val = d.val; omega

theorem read_x (c : Dev nD) (t : Fin cfg11.N) (p : Fin 5000) (d : Fin 128) :
    iblk11 V c 0 t (ix2 p d) = (V c (Pipeline.arrRef spec11 0) : S50000x128.Idx → EReal) (ix2 (rowOf t p) d) := by
  obtain ⟨e0, e1, -⟩ := idx_facts t
  show (V c (Pipeline.arrRef spec11 0) : S50000x128.Idx → EReal) (((cfg11.win 0).blk t).view.emb (ix2 p d)) = _
  refine congrArg _ (funext fun a => Fin.ext ?_)
  match a with
  | ⟨0, _⟩ => show win11_0.index t (0 : Fin 2) * 5000 + 1 * p.val = t.val * 5000 + p.val; omega
  | ⟨1, _⟩ => show win11_0.index t (1 : Fin 2) * 128 + 1 * d.val = d.val; omega

theorem read_mean (c : Dev nD) (t : Fin cfg11.N) (d : Fin 128) :
    iblk11 V c 1 t (ix2 0 d) = (V c (Pipeline.arrRef spec11 1) : S1x128.Idx → EReal) (ix2 0 d) := by
  obtain ⟨-, -, e0, e1, -⟩ := idx_facts t
  show (V c (Pipeline.arrRef spec11 1) : S1x128.Idx → EReal) (((cfg11.win 1).blk t).view.emb (ix2 0 d)) = _
  refine congrArg _ (funext fun a => Fin.ext ?_)
  match a with
  | ⟨0, _⟩ => show win11_1.index t (0 : Fin 2) * 1 + 1 * 0 = 0; omega
  | ⟨1, _⟩ => show win11_1.index t (1 : Fin 2) * 128 + 1 * d.val = d.val; omega

theorem read_var (c : Dev nD) (t : Fin cfg11.N) (d : Fin 128) :
    iblk11 V c 2 t (ix2 0 d) = (V c (Pipeline.arrRef spec11 2) : S1x128.Idx → EReal) (ix2 0 d) := by
  obtain ⟨-, -, -, -, e0, e1, -⟩ := idx_facts t
  show (V c (Pipeline.arrRef spec11 2) : S1x128.Idx → EReal) (((cfg11.win 2).blk t).view.emb (ix2 0 d)) = _
  refine congrArg _ (funext fun a => Fin.ext ?_)
  match a with
  | ⟨0, _⟩ => show win11_2.index t (0 : Fin 2) * 1 + 1 * 0 = 0; omega
  | ⟨1, _⟩ => show win11_2.index t (1 : Fin 2) * 128 + 1 * d.val = d.val; omega

theorem read_scale (c : Dev nD) (t : Fin cfg11.N) (d : Fin 128) :
    iblk11 V c 3 t (ix2 0 d) = (V c (Pipeline.arrRef spec11 3) : S1x128.Idx → EReal) (ix2 0 d) := by
  obtain ⟨-, -, -, -, -, -, e0, e1, -⟩ := idx_facts t
  show (V c (Pipeline.arrRef spec11 3) : S1x128.Idx → EReal) (((cfg11.win 3).blk t).view.emb (ix2 0 d)) = _
  refine congrArg _ (funext fun a => Fin.ext ?_)
  match a with
  | ⟨0, _⟩ => show win11_3.index t (0 : Fin 2) * 1 + 1 * 0 = 0; omega
  | ⟨1, _⟩ => show win11_3.index t (1 : Fin 2) * 128 + 1 * d.val = d.val; omega

theorem read_shift (c : Dev nD) (t : Fin cfg11.N) (d : Fin 128) :
    iblk11 V c 4 t (ix2 0 d) = (V c (Pipeline.arrRef spec11 4) : S1x128.Idx → EReal) (ix2 0 d) := by
  obtain ⟨-, -, -, -, -, -, -, -, e0, e1, -⟩ := idx_facts t
  show (V c (Pipeline.arrRef spec11 4) : S1x128.Idx → EReal) (((cfg11.win 4).blk t).view.emb (ix2 0 d)) = _
  refine congrArg _ (funext fun a => Fin.ext ?_)
  match a with
  | ⟨0, _⟩ => show win11_4.index t (0 : Fin 2) * 1 + 1 * 0 = 0; omega
  | ⟨1, _⟩ => show win11_4.index t (1 : Fin 2) * 128 + 1 * d.val = d.val; omega

theorem flushed_eq (c : Dev nD) (t : Fin cfg11.N) :
    (dat11 V c).flushed 5 t = ((cfg11.win 5).blk t).view.read (Elt Ideal) (result V c) := by
  show (cfg11.win 5).cut (grid11.coords t) ((dat11 V c).after 5 t) = _
  rw [after11_5]
  unfold out11_5
  rw [View.canon_unit_zero hz]
  simp only [View.ld_unit_zero (S := S5000x128) hz, View.ld_unit_zero (S := S1x128) hz]
  funext j
  obtain ⟨p, d, rfl⟩ : ∃ (p : Fin 5000) (d : Fin 128), j = ix2 p d := ⟨j 0, j 1, eq_ix2 j⟩
  show k11_pay1 (iblk11 V c 2 t) (iblk11 V c 0 t) (iblk11 V c 1 t) (iblk11 V c 3 t) (iblk11 V c 4 t) (ix2 p d)
      = result V c (((cfg11.win 5).blk t).view.emb (ix2 p d))
  rw [emb_out]
  refine (payload_apply (iblk11 V c 2 t) (iblk11 V c 0 t) (iblk11 V c 1 t) (iblk11 V c 3 t) (iblk11 V c 4 t) p d).trans ?_
  rw [read_x V c t p d, read_mean V c t d, read_var V c t d, read_scale V c t d, read_shift V c t d]
  rfl

theorem mem_blk (t : Fin cfg11.N) (i : S50000x128.Idx) :
    i ∈ ((cfg11.win 5).blk t).view.set ↔ ∀ a : Fin 2, win11_5.index t a * S5000x128.size a ≤ (i a).val
      ∧ (i a).val < win11_5.index t a * S5000x128.size a + S5000x128.size a := by
  show i ∈ ((View.whole (Pipeline.arrRef spec11 5)).slice (win11_5.rect t)).set ↔ _
  rw [View.set_slice_whole, Rect.mem_set_unit]
  exact Iff.rfl

theorem cover (i : S50000x128.Idx) :
    ∃ t : Fin cfg11.N, (cfg11.win 5).flush t = true ∧ i ∈ ((cfg11.win 5).blk t).view.set := by
  have hi0 : (i 0).val < 50000 := idx2_lt0 i
  have hi1 : (i 1).val < 128 := idx2_lt1 i
  have hN : (i 0).val / 5000 < cfg11.N := by show _ < grid11.N; rw [N_11]; omega
  obtain ⟨-, -, -, -, -, -, -, -, -, -, e0, e1⟩ := idx_facts ⟨(i 0).val / 5000, hN⟩
  refine ⟨⟨(i 0).val / 5000, hN⟩, flush11_5 _, ?_⟩
  rw [mem_blk]
  intro a
  match a with
  | ⟨0, _⟩ =>
    show win11_5.index ⟨(i 0).val / 5000, hN⟩ (0 : Fin 2) * 5000 ≤ (i 0).val
      ∧ (i 0).val < win11_5.index ⟨(i 0).val / 5000, hN⟩ (0 : Fin 2) * 5000 + 5000
    rw [e0]
    show (i 0).val / 5000 * 5000 ≤ (i 0).val ∧ (i 0).val < (i 0).val / 5000 * 5000 + 5000
    omega
  | ⟨1, _⟩ =>
    show win11_5.index ⟨(i 0).val / 5000, hN⟩ (1 : Fin 2) * 128 ≤ (i 1).val
      ∧ (i 1).val < win11_5.index ⟨(i 0).val / 5000, hN⟩ (1 : Fin 2) * 128 + 128
    omega

theorem value (c : Dev nD) :
    (dat11 V c).arrAt 5 cfg11.N
      = Cert.Spec.clipped (Cert.Spec.affine (V c (Pipeline.arrRef spec11 0))
          (chan (V c (Pipeline.arrRef spec11 1))) (chan (V c (Pipeline.arrRef spec11 2)))
          (chan (V c (Pipeline.arrRef spec11 3))) (chan (V c (Pipeline.arrRef spec11 4)))) :=
  (dat11 V c).arrAt_eq_of_cover 5 (result V c) (fun t _ => flushed_eq V c t) cover

end Cert.KernelIdeal.Region11

end
-- ==== Proof.KLayer3.lean ====
/-
  One layer of the kernel program as values, from the boundary where the layer begins to the one where the next
  begins: product, bounds-tested aggregation, bias and moments, mean and variance from the moments, normalisation.
-/
import proofs.«402385_j8315056685617_1_alg».proof.Proof.Gen.KernelIdeal.Frame
import proofs.«402385_j8315056685617_1_alg».proof.Proof.Spec
import proofs.«402385_j8315056685617_1_alg».proof.Proof.Graph
import proofs.«402385_j8315056685617_1_alg».proof.Proof.Network
import proofs.«402385_j8315056685617_1_alg».proof.Proof.LayerLib
import proofs.«402385_j8315056685617_1_alg».proof.Proof.Region9
import proofs.«402385_j8315056685617_1_alg».proof.Proof.Region10
import proofs.«402385_j8315056685617_1_alg».proof.Proof.Region11
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Layer3

open Cert.KernelIdeal Cert.KernelIdeal.Gen
open Idealize.ShloMosaic Idealize.ShloMosaic.TcCoe Idealize.ShloMosaic.ValueIdx
open Idealize.SL.Sem
open Cert.KernelIdeal.LayerLib

variable (m : (ℓ : Loc nD τ sig) → Buf (Elt Ideal) ℓ) (ρ : Dev nD → PrngReg) (c : Dev nD)

abbrev thisLayer : Fin 5 := 3
abbrev nextLayer : Fin 5 := 4

section Lookup

variable {F : FTy → Type} [FloatOps F]

variable (V : Valuation τ sig (Elt F))

theorem hostOps1_parts :
    (hostOps10 : List (HloOp τ sig (Elt F)))
      = List.take 8 hostOps10 ++ (List.take 10 (List.drop 8 hostOps10) ++ List.drop 10 (List.drop 8 hostOps10)) := by
  rw [List.take_append_drop, List.take_append_drop]

theorem hostOps1_first_main_call1_v5 :
    StableHlo.after (List.take 8 (hostOps10 (F := F))) V (Proc.devRef .tc main_call4_v5)
      = lookupIdx (V (Proc.devRef .tc main_v3)) := by
  simp only [hostOps10, List.take_succ_cons, List.take_zero]
  after_results
  rfl

theorem hostOps1_first_main_v34 :
    StableHlo.after (List.take 8 (hostOps10 (F := F))) V (Proc.devRef .tc main_v115) = V (Proc.devRef .tc main_v115) := by
  simp only [hostOps10, List.take_succ_cons, List.take_zero]
  after_results

theorem hostOps1_second_main_call1_v12 :
    StableHlo.after (List.take 10 (List.drop 8 (hostOps10 (F := F)))) V (Proc.devRef .tc main_call4_v12)
      = lookupMask (V (Proc.devRef .tc main_call4_v5)) := by
  simp only [hostOps10, List.drop_succ_cons, List.drop_zero, List.take_succ_cons, List.take_zero]
  after_results
  simp only [StableHlo.TRef.ofBuf, StableHlo.TRef.toBuf, cast_eq]
  rfl

theorem hostOps1_second_main_call1_v5 :
    StableHlo.after (List.take 10 (List.drop 8 (hostOps10 (F := F)))) V (Proc.devRef .tc main_call4_v5)
      = V (Proc.devRef .tc main_call4_v5) := by
  simp only [hostOps10, List.drop_succ_cons, List.drop_zero, List.take_succ_cons, List.take_zero]
  after_results

theorem hostOps1_second_main_v34 :
    StableHlo.after (List.take 10 (List.drop 8 (hostOps10 (F := F)))) V (Proc.devRef .tc main_v115)
      = V (Proc.devRef .tc main_v115) := by
  simp only [hostOps10, List.drop_succ_cons, List.drop_zero, List.take_succ_cons, List.take_zero]
  after_results

theorem hostOps1_third_main_v35 :
    StableHlo.after (List.drop 10 (List.drop 8 (hostOps10 (F := F)))) V (Proc.devRef .tc main_v116)
      = lookupRows (V (Proc.devRef .tc main_call4_v12)) (V (Proc.devRef .tc main_v115)) (V (Proc.devRef .tc main_call4_v5)) := by
  simp only [hostOps10, List.drop_succ_cons, List.drop_zero]
  after_results
  rfl

theorem hostOps1_main_v35_any :
    StableHlo.after (hostOps10 (F := F)) V (Proc.devRef .tc main_v116)
      = lookupRows (lookupMask (lookupIdx (V (Proc.devRef .tc main_v3)))) (V (Proc.devRef .tc main_v115))
          (lookupIdx (V (Proc.devRef .tc main_v3))) := by
  rw [hostOps1_parts, StableHlo.after_append, StableHlo.after_append, hostOps1_third_main_v35,
    hostOps1_second_main_call1_v12, hostOps1_second_main_v34, hostOps1_second_main_call1_v5,
    hostOps1_first_main_call1_v5, hostOps1_first_main_v34]

end Lookup

section Stretches

variable (V : Valuation τ sig (Elt Ideal))

abbrev hostOps1_W : List (Ref sig .tc) :=
  [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v116]

theorem hostOps1_writes :
    (hostOps10 : List (HloOp τ sig (Elt Ideal))).Forall fun op => op.writes ⊆ (hostOps1_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem hostOps1_keeps (r : Ref sig .tc) (h : r ∉ hostOps1_W) :
    StableHlo.after hostOps10 V (Proc.devRef .tc r) = V (Proc.devRef .tc r) :=
  StableHlo.after_of_writes_sub hostOps10 V hostOps1_writes h

theorem hostOps1_main_v35 :
    StableHlo.after hostOps10 V (Proc.devRef .tc main_v116)
      = Cert.Graph.sourceRowsChecked (F := Ideal) (V (Proc.devRef .tc main_v3)) (V (Proc.devRef .tc main_v115)) := by
  exact (hostOps1_main_v35_any V).trans (lookup_eq _ _)

abbrev hostOps1_1_W : List (Ref sig .tc) :=
  [main_v117, main_v118, main_v119, main_cst_15, main_v120, main_v121, main_v122, main_v123, main_v124, main_v125]

theorem hostOps1_1_writes :
    (hostOps10_1 : List (HloOp τ sig (Elt Ideal))).Forall fun op => op.writes ⊆ (hostOps1_1_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem hostOps1_1_keeps (r : Ref sig .tc) (h : r ∉ hostOps1_1_W) :
    StableHlo.after hostOps10_1 V (Proc.devRef .tc r) = V (Proc.devRef .tc r) :=
  StableHlo.after_of_writes_sub hostOps10_1 V hostOps1_1_writes h

theorem hostOps1_1_main_v41 :
    StableHlo.after hostOps10_1 V (Proc.devRef .tc main_v122)
      = Cert.Graph.accumulate (F := Ideal) (V (Proc.devRef .tc main_v6)) (V (Proc.devRef .tc main_v31)) (V (Proc.devRef .tc main_v116)) := by
  after_results
  rfl

theorem hostOps1_1_main_v44 :
    row (StableHlo.after hostOps10_1 V (Proc.devRef .tc main_v125))
      = Cert.Network.chan thisLayer (V (Proc.devRef .tc main_arg5)) := by
  after_results
  exact chan_slice thisLayer _ _ _ _

abbrev hostOps2_W : List (Ref sig .tc) :=
  [main_cst_16, main_v127, main_v128, main_cst_17, main_v129, main_v130, main_v131, main_v132, main_v133, main_v134, main_v135, main_v136, main_v137, main_v138]

theorem hostOps2_writes :
    (hostOps11 : List (HloOp τ sig (Elt Ideal))).Forall fun op => op.writes ⊆ (hostOps2_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem hostOps2_keeps (r : Ref sig .tc) (h : r ∉ hostOps2_W) :
    StableHlo.after hostOps11 V (Proc.devRef .tc r) = V (Proc.devRef .tc r) :=
  StableHlo.after_of_writes_sub hostOps11 V hostOps2_writes h

theorem hostOps2_main_v47 :
    row (StableHlo.after hostOps11 V (Proc.devRef .tc main_v128))
      = fun d => Ideal.div (row (V (Proc.devRef .tc main_v126_1)) d) Cert.Spec.count := by
  after_results
  rfl

theorem hostOps2_main_v51 :
    row (StableHlo.after hostOps11 V (Proc.devRef .tc main_v132))
      = fun d => Ideal.div (row (V (Proc.devRef .tc main_v126_2)) d) Cert.Spec.count
          - Ideal.div (row (V (Proc.devRef .tc main_v126_1)) d) Cert.Spec.count
            * Ideal.div (row (V (Proc.devRef .tc main_v126_1)) d) Cert.Spec.count := by
  after_results
  rfl

theorem hostOps2_main_v56 :
    row (StableHlo.after hostOps11 V (Proc.devRef .tc main_v137))
      = Cert.Network.chan thisLayer (V (Proc.devRef .tc main_arg6)) := by
  after_results
  exact chan_slice thisLayer _ _ _ _

theorem hostOps2_main_v57 :
    row (StableHlo.after hostOps11 V (Proc.devRef .tc main_v138))
      = Cert.Network.chan thisLayer (V (Proc.devRef .tc main_arg7)) := by
  after_results
  exact chan_slice thisLayer _ _ _ _

abbrev hostOps3_W : List (Ref sig .tc) :=
  [main_v140, main_v141]

theorem hostOps3_writes :
    (hostOps12 : List (HloOp τ sig (Elt Ideal))).Forall fun op => op.writes ⊆ (hostOps3_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem hostOps3_keeps (r : Ref sig .tc) (h : r ∉ hostOps3_W) :
    StableHlo.after hostOps12 V (Proc.devRef .tc r) = V (Proc.devRef .tc r) :=
  StableHlo.after_of_writes_sub hostOps12 V hostOps3_writes h

theorem hostOps3_main_v60 :
    StableHlo.after hostOps12 V (Proc.devRef .tc main_v141)
      = Cert.Network.weight nextLayer (V (Proc.devRef .tc main_arg4)) := by
  after_results
  exact weight_slice nextLayer _ _ _

end Stretches

structure Entry (H : Cert.Spec.Feat) (Wm : Cert.Spec.Weights.Idx → EReal) (R C : IVec Cert.Graph.S850000 32)
    (K : FVec Ideal Cert.Graph.S850000 .f32) : Prop where
  feat : W24 m ρ c (Proc.devRef .tc main_v112) = H
  wmat : W24 m ρ c (Proc.devRef .tc main_v114) = Wm
  src : W24 m ρ c (Proc.devRef .tc main_v3) = R
  tgt : W24 m ρ c (Proc.devRef .tc main_v6) = C
  coef : W24 m ρ c (Proc.devRef .tc main_v31) = K
  arg0 : W24 m ρ c (Proc.devRef .tc main_arg0) = m ((c : Thread nD τ).loc main_arg0)
  arg4 : W24 m ρ c (Proc.devRef .tc main_arg4) = m ((c : Thread nD τ).loc main_arg4)
  arg5 : W24 m ρ c (Proc.devRef .tc main_arg5) = m ((c : Thread nD τ).loc main_arg5)
  arg6 : W24 m ρ c (Proc.devRef .tc main_arg6) = m ((c : Thread nD τ).loc main_arg6)
  arg7 : W24 m ρ c (Proc.devRef .tc main_arg7) = m ((c : Thread nD τ).loc main_arg7)

abbrev bias : Cert.Spec.Chan := Cert.Network.chan thisLayer (m ((c : Thread nD τ).loc main_arg5))
abbrev scale : Cert.Spec.Chan := Cert.Network.chan thisLayer (m ((c : Thread nD τ).loc main_arg6))
abbrev shift : Cert.Spec.Chan := Cert.Network.chan thisLayer (m ((c : Thread nD τ).loc main_arg7))

abbrev biased (H : Cert.Spec.Feat) (Wm : Cert.Spec.Weights.Idx → EReal) (R C : IVec Cert.Graph.S850000 32)
    (K : FVec Ideal Cert.Graph.S850000 .f32) : Cert.Spec.Feat :=
  Cert.Spec.shifted (Cert.Graph.aggregateChecked R C K (Cert.Spec.product H Wm)) (bias m c)

section Kept

variable (r : Ref sig .tc)

theorem keepW4 (g0 : ∀ w, Pipeline.arrRef spec9 w ≠ r) :
    W25 m ρ c (Proc.devRef .tc r) = W24 m ρ c (Proc.devRef .tc r) :=
  W25_of_ne m ρ c r g0

theorem keepW5 (g0 : ∀ w, Pipeline.arrRef spec9 w ≠ r) (h1 : r ∉ hostOps1_W) :
    W26 m ρ c (Proc.devRef .tc r) = W24 m ρ c (Proc.devRef .tc r) :=
  (hostOps1_keeps (W25 m ρ c) r h1).trans (keepW4 m ρ c r g0)

theorem keepW6 (g0 : ∀ w, Pipeline.arrRef spec9 w ≠ r) (h1 : r ∉ hostOps1_W) (h1_1 : r ∉ hostOps1_1_W) :
    W27 m ρ c (Proc.devRef .tc r) = W24 m ρ c (Proc.devRef .tc r) :=
  (hostOps1_1_keeps (W26 m ρ c) r h1_1).trans (keepW5 m ρ c r g0 h1)

theorem keepW7 (g0 : ∀ w, Pipeline.arrRef spec9 w ≠ r) (h1 : r ∉ hostOps1_W) (h1_1 : r ∉ hostOps1_1_W)
    (g1 : ∀ w, Pipeline.arrRef spec10 w ≠ r) :
    W28 m ρ c (Proc.devRef .tc r) = W24 m ρ c (Proc.devRef .tc r) :=
  (W28_of_ne m ρ c r g1).trans (keepW6 m ρ c r g0 h1 h1_1)

theorem keepW8 (g0 : ∀ w, Pipeline.arrRef spec9 w ≠ r) (h1 : r ∉ hostOps1_W) (h1_1 : r ∉ hostOps1_1_W)
    (g1 : ∀ w, Pipeline.arrRef spec10 w ≠ r) (h2 : r ∉ hostOps2_W) :
    W29 m ρ c (Proc.devRef .tc r) = W24 m ρ c (Proc.devRef .tc r) :=
  (hostOps2_keeps (W28 m ρ c) r h2).trans (keepW7 m ρ c r g0 h1 h1_1 g1)

theorem keepW9 (g0 : ∀ w, Pipeline.arrRef spec9 w ≠ r) (h1 : r ∉ hostOps1_W) (h1_1 : r ∉ hostOps1_1_W)
    (g1 : ∀ w, Pipeline.arrRef spec10 w ≠ r) (h2 : r ∉ hostOps2_W) (g2 : ∀ w, Pipeline.arrRef spec11 w ≠ r) :
    W30 m ρ c (Proc.devRef .tc r) = W24 m ρ c (Proc.devRef .tc r) :=
  (W30_of_ne m ρ c r g2).trans (keepW8 m ρ c r g0 h1 h1_1 g1 h2)

theorem keepW10 (g0 : ∀ w, Pipeline.arrRef spec9 w ≠ r) (h1 : r ∉ hostOps1_W) (h1_1 : r ∉ hostOps1_1_W)
    (g1 : ∀ w, Pipeline.arrRef spec10 w ≠ r) (h2 : r ∉ hostOps2_W) (g2 : ∀ w, Pipeline.arrRef spec11 w ≠ r)
    (h3 : r ∉ hostOps3_W) :
    W31 m ρ c (Proc.devRef .tc r) = W24 m ρ c (Proc.devRef .tc r) :=
  (hostOps3_keeps (W30 m ρ c) r h3).trans (keepW9 m ρ c r g0 h1 h1_1 g1 h2 g2)

end Kept

variable {H : Cert.Spec.Feat} {Wm : Cert.Spec.Weights.Idx → EReal} {R C : IVec Cert.Graph.S850000 32}
  {K : FVec Ideal Cert.Graph.S850000 .f32}

theorem W4_main_v34 (e : Entry m ρ c H Wm R C K) :
    W25 m ρ c (Proc.devRef .tc main_v115) = Cert.Spec.product H Wm :=
  (W25_arr m ρ c 2).trans <| (Cert.KernelIdeal.Region9.value (V24 m ρ) c).trans <| by
    show Cert.Spec.product (W24 m ρ c (Proc.devRef .tc main_v112)) (W24 m ρ c (Proc.devRef .tc main_v114)) = _
    rewrite [e.feat, e.wmat]
    rfl

theorem W5_main_v35 (e : Entry m ρ c H Wm R C K) :
    W26 m ρ c (Proc.devRef .tc main_v116) = Cert.Graph.sourceRowsChecked (F := Ideal) R (Cert.Spec.product H Wm) := by
  show StableHlo.after hostOps10 (W25 m ρ c) (Proc.devRef .tc main_v116) = _
  rewrite [hostOps1_main_v35, keepW4 m ρ c main_v3 (by decide), e.src, W4_main_v34 m ρ c e]
  rfl

theorem W6_main_v41 (e : Entry m ρ c H Wm R C K) :
    W27 m ρ c (Proc.devRef .tc main_v122) = Cert.Graph.aggregateChecked (F := Ideal) R C K (Cert.Spec.product H Wm) := by
  show StableHlo.after hostOps10_1 (W26 m ρ c) (Proc.devRef .tc main_v122) = _
  rewrite [hostOps1_1_main_v41, keepW5 m ρ c main_v6 (by decide) (by decide), e.tgt,
    keepW5 m ρ c main_v31 (by decide) (by decide), e.coef, W5_main_v35 m ρ c e]
  rfl

theorem W6_main_v44 (e : Entry m ρ c H Wm R C K) :
    row (W27 m ρ c (Proc.devRef .tc main_v125)) = bias m c := by
  show row (StableHlo.after hostOps10_1 (W26 m ρ c) (Proc.devRef .tc main_v125)) = _
  rewrite [hostOps1_1_main_v44, keepW5 m ρ c main_arg5 (by decide) (by decide), e.arg5]
  rfl

theorem entry1_biased (e : Entry m ρ c H Wm R C K) :
    Cert.KernelIdeal.Region10.biased (V27 m ρ) c = biased m c H Wm R C K := by
  show Cert.Spec.shifted (W27 m ρ c (Proc.devRef .tc main_v122)) (row (W27 m ρ c (Proc.devRef .tc main_v125))) = _
  rewrite [W6_main_v41 m ρ c e, W6_main_v44 m ρ c e]
  rfl

theorem W7_main_v45_0 (e : Entry m ρ c H Wm R C K) :
    W28 m ρ c (Proc.devRef .tc main_v126_0) = biased m c H Wm R C K :=
  (W28_arr m ρ c 2).trans <| (Cert.KernelIdeal.Region10.value2 (V27 m ρ) c).trans (entry1_biased m ρ c e)

theorem W7_main_v45_1 (e : Entry m ρ c H Wm R C K) :
    row (W28 m ρ c (Proc.devRef .tc main_v126_1)) = Cert.Spec.colSum (biased m c H Wm R C K) := by
  have h : W28 m ρ c (Proc.devRef .tc main_v126_1)
      = (fun j => Cert.Spec.colSum (Cert.KernelIdeal.Region10.biased (V27 m ρ) c) (j 1) : S1x128.Idx → EReal) :=
    (W28_arr m ρ c 3).trans (Cert.KernelIdeal.Region10.value3 (V27 m ρ) c)
  funext d
  show W28 m ρ c (Proc.devRef .tc main_v126_1) (ix2 0 d) = _
  rw [h, entry1_biased m ρ c e]

theorem W7_main_v45_2 (e : Entry m ρ c H Wm R C K) :
    row (W28 m ρ c (Proc.devRef .tc main_v126_2)) = Cert.Spec.colSumSq (biased m c H Wm R C K) := by
  have h : W28 m ρ c (Proc.devRef .tc main_v126_2)
      = (fun j => Cert.Spec.colSumSq (Cert.KernelIdeal.Region10.biased (V27 m ρ) c) (j 1) : S1x128.Idx → EReal) :=
    (W28_arr m ρ c 4).trans (Cert.KernelIdeal.Region10.value4 (V27 m ρ) c)
  funext d
  show W28 m ρ c (Proc.devRef .tc main_v126_2) (ix2 0 d) = _
  rw [h, entry1_biased m ρ c e]

theorem W8_main_v45_0 (e : Entry m ρ c H Wm R C K) :
    W29 m ρ c (Proc.devRef .tc main_v126_0) = biased m c H Wm R C K :=
  (hostOps2_keeps (W28 m ρ c) main_v126_0 (by decide)).trans (W7_main_v45_0 m ρ c e)

theorem W8_main_v47 (e : Entry m ρ c H Wm R C K) :
    row (W29 m ρ c (Proc.devRef .tc main_v128)) = Cert.Spec.mean (biased m c H Wm R C K) := by
  show row (StableHlo.after hostOps11 (W28 m ρ c) (Proc.devRef .tc main_v128)) = _
  rewrite [hostOps2_main_v47, W7_main_v45_1 m ρ c e]
  rfl

theorem W8_main_v51 (e : Entry m ρ c H Wm R C K) :
    row (W29 m ρ c (Proc.devRef .tc main_v132)) = Cert.Spec.varOfMoments (biased m c H Wm R C K) := by
  show row (StableHlo.after hostOps11 (W28 m ρ c) (Proc.devRef .tc main_v132)) = _
  rewrite [hostOps2_main_v51, W7_main_v45_1 m ρ c e, W7_main_v45_2 m ρ c e]
  rfl

theorem W8_main_v56 (e : Entry m ρ c H Wm R C K) :
    row (W29 m ρ c (Proc.devRef .tc main_v137)) = scale m c := by
  show row (StableHlo.after hostOps11 (W28 m ρ c) (Proc.devRef .tc main_v137)) = _
  rewrite [hostOps2_main_v56, keepW7 m ρ c main_arg6 (by decide) (by decide) (by decide) (by decide), e.arg6]
  rfl

theorem W8_main_v57 (e : Entry m ρ c H Wm R C K) :
    row (W29 m ρ c (Proc.devRef .tc main_v138)) = shift m c := by
  show row (StableHlo.after hostOps11 (W28 m ρ c) (Proc.devRef .tc main_v138)) = _
  rewrite [hostOps2_main_v57, keepW7 m ρ c main_arg7 (by decide) (by decide) (by decide) (by decide), e.arg7]
  rfl

theorem W9_main_v58 (e : Entry m ρ c H Wm R C K) :
    W30 m ρ c (Proc.devRef .tc main_v139)
      = Cert.Spec.layer Cert.Spec.varOfMoments (Cert.Graph.aggregateChecked R C K) true H Wm
          (bias m c) (scale m c) (shift m c) :=
  (W30_arr m ρ c 5).trans <| (Cert.KernelIdeal.Region11.value (V29 m ρ) c).trans <| by
    show Cert.Spec.clipped (Cert.Spec.affine (W29 m ρ c (Proc.devRef .tc main_v126_0))
      (row (W29 m ρ c (Proc.devRef .tc main_v128))) (row (W29 m ρ c (Proc.devRef .tc main_v132)))
      (row (W29 m ρ c (Proc.devRef .tc main_v137))) (row (W29 m ρ c (Proc.devRef .tc main_v138)))) = _
    rewrite [W8_main_v45_0 m ρ c e, W8_main_v47 m ρ c e, W8_main_v51 m ρ c e, W8_main_v56 m ρ c e, W8_main_v57 m ρ c e]
    rfl

theorem exit_feat (e : Entry m ρ c H Wm R C K) :
    W31 m ρ c (Proc.devRef .tc main_v139)
      = Cert.Spec.layer Cert.Spec.varOfMoments (Cert.Graph.aggregateChecked R C K) true H Wm
          (Cert.Network.chan thisLayer (m ((c : Thread nD τ).loc main_arg5)))
          (Cert.Network.chan thisLayer (m ((c : Thread nD τ).loc main_arg6)))
          (Cert.Network.chan thisLayer (m ((c : Thread nD τ).loc main_arg7))) :=
  (hostOps3_keeps (W30 m ρ c) main_v139 (by decide)).trans (W9_main_v58 m ρ c e)

theorem exit_wmat (e : Entry m ρ c H Wm R C K) :
    W31 m ρ c (Proc.devRef .tc main_v141) = Cert.Network.weight nextLayer (m ((c : Thread nD τ).loc main_arg4)) := by
  show StableHlo.after hostOps12 (W30 m ρ c) (Proc.devRef .tc main_v141) = _
  rewrite [hostOps3_main_v60,
    keepW9 m ρ c main_arg4 (by decide) (by decide) (by decide) (by decide) (by decide) (by decide), e.arg4]
  rfl

theorem exit_src (e : Entry m ρ c H Wm R C K) : W31 m ρ c (Proc.devRef .tc main_v3) = R :=
  (keepW10 m ρ c main_v3 (by decide) (by decide) (by decide) (by decide) (by decide) (by decide) (by decide)).trans e.src
theorem exit_tgt (e : Entry m ρ c H Wm R C K) : W31 m ρ c (Proc.devRef .tc main_v6) = C :=
  (keepW10 m ρ c main_v6 (by decide) (by decide) (by decide) (by decide) (by decide) (by decide) (by decide)).trans e.tgt
theorem exit_coef (e : Entry m ρ c H Wm R C K) : W31 m ρ c (Proc.devRef .tc main_v31) = K :=
  (keepW10 m ρ c main_v31 (by decide) (by decide) (by decide) (by decide) (by decide) (by decide) (by decide)).trans e.coef
theorem exit_arg0 (e : Entry m ρ c H Wm R C K) :
    W31 m ρ c (Proc.devRef .tc main_arg0) = m ((c : Thread nD τ).loc main_arg0) :=
  (keepW10 m ρ c main_arg0 (by decide) (by decide) (by decide) (by decide) (by decide) (by decide) (by decide)).trans e.arg0
theorem exit_arg4 (e : Entry m ρ c H Wm R C K) :
    W31 m ρ c (Proc.devRef .tc main_arg4) = m ((c : Thread nD τ).loc main_arg4) :=
  (keepW10 m ρ c main_arg4 (by decide) (by decide) (by decide) (by decide) (by decide) (by decide) (by decide)).trans e.arg4
theorem exit_arg5 (e : Entry m ρ c H Wm R C K) :
    W31 m ρ c (Proc.devRef .tc main_arg5) = m ((c : Thread nD τ).loc main_arg5) :=
  (keepW10 m ρ c main_arg5 (by decide) (by decide) (by decide) (by decide) (by decide) (by decide) (by decide)).trans e.arg5
theorem exit_arg6 (e : Entry m ρ c H Wm R C K) :
    W31 m ρ c (Proc.devRef .tc main_arg6) = m ((c : Thread nD τ).loc main_arg6) :=
  (keepW10 m ρ c main_arg6 (by decide) (by decide) (by decide) (by decide) (by decide) (by decide) (by decide)).trans e.arg6
theorem exit_arg7 (e : Entry m ρ c H Wm R C K) :
    W31 m ρ c (Proc.devRef .tc main_arg7) = m ((c : Thread nD τ).loc main_arg7) :=
  (keepW10 m ρ c main_arg7 (by decide) (by decide) (by decide) (by decide) (by decide) (by decide) (by decide)).trans e.arg7

end Cert.KernelIdeal.Layer3

end
-- ==== Proof.Region12.lean ====
/-
  The matrix-product region: ten blocks of 5000 feature rows times the weight matrix are the ten row blocks of the
  full product, and together they fill the output.
-/
import proofs.«402385_j8315056685617_1_alg».proof.Proof.Gen.KernelIdeal.Frame
import proofs.«402385_j8315056685617_1_alg».proof.Proof.Spec
import proofs.«402385_j8315056685617_1_alg».proof.Proof.LibDotPlain
import Idealize.ShloMosaic.Lib.Pipeline.Value
import Idealize.ShloMosaic.Lib.ValueIdx

set_option maxRecDepth 16384

noncomputable section

namespace Cert.KernelIdeal.Region12

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

theorem payload_entry (x : FVec Ideal S5000x128 .f32) (w : FVec Ideal S128x128 .f32) (r : Fin 5000) (d : Fin 128) :
    k12_pay1 (F := Ideal) x w (ix2 r d) = ∑ q : Fin 128, x (ix2 r q) * w (ix2 q d) := by
  unfold k12_pay1
  simp only [shapeCast_self]
  exact Cert.LibDotPlain.matmul_zero_plain 5000 128 128 none _ _ r d

theorem block_numbers : ∀ t : Fin cfg12.N,
    win12_0.index t (0 : Fin 2) = win12_2.index t (0 : Fin 2) ∧ win12_0.index t (1 : Fin 2) = 0
    ∧ win12_1.index t (0 : Fin 2) = 0 ∧ win12_1.index t (1 : Fin 2) = 0
    ∧ win12_2.index t (0 : Fin 2) ≤ 9 ∧ win12_2.index t (1 : Fin 2) = 0 :=
  (by decide +kernel : ∀ t : Fin grid12.N, _)

theorem block_numbers_onto : ∀ b : Fin 10, ∃ t : Fin cfg12.N, win12_2.index t (0 : Fin 2) = b.val :=
  (by decide +kernel : ∀ b : Fin 10, ∃ t : Fin grid12.N, win12_2.index t (0 : Fin 2) = b.val)

theorem feature_block (c : Dev nD) (t : Fin cfg12.N) (r : Fin 5000) (q : Fin 128) (k : S50000x128.Idx)
    (hrow : (k 0).val = win12_2.index t (0 : Fin 2) * 5000 + r.val) (hcol : (k 1).val = q.val) :
    (iblk12 V c 0 t : FVec Ideal S5000x128 .f32) (ix2 r q)
      = (V c (Pipeline.arrRef spec12 0) : S50000x128.Idx → EReal) k := by
  obtain ⟨erow, ecol, -⟩ := block_numbers t
  show V c (Pipeline.arrRef spec12 0) (((cfg12.win 0).blk t).view.emb (ix2 r q)) = V c (Pipeline.arrRef spec12 0) k
  refine congrArg (V c (Pipeline.arrRef spec12 0)) ?_
  funext a
  apply Fin.ext
  match a with
  | ⟨0, _⟩ => show win12_0.index t (0 : Fin 2) * 5000 + 1 * r.val = (k 0).val; omega
  | ⟨1, _⟩ => show win12_0.index t (1 : Fin 2) * 128 + 1 * q.val = (k 1).val; omega

theorem weight_block (c : Dev nD) (t : Fin cfg12.N) (q d : Fin 128) :
    (iblk12 V c 1 t : FVec Ideal S128x128 .f32) (ix2 q d)
      = (V c (Pipeline.arrRef spec12 1) : S128x128.Idx → EReal) (ix2 q d) := by
  obtain ⟨-, -, erow, ecol, -⟩ := block_numbers t
  show V c (Pipeline.arrRef spec12 1) (((cfg12.win 1).blk t).view.emb (ix2 q d)) = V c (Pipeline.arrRef spec12 1) (ix2 q d)
  refine congrArg (V c (Pipeline.arrRef spec12 1)) ?_
  funext a
  apply Fin.ext
  match a with
  | ⟨0, _⟩ => show win12_1.index t (0 : Fin 2) * 128 + 1 * q.val = q.val; omega
  | ⟨1, _⟩ => show win12_1.index t (1 : Fin 2) * 128 + 1 * d.val = d.val; omega

theorem block_product (c : Dev nD) (t : Fin cfg12.N) (y : S5000x128.Idx) :
    k12_pay1 (F := Ideal) (iblk12 V c 0 t) (iblk12 V c 1 t) y
      = Cert.Spec.product (V c (Pipeline.arrRef spec12 0)) (V c (Pipeline.arrRef spec12 1))
          (((cfg12.win 2).blk t).view.emb y) := by
  obtain ⟨r, d, rfl⟩ : ∃ (r : Fin 5000) (d : Fin 128), y = ix2 r d := ⟨y 0, y 1, eq_ix2 y⟩
  obtain ⟨-, -, -, -, -, ecol⟩ := block_numbers t
  refine (payload_entry (iblk12 V c 0 t) (iblk12 V c 1 t) r d).trans ?_
  unfold Cert.Spec.product
  refine Finset.sum_congr rfl fun q _ => ?_
  refine congrArg₂ (· * ·) ?_ ?_
  · refine feature_block V c t r q _ ?_ rfl
    show win12_2.index t (0 : Fin 2) * 5000 + 1 * r.val = win12_2.index t (0 : Fin 2) * 5000 + r.val
    omega
  · refine (weight_block V c t q d).trans ?_
    refine congrArg (V c (Pipeline.arrRef spec12 1)) ?_
    funext a
    apply Fin.ext
    match a with
    | ⟨0, _⟩ => rfl
    | ⟨1, _⟩ => show d.val = win12_2.index t (1 : Fin 2) * 128 + 1 * d.val; omega

theorem written_back (c : Dev nD) (t : Fin cfg12.N) :
    (dat12 (F := Ideal) V c).flushed 2 t
      = ((cfg12.win 2).blk t).view.read (Elt Ideal)
          (Cert.Spec.product (V c (Pipeline.arrRef spec12 0)) (V c (Pipeline.arrRef spec12 1))) := by
  show (cfg12.win 2).cut (grid12.coords t) ((dat12 (F := Ideal) V c).after 2 t) = _
  rw [after12_2]
  unfold out12_2
  rw [View.canon_unit_zero zero_offsets]
  simp only [View.ld_unit_zero (S := S5000x128) zero_offsets, View.ld_unit_zero (S := S128x128) zero_offsets]
  funext j
  exact block_product V c t j

theorem mem_block (t : Fin cfg12.N) (i : S50000x128.Idx) :
    i ∈ ((cfg12.win 2).blk t).view.set
      ↔ ∀ a : Fin 2, win12_2.index t a * S5000x128.size a ≤ (i a).val
          ∧ (i a).val < win12_2.index t a * S5000x128.size a + S5000x128.size a := by
  show i ∈ ((View.whole (Pipeline.arrRef spec12 2)).slice (win12_2.rect t)).set ↔ _
  rw [View.set_slice_whole, Rect.mem_set_unit]
  exact Iff.rfl

theorem covered (i : S50000x128.Idx) :
    ∃ t : Fin cfg12.N, (cfg12.win 2).flush t = true ∧ i ∈ ((cfg12.win 2).blk t).view.set := by
  have hrow : (i 0).val < 50000 := (i 0).isLt
  have hcol : (i 1).val < 128 := (i 1).isLt
  obtain ⟨t, ht⟩ := block_numbers_onto ⟨(i 0).val / 5000, by omega⟩
  have ht' : win12_2.index t (0 : Fin 2) = (i 0).val / 5000 := ht
  obtain ⟨-, -, -, -, -, ecol⟩ := block_numbers t
  refine ⟨t, flush12_2 t, ?_⟩
  rw [mem_block]
  intro a
  match a with
  | ⟨0, _⟩ =>
    show win12_2.index t (0 : Fin 2) * 5000 ≤ (i 0).val ∧ (i 0).val < win12_2.index t (0 : Fin 2) * 5000 + 5000
    omega
  | ⟨1, _⟩ =>
    show win12_2.index t (1 : Fin 2) * 128 ≤ (i 1).val ∧ (i 1).val < win12_2.index t (1 : Fin 2) * 128 + 128
    omega

theorem value (c : Dev nD) :
    (dat12 (F := Ideal) V c).arrAt 2 cfg12.N
      = Cert.Spec.product (V c (Pipeline.arrRef spec12 0)) (V c (Pipeline.arrRef spec12 1)) :=
  (dat12 (F := Ideal) V c).arrAt_eq_of_cover 2
    (Cert.Spec.product (V c (Pipeline.arrRef spec12 0)) (V c (Pipeline.arrRef spec12 1)))
    (fun t _ => written_back V c t) (covered)

end Cert.KernelIdeal.Region12

end
-- ==== Proof.Region13.lean ====
/-
  The statistics region: the biased features block by block, and per channel the sum and the sum of squares over
  all nodes, accumulated over the ten blocks (only associativity of addition is used).
-/
import proofs.«402385_j8315056685617_1_alg».proof.Proof.Gen.KernelIdeal.Frame
import proofs.«402385_j8315056685617_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region13

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open scoped BigOperators

variable (V : (c : Dev nD) → (b : Ref sig .tc) → Buf (Elt Ideal) ((c : Thread nD τ).loc b))

abbrev biased (c : Dev nD) : Cert.Spec.Feat :=
  Cert.Spec.shifted (V c (Pipeline.arrRef spec13 0)) (fun d => V c (Pipeline.arrRef spec13 1) (ix2 0 d))

variable {F : FTy → Type} [FloatOps F]

theorem offsets_zero : (![0, 0] : Fin 2 → Nat) = fun _ => 0 := funext fun a => by fin_cases a <;> rfl

section Pieces

variable (c : Dev nD) (i : grid13.Coords) (ma : Memref sig .tc .vmem S5000x128 .f32) (hma : ma.IsWhole) (mb : Memref sig .tc .vmem S1x128 .f32) (hmb : mb.IsWhole)
  (mx : Memref sig .tc .vmem S5000x128 .f32) (hmx : mx.IsWhole) (ms : Memref sig .tc .vmem S1x128 .f32) (hms : ms.IsWhole) (mq : Memref sig .tc .vmem S1x128 .f32) (hmq : mq.IsWhole)
  (a : Vec F S5000x128 .f32) (b s q : Vec F S1x128 .f32)

theorem first_biased (hc : cond13_0 i) :
    out13_A_2 c i ma hma mb hmb mx hmx ms hms mq hmq hc a b = k13_pay3 a b := by
  unfold out13_A_2
  rw [View.read_writes_eq_canon _ _ _ (cover13_A_2 c i ma hma mb hmb mx hmx ms hms mq hmq hc a b)]
  unfold kernelRun13_A
  dsimp only
  sl_unfold_words
  rw [View.canon_unit_zero offsets_zero]
  simp only [View.readAt_eq_ld, hma.read_unread, hmb.read_unread, View.ld_unit_zero (S := S5000x128) offsets_zero,
    View.ld_unit_zero (S := S1x128) offsets_zero]

theorem first_sums (hc : cond13_0 i) :
    out13_A_3 c i ma hma mb hmb mx hmx ms hms mq hmq hc a b = k13_pay4 a b (k13_pay1 (F := F)) := by
  unfold out13_A_3
  rw [View.read_writes_eq_canon _ _ _ (cover13_A_3 c i ma hma mb hmb mx hmx ms hms mq hmq hc a b)]
  unfold kernelRun13_A
  dsimp only
  sl_unfold_words
  rw [View.canon_cons_unit_zero (S := S1x128) offsets_zero, View.readCov_unit_zero (S := S1x128) _ offsets_zero]
  simp only [View.readAt_eq_ld, hma.read_unread, hmb.read_unread, View.ld_unit_zero (S := S5000x128) offsets_zero,
    View.ld_unit_zero (S := S1x128) offsets_zero]

theorem first_squares (hc : cond13_0 i) :
    out13_A_4 c i ma hma mb hmb mx hmx ms hms mq hmq hc a b = k13_pay5 a b (k13_pay2 (F := F)) := by
  unfold out13_A_4
  rw [View.read_writes_eq_canon _ _ _ (cover13_A_4 c i ma hma mb hmb mx hmx ms hms mq hmq hc a b)]
  unfold kernelRun13_A
  dsimp only
  sl_unfold_words
  rw [View.canon_cons_unit_zero (S := S1x128) offsets_zero, View.readCov_unit_zero (S := S1x128) _ offsets_zero]
  simp only [View.readAt_eq_ld, hma.read_unread, hmb.read_unread, View.ld_unit_zero (S := S5000x128) offsets_zero,
    View.ld_unit_zero (S := S1x128) offsets_zero]

theorem later_biased (hc : ¬cond13_0 i) :
    out13_B_2 c i ma hma mb hmb mx hmx ms hms mq hmq hc a b s q = k13_pay3 a b := by
  unfold out13_B_2
  rw [View.read_writes_eq_canon _ _ _ (cover13_B_2 c i ma hma mb hmb mx hmx ms hms mq hmq hc a b s q)]
  unfold kernelRun13_B
  dsimp only
  sl_unfold_words
  rw [View.canon_unit_zero offsets_zero]
  simp only [View.readAt_eq_ld, hma.read_unread, hmb.read_unread, View.ld_unit_zero (S := S5000x128) offsets_zero,
    View.ld_unit_zero (S := S1x128) offsets_zero]

theorem later_sums (hc : ¬cond13_0 i) :
    out13_B_3 c i ma hma mb hmb mx hmx ms hms mq hmq hc a b s q = k13_pay4 a b s := by
  unfold out13_B_3
  rw [View.read_writes_eq_canon _ _ _ (cover13_B_3 c i ma hma mb hmb mx hmx ms hms mq hmq hc a b s q)]
  unfold kernelRun13_B
  dsimp only
  sl_unfold_words
  rw [View.canon_unit_zero offsets_zero]
  simp only [View.readAt_eq_ld, hma.read_unread, hmb.read_unread, hms.read_unread, View.ld_unit_zero (S := S5000x128) offsets_zero,
    View.ld_unit_zero (S := S1x128) offsets_zero]

theorem later_squares (hc : ¬cond13_0 i) :
    out13_B_4 c i ma hma mb hmb mx hmx ms hms mq hmq hc a b s q = k13_pay5 a b q := by
  unfold out13_B_4
  rw [View.read_writes_eq_canon _ _ _ (cover13_B_4 c i ma hma mb hmb mx hmx ms hms mq hmq hc a b s q)]
  unfold kernelRun13_B
  dsimp only
  sl_unfold_words
  rw [View.canon_unit_zero offsets_zero]
  simp only [View.readAt_eq_ld, hma.read_unread, hmb.read_unread, hmq.read_unread, View.ld_unit_zero (S := S5000x128) offsets_zero,
    View.ld_unit_zero (S := S1x128) offsets_zero]

end Pieces

theorem row_in_channel (d : Fin 128) (p : Fin 5000) :
    reduces_S5000x128_S128.lift (ix1 d) p = ix2 p d := by
  funext a
  apply Fin.ext
  match a with
  | ⟨0, _⟩ => rfl
  | ⟨1, _⟩ => rfl

theorem biased_block_apply (a : Vec Ideal S5000x128 .f32) (b : Vec Ideal S1x128 .f32) (p : Fin 5000) (d : Fin 128) :
    k13_pay3 a b (ix2 p d) = a (ix2 p d) + b (ix2 0 d) := by
  unfold k13_pay3
  refine (addf_apply _ _ _).trans ?_
  refine congrArg₂ (· + ·) (congrFun (shapeCast_self a _) _) ?_
  refine (broadcastTo_1b_ab_apply _ _ p d).trans ?_
  exact congrFun (shapeCast_self b _) _

theorem zero_row_apply (d : Fin 128) : (k13_pay1 (F := Ideal)) (ix2 0 d) = 0 := by
  unfold k13_pay1
  exact Ideal.ofBits_zero_f32

theorem zero_row_apply' (d : Fin 128) : (k13_pay2 (F := Ideal)) (ix2 0 d) = 0 := by
  unfold k13_pay2
  exact Ideal.ofBits_zero_f32

theorem sums_step_apply (a : Vec Ideal S5000x128 .f32) (b : Vec Ideal S1x128 .f32) (s : Vec Ideal S1x128 .f32) (d : Fin 128) :
    k13_pay4 a b s (ix2 0 d) = s (ix2 0 d) + ∑ p : Fin 5000, k13_pay3 a b (ix2 p d) := by
  unfold k13_pay4
  dsimp only
  refine (addf_apply _ _ _).trans ?_
  refine congrArg₂ (· + ·) (congrFun (shapeCast_self s _) _) ?_
  refine (shapeCast_a_1a_apply _ _ 0 d).trans ?_
  refine (Ideal.multiReduction_add_single _ _ _ _ _ _).trans ?_
  exact Finset.sum_congr rfl fun p _ => congrArg (k13_pay3 a b) (row_in_channel d p)

theorem squares_step_apply (a : Vec Ideal S5000x128 .f32) (b : Vec Ideal S1x128 .f32) (q : Vec Ideal S1x128 .f32) (d : Fin 128) :
    k13_pay5 a b q (ix2 0 d) = q (ix2 0 d) + ∑ p : Fin 5000, k13_pay3 a b (ix2 p d) * k13_pay3 a b (ix2 p d) := by
  unfold k13_pay5
  dsimp only
  refine (addf_apply _ _ _).trans ?_
  refine congrArg₂ (· + ·) (congrFun (shapeCast_self q _) _) ?_
  refine (shapeCast_a_1a_apply _ _ 0 d).trans ?_
  refine (Ideal.multiReduction_add_single _ _ _ _ _ _).trans ?_
  refine Finset.sum_congr rfl fun p _ => ?_
  refine (mulf_apply _ _ _).trans ?_
  rw [row_in_channel d p]

theorem index_facts : ∀ t : Fin cfg13.N,
    win13_0.index t (0 : Fin 2) = t.val ∧ win13_0.index t (1 : Fin 2) = 0
    ∧ win13_1.index t (0 : Fin 2) = 0 ∧ win13_1.index t (1 : Fin 2) = 0
    ∧ win13_2.index t (0 : Fin 2) = t.val ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0 :=
  (by decide +kernel : ∀ t : Fin grid13.N, _)

theorem point_lt (t : Fin cfg13.N) : t.val < 10 := lt_of_lt_of_eq t.isLt (show cfg13.N = 10 from N_13)

def rowOf (t : Fin cfg13.N) (p : Fin 5000) : Fin 50000 := ⟨5000 * t.val + p.val, by have := point_lt t; omega⟩

abbrev featBlock (c : Dev nD) (t : Fin cfg13.N) : Vec Ideal S5000x128 .f32 := iblk13 V c 0 t
abbrev biasBlock (c : Dev nD) (t : Fin cfg13.N) : Vec Ideal S1x128 .f32 := iblk13 V c 1 t
abbrev featArr (c : Dev nD) : Vec Ideal S50000x128 .f32 := V c (Pipeline.arrRef spec13 0)
abbrev biasArr (c : Dev nD) : Vec Ideal S1x128 .f32 := V c (Pipeline.arrRef spec13 1)

theorem featBlock_apply (c : Dev nD) (t : Fin cfg13.N) (p : Fin 5000) (d : Fin 128) :
    featBlock V c t (ix2 p d) = featArr V c (ix2 (rowOf t p) d) := by
  obtain ⟨ea, eb, -⟩ := index_facts t
  show V c (Pipeline.arrRef spec13 0) (((cfg13.win 0).blk t).view.emb (ix2 p d)) = V c (Pipeline.arrRef spec13 0) (ix2 (rowOf t p) d)
  refine congrArg _ (funext fun a => Fin.ext ?_)
  match a with
  | ⟨0, _⟩ => show win13_0.index t (0 : Fin 2) * 5000 + 1 * p.val = 5000 * t.val + p.val; omega
  | ⟨1, _⟩ => show win13_0.index t (1 : Fin 2) * 128 + 1 * d.val = d.val; omega

theorem biasBlock_apply (c : Dev nD) (t : Fin cfg13.N) (d : Fin 128) :
    biasBlock V c t (ix2 0 d) = biasArr V c (ix2 0 d) := by
  obtain ⟨-, -, ea, eb, -⟩ := index_facts t
  show V c (Pipeline.arrRef spec13 1) (((cfg13.win 1).blk t).view.emb (ix2 0 d)) = V c (Pipeline.arrRef spec13 1) (ix2 0 d)
  refine congrArg _ (funext fun a => Fin.ext ?_)
  match a with
  | ⟨0, _⟩ => show win13_1.index t (0 : Fin 2) * 1 + 1 * 0 = 0; omega
  | ⟨1, _⟩ => show win13_1.index t (1 : Fin 2) * 128 + 1 * d.val = d.val; omega

theorem stored_block_apply (c : Dev nD) (t : Fin cfg13.N) (p : Fin 5000) (d : Fin 128) :
    k13_pay3 (featBlock V c t) (biasBlock V c t) (ix2 p d) = biased V c (ix2 (rowOf t p) d) := by
  rw [biased_block_apply, featBlock_apply, biasBlock_apply]
  rfl

theorem outs_first (c : Dev nD) (t : Fin cfg13.N) (h : t.val % 10 = 0) :
    outsAt13 V c t.val t.isLt
      = (k13_pay3 (featBlock V c t) (biasBlock V c t),
         k13_pay4 (featBlock V c t) (biasBlock V c t) (k13_pay1 (F := Ideal)),
         k13_pay5 (featBlock V c t) (biasBlock V c t) (k13_pay2 (F := Ideal))) := by
  rw [outsAt13_A V c t h,
    first_biased (F := Ideal) c (grid13.coords t) (ms13_0 t) (hs13_0 t) (ms13_1 t) (hs13_1 t) (ms13_2 t) (hs13_2 t) (ms13_3 t) (hs13_3 t) (ms13_4 t) (hs13_4 t) (iblk13 V c 0 t) (iblk13 V c 1 t) ((hcond13_0 t).mpr h),
    first_sums (F := Ideal) c (grid13.coords t) (ms13_0 t) (hs13_0 t) (ms13_1 t) (hs13_1 t) (ms13_2 t) (hs13_2 t) (ms13_3 t) (hs13_3 t) (ms13_4 t) (hs13_4 t) (iblk13 V c 0 t) (iblk13 V c 1 t) ((hcond13_0 t).mpr h),
    first_squares (F := Ideal) c (grid13.coords t) (ms13_0 t) (hs13_0 t) (ms13_1 t) (hs13_1 t) (ms13_2 t) (hs13_2 t) (ms13_3 t) (hs13_3 t) (ms13_4 t) (hs13_4 t) (iblk13 V c 0 t) (iblk13 V c 1 t) ((hcond13_0 t).mpr h)]

theorem before_lt (t : Fin cfg13.N) : t.val - 1 < cfg13.N := Nat.lt_of_le_of_lt (Nat.sub_le _ _) t.isLt

theorem outs_later (c : Dev nD) (t : Fin cfg13.N) (h : ¬t.val % 10 = 0) :
    outsAt13 V c t.val t.isLt
      = (k13_pay3 (featBlock V c t) (biasBlock V c t),
         k13_pay4 (featBlock V c t) (biasBlock V c t) (outsAt13 V c (t.val - 1) (before_lt t)).2.1,
         k13_pay5 (featBlock V c t) (biasBlock V c t) (outsAt13 V c (t.val - 1) (before_lt t)).2.2) := by
  rw [outsAt13_B V c t h,
    later_biased (F := Ideal) c (grid13.coords t) (ms13_0 t) (hs13_0 t) (ms13_1 t) (hs13_1 t) (ms13_2 t) (hs13_2 t) (ms13_3 t) (hs13_3 t) (ms13_4 t) (hs13_4 t) (iblk13 V c 0 t) (iblk13 V c 1 t) (outsAt13 V c (t.val - 1) (before_lt t)).2.1 (outsAt13 V c (t.val - 1) (before_lt t)).2.2 (fun g => h ((hcond13_0 t).mp g)),
    later_sums (F := Ideal) c (grid13.coords t) (ms13_0 t) (hs13_0 t) (ms13_1 t) (hs13_1 t) (ms13_2 t) (hs13_2 t) (ms13_3 t) (hs13_3 t) (ms13_4 t) (hs13_4 t) (iblk13 V c 0 t) (iblk13 V c 1 t) (outsAt13 V c (t.val - 1) (before_lt t)).2.1 (outsAt13 V c (t.val - 1) (before_lt t)).2.2 (fun g => h ((hcond13_0 t).mp g)),
    later_squares (F := Ideal) c (grid13.coords t) (ms13_0 t) (hs13_0 t) (ms13_1 t) (hs13_1 t) (ms13_2 t) (hs13_2 t) (ms13_3 t) (hs13_3 t) (ms13_4 t) (hs13_4 t) (iblk13 V c 0 t) (iblk13 V c 1 t) (outsAt13 V c (t.val - 1) (before_lt t)).2.1 (outsAt13 V c (t.val - 1) (before_lt t)).2.2 (fun g => h ((hcond13_0 t).mp g))]

def entry (c : Dev nD) (d : Fin 128) (r : ℕ) : EReal :=
  if h : r < 50000 then biased V c (ix2 ⟨r, h⟩ d) else 0

theorem entry_block (c : Dev nD) (d : Fin 128) (t : Fin cfg13.N) (p : Fin 5000) :
    entry V c d (5000 * t.val + p.val) = biased V c (ix2 (rowOf t p) d) := by
  have h : 5000 * t.val + p.val < 50000 := by have := point_lt t; omega
  unfold entry
  rw [dif_pos h]
  rfl

theorem block_sum (c : Dev nD) (d : Fin 128) (t : Fin cfg13.N) :
    ∑ p : Fin 5000, k13_pay3 (featBlock V c t) (biasBlock V c t) (ix2 p d)
      = ∑ x ∈ Finset.range 5000, entry V c d (5000 * t.val + x) := by
  rw [Finset.sum_range]
  exact Finset.sum_congr rfl fun p _ => (stored_block_apply V c t p d).trans (entry_block V c d t p).symm

theorem block_sum_squares (c : Dev nD) (d : Fin 128) (t : Fin cfg13.N) :
    ∑ p : Fin 5000, k13_pay3 (featBlock V c t) (biasBlock V c t) (ix2 p d) * k13_pay3 (featBlock V c t) (biasBlock V c t) (ix2 p d)
      = ∑ x ∈ Finset.range 5000, entry V c d (5000 * t.val + x) * entry V c d (5000 * t.val + x) := by
  rw [Finset.sum_range]
  exact Finset.sum_congr rfl fun p _ => by rw [stored_block_apply V c t p d, entry_block V c d t p]

theorem sums_after (c : Dev nD) (d : Fin 128) : ∀ (n : ℕ) (hn : n < cfg13.N),
    ((outsAt13 V c n hn).2.1 : Vec Ideal S1x128 .f32) (ix2 0 d) = ∑ r ∈ Finset.range (5000 * (n + 1)), entry V c d r
  | 0, hn => by
    rw [show outsAt13 V c 0 hn = _ from outs_first V c ⟨0, hn⟩ rfl]
    dsimp only
    rw [sums_step_apply, zero_row_apply, zero_add, block_sum]
    exact Finset.sum_congr rfl fun x _ => by rw [Nat.mul_zero, Nat.zero_add]
  | n + 1, hn => by
    have hlater : ¬(⟨n + 1, hn⟩ : Fin cfg13.N).val % 10 = 0 := by
      have := point_lt ⟨n + 1, hn⟩; dsimp only at this ⊢; omega
    rw [show outsAt13 V c (n + 1) hn = _ from outs_later V c ⟨n + 1, hn⟩ hlater]
    dsimp only
    rw [sums_step_apply, block_sum]
    have ih := sums_after c d n (Nat.lt_of_succ_lt hn)
    rw [show 5000 * (n + 1 + 1) = 5000 * (n + 1) + 5000 from by ring, Finset.sum_range_add, ← ih]
    rfl

theorem squares_after (c : Dev nD) (d : Fin 128) : ∀ (n : ℕ) (hn : n < cfg13.N),
    ((outsAt13 V c n hn).2.2 : Vec Ideal S1x128 .f32) (ix2 0 d)
      = ∑ r ∈ Finset.range (5000 * (n + 1)), entry V c d r * entry V c d r
  | 0, hn => by
    rw [show outsAt13 V c 0 hn = _ from outs_first V c ⟨0, hn⟩ rfl]
    dsimp only
    rw [squares_step_apply, zero_row_apply', zero_add, block_sum_squares]
    exact Finset.sum_congr rfl fun x _ => by rw [Nat.mul_zero, Nat.zero_add]
  | n + 1, hn => by
    have hlater : ¬(⟨n + 1, hn⟩ : Fin cfg13.N).val % 10 = 0 := by
      have := point_lt ⟨n + 1, hn⟩; dsimp only at this ⊢; omega
    rw [show outsAt13 V c (n + 1) hn = _ from outs_later V c ⟨n + 1, hn⟩ hlater]
    dsimp only
    rw [squares_step_apply, block_sum_squares]
    have ih := squares_after c d n (Nat.lt_of_succ_lt hn)
    rw [show 5000 * (n + 1 + 1) = 5000 * (n + 1) + 5000 from by ring, Finset.sum_range_add, ← ih]
    rfl

theorem sum_entries (c : Dev nD) (d : Fin 128) :
    ∑ r ∈ Finset.range 50000, entry V c d r = Cert.Spec.colSum (biased V c) d := by
  rw [Finset.sum_range]
  exact Finset.sum_congr rfl fun n _ => by unfold entry; rw [dif_pos n.isLt]

theorem sum_entries_squares (c : Dev nD) (d : Fin 128) :
    ∑ r ∈ Finset.range 50000, entry V c d r * entry V c d r = Cert.Spec.colSumSq (biased V c) d := by
  rw [Finset.sum_range]
  exact Finset.sum_congr rfl fun n _ => by unfold entry; rw [dif_pos n.isLt]

theorem stored_at (c : Dev nD) (t : Fin cfg13.N) :
    (outsAt13 V c t.val t.isLt).1 = k13_pay3 (featBlock V c t) (biasBlock V c t) := by
  by_cases h : t.val % 10 = 0
  · rw [outs_first V c t h]
  · rw [outs_later V c t h]

theorem flushed_biased (c : Dev nD) (t : Fin cfg13.N) :
    (dat13 (F := Ideal) V c).flushed 2 t = ((cfg13.win 2).blk t).view.read (Elt Ideal) (biased V c) := by
  show (cfg13.win 2).cut (grid13.coords t) ((dat13 (F := Ideal) V c).after 2 t) = _
  rw [after13_2, stored_at]
  obtain ⟨-, -, -, -, ea, eb, -⟩ := index_facts t
  funext j
  show k13_pay3 (featBlock V c t) (biasBlock V c t) j = biased V c (((cfg13.win 2).blk t).view.emb j)
  have hemb : ((cfg13.win 2).blk t).view.emb j = ix2 (rowOf t (j 0)) (j 1) := by
    funext a
    apply Fin.ext
    match a with
    | ⟨0, _⟩ => show win13_2.index t (0 : Fin 2) * 5000 + 1 * (j 0).val = 5000 * t.val + (j 0).val; omega
    | ⟨1, _⟩ => show win13_2.index t (1 : Fin 2) * 128 + 1 * (j 1).val = (j 1).val; omega
  rw [hemb]
  exact (congrArg (k13_pay3 (featBlock V c t) (biasBlock V c t)) (eq_ix2 j)).trans (stored_block_apply V c t (j 0) (j 1))

theorem mem_block (t : Fin cfg13.N) (i : S50000x128.Idx) :
    i ∈ ((cfg13.win 2).blk t).view.set ↔ ∀ a : Fin 2, win13_2.index t a * S5000x128.size a ≤ (i a).val ∧ (i a).val < win13_2.index t a * S5000x128.size a + S5000x128.size a := by
  show i ∈ ((View.whole (Pipeline.arrRef spec13 2)).slice (win13_2.rect t)).set ↔ _
  rw [View.set_slice_whole, Rect.mem_set_unit]
  exact Iff.rfl

theorem covered (i : S50000x128.Idx) :
    ∃ t : Fin cfg13.N, (cfg13.win 2).flush t = true ∧ i ∈ ((cfg13.win 2).blk t).view.set := by
  have hr : (i 0).val < 50000 := (i 0).isLt
  have hd : (i 1).val < 128 := (i 1).isLt
  have hN : cfg13.N = 10 := N_13
  have hq : (i 0).val / 5000 < cfg13.N := by omega
  obtain ⟨-, -, -, -, ea, eb, -⟩ := index_facts ⟨(i 0).val / 5000, hq⟩
  have ea' : win13_2.index ⟨(i 0).val / 5000, hq⟩ (0 : Fin 2) = (i 0).val / 5000 := ea
  refine ⟨⟨(i 0).val / 5000, hq⟩, flush13_2 _, ?_⟩
  rw [mem_block]
  intro a
  match a with
  | ⟨0, _⟩ =>
    show win13_2.index ⟨(i 0).val / 5000, hq⟩ (0 : Fin 2) * 5000 ≤ (i 0).val
      ∧ (i 0).val < win13_2.index ⟨(i 0).val / 5000, hq⟩ (0 : Fin 2) * 5000 + 5000
    omega
  | ⟨1, _⟩ =>
    show win13_2.index ⟨(i 0).val / 5000, hq⟩ (1 : Fin 2) * 128 ≤ (i 1).val
      ∧ (i 1).val < win13_2.index ⟨(i 0).val / 5000, hq⟩ (1 : Fin 2) * 128 + 128
    omega

theorem value2 (c : Dev nD) : (dat13 (F := Ideal) V c).arrAt 2 cfg13.N = biased V c :=
  (dat13 (F := Ideal) V c).arrAt_eq_of_cover 2 (biased V c) (fun t _ => flushed_biased V c t) covered

def lastPoint : Fin cfg13.N := ⟨9, by rw [show cfg13.N = 10 from N_13]; decide⟩

theorem row_emb (t : Fin cfg13.N) (j : S1x128.Idx) :
    (((cfg13.win 3).blk t).view.emb j : S1x128.Idx) = j ∧ (((cfg13.win 4).blk t).view.emb j : S1x128.Idx) = j := by
  obtain ⟨-, -, -, -, -, -, ea, eb, ec, ed⟩ := index_facts t
  have hu : (j 0).val < 1 := (j 0).isLt
  refine ⟨funext fun a => Fin.ext ?_, funext fun a => Fin.ext ?_⟩
  · match a with
    | ⟨0, _⟩ => show win13_3.index t (0 : Fin 2) * 1 + 1 * (j 0).val = (j 0).val; omega
    | ⟨1, _⟩ => show win13_3.index t (1 : Fin 2) * 128 + 1 * (j 1).val = (j 1).val; omega
  · match a with
    | ⟨0, _⟩ => show win13_4.index t (0 : Fin 2) * 1 + 1 * (j 0).val = (j 0).val; omega
    | ⟨1, _⟩ => show win13_4.index t (1 : Fin 2) * 128 + 1 * (j 1).val = (j 1).val; omega

theorem row_index (j : S1x128.Idx) : j = @ix2 1 128 (0 : Fin 1) (j 1) := by
  have hu : (j 0).val < 1 := (j 0).isLt
  refine (eq_ix2 j).trans ?_
  congr 1
  exact Fin.ext (by show (j 0).val = 0; omega)

theorem written_row (t : Fin cfg13.N) (X : Vec Ideal S1x128 .f32) :
    ((cfg13.win 3).cut (grid13.coords t) X : S1x128.Idx → EReal) = X
      ∧ ((cfg13.win 4).cut (grid13.coords t) X : S1x128.Idx → EReal) = X := ⟨rfl, rfl⟩

theorem read_row (t : Fin cfg13.N) (G : S1x128.Idx → EReal) :
    (((cfg13.win 3).blk t).view.read (Elt Ideal) G : S1x128.Idx → EReal) = G
      ∧ (((cfg13.win 4).blk t).view.read (Elt Ideal) G : S1x128.Idx → EReal) = G :=
  ⟨funext fun j => (show _ = G (((cfg13.win 3).blk t).view.emb j) from rfl).trans (congrArg G (row_emb t j).1),
   funext fun j => (show _ = G (((cfg13.win 4).blk t).view.emb j) from rfl).trans (congrArg G (row_emb t j).2)⟩

theorem flushed_sums (c : Dev nD) (t : Fin cfg13.N) (hf : (cfg13.win 3).flush t = true) :
    (dat13 (F := Ideal) V c).flushed 3 t
      = ((cfg13.win 3).blk t).view.read (Elt Ideal) (fun j => Cert.Spec.colSum (biased V c) (j 1) : S1x128.Idx → EReal) := by
  have ht : t.val = 9 := by have := (flush13_3 t).mp hf; have := point_lt t; omega
  show (cfg13.win 3).cut (grid13.coords t) ((dat13 (F := Ideal) V c).after 3 t) = _
  rw [after13_3]
  refine ((written_row t _).1).trans ?_
  refine Eq.trans ?_ (read_row t _).1.symm
  funext j
  obtain ⟨d, rfl⟩ : ∃ d : Fin 128, j = ix2 0 d := ⟨j 1, row_index j⟩
  refine (sums_after V c d t.val t.isLt).trans ?_
  rw [ht]
  exact sum_entries V c d

theorem flushed_squares (c : Dev nD) (t : Fin cfg13.N) (hf : (cfg13.win 4).flush t = true) :
    (dat13 (F := Ideal) V c).flushed 4 t
      = ((cfg13.win 4).blk t).view.read (Elt Ideal) (fun j => Cert.Spec.colSumSq (biased V c) (j 1) : S1x128.Idx → EReal) := by
  have ht : t.val = 9 := by have := (flush13_4 t).mp hf; have := point_lt t; omega
  show (cfg13.win 4).cut (grid13.coords t) ((dat13 (F := Ideal) V c).after 4 t) = _
  rw [after13_4]
  refine ((written_row t _).2).trans ?_
  refine Eq.trans ?_ (read_row t _).2.symm
  funext j
  obtain ⟨d, rfl⟩ : ∃ d : Fin 128, j = ix2 0 d := ⟨j 1, row_index j⟩
  refine (squares_after V c d t.val t.isLt).trans ?_
  rw [ht]
  exact sum_entries_squares V c d

theorem row_covered (i : S1x128.Idx) :
    i ∈ ((cfg13.win 3).blk lastPoint).view.set ∧ i ∈ ((cfg13.win 4).blk lastPoint).view.set := by
  obtain ⟨-, -, -, -, -, -, ea, eb, ec, ed⟩ := index_facts lastPoint
  have hu : (i 0).val < 1 := (i 0).isLt
  have hd : (i 1).val < 128 := (i 1).isLt
  constructor
  · show i ∈ ((View.whole (Pipeline.arrRef spec13 3)).slice (win13_3.rect lastPoint)).set
    rw [View.set_slice_whole, Rect.mem_set_unit]
    intro a
    match a with
    | ⟨0, _⟩ => show win13_3.index lastPoint (0 : Fin 2) * 1 ≤ (i 0).val ∧ (i 0).val < win13_3.index lastPoint (0 : Fin 2) * 1 + 1; omega
    | ⟨1, _⟩ => show win13_3.index lastPoint (1 : Fin 2) * 128 ≤ (i 1).val ∧ (i 1).val < win13_3.index lastPoint (1 : Fin 2) * 128 + 128; omega
  · show i ∈ ((View.whole (Pipeline.arrRef spec13 4)).slice (win13_4.rect lastPoint)).set
    rw [View.set_slice_whole, Rect.mem_set_unit]
    intro a
    match a with
    | ⟨0, _⟩ => show win13_4.index lastPoint (0 : Fin 2) * 1 ≤ (i 0).val ∧ (i 0).val < win13_4.index lastPoint (0 : Fin 2) * 1 + 1; omega
    | ⟨1, _⟩ => show win13_4.index lastPoint (1 : Fin 2) * 128 ≤ (i 1).val ∧ (i 1).val < win13_4.index lastPoint (1 : Fin 2) * 128 + 128; omega

theorem value3 (c : Dev nD) :
    (dat13 (F := Ideal) V c).arrAt 3 cfg13.N = (fun j => Cert.Spec.colSum (biased V c) (j 1) : S1x128.Idx → EReal) :=
  (dat13 (F := Ideal) V c).arrAt_eq_of_cover 3 (fun j => Cert.Spec.colSum (biased V c) (j 1) : S1x128.Idx → EReal) (flushed_sums V c) fun i =>
    ⟨lastPoint, (flush13_3 lastPoint).mpr rfl, (row_covered i).1⟩

theorem value4 (c : Dev nD) :
    (dat13 (F := Ideal) V c).arrAt 4 cfg13.N = (fun j => Cert.Spec.colSumSq (biased V c) (j 1) : S1x128.Idx → EReal) :=
  (dat13 (F := Ideal) V c).arrAt_eq_of_cover 4 (fun j => Cert.Spec.colSumSq (biased V c) (j 1) : S1x128.Idx → EReal) (flushed_squares V c) fun i =>
    ⟨lastPoint, (flush13_4 lastPoint).mpr rfl, (row_covered i).2⟩

end Cert.KernelIdeal.Region13

end
-- ==== Proof.Region14.lean ====
/-
  The last layer's normalisation region, without the clip.
-/
import proofs.«402385_j8315056685617_1_alg».proof.Proof.Gen.KernelIdeal.Frame
import proofs.«402385_j8315056685617_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region14

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable (V : (c : Dev nD) → (b : Ref sig .tc) → Buf (Elt Ideal) ((c : Thread nD τ).loc b))

abbrev chan (a : S1x128.Idx → EReal) : Cert.Spec.Chan := fun d => a (ix2 0 d)

abbrev result (c : Dev nD) : Cert.Spec.Feat :=
  Cert.Spec.affine (V c (Pipeline.arrRef spec14 0))
    (chan (V c (Pipeline.arrRef spec14 1))) (chan (V c (Pipeline.arrRef spec14 2)))
    (chan (V c (Pipeline.arrRef spec14 3))) (chan (V c (Pipeline.arrRef spec14 4)))

theorem rsqrt_apply {s : Shape} {φ : FTy} (a : FVec Ideal s φ) (i : s.Idx) : rsqrt a i = Ideal.rsqrt (a i) := rfl

theorem payload_apply (var : Vec Ideal S1x128 .f32) (x : Vec Ideal S5000x128 .f32) (mu g b : Vec Ideal S1x128 .f32)
    (p : Fin 5000) (d : Fin 128) :
    k14_pay1 var x mu g b (ix2 p d)
      = (x (ix2 p d) - mu (ix2 0 d)) * Ideal.rsqrt (var (ix2 0 d) + Cert.Spec.eps) * g (ix2 0 d) + b (ix2 0 d) := by
  unfold k14_pay1
  simp only [shapeCast_self, addf_apply, mulf_apply, subf_apply, broadcast_apply, rsqrt_apply,
    broadcastTo_1b_ab_apply, Ideal.ofBits_def, Cert.Spec.eps]

theorem hz : (![0, 0] : Fin 2 → Nat) = fun _ => 0 := funext fun a => by fin_cases a <;> rfl

theorem idx_facts : ∀ t : Fin cfg14.N,
    win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_5.index t (0 : Fin 2) = t.val ∧ win14_5.index t (1 : Fin 2) = 0 :=
  (by decide +kernel : ∀ t : Fin grid14.N, _)

theorem point_lt (t : Fin cfg14.N) : t.val < 10 := by
  have h : t.val < grid14.N := t.isLt
  rw [N_14] at h; exact h

def rowOf (t : Fin cfg14.N) (p : Fin 5000) : Fin 50000 :=
  ⟨t.val * 5000 + p.val, by have := point_lt t; have := p.isLt; omega⟩

theorem emb_out (t : Fin cfg14.N) (p : Fin 5000) (d : Fin 128) :
    (((cfg14.win 5).blk t).view.emb (ix2 p d) : S50000x128.Idx) = ix2 (rowOf t p) d := by
  obtain ⟨-, -, -, -, -, -, -, -, -, -, e0, e1⟩ := idx_facts t
  funext a; apply Fin.ext
  match a with
  | ⟨0, _⟩ => show win14_5.index t (0 : Fin 2) * 5000 + 1 * p.val = t.val * 5000 + p.val; omega
  | ⟨1, _⟩ => show win14_5.index t (1 : Fin 2) * 128 + 1 * d.val = d.val; omega

theorem read_x (c : Dev nD) (t : Fin cfg14.N) (p : Fin 5000) (d : Fin 128) :
    iblk14 V c 0 t (ix2 p d) = (V c (Pipeline.arrRef spec14 0) : S50000x128.Idx → EReal) (ix2 (rowOf t p) d) := by
  obtain ⟨e0, e1, -⟩ := idx_facts t
  show (V c (Pipeline.arrRef spec14 0) : S50000x128.Idx → EReal) (((cfg14.win 0).blk t).view.emb (ix2 p d)) = _
  refine congrArg _ (funext fun a => Fin.ext ?_)
  match a with
  | ⟨0, _⟩ => show win14_0.index t (0 : Fin 2) * 5000 + 1 * p.val = t.val * 5000 + p.val; omega
  | ⟨1, _⟩ => show win14_0.index t (1 : Fin 2) * 128 + 1 * d.val = d.val; omega

theorem read_mean (c : Dev nD) (t : Fin cfg14.N) (d : Fin 128) :
    iblk14 V c 1 t (ix2 0 d) = (V c (Pipeline.arrRef spec14 1) : S1x128.Idx → EReal) (ix2 0 d) := by
  obtain ⟨-, -, e0, e1, -⟩ := idx_facts t
  show (V c (Pipeline.arrRef spec14 1) : S1x128.Idx → EReal) (((cfg14.win 1).blk t).view.emb (ix2 0 d)) = _
  refine congrArg _ (funext fun a => Fin.ext ?_)
  match a with
  | ⟨0, _⟩ => show win14_1.index t (0 : Fin 2) * 1 + 1 * 0 = 0; omega
  | ⟨1, _⟩ => show win14_1.index t (1 : Fin 2) * 128 + 1 * d.val = d.val; omega

theorem read_var (c : Dev nD) (t : Fin cfg14.N) (d : Fin 128) :
    iblk14 V c 2 t (ix2 0 d) = (V c (Pipeline.arrRef spec14 2) : S1x128.Idx → EReal) (ix2 0 d) := by
  obtain ⟨-, -, -, -, e0, e1, -⟩ := idx_facts t
  show (V c (Pipeline.arrRef spec14 2) : S1x128.Idx → EReal) (((cfg14.win 2).blk t).view.emb (ix2 0 d)) = _
  refine congrArg _ (funext fun a => Fin.ext ?_)
  match a with
  | ⟨0, _⟩ => show win14_2.index t (0 : Fin 2) * 1 + 1 * 0 = 0; omega
  | ⟨1, _⟩ => show win14_2.index t (1 : Fin 2) * 128 + 1 * d.val = d.val; omega

theorem read_scale (c : Dev nD) (t : Fin cfg14.N) (d : Fin 128) :
    iblk14 V c 3 t (ix2 0 d) = (V c (Pipeline.arrRef spec14 3) : S1x128.Idx → EReal) (ix2 0 d) := by
  obtain ⟨-, -, -, -, -, -, e0, e1, -⟩ := idx_facts t
  show (V c (Pipeline.arrRef spec14 3) : S1x128.Idx → EReal) (((cfg14.win 3).blk t).view.emb (ix2 0 d)) = _
  refine congrArg _ (funext fun a => Fin.ext ?_)
  match a with
  | ⟨0, _⟩ => show win14_3.index t (0 : Fin 2) * 1 + 1 * 0 = 0; omega
  | ⟨1, _⟩ => show win14_3.index t (1 : Fin 2) * 128 + 1 * d.val = d.val; omega

theorem read_shift (c : Dev nD) (t : Fin cfg14.N) (d : Fin 128) :
    iblk14 V c 4 t (ix2 0 d) = (V c (Pipeline.arrRef spec14 4) : S1x128.Idx → EReal) (ix2 0 d) := by
  obtain ⟨-, -, -, -, -, -, -, -, e0, e1, -⟩ := idx_facts t
  show (V c (Pipeline.arrRef spec14 4) : S1x128.Idx → EReal) (((cfg14.win 4).blk t).view.emb (ix2 0 d)) = _
  refine congrArg _ (funext fun a => Fin.ext ?_)
  match a with
  | ⟨0, _⟩ => show win14_4.index t (0 : Fin 2) * 1 + 1 * 0 = 0; omega
  | ⟨1, _⟩ => show win14_4.index t (1 : Fin 2) * 128 + 1 * d.val = d.val; omega

theorem flushed_eq (c : Dev nD) (t : Fin cfg14.N) :
    (dat14 V c).flushed 5 t = ((cfg14.win 5).blk t).view.read (Elt Ideal) (result V c) := by
  show (cfg14.win 5).cut (grid14.coords t) ((dat14 V c).after 5 t) = _
  rw [after14_5]
  unfold out14_5
  rw [View.canon_unit_zero hz]
  simp only [View.ld_unit_zero (S := S5000x128) hz, View.ld_unit_zero (S := S1x128) hz]
  funext j
  obtain ⟨p, d, rfl⟩ : ∃ (p : Fin 5000) (d : Fin 128), j = ix2 p d := ⟨j 0, j 1, eq_ix2 j⟩
  show k14_pay1 (iblk14 V c 2 t) (iblk14 V c 0 t) (iblk14 V c 1 t) (iblk14 V c 3 t) (iblk14 V c 4 t) (ix2 p d)
      = result V c (((cfg14.win 5).blk t).view.emb (ix2 p d))
  rw [emb_out]
  refine (payload_apply (iblk14 V c 2 t) (iblk14 V c 0 t) (iblk14 V c 1 t) (iblk14 V c 3 t) (iblk14 V c 4 t) p d).trans ?_
  rw [read_x V c t p d, read_mean V c t d, read_var V c t d, read_scale V c t d, read_shift V c t d]
  rfl

theorem mem_blk (t : Fin cfg14.N) (i : S50000x128.Idx) :
    i ∈ ((cfg14.win 5).blk t).view.set ↔ ∀ a : Fin 2, win14_5.index t a * S5000x128.size a ≤ (i a).val
      ∧ (i a).val < win14_5.index t a * S5000x128.size a + S5000x128.size a := by
  show i ∈ ((View.whole (Pipeline.arrRef spec14 5)).slice (win14_5.rect t)).set ↔ _
  rw [View.set_slice_whole, Rect.mem_set_unit]
  exact Iff.rfl

theorem cover (i : S50000x128.Idx) :
    ∃ t : Fin cfg14.N, (cfg14.win 5).flush t = true ∧ i ∈ ((cfg14.win 5).blk t).view.set := by
  have hi0 : (i 0).val < 50000 := idx2_lt0 i
  have hi1 : (i 1).val < 128 := idx2_lt1 i
  have hN : (i 0).val / 5000 < cfg14.N := by show _ < grid14.N; rw [N_14]; omega
  obtain ⟨-, -, -, -, -, -, -, -, -, -, e0, e1⟩ := idx_facts ⟨(i 0).val / 5000, hN⟩
  refine ⟨⟨(i 0).val / 5000, hN⟩, flush14_5 _, ?_⟩
  rw [mem_blk]
  intro a
  match a with
  | ⟨0, _⟩ =>
    show win14_5.index ⟨(i 0).val / 5000, hN⟩ (0 : Fin 2) * 5000 ≤ (i 0).val
      ∧ (i 0).val < win14_5.index ⟨(i 0).val / 5000, hN⟩ (0 : Fin 2) * 5000 + 5000
    rw [e0]
    show (i 0).val / 5000 * 5000 ≤ (i 0).val ∧ (i 0).val < (i 0).val / 5000 * 5000 + 5000
    omega
  | ⟨1, _⟩ =>
    show win14_5.index ⟨(i 0).val / 5000, hN⟩ (1 : Fin 2) * 128 ≤ (i 1).val
      ∧ (i 1).val < win14_5.index ⟨(i 0).val / 5000, hN⟩ (1 : Fin 2) * 128 + 128
    omega

theorem value (c : Dev nD) :
    (dat14 V c).arrAt 5 cfg14.N
      = Cert.Spec.affine (V c (Pipeline.arrRef spec14 0))
          (chan (V c (Pipeline.arrRef spec14 1))) (chan (V c (Pipeline.arrRef spec14 2)))
          (chan (V c (Pipeline.arrRef spec14 3))) (chan (V c (Pipeline.arrRef spec14 4))) :=
  (dat14 V c).arrAt_eq_of_cover 5 (result V c) (fun t _ => flushed_eq V c t) cover

end Cert.KernelIdeal.Region14

end
-- ==== Proof.KLayer4.lean ====
/-
  The last layer of the kernel program as values, up to the exit of its normalisation region (no clip).
-/
import proofs.«402385_j8315056685617_1_alg».proof.Proof.Gen.KernelIdeal.Frame
import proofs.«402385_j8315056685617_1_alg».proof.Proof.Spec
import proofs.«402385_j8315056685617_1_alg».proof.Proof.Graph
import proofs.«402385_j8315056685617_1_alg».proof.Proof.Network
import proofs.«402385_j8315056685617_1_alg».proof.Proof.LayerLib
import proofs.«402385_j8315056685617_1_alg».proof.Proof.Region12
import proofs.«402385_j8315056685617_1_alg».proof.Proof.Region13
import proofs.«402385_j8315056685617_1_alg».proof.Proof.Region14
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Layer4

open Cert.KernelIdeal Cert.KernelIdeal.Gen
open Idealize.ShloMosaic Idealize.ShloMosaic.TcCoe Idealize.ShloMosaic.ValueIdx
open Idealize.SL.Sem
open Cert.KernelIdeal.LayerLib

variable (m : (ℓ : Loc nD τ sig) → Buf (Elt Ideal) ℓ) (ρ : Dev nD → PrngReg) (c : Dev nD)

abbrev thisLayer : Fin 5 := 4

section Stretches

variable (V : Valuation τ sig (Elt Ideal))

abbrev lookup_W : List (Ref sig .tc) :=
  [main_call5_c, main_call5_v0, main_call5_v1, main_call5_c_0, main_call5_v2, main_call5_v3, main_call5_v4, main_call5_v5,
   main_call5_c_1, main_call5_c_2, main_call5_v6, main_call5_v7, main_call5_v8, main_call5_v9, main_call5_v10, main_call5_v11,
   main_call5_c_3, main_call5_v12, main_call5_v13, main_call5_v14, main_call5_cst, main_call5_v15, main_v143]

theorem lookup_writes :
    (hostOps13 : List (HloOp τ sig (Elt Ideal))).Forall fun op => op.writes ⊆ (lookup_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem lookup_keeps (r : Ref sig .tc) (h : r ∉ lookup_W) :
    StableHlo.after hostOps13 V (Proc.devRef .tc r) = V (Proc.devRef .tc r) :=
  StableHlo.after_of_writes_sub hostOps13 V lookup_writes h

theorem typed_round_trip {T : BufTy} (x : StableHlo.TRef sig T) (v : T.Contents (Elt Ideal)) :
    x.ofBuf (x.toBuf v) = v := by
  obtain ⟨r, rfl, _, _⟩ := x
  rfl

theorem src_as_found (u : (main_v3 : Ref sig .tc).ty.Contents (Elt Ideal)) :
    (StableHlo.TRef.of main_v3 : StableHlo.TRef sig ⟨S850000, .i32⟩).ofBuf u = u := rfl

theorem product_as_found (u : (main_v142 : Ref sig .tc).ty.Contents (Elt Ideal)) :
    (StableHlo.TRef.of main_v142 : StableHlo.TRef sig ⟨S50000x128, .f32⟩).ofBuf u = u := rfl

theorem rows_as_written (v : (⟨S850000x128, .f32⟩ : BufTy).Contents (Elt Ideal)) :
    (StableHlo.TRef.of main_v143 : StableHlo.TRef sig ⟨S850000x128, .f32⟩).toBuf v = v := rfl

theorem lookup_rows :
    StableHlo.after hostOps13 V (Proc.devRef .tc main_v143)
      = Cert.Graph.sourceRowsChecked (F := Ideal) (V (Proc.devRef .tc main_v3)) (V (Proc.devRef .tc main_v142)) := by
  after_results_simp
  simp only [typed_round_trip, src_as_found, product_as_found, rows_as_written]
  rfl

abbrev accum_W : List (Ref sig .tc) :=
  [main_v144, main_v145, main_v146, main_cst_18, main_v147, main_v148, main_v149, main_v150, main_v151, main_v152]

theorem accum_writes :
    (hostOps13_1 : List (HloOp τ sig (Elt Ideal))).Forall fun op => op.writes ⊆ (accum_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem accum_keeps (r : Ref sig .tc) (h : r ∉ accum_W) :
    StableHlo.after hostOps13_1 V (Proc.devRef .tc r) = V (Proc.devRef .tc r) :=
  StableHlo.after_of_writes_sub hostOps13_1 V accum_writes h

theorem accum_sum :
    StableHlo.after hostOps13_1 V (Proc.devRef .tc main_v149)
      = Cert.Graph.accumulate (F := Ideal) (V (Proc.devRef .tc main_v6)) (V (Proc.devRef .tc main_v31)) (V (Proc.devRef .tc main_v143)) := by
  after_results
  rfl

theorem accum_bias :
    row (StableHlo.after hostOps13_1 V (Proc.devRef .tc main_v152))
      = Cert.Network.chan thisLayer (V (Proc.devRef .tc main_arg5)) := by
  after_results
  exact chan_slice thisLayer _ _ _ _

abbrev stats_W : List (Ref sig .tc) :=
  [main_cst_19, main_v154, main_v155, main_cst_20, main_v156, main_v157, main_v158, main_v159, main_v160, main_v161,
   main_v162, main_v163, main_v164, main_v165]

theorem stats_writes :
    (hostOps14 : List (HloOp τ sig (Elt Ideal))).Forall fun op => op.writes ⊆ (stats_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem stats_keeps (r : Ref sig .tc) (h : r ∉ stats_W) :
    StableHlo.after hostOps14 V (Proc.devRef .tc r) = V (Proc.devRef .tc r) :=
  StableHlo.after_of_writes_sub hostOps14 V stats_writes h

theorem stats_mean :
    row (StableHlo.after hostOps14 V (Proc.devRef .tc main_v155))
      = fun d => Ideal.div (row (V (Proc.devRef .tc main_v153_1)) d) Cert.Spec.count := by
  after_results
  rfl

theorem stats_var :
    row (StableHlo.after hostOps14 V (Proc.devRef .tc main_v159))
      = fun d => Ideal.div (row (V (Proc.devRef .tc main_v153_2)) d) Cert.Spec.count
          - Ideal.div (row (V (Proc.devRef .tc main_v153_1)) d) Cert.Spec.count
            * Ideal.div (row (V (Proc.devRef .tc main_v153_1)) d) Cert.Spec.count := by
  after_results
  rfl

theorem stats_scale :
    row (StableHlo.after hostOps14 V (Proc.devRef .tc main_v164))
      = Cert.Network.chan thisLayer (V (Proc.devRef .tc main_arg6)) := by
  after_results
  exact chan_slice thisLayer _ _ _ _

theorem stats_shift :
    row (StableHlo.after hostOps14 V (Proc.devRef .tc main_v165))
      = Cert.Network.chan thisLayer (V (Proc.devRef .tc main_arg7)) := by
  after_results
  exact chan_slice thisLayer _ _ _ _

end Stretches

structure Entry (H : Cert.Spec.Feat) (Wm : Cert.Spec.Weights.Idx → EReal) (R C : IVec Cert.Graph.S850000 32)
    (K : FVec Ideal Cert.Graph.S850000 .f32) : Prop where
  feat : W31 m ρ c (Proc.devRef .tc main_v139) = H
  wmat : W31 m ρ c (Proc.devRef .tc main_v141) = Wm
  src : W31 m ρ c (Proc.devRef .tc main_v3) = R
  tgt : W31 m ρ c (Proc.devRef .tc main_v6) = C
  coef : W31 m ρ c (Proc.devRef .tc main_v31) = K
  arg0 : W31 m ρ c (Proc.devRef .tc main_arg0) = m ((c : Thread nD τ).loc main_arg0)
  arg4 : W31 m ρ c (Proc.devRef .tc main_arg4) = m ((c : Thread nD τ).loc main_arg4)
  arg5 : W31 m ρ c (Proc.devRef .tc main_arg5) = m ((c : Thread nD τ).loc main_arg5)
  arg6 : W31 m ρ c (Proc.devRef .tc main_arg6) = m ((c : Thread nD τ).loc main_arg6)
  arg7 : W31 m ρ c (Proc.devRef .tc main_arg7) = m ((c : Thread nD τ).loc main_arg7)

abbrev bias : Cert.Spec.Chan := Cert.Network.chan thisLayer (m ((c : Thread nD τ).loc main_arg5))
abbrev scale : Cert.Spec.Chan := Cert.Network.chan thisLayer (m ((c : Thread nD τ).loc main_arg6))
abbrev shift : Cert.Spec.Chan := Cert.Network.chan thisLayer (m ((c : Thread nD τ).loc main_arg7))

abbrev biased (H : Cert.Spec.Feat) (Wm : Cert.Spec.Weights.Idx → EReal) (R C : IVec Cert.Graph.S850000 32)
    (K : FVec Ideal Cert.Graph.S850000 .f32) : Cert.Spec.Feat :=
  Cert.Spec.shifted (Cert.Graph.aggregateChecked R C K (Cert.Spec.product H Wm)) (bias m c)

section Kept

variable (r : Ref sig .tc)

theorem keep32 (g12 : ∀ w, Pipeline.arrRef spec12 w ≠ r) :
    W32 m ρ c (Proc.devRef .tc r) = W31 m ρ c (Proc.devRef .tc r) :=
  W32_of_ne m ρ c r g12

theorem keep33 (g12 : ∀ w, Pipeline.arrRef spec12 w ≠ r) (hl : r ∉ lookup_W) :
    W33 m ρ c (Proc.devRef .tc r) = W31 m ρ c (Proc.devRef .tc r) :=
  (lookup_keeps (W32 m ρ c) r hl).trans (keep32 m ρ c r g12)

theorem keep34 (g12 : ∀ w, Pipeline.arrRef spec12 w ≠ r) (hl : r ∉ lookup_W) (ha : r ∉ accum_W) :
    W34 m ρ c (Proc.devRef .tc r) = W31 m ρ c (Proc.devRef .tc r) :=
  (accum_keeps (W33 m ρ c) r ha).trans (keep33 m ρ c r g12 hl)

theorem keep35 (g12 : ∀ w, Pipeline.arrRef spec12 w ≠ r) (hl : r ∉ lookup_W) (ha : r ∉ accum_W)
    (g13 : ∀ w, Pipeline.arrRef spec13 w ≠ r) :
    W35 m ρ c (Proc.devRef .tc r) = W31 m ρ c (Proc.devRef .tc r) :=
  (W35_of_ne m ρ c r g13).trans (keep34 m ρ c r g12 hl ha)

theorem keep36 (g12 : ∀ w, Pipeline.arrRef spec12 w ≠ r) (hl : r ∉ lookup_W) (ha : r ∉ accum_W)
    (g13 : ∀ w, Pipeline.arrRef spec13 w ≠ r) (hs : r ∉ stats_W) :
    W36 m ρ c (Proc.devRef .tc r) = W31 m ρ c (Proc.devRef .tc r) :=
  (stats_keeps (W35 m ρ c) r hs).trans (keep35 m ρ c r g12 hl ha g13)

theorem keep37 (g12 : ∀ w, Pipeline.arrRef spec12 w ≠ r) (hl : r ∉ lookup_W) (ha : r ∉ accum_W)
    (g13 : ∀ w, Pipeline.arrRef spec13 w ≠ r) (hs : r ∉ stats_W) (g14 : ∀ w, Pipeline.arrRef spec14 w ≠ r) :
    W37 m ρ c (Proc.devRef .tc r) = W31 m ρ c (Proc.devRef .tc r) :=
  (W37_of_ne m ρ c r g14).trans (keep36 m ρ c r g12 hl ha g13 hs)

end Kept

variable {H : Cert.Spec.Feat} {Wm : Cert.Spec.Weights.Idx → EReal} {R C : IVec Cert.Graph.S850000 32}
  {K : FVec Ideal Cert.Graph.S850000 .f32}

theorem product_left (e : Entry m ρ c H Wm R C K) :
    W32 m ρ c (Proc.devRef .tc main_v142) = Cert.Spec.product H Wm :=
  (W32_arr m ρ c 2).trans <| (Cert.KernelIdeal.Region12.value (V31 m ρ) c).trans <| by
    show Cert.Spec.product (W31 m ρ c (Proc.devRef .tc main_v139)) (W31 m ρ c (Proc.devRef .tc main_v141)) = _
    rewrite [e.feat, e.wmat]
    rfl

theorem rows_looked_up (e : Entry m ρ c H Wm R C K) :
    W33 m ρ c (Proc.devRef .tc main_v143) = Cert.Graph.sourceRowsChecked (F := Ideal) R (Cert.Spec.product H Wm) := by
  show StableHlo.after hostOps13 (W32 m ρ c) (Proc.devRef .tc main_v143) = _
  rewrite [lookup_rows, keep32 m ρ c main_v3 (by decide), e.src, product_left m ρ c e]
  rfl

theorem aggregated (e : Entry m ρ c H Wm R C K) :
    W34 m ρ c (Proc.devRef .tc main_v149) = Cert.Graph.aggregateChecked (F := Ideal) R C K (Cert.Spec.product H Wm) := by
  show StableHlo.after hostOps13_1 (W33 m ρ c) (Proc.devRef .tc main_v149) = _
  rewrite [accum_sum, keep33 m ρ c main_v6 (by decide) (by decide), e.tgt,
    keep33 m ρ c main_v31 (by decide) (by decide), e.coef, rows_looked_up m ρ c e]
  rfl

theorem bias_row (e : Entry m ρ c H Wm R C K) :
    row (W34 m ρ c (Proc.devRef .tc main_v152)) = bias m c := by
  show row (StableHlo.after hostOps13_1 (W33 m ρ c) (Proc.devRef .tc main_v152)) = _
  rewrite [accum_bias, keep33 m ρ c main_arg5 (by decide) (by decide), e.arg5]
  rfl

theorem biased_found (e : Entry m ρ c H Wm R C K) :
    Cert.KernelIdeal.Region13.biased (V34 m ρ) c = biased m c H Wm R C K := by
  show Cert.Spec.shifted (W34 m ρ c (Proc.devRef .tc main_v149)) (row (W34 m ρ c (Proc.devRef .tc main_v152))) = _
  rewrite [aggregated m ρ c e, bias_row m ρ c e]
  rfl

theorem biased_left (e : Entry m ρ c H Wm R C K) :
    W35 m ρ c (Proc.devRef .tc main_v153_0) = biased m c H Wm R C K :=
  (W35_arr m ρ c 2).trans <| (Cert.KernelIdeal.Region13.value2 (V34 m ρ) c).trans (biased_found m ρ c e)

theorem sums_left (e : Entry m ρ c H Wm R C K) :
    row (W35 m ρ c (Proc.devRef .tc main_v153_1)) = Cert.Spec.colSum (biased m c H Wm R C K) :=
by
  have h : W35 m ρ c (Proc.devRef .tc main_v153_1)
      = (fun j => Cert.Spec.colSum (Cert.KernelIdeal.Region13.biased (V34 m ρ) c) (j 1) : S1x128.Idx → EReal) :=
    (W35_arr m ρ c 3).trans (Cert.KernelIdeal.Region13.value3 (V34 m ρ) c)
  funext d
  show W35 m ρ c (Proc.devRef .tc main_v153_1) (ix2 0 d) = _
  rw [h, biased_found m ρ c e]

theorem squares_left (e : Entry m ρ c H Wm R C K) :
    row (W35 m ρ c (Proc.devRef .tc main_v153_2)) = Cert.Spec.colSumSq (biased m c H Wm R C K) :=
by
  have h : W35 m ρ c (Proc.devRef .tc main_v153_2)
      = (fun j => Cert.Spec.colSumSq (Cert.KernelIdeal.Region13.biased (V34 m ρ) c) (j 1) : S1x128.Idx → EReal) :=
    (W35_arr m ρ c 4).trans (Cert.KernelIdeal.Region13.value4 (V34 m ρ) c)
  funext d
  show W35 m ρ c (Proc.devRef .tc main_v153_2) (ix2 0 d) = _
  rw [h, biased_found m ρ c e]

theorem biased_found_last (e : Entry m ρ c H Wm R C K) :
    W36 m ρ c (Proc.devRef .tc main_v153_0) = biased m c H Wm R C K :=
  (stats_keeps (W35 m ρ c) main_v153_0 (by decide)).trans (biased_left m ρ c e)

theorem mean_found (e : Entry m ρ c H Wm R C K) :
    row (W36 m ρ c (Proc.devRef .tc main_v155)) = Cert.Spec.mean (biased m c H Wm R C K) := by
  show row (StableHlo.after hostOps14 (W35 m ρ c) (Proc.devRef .tc main_v155)) = _
  rewrite [stats_mean, sums_left m ρ c e]
  rfl

theorem var_found (e : Entry m ρ c H Wm R C K) :
    row (W36 m ρ c (Proc.devRef .tc main_v159)) = Cert.Spec.varOfMoments (biased m c H Wm R C K) := by
  show row (StableHlo.after hostOps14 (W35 m ρ c) (Proc.devRef .tc main_v159)) = _
  rewrite [stats_var, sums_left m ρ c e, squares_left m ρ c e]
  rfl

theorem scale_found (e : Entry m ρ c H Wm R C K) :
    row (W36 m ρ c (Proc.devRef .tc main_v164)) = scale m c := by
  show row (StableHlo.after hostOps14 (W35 m ρ c) (Proc.devRef .tc main_v164)) = _
  rewrite [stats_scale, keep35 m ρ c main_arg6 (by decide) (by decide) (by decide) (by decide), e.arg6]
  rfl

theorem shift_found (e : Entry m ρ c H Wm R C K) :
    row (W36 m ρ c (Proc.devRef .tc main_v165)) = shift m c := by
  show row (StableHlo.after hostOps14 (W35 m ρ c) (Proc.devRef .tc main_v165)) = _
  rewrite [stats_shift, keep35 m ρ c main_arg7 (by decide) (by decide) (by decide) (by decide), e.arg7]
  rfl

theorem exit_feat (e : Entry m ρ c H Wm R C K) :
    W37 m ρ c (Proc.devRef .tc main_v166)
      = Cert.Spec.layer Cert.Spec.varOfMoments (Cert.Graph.aggregateChecked R C K) false H Wm
          (Cert.Network.chan thisLayer (m ((c : Thread nD τ).loc main_arg5)))
          (Cert.Network.chan thisLayer (m ((c : Thread nD τ).loc main_arg6)))
          (Cert.Network.chan thisLayer (m ((c : Thread nD τ).loc main_arg7))) :=
  (W37_arr m ρ c 5).trans <| (Cert.KernelIdeal.Region14.value (V36 m ρ) c).trans <| by
    show Cert.Spec.affine (W36 m ρ c (Proc.devRef .tc main_v153_0))
      (row (W36 m ρ c (Proc.devRef .tc main_v155))) (row (W36 m ρ c (Proc.devRef .tc main_v159)))
      (row (W36 m ρ c (Proc.devRef .tc main_v164))) (row (W36 m ρ c (Proc.devRef .tc main_v165))) = _
    rewrite [biased_found_last m ρ c e, mean_found m ρ c e, var_found m ρ c e, scale_found m ρ c e, shift_found m ρ c e]
    rfl

theorem exit_arg0 (e : Entry m ρ c H Wm R C K) :
    W37 m ρ c (Proc.devRef .tc main_arg0) = m ((c : Thread nD τ).loc main_arg0) :=
  (keep37 m ρ c main_arg0 (by decide) (by decide) (by decide) (by decide) (by decide) (by decide)).trans e.arg0

end Cert.KernelIdeal.Layer4

end
-- ==== Proof.Region15.lean ====
/-
  The pooling region: the indicator matrix of the graph ids times each block of 5000 node rows, summed over the
  ten blocks, is the per-graph sum of the feature rows.
-/
import proofs.«402385_j8315056685617_1_alg».proof.Proof.Gen.KernelIdeal.Frame
import proofs.«402385_j8315056685617_1_alg».proof.Proof.Spec
import proofs.«402385_j8315056685617_1_alg».proof.Proof.Pool
import Idealize.ShloMosaic.Lib.Pipeline.Value
import Idealize.ShloMosaic.Lib.ValueIdx
import Idealize.ShloMosaic.Lib.FinSumWindow
import Idealize.ShloMosaic.PureOps.Ideal.Laws
import Idealize.ShloMosaic.Lib.Tactic

set_option maxRecDepth 16384

noncomputable section

namespace Cert.KernelIdeal.Region15

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open scoped BigOperators

variable {F : FTy → Type} [FloatOps F]

theorem hz : (![0, 0] : Fin 2 → Nat) = fun _ => 0 := funext fun a => by fin_cases a <;> rfl

theorem found_later (c : Dev nD) (i : grid15.Coords) (a1 : Memref sig .tc .vmem S5000x128 .f32) (h1 : a1.IsWhole)
    (a2 : Memref sig .tc .vmem S5000x1 .i32) (h2 : a2.IsWhole) (a3 : Memref sig .tc .vmem S256x128 .f32) (h3 : a3.IsWhole)
    (hc : ¬cond15_0 i) (x0 : Vec F S5000x128 .f32) (x1 : Vec F S5000x1 .i32) (xo : Vec F S256x128 .f32) :
    out15_B_2 c i a1 h1 a2 h2 a3 h3 hc x0 x1 xo = k15_pay2 x1 x0 xo := by
  unfold out15_B_2
  rw [View.read_writes_eq_canon _ _ _ (cover15_B_2 c i a1 h1 a2 h2 a3 h3 hc x0 x1 xo)]
  unfold kernelRun15_B
  dsimp only
  sl_unfold_words
  rw [View.canon_unit_zero hz]
  simp only [View.readAt_eq_ld, h1.read_unread, h2.read_unread, h3.read_unread, View.ld_unit_zero (S := S5000x128) hz,
    View.ld_unit_zero (S := S5000x1) hz, View.ld_unit_zero (S := S256x128) hz]

theorem found_first (c : Dev nD) (i : grid15.Coords) (a1 : Memref sig .tc .vmem S5000x128 .f32) (h1 : a1.IsWhole)
    (a2 : Memref sig .tc .vmem S5000x1 .i32) (h2 : a2.IsWhole) (a3 : Memref sig .tc .vmem S256x128 .f32) (h3 : a3.IsWhole)
    (hc : cond15_0 i) (x0 : Vec F S5000x128 .f32) (x1 : Vec F S5000x1 .i32) :
    out15_A_2 c i a1 h1 a2 h2 a3 h3 hc x0 x1 = k15_pay2 x1 x0 (k15_pay1 (F := F)) := by
  unfold out15_A_2
  rw [View.read_writes_eq_canon _ _ _ (cover15_A_2 c i a1 h1 a2 h2 a3 h3 hc x0 x1)]
  unfold kernelRun15_A
  dsimp only
  sl_unfold_words
  rw [View.canon_cons_unit_zero (S := S256x128) hz]
  simp only [View.readAt_eq_ld, h1.read_unread, h2.read_unread, View.ld_unit_zero (S := S5000x128) hz,
    View.ld_unit_zero (S := S5000x1) hz, View.readCov_unit_zero (S := S256x128) _ hz]

def row (k : dot_S5000x256_S5000x128_S256x128_0_0_1_1_n_n.contr.Idx) : Fin 5000 :=
  contrEquiv1 dot_S5000x256_S5000x128_S256x128_0_0_1_1_n_n 5000 rfl rfl k

theorem sum_row {β : Type*} [AddCommMonoid β] (f : Fin 5000 → β) :
    ∑ k : dot_S5000x256_S5000x128_S256x128_0_0_1_1_n_n.contr.Idx, f (row k) = ∑ r : Fin 5000, f r :=
  Equiv.sum_comp (contrEquiv1 dot_S5000x256_S5000x128_S256x128_0_0_1_1_n_n 5000 rfl rfl) f

theorem left_0 (e : S256x128.Idx) (k : dot_S5000x256_S5000x128_S256x128_0_0_1_1_n_n.contr.Idx) :
    (dot_S5000x256_S5000x128_S256x128_0_0_1_1_n_n.lhsIdx e k 0).val = (row k).val :=
  dot_S5000x256_S5000x128_S256x128_0_0_1_1_n_n.lhsIdx_val_of_single (cl := 0) rfl e k

theorem left_1 (e : S256x128.Idx) (k : dot_S5000x256_S5000x128_S256x128_0_0_1_1_n_n.contr.Idx) :
    (dot_S5000x256_S5000x128_S256x128_0_0_1_1_n_n.lhsIdx e k 1).val = (e 0).val := rfl

theorem right_0 (e : S256x128.Idx) (k : dot_S5000x256_S5000x128_S256x128_0_0_1_1_n_n.contr.Idx) :
    (dot_S5000x256_S5000x128_S256x128_0_0_1_1_n_n.rhsIdx e k 0).val = (row k).val :=
  dot_S5000x256_S5000x128_S256x128_0_0_1_1_n_n.rhsIdx_val_of_single (cr := 0) rfl e k

theorem right_1 (e : S256x128.Idx) (k : dot_S5000x256_S5000x128_S256x128_0_0_1_1_n_n.contr.Idx) :
    (dot_S5000x256_S5000x128_S256x128_0_0_1_1_n_n.rhsIdx e k 1).val = (e 1).val := rfl

theorem left_at (g : Fin 256) (d : Fin 128) (k : dot_S5000x256_S5000x128_S256x128_0_0_1_1_n_n.contr.Idx) :
    dot_S5000x256_S5000x128_S256x128_0_0_1_1_n_n.lhsIdx (ix2 g d) k = ix2 (row k) g := by
  funext a
  apply Fin.ext
  match a with
  | ⟨0, _⟩ => exact left_0 (ix2 g d) k
  | ⟨1, _⟩ => exact left_1 (ix2 g d) k

theorem right_at (g : Fin 256) (d : Fin 128) (k : dot_S5000x256_S5000x128_S256x128_0_0_1_1_n_n.contr.Idx) :
    dot_S5000x256_S5000x128_S256x128_0_0_1_1_n_n.rhsIdx (ix2 g d) k = ix2 (row k) d := by
  funext a
  apply Fin.ext
  match a with
  | ⟨0, _⟩ => exact right_0 (ix2 g d) k
  | ⟨1, _⟩ => exact right_1 (ix2 g d) k

theorem matmul_rows {φ₁ φ₂ : FTy} (A : FVec Ideal S5000x256 φ₁) (B : FVec Ideal S5000x128 φ₂) (g : Fin 256) (d : Fin 128) :
    FloatOps.matmul dot_S5000x256_S5000x128_S256x128_0_0_1_1_n_n none A B (constant S256x128 .f32 0x00000000#32) (ix2 g d)
      = ∑ r : Fin 5000, A (ix2 r g) * B (ix2 r d) := by
  refine (Ideal.matmul_constant_zero_apply dot_S5000x256_S5000x128_S256x128_0_0_1_1_n_n none A B (ix2 g d)).trans ?_
  rw [← sum_row fun r => A (ix2 r g) * B (ix2 r d)]
  exact Finset.sum_congr rfl fun k _ => by rw [left_at, right_at]

theorem indicator_word (a b : BitVec 32) :
    ((((IntOp.cmpi .eq a b).setWidth 32).toInt : ℝ) : EReal) = if a = b then 1 else 0 := by
  unfold IntOp.cmpi
  by_cases h : a = b
  · subst h
    rw [if_pos rfl]
    simp
  · rw [if_neg h]
    have hb : (a == b) = false := by simpa using h
    simp [hb]

theorem indicator_apply (x1 : Vec Ideal S5000x1 .i32) (r : Fin 5000) (g : Fin 256) :
    (truncf .bf16 (sitofp .f32 (extui 32 (cmpi .eq
        (broadcastTo S5000x256 (shapeCast S5000x1 x1 shapeCasts_S5000x1_S5000x1) broadcasts_S5000x1_S5000x256)
        (iota .tc S5000x256 32 [1] iota_S5000x256_d1_w32)) natLt_1_32)) bitsLt_bf16_f32 : FVec Ideal S5000x256 .bf16) (ix2 r g)
      = if x1 (ix2 r 0) = BitVec.ofNat 32 g.val then 1 else 0 := by
  have hb : broadcastTo S5000x256 (shapeCast S5000x1 x1 shapeCasts_S5000x1_S5000x1) broadcasts_S5000x1_S5000x256 (ix2 r g)
      = x1 (ix2 r 0) := by
    rw [shapeCast_self]
    refine broadcastTo_apply x1 broadcasts_S5000x1_S5000x256 (ix2 r g) (ix2 r 0) fun a => ?_
    match a with
    | ⟨0, _⟩ => rfl
    | ⟨1, _⟩ => rfl
  have hi : iota .tc S5000x256 32 [1] iota_S5000x256_d1_w32 (ix2 r g) = BitVec.ofNat 32 g.val :=
    iota_single_apply .tc S5000x256 32 1 iota_S5000x256_d1_w32 (ix2 r g)
  show ((((IntOp.cmpi .eq
      (broadcastTo S5000x256 (shapeCast S5000x1 x1 shapeCasts_S5000x1_S5000x1) broadcasts_S5000x1_S5000x256 (ix2 r g))
      (iota .tc S5000x256 32 [1] iota_S5000x256_d1_w32 (ix2 r g))).setWidth 32).toInt : ℝ) : EReal) = _
  rw [hb, hi, indicator_word]

theorem pay2_apply (x1 : Vec Ideal S5000x1 .i32) (x0 : Vec Ideal S5000x128 .f32) (acc : Vec Ideal S256x128 .f32)
    (g : Fin 256) (d : Fin 128) :
    k15_pay2 (F := Ideal) x1 x0 acc (ix2 g d)
      = acc (ix2 g d) + ∑ r : Fin 5000, (if x1 (ix2 r 0) = BitVec.ofNat 32 g.val then x0 (ix2 r d) else 0) := by
  unfold k15_pay2
  dsimp only
  refine (addf_apply _ _ (ix2 g d)).trans ?_
  refine congrArg₂ (· + ·) (congrFun (shapeCast_self acc shapeCasts_S256x128_S256x128) (ix2 g d)) ?_
  refine (matmul_rows _ _ g d).trans ?_
  refine Finset.sum_congr rfl fun r _ => ?_
  refine (congrArg₂ (· * ·) (indicator_apply x1 r g)
    (congrFun (shapeCast_self x0 shapeCasts_S5000x128_S5000x128) (ix2 r d))).trans ?_
  by_cases hw : x1 (ix2 r 0) = BitVec.ofNat 32 g.val
  · rw [if_pos hw, if_pos hw, one_mul]
  · rw [if_neg hw, if_neg hw, zero_mul]

theorem pay1_apply (j : S256x128.Idx) : k15_pay1 (F := Ideal) j = 0 := Ideal.ofBits_zero_f32

section Run
variable (V : (c : Dev nD) → (b : Ref sig .tc) → Buf (Elt F) ((c : Thread nD τ).loc b))

abbrev harr (c : Dev nD) : Vec F S50000x128 .f32 := V c (Pipeline.arrRef spec15 0)
abbrev garr (c : Dev nD) : Vec F S50000x1 .i32 := V c (Pipeline.arrRef spec15 1)
abbrev hblk (c : Dev nD) (t : Fin cfg15.N) : Vec F S5000x128 .f32 := iblk15 V c 0 t
abbrev gblk (c : Dev nD) (t : Fin cfg15.N) : Vec F S5000x1 .i32 := iblk15 V c 1 t

theorem idx_facts : ∀ t : Fin cfg15.N, win15_0.index t (0 : Fin 2) = t.val ∧ win15_0.index t (1 : Fin 2) = 0
    ∧ win15_1.index t (0 : Fin 2) = t.val ∧ win15_1.index t (1 : Fin 2) = 0
    ∧ win15_2.index t (0 : Fin 2) = 0 ∧ win15_2.index t (1 : Fin 2) = 0 :=
  (by decide +kernel : ∀ t : Fin grid15.N, _)

theorem hblk_apply (c : Dev nD) (t : Fin cfg15.N) (r : Fin 5000) (d : Fin 128) (n : Fin 50000)
    (hn : n.val = 5000 * t.val + r.val) : hblk V c t (ix2 r d) = harr V c (ix2 n d) := by
  obtain ⟨e0, e1, -⟩ := idx_facts t
  show V c (Pipeline.arrRef spec15 0) (((cfg15.win 0).blk t).view.emb (ix2 r d)) = V c (Pipeline.arrRef spec15 0) (ix2 n d)
  refine congrArg _ (funext fun a => Fin.ext ?_)
  match a with
  | ⟨0, _⟩ => show win15_0.index t (0 : Fin 2) * 5000 + 1 * r.val = n.val; omega
  | ⟨1, _⟩ => show win15_0.index t (1 : Fin 2) * 128 + 1 * d.val = d.val; omega

theorem gblk_apply (c : Dev nD) (t : Fin cfg15.N) (r : Fin 5000) (n : Fin 50000)
    (hn : n.val = 5000 * t.val + r.val) : gblk V c t (ix2 r 0) = garr V c (ix2 n 0) := by
  obtain ⟨-, -, e0, e1, -⟩ := idx_facts t
  show V c (Pipeline.arrRef spec15 1) (((cfg15.win 1).blk t).view.emb (ix2 r 0)) = V c (Pipeline.arrRef spec15 1) (ix2 n 0)
  refine congrArg _ (funext fun a => Fin.ext ?_)
  match a with
  | ⟨0, _⟩ => show win15_1.index t (0 : Fin 2) * 5000 + 1 * r.val = n.val; omega
  | ⟨1, _⟩ => show win15_1.index t (1 : Fin 2) * 1 + 1 * 0 = 0; omega

end Run

section Value
variable (V : (c : Dev nD) → (b : Ref sig .tc) → Buf (Elt Ideal) ((c : Thread nD τ).loc b))

abbrev gids (c : Dev nD) : Fin 50000 → BitVec 32 := fun n => garr V c (ix2 n 0)

theorem npts : cfg15.N = 10 := N_15

theorem step (c : Dev nD) (t : Fin cfg15.N) (acc : Vec Ideal S256x128 .f32)
    (hacc : ∀ (g : Fin 256) (d : Fin 128),
      acc (ix2 g d) = Cert.Pool.pooledBelow (harr V c) (gids V c) (5000 * t.val) (ix2 g d))
    (g : Fin 256) (d : Fin 128) :
    k15_pay2 (F := Ideal) (gblk V c t) (hblk V c t) acc (ix2 g d)
      = Cert.Pool.pooledBelow (harr V c) (gids V c) (5000 * (t.val + 1)) (ix2 g d) := by
  have ht : t.val < 10 := lt_of_lt_of_eq t.isLt npts
  refine (pay2_apply (gblk V c t) (hblk V c t) acc g d).trans ?_
  rw [show 5000 * (t.val + 1) = 5000 * t.val + 5000 from by omega,
    Cert.Pool.pooledBelow_add (harr V c) (gids V c) (5000 * t.val) 5000 (by omega) g d, hacc g d]
  refine congrArg _ (Finset.sum_congr rfl fun r _ => ?_)
  have hr : r.val < 5000 := r.isLt
  rw [gblk_apply V c t r ⟨5000 * t.val + r.val, by omega⟩ rfl, hblk_apply V c t r d ⟨5000 * t.val + r.val, by omega⟩ rfl]

theorem outsAt_eq (c : Dev nD) : ∀ (n : ℕ) (hn : n < cfg15.N),
    outsAt15 V c n hn = Cert.Pool.pooledBelow (harr V c) (gids V c) (5000 * (n + 1))
  | 0, hn => by
    refine (outsAt15_A V c ⟨0, hn⟩ rfl).trans ?_
    refine (found_first (F := Ideal) c (grid15.coords ⟨0, hn⟩) (ms15_0 ⟨0, hn⟩) (hs15_0 ⟨0, hn⟩) (ms15_1 ⟨0, hn⟩)
      (hs15_1 ⟨0, hn⟩) (ms15_2 ⟨0, hn⟩) (hs15_2 ⟨0, hn⟩) ((hcond15_0 ⟨0, hn⟩).mpr rfl) (hblk V c ⟨0, hn⟩) (gblk V c ⟨0, hn⟩)).trans ?_
    funext j
    obtain ⟨g, d, rfl⟩ : ∃ (g : Fin 256) (d : Fin 128), j = ix2 g d := ⟨j 0, j 1, eq_ix2 j⟩
    exact step V c ⟨0, hn⟩ (k15_pay1 (F := Ideal))
      (fun g d => (pay1_apply (ix2 g d)).trans (Cert.Pool.pooledBelow_zero (harr V c) (gids V c) (ix2 g d)).symm) g d
  | n + 1, hn => by
    have hN : cfg15.N = 10 := npts
    have hB : ¬(⟨n + 1, hn⟩ : Fin cfg15.N).val % 10 = 0 := by dsimp only; omega
    refine (outsAt15_B V c ⟨n + 1, hn⟩ hB).trans ?_
    refine (found_later (F := Ideal) c (grid15.coords ⟨n + 1, hn⟩) (ms15_0 ⟨n + 1, hn⟩) (hs15_0 ⟨n + 1, hn⟩)
      (ms15_1 ⟨n + 1, hn⟩) (hs15_1 ⟨n + 1, hn⟩) (ms15_2 ⟨n + 1, hn⟩) (hs15_2 ⟨n + 1, hn⟩)
      (fun h => hB ((hcond15_0 ⟨n + 1, hn⟩).mp h)) (hblk V c ⟨n + 1, hn⟩) (gblk V c ⟨n + 1, hn⟩)
      (outsAt15 V c n (Nat.lt_of_succ_lt hn))).trans ?_
    funext j
    obtain ⟨g, d, rfl⟩ : ∃ (g : Fin 256) (d : Fin 128), j = ix2 g d := ⟨j 0, j 1, eq_ix2 j⟩
    exact step V c ⟨n + 1, hn⟩ (outsAt15 V c n (Nat.lt_of_succ_lt hn))
      (fun g d => congrFun (outsAt_eq c n (Nat.lt_of_succ_lt hn)) (ix2 g d)) g d

abbrev result (c : Dev nD) : Vec Ideal S256x128 .f32 := Cert.Pool.pooled (harr V c) (gids V c)

theorem cut_eq_read (t : Fin cfg15.N) (G : Vec Ideal S256x128 .f32) :
    (cfg15.win 2).cut (grid15.coords t) G = ((cfg15.win 2).blk t).view.read (Elt Ideal) G := by
  obtain ⟨-, -, -, -, e0, e1⟩ := idx_facts t
  funext j
  show G ((cfg15.win 2).xinj (grid15.coords t) j) = G (((cfg15.win 2).blk t).view.emb j)
  refine congrArg G (funext fun a => Fin.ext ?_)
  match a with
  | ⟨0, _⟩ => show (j 0).val = win15_2.index t (0 : Fin 2) * 256 + 1 * (j 0).val; omega
  | ⟨1, _⟩ => show (j 1).val = win15_2.index t (1 : Fin 2) * 128 + 1 * (j 1).val; omega

theorem flushed_eq (c : Dev nD) (t : Fin cfg15.N) (hf : (cfg15.win 2).flush t = true) :
    (dat15 V c).flushed 2 t = ((cfg15.win 2).blk t).view.read (Elt Ideal) (result V c) := by
  have hN : cfg15.N = 10 := npts
  have h9 : t.val = 9 := by have := (flush15_2 t).mp hf; have := t.isLt; omega
  show (cfg15.win 2).cut (grid15.coords t) ((dat15 V c).after 2 t) = _
  rw [after15_2, outsAt_eq V c t.val t.isLt, Cert.Pool.pooledBelow_all (harr V c) (gids V c) (by omega)]
  exact cut_eq_read t (result V c)

theorem mem_blk (t : Fin cfg15.N) (i : S256x128.Idx) :
    i ∈ ((cfg15.win 2).blk t).view.set ↔ ∀ a : Fin 2, win15_2.index t a * S256x128.size a ≤ (i a).val
      ∧ (i a).val < win15_2.index t a * S256x128.size a + S256x128.size a := by
  show i ∈ ((View.whole (Pipeline.arrRef spec15 2)).slice (win15_2.rect t)).set ↔ _
  rw [View.set_slice_whole, Rect.mem_set_unit]
  exact Iff.rfl

theorem value (c : Dev nD) :
    (dat15 (F := Ideal) V c).arrAt 2 cfg15.N
      = Cert.Pool.pooled (V c (Pipeline.arrRef spec15 0) : Vec Ideal S50000x128 .f32)
          (fun n => (V c (Pipeline.arrRef spec15 1) : Vec Ideal S50000x1 .i32) (ix2 n 0)) :=
  (dat15 V c).arrAt_eq_of_cover 2 (result V c) (flushed_eq V c) fun i => by
    have hN : cfg15.N = 10 := npts
    refine ⟨⟨9, by omega⟩, (flush15_2 _).mpr rfl, ?_⟩
    obtain ⟨-, -, -, -, e0, e1⟩ := idx_facts ⟨9, by omega⟩
    rw [mem_blk]
    intro a
    have h0 : (i 0).val < 256 := (i 0).isLt
    have h1 : (i 1).val < 128 := (i 1).isLt
    match a with
    | ⟨0, _⟩ =>
      show win15_2.index ⟨9, _⟩ (0 : Fin 2) * 256 ≤ (i 0).val ∧ (i 0).val < win15_2.index ⟨9, _⟩ (0 : Fin 2) * 256 + 256
      omega
    | ⟨1, _⟩ =>
      show win15_2.index ⟨9, _⟩ (1 : Fin 2) * 128 ≤ (i 1).val ∧ (i 1).val < win15_2.index ⟨9, _⟩ (1 : Fin 2) * 128 + 128
      omega

end Value

end Cert.KernelIdeal.Region15

end
-- ==== Proof.KPool.lean ====
/-
  The graph ids as a column, then the pooling region.
-/
import proofs.«402385_j8315056685617_1_alg».proof.Proof.Gen.KernelIdeal.Frame
import proofs.«402385_j8315056685617_1_alg».proof.Proof.Spec
import proofs.«402385_j8315056685617_1_alg».proof.Proof.Pool
import proofs.«402385_j8315056685617_1_alg».proof.Proof.Region15
import Idealize.ShloMosaic.Lib.StableHlo.Run
import Idealize.ShloMosaic.Lib.Pipeline.Value
import Idealize.ShloMosaic.Lib.ValueIdx

set_option maxRecDepth 16384

noncomputable section

namespace Cert.KernelIdeal.Chain

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg) (c : Dev nD)

theorem W38_feat : W38 m ρ c (Proc.devRef .tc main_v166) = W37 m ρ c (Proc.devRef .tc main_v166) := by
  show StableHlo.after hostOps15 _ (Proc.devRef .tc main_v166) = _
  after_results

theorem W38_column (n : Fin 50000) :
    W38 m ρ c (Proc.devRef .tc main_v167) (ix2 n 0) = W37 m ρ c (Proc.devRef .tc main_arg0) (ix1 n) := by
  have e : W38 m ρ c (Proc.devRef .tc main_v167)
      = shapeCast S50000x1 (W37 m ρ c (Proc.devRef .tc main_arg0)) shapeCasts_S50000_S50000x1 := by
    show StableHlo.after hostOps15 _ (Proc.devRef .tc main_v167) = _
    after_results
    rfl
  rw [e]
  refine shapeCast_apply _ _ (ix2 n 0) (ix1 n) ?_
  rw [Shape.rowMajor_val_two, Shape.rowMajor_val_one]
  show n.val = n.val * 1 + 0
  omega

theorem W39_feat : W39 m ρ c (Proc.devRef .tc main_v166) = W38 m ρ c (Proc.devRef .tc main_v166) :=
  (W39_arr m ρ c 0).trans (((dat15 (V38 m ρ) c).arrAt_in 0 rfl _).trans (A_eq15 (V38 m ρ) c 0))

theorem pool_step (H : Cert.Spec.Feat) (A0 : IVec S50000 32)
    (hH : W37 m ρ c (Proc.devRef .tc main_v166) = H) (h0 : W37 m ρ c (Proc.devRef .tc main_arg0) = A0) :
    W39 m ρ c (Proc.devRef .tc main_v166) = H
      ∧ W39 m ρ c (Proc.devRef .tc main_v168) = Cert.Pool.pooled H (fun n => A0 (Idealize.ShloMosaic.ValueIdx.ix1 n)) := by
  refine ⟨(W39_feat m ρ c).trans ((W38_feat m ρ c).trans hH), ?_⟩
  have hout : W39 m ρ c (Proc.devRef .tc main_v168) = (dat15 (V38 m ρ) c).arrAt 2 cfg15.N := W39_arr m ρ c 2
  rw [hout, Cert.KernelIdeal.Region15.value (V38 m ρ) c]
  have hfeat : V38 m ρ c (Pipeline.arrRef spec15 0) = H := (W38_feat m ρ c).trans hH
  have hcol : (fun n : Fin 50000 => V38 m ρ c (Pipeline.arrRef spec15 1) (ix2 n 0)) = fun n => A0 (ix1 n) :=
    funext fun n => (W38_column m ρ c n).trans (congrFun h0 (ix1 n))
  rw [hfeat, hcol]

end Cert.KernelIdeal.Chain

end
-- ==== Proof.KernelValue.lean ====
/-
  The kernel program's two results as functions of its arguments.
-/
import proofs.«402385_j8315056685617_1_alg».proof.Proof.Gen.KernelIdeal.Frame
import proofs.«402385_j8315056685617_1_alg».proof.Proof.Network
import proofs.«402385_j8315056685617_1_alg».proof.Proof.Graph
import proofs.«402385_j8315056685617_1_alg».proof.Proof.Pool
import proofs.«402385_j8315056685617_1_alg».proof.Proof.KPrologue
import proofs.«402385_j8315056685617_1_alg».proof.Proof.KLayer0
import proofs.«402385_j8315056685617_1_alg».proof.Proof.KLayer1
import proofs.«402385_j8315056685617_1_alg».proof.Proof.KLayer2
import proofs.«402385_j8315056685617_1_alg».proof.Proof.KLayer3
import proofs.«402385_j8315056685617_1_alg».proof.Proof.KLayer4
import proofs.«402385_j8315056685617_1_alg».proof.Proof.KPool

set_option maxRecDepth 16384

noncomputable section

namespace Cert.KernelIdeal.Chain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

abbrev graphIds : IVec S50000 32 := m ((c.tc : Thread nD τ).loc main_arg0)

abbrev inputFeatures : Cert.Spec.Feat := m ((c.tc : Thread nD τ).loc main_arg1)

abbrev edgeEnds : IVec S2x800000 32 := m ((c.tc : Thread nD τ).loc main_arg2)

abbrev edgeWeights : FVec Ideal S800000 .f32 := m ((c.tc : Thread nD τ).loc main_arg3)

abbrev weightStack : Cert.Network.WeightStack.Idx → EReal := m ((c.tc : Thread nD τ).loc main_arg4)
abbrev biasStack : Cert.Network.ChanStack.Idx → EReal := m ((c.tc : Thread nD τ).loc main_arg5)
abbrev scaleStack : Cert.Network.ChanStack.Idx → EReal := m ((c.tc : Thread nD τ).loc main_arg6)
abbrev shiftStack : Cert.Network.ChanStack.Idx → EReal := m ((c.tc : Thread nD τ).loc main_arg7)

abbrev aggChecked : Cert.Spec.Feat → Cert.Spec.Feat :=
  Cert.Graph.aggregateChecked (Cert.Graph.rows (edgeEnds m c)) (Cert.Graph.cols (edgeEnds m c))
    (Cert.Graph.coeff (edgeEnds m c) (edgeWeights m c))

def features : Cert.Spec.Feat :=
  Cert.Network.net Cert.Spec.varOfMoments (aggChecked m c) (inputFeatures m c) (weightStack m c) (biasStack m c)
    (scaleStack m c) (shiftStack m c)

theorem results :
    W39 m ρ c (Proc.devRef .tc main_v166) = features m c
      ∧ W39 m ρ c (Proc.devRef .tc main_v168)
          = Cert.Pool.pooled (features m c) (fun n => graphIds m c (ValueIdx.ix1 n)) := by
  have e0 : Cert.KernelIdeal.Layer0.Entry m ρ c (inputFeatures m c) (Cert.Network.weight 0 (weightStack m c))
      (Cert.Graph.rows (edgeEnds m c)) (Cert.Graph.cols (edgeEnds m c))
      (Cert.Graph.coeff (edgeEnds m c) (edgeWeights m c)) :=
    ⟨W3_arg1 m ρ c, W3_weight m ρ c, W3_rows m ρ c, W3_cols m ρ c, W3_coeff m ρ c, W3_arg0 m ρ c, W3_arg4 m ρ c,
      W3_arg5 m ρ c, W3_arg6 m ρ c, W3_arg7 m ρ c⟩
  have e1 := Cert.KernelIdeal.Layer1.Entry.mk (Cert.KernelIdeal.Layer0.exit_feat m ρ c e0)
    (Cert.KernelIdeal.Layer0.exit_wmat m ρ c e0) (Cert.KernelIdeal.Layer0.exit_src m ρ c e0)
    (Cert.KernelIdeal.Layer0.exit_tgt m ρ c e0) (Cert.KernelIdeal.Layer0.exit_coef m ρ c e0)
    (Cert.KernelIdeal.Layer0.exit_arg0 m ρ c e0) (Cert.KernelIdeal.Layer0.exit_arg4 m ρ c e0)
    (Cert.KernelIdeal.Layer0.exit_arg5 m ρ c e0) (Cert.KernelIdeal.Layer0.exit_arg6 m ρ c e0)
    (Cert.KernelIdeal.Layer0.exit_arg7 m ρ c e0)
  have e2 := Cert.KernelIdeal.Layer2.Entry.mk (Cert.KernelIdeal.Layer1.exit_feat m ρ c e1)
    (Cert.KernelIdeal.Layer1.exit_wmat m ρ c e1) (Cert.KernelIdeal.Layer1.exit_src m ρ c e1)
    (Cert.KernelIdeal.Layer1.exit_tgt m ρ c e1) (Cert.KernelIdeal.Layer1.exit_coef m ρ c e1)
    (Cert.KernelIdeal.Layer1.exit_arg0 m ρ c e1) (Cert.KernelIdeal.Layer1.exit_arg4 m ρ c e1)
    (Cert.KernelIdeal.Layer1.exit_arg5 m ρ c e1) (Cert.KernelIdeal.Layer1.exit_arg6 m ρ c e1)
    (Cert.KernelIdeal.Layer1.exit_arg7 m ρ c e1)
  have e3 := Cert.KernelIdeal.Layer3.Entry.mk (Cert.KernelIdeal.Layer2.exit_feat m ρ c e2)
    (Cert.KernelIdeal.Layer2.exit_wmat m ρ c e2) (Cert.KernelIdeal.Layer2.exit_src m ρ c e2)
    (Cert.KernelIdeal.Layer2.exit_tgt m ρ c e2) (Cert.KernelIdeal.Layer2.exit_coef m ρ c e2)
    (Cert.KernelIdeal.Layer2.exit_arg0 m ρ c e2) (Cert.KernelIdeal.Layer2.exit_arg4 m ρ c e2)
    (Cert.KernelIdeal.Layer2.exit_arg5 m ρ c e2) (Cert.KernelIdeal.Layer2.exit_arg6 m ρ c e2)
    (Cert.KernelIdeal.Layer2.exit_arg7 m ρ c e2)
  have e4 := Cert.KernelIdeal.Layer4.Entry.mk (Cert.KernelIdeal.Layer3.exit_feat m ρ c e3)
    (Cert.KernelIdeal.Layer3.exit_wmat m ρ c e3) (Cert.KernelIdeal.Layer3.exit_src m ρ c e3)
    (Cert.KernelIdeal.Layer3.exit_tgt m ρ c e3) (Cert.KernelIdeal.Layer3.exit_coef m ρ c e3)
    (Cert.KernelIdeal.Layer3.exit_arg0 m ρ c e3) (Cert.KernelIdeal.Layer3.exit_arg4 m ρ c e3)
    (Cert.KernelIdeal.Layer3.exit_arg5 m ρ c e3) (Cert.KernelIdeal.Layer3.exit_arg6 m ρ c e3)
    (Cert.KernelIdeal.Layer3.exit_arg7 m ρ c e3)
  have hpool := pool_step m ρ c _ _ (Cert.KernelIdeal.Layer4.exit_feat m ρ c e4) (Cert.KernelIdeal.Layer4.exit_arg0 m ρ c e4)
  unfold features Cert.Network.net Cert.Network.step
  exact hpool

theorem kernel_features : W39 m ρ c (Proc.devRef .tc main_v166) = features m c := (results m ρ c).1

theorem kernel_pooled :
    W39 m ρ c (Proc.devRef .tc main_v168) = Cert.Pool.pooled (features m c) (fun n => graphIds m c (ValueIdx.ix1 n)) :=
  (results m ρ c).2

end Cert.KernelIdeal.Chain

end
-- ==== Proof.RefStage0.lean ====
/-
  The reference's first 42 operations, run from any contents: the edge lists with the loop edges appended, and the
  edge coefficients, as the graph bookkeeping's functions of the two edge arguments.
-/
import proofs.«402385_j8315056685617_1_alg».proof.Proof.RefOps
import proofs.«402385_j8315056685617_1_alg».proof.Proof.Graph
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The given edge sources and targets as vectors, the loop edges' node numbers, and the loop edges' weight one. -/
def edgeSources (x2 : (⟨S2x800000, .i32⟩ : BufTy).Contents (Elt F)) : (⟨S800000, .i32⟩ : BufTy).Contents (Elt F) :=
  shapeCast _ (extractStridedSlice S1x800000 ![0, 0] x2 slices_S2x800000_S1x800000_0_0) shapeCasts_S1x800000_S800000
def edgeTargets (x2 : (⟨S2x800000, .i32⟩ : BufTy).Contents (Elt F)) : (⟨S800000, .i32⟩ : BufTy).Contents (Elt F) :=
  shapeCast _ (extractStridedSlice S1x800000 ![1, 0] x2 slices_S2x800000_S1x800000_1_0) shapeCasts_S1x800000_S800000
def loopIds : (⟨S50000, .i32⟩ : BufTy).Contents (Elt F) := iotaInDim S50000 32 0
def loopWeights : (⟨S50000, .f32⟩ : BufTy).Contents (Elt F) :=
  broadcastInDim S50000 ![] bcast_S_S50000 (constant (F := F) S_ .f32 0x3F800000#32)

theorem split0 (V : Valuation τ sig (Elt F)) :
    after ops0 V = after (ops0.drop 9) (after ((ops0.drop 6).take 3) (after ((ops0.drop 3).take 3) (after (ops0.take 3) V))) := rfl

theorem a_v2 (V : Valuation τ sig (Elt F)) (x2 : (⟨S2x800000, .i32⟩ : BufTy).Contents (Elt F)) (h2 : V (Proc.devRef .tc main_arg2) = x2) :
    after (ops0.take 3) V (Proc.devRef .tc main_v2) = edgeSources x2 := by
  show after [_, _, _] V _ = _
  after_results
  rw [h2]
  rfl

theorem a_v0 (V : Valuation τ sig (Elt F)) : after (ops0.take 3) V (Proc.devRef .tc main_v0) = loopIds := by
  show after [_, _, _] V _ = _
  after_results
  rfl

theorem a_arg2 (V : Valuation τ sig (Elt F)) : after (ops0.take 3) V (Proc.devRef .tc main_arg2) = V (Proc.devRef .tc main_arg2) := by
  show after [_, _, _] V _ = _
  after_results

theorem a_arg3 (V : Valuation τ sig (Elt F)) : after (ops0.take 3) V (Proc.devRef .tc main_arg3) = V (Proc.devRef .tc main_arg3) := by
  show after [_, _, _] V _ = _
  after_results

theorem b_v3 (V : Valuation τ sig (Elt F)) (x2 : (⟨S2x800000, .i32⟩ : BufTy).Contents (Elt F)) (hv2 : V (Proc.devRef .tc main_v2) = edgeSources x2)
    (hv0 : V (Proc.devRef .tc main_v0) = loopIds) :
    after ((ops0.drop 3).take 3) V (Proc.devRef .tc main_v3) = Cert.Graph.rows x2 := by
  show after [_, _, _] V _ = _
  after_results
  rw [hv2, hv0]
  rfl

theorem b_v5 (V : Valuation τ sig (Elt F)) (x2 : (⟨S2x800000, .i32⟩ : BufTy).Contents (Elt F)) (h2 : V (Proc.devRef .tc main_arg2) = x2) :
    after ((ops0.drop 3).take 3) V (Proc.devRef .tc main_v5) = edgeTargets x2 := by
  show after [_, _, _] V _ = _
  after_results
  rw [h2]
  rfl

theorem b_v0 (V : Valuation τ sig (Elt F)) : after ((ops0.drop 3).take 3) V (Proc.devRef .tc main_v0) = V (Proc.devRef .tc main_v0) := by
  show after [_, _, _] V _ = _
  after_results

theorem b_arg3 (V : Valuation τ sig (Elt F)) : after ((ops0.drop 3).take 3) V (Proc.devRef .tc main_arg3) = V (Proc.devRef .tc main_arg3) := by
  show after [_, _, _] V _ = _
  after_results

theorem c_v6 (V : Valuation τ sig (Elt F)) (x2 : (⟨S2x800000, .i32⟩ : BufTy).Contents (Elt F)) (hv5 : V (Proc.devRef .tc main_v5) = edgeTargets x2)
    (hv0 : V (Proc.devRef .tc main_v0) = loopIds) :
    after ((ops0.drop 6).take 3) V (Proc.devRef .tc main_v6) = Cert.Graph.cols x2 := by
  show after [_, _, _] V _ = _
  after_results
  rw [hv5, hv0]
  rfl

theorem c_v7 (V : Valuation τ sig (Elt F)) : after ((ops0.drop 6).take 3) V (Proc.devRef .tc main_v7) = loopWeights := by
  show after [_, _, _] V _ = _
  after_results
  rfl

theorem c_v3 (V : Valuation τ sig (Elt F)) : after ((ops0.drop 6).take 3) V (Proc.devRef .tc main_v3) = V (Proc.devRef .tc main_v3) := by
  show after [_, _, _] V _ = _
  after_results

theorem c_arg3 (V : Valuation τ sig (Elt F)) : after ((ops0.drop 6).take 3) V (Proc.devRef .tc main_arg3) = V (Proc.devRef .tc main_arg3) := by
  show after [_, _, _] V _ = _
  after_results

set_option maxRecDepth 8192 in
set_option maxHeartbeats 4000000 in

theorem d_v31 (V : Valuation τ sig (Elt F)) (x2 : (⟨S2x800000, .i32⟩ : BufTy).Contents (Elt F)) (x3 : (⟨S800000, .f32⟩ : BufTy).Contents (Elt F))
    (hv3 : V (Proc.devRef .tc main_v3) = Cert.Graph.rows x2) (hv6 : V (Proc.devRef .tc main_v6) = Cert.Graph.cols x2)
    (hv7 : V (Proc.devRef .tc main_v7) = loopWeights) (h3 : V (Proc.devRef .tc main_arg3) = x3) :
    after (ops0.drop 9) V (Proc.devRef .tc main_v31) = Cert.Graph.coeff x2 x3 := by
  show after [_, _, _, _, _, _, _, _, _, _, _, _, _, _, _, _, _, _, _, _, _, _, _, _, _, _, _, _, _, _, _, _, _] V _ = _
  after_results_simp
  simp only [TRef.ofBuf, TRef.toBuf, cast_eq]
  rw [hv3, hv6, hv7, h3]
  rfl

set_option maxHeartbeats 1000000 in
theorem d_v3 (V : Valuation τ sig (Elt F)) : after (ops0.drop 9) V (Proc.devRef .tc main_v3) = V (Proc.devRef .tc main_v3) := by
  show after [_, _, _, _, _, _, _, _, _, _, _, _, _, _, _, _, _, _, _, _, _, _, _, _, _, _, _, _, _, _, _, _, _] V _ = _
  after_results_simp

set_option maxHeartbeats 1000000 in
theorem d_v6 (V : Valuation τ sig (Elt F)) : after (ops0.drop 9) V (Proc.devRef .tc main_v6) = V (Proc.devRef .tc main_v6) := by
  show after [_, _, _, _, _, _, _, _, _, _, _, _, _, _, _, _, _, _, _, _, _, _, _, _, _, _, _, _, _, _, _, _, _] V _ = _
  after_results_simp

theorem chunk0_v3 (V : Valuation τ sig (Elt F)) (x2 : (⟨S2x800000, .i32⟩ : BufTy).Contents (Elt F)) (h2 : V (Proc.devRef .tc main_arg2) = x2) :
    after ops0 V (Proc.devRef .tc main_v3) = Cert.Graph.rows x2 := by
  refine (congrFun (split0 V) _).trans ?_
  rw [d_v3, c_v3]
  exact b_v3 _ x2 (a_v2 V x2 h2) (a_v0 V)

theorem chunk0_v6 (V : Valuation τ sig (Elt F)) (x2 : (⟨S2x800000, .i32⟩ : BufTy).Contents (Elt F)) (h2 : V (Proc.devRef .tc main_arg2) = x2) :
    after ops0 V (Proc.devRef .tc main_v6) = Cert.Graph.cols x2 := by
  refine (congrFun (split0 V) _).trans ?_
  rw [d_v6]
  exact c_v6 _ x2 (b_v5 _ x2 ((a_arg2 V).trans h2)) ((b_v0 _).trans (a_v0 V))

theorem chunk0_v31 (V : Valuation τ sig (Elt F)) (x2 : (⟨S2x800000, .i32⟩ : BufTy).Contents (Elt F)) (x3 : (⟨S800000, .f32⟩ : BufTy).Contents (Elt F)) (h2 : V (Proc.devRef .tc main_arg2) = x2) (h3 : V (Proc.devRef .tc main_arg3) = x3) :
    after ops0 V (Proc.devRef .tc main_v31) = Cert.Graph.coeff x2 x3 := by
  refine (congrFun (split0 V) _).trans ?_
  exact d_v31 _ x2 x3 ((c_v3 _).trans (b_v3 _ x2 (a_v2 V x2 h2) (a_v0 V)))
    (c_v6 _ x2 (b_v5 _ x2 ((a_arg2 V).trans h2)) ((b_v0 _).trans (a_v0 V))) (c_v7 _)
    ((c_arg3 _).trans ((b_arg3 _).trans ((a_arg3 V).trans h3)))

abbrev written0 : List (Ref sig .tc) :=
  [main_v0, main_v1, main_v2, main_v3, main_v4, main_v5, main_v6, main_cst, main_v7, main_v8, main_cst_0, main_v9, main_v10, main_v11, main_cst_1, main_v12, main_v13, main_v14, main_cst_2, main_call0_v0, main_call0_v1, main_v15, main_c, main_v16, main_v17, main_c_3, main_v18, main_v19, main_v20, main_v21, main_v22, main_v23, main_c_4, main_v24, main_v25, main_c_5, main_v26, main_v27, main_v28, main_v29, main_v30, main_v31]

set_option maxHeartbeats 1000000 in

theorem carry0 (V : Valuation τ sig (Elt F)) {b : Ref sig .tc} (hb : ∀ y ∈ written0, b ≠ y) :
    after ops0 V (Proc.devRef .tc b) = V (Proc.devRef .tc b) := by
  simp (disch := exact hb _ (by decide)) only [after_cons, after_nil, nullary_result_ne', unary_result_ne', binary_result_ne',
    ternary_result_ne', reshape_result_ne']

end Cert.ReferenceIdeal.RefRun

end
-- ==== Proof.RefLayer.lean ====
/-
  One layer of the reference written once over variables (product with the weights, aggregation, bias, normalisation,
  clip), a layer's slices of the stacked parameters, the pooling, and the five layers composed.
-/
import proofs.«402385_j8315056685617_1_alg».proof.Proof.Gen.ReferenceIdeal
import proofs.«402385_j8315056685617_1_alg».proof.Proof.Spec
import proofs.«402385_j8315056685617_1_alg».proof.Proof.Graph
import Idealize.ShloMosaic.Lib.Pipeline.Value
import Idealize.ShloMosaic.Lib.ValueIdx

noncomputable section

namespace Cert.ReferenceIdeal.RefNet

open Cert.ReferenceIdeal Cert.ReferenceIdeal.Gen Idealize.ShloMosaic Idealize.ShloMosaic.ValueIdx

abbrev Arr := FVec Ideal S50000x128 .f32
abbrev Mat := FVec Ideal S128x128 .f32
abbrev Row := FVec Ideal S128 .f32

section Ops

variable {F : FTy → Type} [FloatOps F]

def spread (v : FVec F S128 .f32) : FVec F S50000x128 .f32 :=
  broadcastInDim S50000x128 ![0, 1] bcast_S1x128_S50000x128_0_1 (broadcastInDim S1x128 ![1] bcast_S128_S1x128_1 v)

def chanConst (w : BitVec 32) : FVec F S128 .f32 := broadcastInDim S128 ![] bcast_S_S128 (constant (F := F) S_ .f32 w)

def colMean (x : FVec F S50000x128 .f32) : FVec F S128 .f32 :=
  Host.divf (Host.reduceAdd (F := F) x (constant (F := F) S_ .f32 0x00000000#32) reducesTo_S50000x128_S128_d0 h_S_)
    (chanConst 0x47435000#32)

def pre (agg : FVec F S50000x128 .f32 → FVec F S50000x128 .f32) (h : FVec F S50000x128 .f32) (w : FVec F S128x128 .f32) (b : FVec F S128 .f32) : FVec F S50000x128 .f32 :=
  addf (agg (Host.dotGeneral (F := F) dot_S50000x128_S128x128_S50000x128_1_0_0_1_n_n none h w)) (spread b)

def normOps (x : FVec F S50000x128 .f32) (g β : FVec F S128 .f32) : FVec F S50000x128 .f32 :=
  addf
    (mulf
      (mulf (subf x (spread (colMean x)))
        (spread (Host.rsqrt (addf (colMean (mulf (subf x (spread (colMean x))) (subf x (spread (colMean x)))))
          (chanConst 0x3727C5AC#32)))))
      (spread g))
    (spread β)

def clipOps (y : FVec F S50000x128 .f32) : FVec F S50000x128 .f32 :=
  maximumf y (broadcastInDim S50000x128 ![] bcast_S_S50000x128 (constant (F := F) S_ .f32 0x00000000#32))

def wslice (k : Nat) (hs : S5x128x128.Slices ![k, 0, 0] S1x128x128) (ws : FVec F S5x128x128 .f32) : FVec F S128x128 .f32 :=
  shapeCast S128x128 (extractStridedSlice S1x128x128 ![k, 0, 0] ws hs) shapeCasts_S1x128x128_S128x128

def cslice (k : Nat) (hs : S5x128.Slices ![k, 0] S1x128) (p : FVec F S5x128 .f32) : FVec F S128 .f32 :=
  shapeCast S128 (extractStridedSlice S1x128 ![k, 0] p hs) shapeCasts_S1x128_S128

/-- Layer k without the clip, from the stacked parameters. -/
def layerP (k : Nat) (hw : S5x128x128.Slices ![k, 0, 0] S1x128x128) (hc : S5x128.Slices ![k, 0] S1x128) (agg : FVec F S50000x128 .f32 → FVec F S50000x128 .f32)
    (h : FVec F S50000x128 .f32) (x4 : FVec F S5x128x128 .f32) (x5 x6 x7 : FVec F S5x128 .f32) : FVec F S50000x128 .f32 :=
  normOps (pre agg h (wslice k hw x4) (cslice k hc x5)) (cslice k hc x6) (cslice k hc x7)

/-- Layer k with the clip. -/
def layerC (k : Nat) (hw : S5x128x128.Slices ![k, 0, 0] S1x128x128) (hc : S5x128.Slices ![k, 0] S1x128) (agg : FVec F S50000x128 .f32 → FVec F S50000x128 .f32)
    (h : FVec F S50000x128 .f32) (x4 : FVec F S5x128x128 .f32) (x5 x6 x7 : FVec F S5x128 .f32) : FVec F S50000x128 .f32 :=
  clipOps (layerP k hw hc agg h x4 x5 x6 x7)

/-- The feature rows added into an array of zeros, each at its node's graph number. -/
def poolOps (x0 : (⟨S50000, .i32⟩ : BufTy).Contents (Elt F)) (h : FVec F S50000x128 .f32) : (⟨S256x128, .f32⟩ : BufTy).Contents (Elt F) :=
  Host.scatterAdd scatter_S256x128_S50000x1_S50000x128_1_0_0_1
    (broadcastInDim S256x128 ![] bcast_S_S256x128 (constant (F := F) S_ .f32 0x00000000#32))
    (broadcastInDim S50000x1 ![0] bcast_S50000_S50000x1_0 x0) h

end Ops

def row (v : Row) : Cert.Spec.Chan := fun d => v (ix1 d)

variable (x1 : (⟨S50000x128, .f32⟩ : BufTy).Contents (Elt Ideal)) (x2 : (⟨S2x800000, .i32⟩ : BufTy).Contents (Elt Ideal)) (x3 : (⟨S800000, .f32⟩ : BufTy).Contents (Elt Ideal))
  (x4 : (⟨S5x128x128, .f32⟩ : BufTy).Contents (Elt Ideal)) (x5 x6 x7 : (⟨S5x128, .f32⟩ : BufTy).Contents (Elt Ideal))

/-- The aggregation of the graph the arguments give. -/
abbrev agg : Arr → Arr := Cert.Graph.aggregate (Cert.Graph.rows x2) (Cert.Graph.cols x2) (Cert.Graph.coeff x2 x3)

def feat1 : Arr := layerC 0 slices_S5x128x128_S1x128x128_0_0_0 slices_S5x128_S1x128_0_0 (agg x2 x3) x1 x4 x5 x6 x7
def feat2 : Arr := layerC 1 slices_S5x128x128_S1x128x128_1_0_0 slices_S5x128_S1x128_1_0 (agg x2 x3) (feat1 x1 x2 x3 x4 x5 x6 x7) x4 x5 x6 x7
def feat3 : Arr := layerC 2 slices_S5x128x128_S1x128x128_2_0_0 slices_S5x128_S1x128_2_0 (agg x2 x3) (feat2 x1 x2 x3 x4 x5 x6 x7) x4 x5 x6 x7
def feat4 : Arr := layerC 3 slices_S5x128x128_S1x128x128_3_0_0 slices_S5x128_S1x128_3_0 (agg x2 x3) (feat3 x1 x2 x3 x4 x5 x6 x7) x4 x5 x6 x7
def feat5 : Arr := layerP 4 slices_S5x128x128_S1x128x128_4_0_0 slices_S5x128_S1x128_4_0 (agg x2 x3) (feat4 x1 x2 x3 x4 x5 x6 x7) x4 x5 x6 x7

end Cert.ReferenceIdeal.RefNet

end
-- ==== Proof.RefStage1.lean ====
/-
  Layer 0 of the reference as one chunk of its operations: run from any contents it ends at the layer's operations
  applied to what it found, and leaves every buffer it does not write alone.
-/
import proofs.«402385_j8315056685617_1_alg».proof.Proof.RefOps
import proofs.«402385_j8315056685617_1_alg».proof.Proof.RefLayer
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev written1 : List (Ref sig .tc) :=
  [main_v32, main_v33, main_v34, main_c_6, main_v35, main_v36, main_c_7, main_v37, main_v38, main_v39, main_v40, main_v41, main_v42, main_v43, main_v44, main_cst_8, main_v45, main_v46, main_v47, main_v48, main_v49, main_v50, main_v51, main_v52, main_v53, main_v54, main_v55, main_v56, main_cst_9, main_v57, main_cst_10, main_v58, main_v59, main_v60, main_v61, main_v62, main_v63, main_cst_11, main_v64, main_cst_12, main_v65, main_v66, main_v67, main_v68, main_v69, main_cst_13, main_v70, main_v71, main_v72, main_v73, main_v74, main_v75, main_v76, main_v77, main_v78, main_v79, main_v80, main_v81, main_call1_cst, main_call1_v0, main_v82]

theorem carry1 (V : Valuation τ sig (Elt F)) {b : Ref sig .tc} (hb : ∀ y ∈ written1, b ≠ y) :
    after ops1 V (Proc.devRef .tc b) = V (Proc.devRef .tc b) := by
  simp (disch := exact hb _ (by decide)) only [after_cons, after_nil, nullary_result_ne', unary_result_ne', binary_result_ne', ternary_result_ne', reshape_result_ne']

theorem chunk1_v82 (V : Valuation τ sig (Elt F)) (h : (⟨S50000x128, .f32⟩ : BufTy).Contents (Elt F)) (x4 : (⟨S5x128x128, .f32⟩ : BufTy).Contents (Elt F))
    (x5 x6 x7 : (⟨S5x128, .f32⟩ : BufTy).Contents (Elt F)) (R C : (⟨S850000, .i32⟩ : BufTy).Contents (Elt F)) (K : (⟨S850000, .f32⟩ : BufTy).Contents (Elt F))
    (hh : V (Proc.devRef .tc main_arg1) = h) (h4 : V (Proc.devRef .tc main_arg4) = x4) (h5 : V (Proc.devRef .tc main_arg5) = x5)
    (h6 : V (Proc.devRef .tc main_arg6) = x6) (h7 : V (Proc.devRef .tc main_arg7) = x7)
    (hv3 : V (Proc.devRef .tc main_v3) = R) (hv6 : V (Proc.devRef .tc main_v6) = C) (hv31 : V (Proc.devRef .tc main_v31) = K) :
    after ops1 V (Proc.devRef .tc main_v82)
      = RefNet.layerC 0 slices_S5x128x128_S1x128x128_0_0_0 slices_S5x128_S1x128_0_0 (Cert.Graph.aggregate R C K) h x4 x5 x6 x7 := by
  after_results_simp
  simp only [TRef.ofBuf, TRef.toBuf, cast_eq]
  rw [hh, h4, h5, h6, h7, hv3, hv6, hv31]
  rfl

end Cert.ReferenceIdeal.RefRun

end
-- ==== Proof.RefStage2.lean ====
/-
  Layer 1 of the reference as one chunk of its operations: run from any contents it ends at the layer's operations
  applied to what it found, and leaves every buffer it does not write alone.
-/
import proofs.«402385_j8315056685617_1_alg».proof.Proof.RefOps
import proofs.«402385_j8315056685617_1_alg».proof.Proof.RefLayer
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev written2 : List (Ref sig .tc) :=
  [main_v83, main_v84, main_v85, main_c_14, main_v86, main_v87, main_c_15, main_v88, main_v89, main_v90, main_v91, main_v92, main_v93, main_v94, main_v95, main_cst_16, main_v96, main_v97, main_v98, main_v99, main_v100, main_v101, main_v102, main_v103, main_v104, main_v105, main_v106, main_v107, main_cst_17, main_v108, main_cst_18, main_v109, main_v110, main_v111, main_v112, main_v113, main_v114, main_cst_19, main_v115, main_cst_20, main_v116, main_v117, main_v118, main_v119, main_v120, main_cst_21, main_v121, main_v122, main_v123, main_v124, main_v125, main_v126, main_v127, main_v128, main_v129, main_v130, main_v131, main_v132, main_call2_cst, main_call2_v0, main_v133]

theorem carry2 (V : Valuation τ sig (Elt F)) {b : Ref sig .tc} (hb : ∀ y ∈ written2, b ≠ y) :
    after ops2 V (Proc.devRef .tc b) = V (Proc.devRef .tc b) := by
  simp (disch := exact hb _ (by decide)) only [after_cons, after_nil, nullary_result_ne', unary_result_ne', binary_result_ne', ternary_result_ne', reshape_result_ne']

theorem chunk2_v133 (V : Valuation τ sig (Elt F)) (h : (⟨S50000x128, .f32⟩ : BufTy).Contents (Elt F)) (x4 : (⟨S5x128x128, .f32⟩ : BufTy).Contents (Elt F))
    (x5 x6 x7 : (⟨S5x128, .f32⟩ : BufTy).Contents (Elt F)) (R C : (⟨S850000, .i32⟩ : BufTy).Contents (Elt F)) (K : (⟨S850000, .f32⟩ : BufTy).Contents (Elt F))
    (hh : V (Proc.devRef .tc main_v82) = h) (h4 : V (Proc.devRef .tc main_arg4) = x4) (h5 : V (Proc.devRef .tc main_arg5) = x5)
    (h6 : V (Proc.devRef .tc main_arg6) = x6) (h7 : V (Proc.devRef .tc main_arg7) = x7)
    (hv3 : V (Proc.devRef .tc main_v3) = R) (hv6 : V (Proc.devRef .tc main_v6) = C) (hv31 : V (Proc.devRef .tc main_v31) = K) :
    after ops2 V (Proc.devRef .tc main_v133)
      = RefNet.layerC 1 slices_S5x128x128_S1x128x128_1_0_0 slices_S5x128_S1x128_1_0 (Cert.Graph.aggregate R C K) h x4 x5 x6 x7 := by
  after_results_simp
  simp only [TRef.ofBuf, TRef.toBuf, cast_eq]
  rw [hh, h4, h5, h6, h7, hv3, hv6, hv31]
  rfl

end Cert.ReferenceIdeal.RefRun

end
-- ==== Proof.RefStage3.lean ====
/-
  Layer 2 of the reference as one chunk of its operations: run from any contents it ends at the layer's operations
  applied to what it found, and leaves every buffer it does not write alone.
-/
import proofs.«402385_j8315056685617_1_alg».proof.Proof.RefOps
import proofs.«402385_j8315056685617_1_alg».proof.Proof.RefLayer
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev written3 : List (Ref sig .tc) :=
  [main_v134, main_v135, main_v136, main_c_22, main_v137, main_v138, main_c_23, main_v139, main_v140, main_v141, main_v142, main_v143, main_v144, main_v145, main_v146, main_cst_24, main_v147, main_v148, main_v149, main_v150, main_v151, main_v152, main_v153, main_v154, main_v155, main_v156, main_v157, main_v158, main_cst_25, main_v159, main_cst_26, main_v160, main_v161, main_v162, main_v163, main_v164, main_v165, main_cst_27, main_v166, main_cst_28, main_v167, main_v168, main_v169, main_v170, main_v171, main_cst_29, main_v172, main_v173, main_v174, main_v175, main_v176, main_v177, main_v178, main_v179, main_v180, main_v181, main_v182, main_v183, main_call3_cst, main_call3_v0, main_v184]

theorem carry3 (V : Valuation τ sig (Elt F)) {b : Ref sig .tc} (hb : ∀ y ∈ written3, b ≠ y) :
    after ops3 V (Proc.devRef .tc b) = V (Proc.devRef .tc b) := by
  simp (disch := exact hb _ (by decide)) only [after_cons, after_nil, nullary_result_ne', unary_result_ne', binary_result_ne', ternary_result_ne', reshape_result_ne']

theorem chunk3_v184 (V : Valuation τ sig (Elt F)) (h : (⟨S50000x128, .f32⟩ : BufTy).Contents (Elt F)) (x4 : (⟨S5x128x128, .f32⟩ : BufTy).Contents (Elt F))
    (x5 x6 x7 : (⟨S5x128, .f32⟩ : BufTy).Contents (Elt F)) (R C : (⟨S850000, .i32⟩ : BufTy).Contents (Elt F)) (K : (⟨S850000, .f32⟩ : BufTy).Contents (Elt F))
    (hh : V (Proc.devRef .tc main_v133) = h) (h4 : V (Proc.devRef .tc main_arg4) = x4) (h5 : V (Proc.devRef .tc main_arg5) = x5)
    (h6 : V (Proc.devRef .tc main_arg6) = x6) (h7 : V (Proc.devRef .tc main_arg7) = x7)
    (hv3 : V (Proc.devRef .tc main_v3) = R) (hv6 : V (Proc.devRef .tc main_v6) = C) (hv31 : V (Proc.devRef .tc main_v31) = K) :
    after ops3 V (Proc.devRef .tc main_v184)
      = RefNet.layerC 2 slices_S5x128x128_S1x128x128_2_0_0 slices_S5x128_S1x128_2_0 (Cert.Graph.aggregate R C K) h x4 x5 x6 x7 := by
  after_results_simp
  simp only [TRef.ofBuf, TRef.toBuf, cast_eq]
  rw [hh, h4, h5, h6, h7, hv3, hv6, hv31]
  rfl

end Cert.ReferenceIdeal.RefRun

end
-- ==== Proof.RefStage4.lean ====
/-
  Layer 3 of the reference as one chunk of its operations: run from any contents it ends at the layer's operations
  applied to what it found, and leaves every buffer it does not write alone.
-/
import proofs.«402385_j8315056685617_1_alg».proof.Proof.RefOps
import proofs.«402385_j8315056685617_1_alg».proof.Proof.RefLayer
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev written4 : List (Ref sig .tc) :=
  [main_v185, main_v186, main_v187, main_c_30, main_v188, main_v189, main_c_31, main_v190, main_v191, main_v192, main_v193, main_v194, main_v195, main_v196, main_v197, main_cst_32, main_v198, main_v199, main_v200, main_v201, main_v202, main_v203, main_v204, main_v205, main_v206, main_v207, main_v208, main_v209, main_cst_33, main_v210, main_cst_34, main_v211, main_v212, main_v213, main_v214, main_v215, main_v216, main_cst_35, main_v217, main_cst_36, main_v218, main_v219, main_v220, main_v221, main_v222, main_cst_37, main_v223, main_v224, main_v225, main_v226, main_v227, main_v228, main_v229, main_v230, main_v231, main_v232, main_v233, main_v234, main_call4_cst, main_call4_v0, main_v235]

theorem carry4 (V : Valuation τ sig (Elt F)) {b : Ref sig .tc} (hb : ∀ y ∈ written4, b ≠ y) :
    after ops4 V (Proc.devRef .tc b) = V (Proc.devRef .tc b) := by
  simp (disch := exact hb _ (by decide)) only [after_cons, after_nil, nullary_result_ne', unary_result_ne', binary_result_ne', ternary_result_ne', reshape_result_ne']

theorem chunk4_v235 (V : Valuation τ sig (Elt F)) (h : (⟨S50000x128, .f32⟩ : BufTy).Contents (Elt F)) (x4 : (⟨S5x128x128, .f32⟩ : BufTy).Contents (Elt F))
    (x5 x6 x7 : (⟨S5x128, .f32⟩ : BufTy).Contents (Elt F)) (R C : (⟨S850000, .i32⟩ : BufTy).Contents (Elt F)) (K : (⟨S850000, .f32⟩ : BufTy).Contents (Elt F))
    (hh : V (Proc.devRef .tc main_v184) = h) (h4 : V (Proc.devRef .tc main_arg4) = x4) (h5 : V (Proc.devRef .tc main_arg5) = x5)
    (h6 : V (Proc.devRef .tc main_arg6) = x6) (h7 : V (Proc.devRef .tc main_arg7) = x7)
    (hv3 : V (Proc.devRef .tc main_v3) = R) (hv6 : V (Proc.devRef .tc main_v6) = C) (hv31 : V (Proc.devRef .tc main_v31) = K) :
    after ops4 V (Proc.devRef .tc main_v235)
      = RefNet.layerC 3 slices_S5x128x128_S1x128x128_3_0_0 slices_S5x128_S1x128_3_0 (Cert.Graph.aggregate R C K) h x4 x5 x6 x7 := by
  after_results_simp
  simp only [TRef.ofBuf, TRef.toBuf, cast_eq]
  rw [hh, h4, h5, h6, h7, hv3, hv6, hv31]
  rfl

end Cert.ReferenceIdeal.RefRun

end
-- ==== Proof.RefStage5.lean ====
/-
  Layer 4 of the reference as one chunk of its operations: run from any contents it ends at the layer's operations
  applied to what it found, and leaves every buffer it does not write alone.
-/
import proofs.«402385_j8315056685617_1_alg».proof.Proof.RefOps
import proofs.«402385_j8315056685617_1_alg».proof.Proof.RefLayer
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev written5 : List (Ref sig .tc) :=
  [main_v236, main_v237, main_v238, main_c_38, main_v239, main_v240, main_c_39, main_v241, main_v242, main_v243, main_v244, main_v245, main_v246, main_v247, main_v248, main_cst_40, main_v249, main_v250, main_v251, main_v252, main_v253, main_v254, main_v255, main_v256, main_v257, main_v258, main_v259, main_v260, main_cst_41, main_v261, main_cst_42, main_v262, main_v263, main_v264, main_v265, main_v266, main_v267, main_cst_43, main_v268, main_cst_44, main_v269, main_v270, main_v271, main_v272, main_v273, main_cst_45, main_v274, main_v275, main_v276, main_v277, main_v278, main_v279, main_v280, main_v281, main_v282, main_v283, main_v284, main_v285]

theorem carry5 (V : Valuation τ sig (Elt F)) {b : Ref sig .tc} (hb : ∀ y ∈ written5, b ≠ y) :
    after ops5 V (Proc.devRef .tc b) = V (Proc.devRef .tc b) := by
  simp (disch := exact hb _ (by decide)) only [after_cons, after_nil, nullary_result_ne', unary_result_ne', binary_result_ne', ternary_result_ne', reshape_result_ne']

theorem chunk5_v285 (V : Valuation τ sig (Elt F)) (h : (⟨S50000x128, .f32⟩ : BufTy).Contents (Elt F)) (x4 : (⟨S5x128x128, .f32⟩ : BufTy).Contents (Elt F))
    (x5 x6 x7 : (⟨S5x128, .f32⟩ : BufTy).Contents (Elt F)) (R C : (⟨S850000, .i32⟩ : BufTy).Contents (Elt F)) (K : (⟨S850000, .f32⟩ : BufTy).Contents (Elt F))
    (hh : V (Proc.devRef .tc main_v235) = h) (h4 : V (Proc.devRef .tc main_arg4) = x4) (h5 : V (Proc.devRef .tc main_arg5) = x5)
    (h6 : V (Proc.devRef .tc main_arg6) = x6) (h7 : V (Proc.devRef .tc main_arg7) = x7)
    (hv3 : V (Proc.devRef .tc main_v3) = R) (hv6 : V (Proc.devRef .tc main_v6) = C) (hv31 : V (Proc.devRef .tc main_v31) = K) :
    after ops5 V (Proc.devRef .tc main_v285)
      = RefNet.layerP 4 slices_S5x128x128_S1x128x128_4_0_0 slices_S5x128_S1x128_4_0 (Cert.Graph.aggregate R C K) h x4 x5 x6 x7 := by
  after_results_simp
  rw [hh, h4, h5, h6, h7, hv3, hv6, hv31]
  rfl

end Cert.ReferenceIdeal.RefRun

end
-- ==== Proof.RefStage6.lean ====
/-
  The reference's pooling chunk, run from any contents.
-/
import proofs.«402385_j8315056685617_1_alg».proof.Proof.RefOps
import proofs.«402385_j8315056685617_1_alg».proof.Proof.RefLayer
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev written6 : List (Ref sig .tc) :=
  [main_cst_46, main_v286, main_v287, main_v288]

theorem carry6 (V : Valuation τ sig (Elt F)) {b : Ref sig .tc} (hb : ∀ y ∈ written6, b ≠ y) :
    after ops6 V (Proc.devRef .tc b) = V (Proc.devRef .tc b) := by
  simp (disch := exact hb _ (by decide)) only [after_cons, after_nil, nullary_result_ne', unary_result_ne', binary_result_ne', ternary_result_ne', reshape_result_ne']

theorem chunk6_v288 (V : Valuation τ sig (Elt F)) (x0 : (⟨S50000, .i32⟩ : BufTy).Contents (Elt F)) (h : (⟨S50000x128, .f32⟩ : BufTy).Contents (Elt F))
    (h0 : V (Proc.devRef .tc main_arg0) = x0) (hprev : V (Proc.devRef .tc main_v285) = h) :
    after ops6 V (Proc.devRef .tc main_v288) = RefNet.poolOps x0 h := by
  after_results_simp
  rw [h0, hprev]
  rfl

end Cert.ReferenceIdeal.RefRun

end
-- ==== Proof.RefStages.lean ====
/-
  The reference's run as seven consecutive chunks, each started from what the one before left.
-/
import proofs.«402385_j8315056685617_1_alg».proof.Proof.RefStage0
import proofs.«402385_j8315056685617_1_alg».proof.Proof.RefStage1
import proofs.«402385_j8315056685617_1_alg».proof.Proof.RefStage2
import proofs.«402385_j8315056685617_1_alg».proof.Proof.RefStage3
import proofs.«402385_j8315056685617_1_alg».proof.Proof.RefStage4
import proofs.«402385_j8315056685617_1_alg».proof.Proof.RefStage5
import proofs.«402385_j8315056685617_1_alg».proof.Proof.RefStage6
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

/-- Buffers are numbered in program order: one numbered below everything in a list is not in the list. -/
theorem ne_of_idx_lt {W : List (Ref sig .tc)} {n : Nat} (hW : ∀ y ∈ W, n ≤ y.idx.val) {b : Ref sig .tc}
    (hb : b.idx.val < n) : ∀ y ∈ W, b ≠ y := by
  intro y hy e
  subst e
  exact absurd (hW _ hy) (Nat.not_le.mpr hb)

theorem written0_lo : ∀ y ∈ written0, 8 ≤ y.idx.val := by decide +kernel
theorem written1_lo : ∀ y ∈ written1, 50 ≤ y.idx.val := by decide +kernel
theorem written2_lo : ∀ y ∈ written2, 111 ≤ y.idx.val := by decide +kernel
theorem written3_lo : ∀ y ∈ written3, 172 ≤ y.idx.val := by decide +kernel
theorem written4_lo : ∀ y ∈ written4, 233 ≤ y.idx.val := by decide +kernel
theorem written5_lo : ∀ y ∈ written5, 294 ≤ y.idx.val := by decide +kernel
theorem written6_lo : ∀ y ∈ written6, 352 ≤ y.idx.val := by decide +kernel

section Chunks

variable (m : (ℓ : Loc nD τ sig) → Buf (Elt Ideal) ℓ) (c : Dev nD)

abbrev arg (b : Ref sig .tc) : Buf (Elt Ideal) ((c.tc : Thread nD τ).loc b) := m ((c.tc : Thread nD τ).loc b)

abbrev R0 : Valuation τ sig (Elt Ideal) := launchContents m c
abbrev R1 : Valuation τ sig (Elt Ideal) := after ops0 (R0 m c)
abbrev R2 : Valuation τ sig (Elt Ideal) := after ops1 (R1 m c)
abbrev R3 : Valuation τ sig (Elt Ideal) := after ops2 (R2 m c)
abbrev R4 : Valuation τ sig (Elt Ideal) := after ops3 (R3 m c)
abbrev R5 : Valuation τ sig (Elt Ideal) := after ops4 (R4 m c)
abbrev R6 : Valuation τ sig (Elt Ideal) := after ops5 (R5 m c)
abbrev R7 : Valuation τ sig (Elt Ideal) := after ops6 (R6 m c)

theorem after_all :
    after (ops0 ++ ops1 ++ ops2 ++ ops3 ++ ops4 ++ ops5 ++ ops6) (launchContents m c) = R7 m c := by
  rw [after_append, after_append, after_append, after_append, after_append, after_append]

/-- Contents that hold the arguments as launched and the graph's sources, targets and coefficients. -/
def Carried (V : Valuation τ sig (Elt Ideal)) : Prop :=
  (∀ b : Ref sig .tc, b.idx.val < 8 → V (Proc.devRef .tc b) = arg m c b)
  ∧ V (Proc.devRef .tc main_v3) = Cert.Graph.rows (arg m c main_arg2)
  ∧ V (Proc.devRef .tc main_v6) = Cert.Graph.cols (arg m c main_arg2)
  ∧ V (Proc.devRef .tc main_v31) = Cert.Graph.coeff (F := Ideal) (arg m c main_arg2) (arg m c main_arg3)

/-- A chunk that writes only buffers numbered from 50 on carries them. -/
theorem Carried.step {m : (ℓ : Loc nD τ sig) → Buf (Elt Ideal) ℓ} {c : Dev nD} {ops : List (HloOp τ sig (Elt Ideal))} {W : List (Ref sig .tc)} {n : Nat}
    (hk : ∀ (V : Valuation τ sig (Elt Ideal)) {b : Ref sig .tc}, (∀ y ∈ W, b ≠ y) → after ops V (Proc.devRef .tc b) = V (Proc.devRef .tc b))
    (hW : ∀ y ∈ W, n ≤ y.idx.val) (hn : 50 ≤ n) {V : Valuation τ sig (Elt Ideal)} (h : Carried m c V) :
    Carried m c (after ops V) :=
  ⟨fun b hb => (hk V (ne_of_idx_lt hW (by omega))).trans (h.1 b hb),
    (hk V (ne_of_idx_lt hW (lt_of_lt_of_le (by decide) hn))).trans h.2.1,
    (hk V (ne_of_idx_lt hW (lt_of_lt_of_le (by decide) hn))).trans h.2.2.1,
    (hk V (ne_of_idx_lt hW (lt_of_lt_of_le (by decide) hn))).trans h.2.2.2⟩

theorem C1 : Carried m c (R1 m c) :=
  ⟨fun b hb => carry0 _ (ne_of_idx_lt written0_lo hb), chunk0_v3 _ _ rfl, chunk0_v6 _ _ rfl, chunk0_v31 _ _ _ rfl rfl⟩
theorem C2 : Carried m c (R2 m c) := (C1 m c).step carry1 written1_lo (by decide)
theorem C3 : Carried m c (R3 m c) := (C2 m c).step carry2 written2_lo (by decide)
theorem C4 : Carried m c (R4 m c) := (C3 m c).step carry3 written3_lo (by decide)
theorem C5 : Carried m c (R5 m c) := (C4 m c).step carry4 written4_lo (by decide)
theorem C6 : Carried m c (R6 m c) := (C5 m c).step carry5 written5_lo (by decide)

/-- Each layer's chunk ends at the layer applied to the features before it. -/
theorem R2_v82 : R2 m c (Proc.devRef .tc main_v82) = RefNet.feat1 (arg m c main_arg1) (arg m c main_arg2) (arg m c main_arg3) (arg m c main_arg4) (arg m c main_arg5) (arg m c main_arg6) (arg m c main_arg7) := by
  obtain ⟨ha, h3, h6, h31⟩ := C1 m c
  exact chunk1_v82 _ _ _ _ _ _ _ _ _ (ha _ (by decide)) (ha _ (by decide)) (ha _ (by decide)) (ha _ (by decide)) (ha _ (by decide)) h3 h6 h31
theorem R3_v133 : R3 m c (Proc.devRef .tc main_v133) = RefNet.feat2 (arg m c main_arg1) (arg m c main_arg2) (arg m c main_arg3) (arg m c main_arg4) (arg m c main_arg5) (arg m c main_arg6) (arg m c main_arg7) := by
  obtain ⟨ha, h3, h6, h31⟩ := C2 m c
  exact chunk2_v133 _ _ _ _ _ _ _ _ _ (R2_v82 m c) (ha _ (by decide)) (ha _ (by decide)) (ha _ (by decide)) (ha _ (by decide)) h3 h6 h31
theorem R4_v184 : R4 m c (Proc.devRef .tc main_v184) = RefNet.feat3 (arg m c main_arg1) (arg m c main_arg2) (arg m c main_arg3) (arg m c main_arg4) (arg m c main_arg5) (arg m c main_arg6) (arg m c main_arg7) := by
  obtain ⟨ha, h3, h6, h31⟩ := C3 m c
  exact chunk3_v184 _ _ _ _ _ _ _ _ _ (R3_v133 m c) (ha _ (by decide)) (ha _ (by decide)) (ha _ (by decide)) (ha _ (by decide)) h3 h6 h31
theorem R5_v235 : R5 m c (Proc.devRef .tc main_v235) = RefNet.feat4 (arg m c main_arg1) (arg m c main_arg2) (arg m c main_arg3) (arg m c main_arg4) (arg m c main_arg5) (arg m c main_arg6) (arg m c main_arg7) := by
  obtain ⟨ha, h3, h6, h31⟩ := C4 m c
  exact chunk4_v235 _ _ _ _ _ _ _ _ _ (R4_v184 m c) (ha _ (by decide)) (ha _ (by decide)) (ha _ (by decide)) (ha _ (by decide)) h3 h6 h31
theorem R6_v285 : R6 m c (Proc.devRef .tc main_v285) = RefNet.feat5 (arg m c main_arg1) (arg m c main_arg2) (arg m c main_arg3) (arg m c main_arg4) (arg m c main_arg5) (arg m c main_arg6) (arg m c main_arg7) := by
  obtain ⟨ha, h3, h6, h31⟩ := C5 m c
  exact chunk5_v285 _ _ _ _ _ _ _ _ _ (R5_v235 m c) (ha _ (by decide)) (ha _ (by decide)) (ha _ (by decide)) (ha _ (by decide)) h3 h6 h31

/-- The pooling chunk writes only buffers numbered from 352 on. -/
theorem R7_keep {b : Ref sig .tc} (hb : b.idx.val < 352) : R7 m c (Proc.devRef .tc b) = R6 m c (Proc.devRef .tc b) :=
  carry6 _ (ne_of_idx_lt written6_lo hb)

theorem R7_v288 : R7 m c (Proc.devRef .tc main_v288) = RefNet.poolOps (arg m c main_arg0) (RefNet.feat5 (arg m c main_arg1) (arg m c main_arg2) (arg m c main_arg3) (arg m c main_arg4) (arg m c main_arg5) (arg m c main_arg6) (arg m c main_arg7)) :=
  chunk6_v288 _ _ _ ((C6 m c).1 _ (by decide)) (R6_v285 m c)

end Chunks

/-- The run ends with the pooled features and the last layer's features, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v288) = RefNet.poolOps (m ((c.tc : Thread nD τ).loc main_arg0)) (RefNet.feat5 (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      ∧ r.2.mem ((c.tc : Thread nD τ).loc main_v285) = RefNet.feat5 (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c =>
    have e : ∀ b : Ref sig .tc, r.2.mem ((c.tc : Thread nD τ).loc b) = R7 m c (Proc.devRef .tc b) :=
      fun b => (h c b).trans (congrFun (after_all m c) _)
    have a : ∀ b : Ref sig .tc, b.idx.val < 8 → r.2.mem ((c.tc : Thread nD τ).loc b) = m ((c.tc : Thread nD τ).loc b) :=
      fun b hb => (e b).trans ((R7_keep m c (by omega)).trans ((C6 m c).1 b hb))
    ⟨(e main_v288).trans (R7_v288 m c), (e main_v285).trans ((R7_keep m c (by decide)).trans (R6_v285 m c)),
      a _ (by decide), a _ (by decide), a _ (by decide), a _ (by decide), a _ (by decide), a _ (by decide), a _ (by decide),
      a _ (by decide)⟩)
    (run_all m ρ)

end Cert.ReferenceIdeal.RefRun

end
-- ==== Proof.RefNet.lean ====
/-
  The reference's stages are the five-layer network, with the variance as the mean squared deviation, followed by
  the per-graph sum.
-/
import proofs.«402385_j8315056685617_1_alg».proof.Proof.RefLayer
import proofs.«402385_j8315056685617_1_alg».proof.Proof.Spec
import proofs.«402385_j8315056685617_1_alg».proof.Proof.Graph
import proofs.«402385_j8315056685617_1_alg».proof.Proof.Network
import proofs.«402385_j8315056685617_1_alg».proof.Proof.LibDotPlain
import proofs.«402385_j8315056685617_1_alg».proof.Proof.Pool
import Idealize.ShloMosaic.Lib.Pipeline.Value
import Idealize.ShloMosaic.Lib.ValueIdx
import Idealize.ShloMosaic.PureOps.Ideal.Laws

noncomputable section

open scoped BigOperators

namespace Cert.ReferenceIdeal.RefNet

open Cert.ReferenceIdeal Cert.ReferenceIdeal.Gen Idealize.ShloMosaic Idealize.ShloMosaic.ValueIdx

theorem spread_apply (v : Row) (n : Fin 50000) (d : Fin 128) : spread v (ix2 n d) = v (ix1 d) := by
  unfold spread
  rw [broadcastInDim_apply _ bcast_S1x128_S50000x128_0_1 _ (ix2 n d) (ix2 (0 : Fin 1) d) (fun a => match a with
      | ⟨0, _⟩ => by show 0 = if (1 : Nat) = 1 then 0 else n.val; rw [if_pos rfl]
      | ⟨1, _⟩ => by show d.val = if (128 : Nat) = 1 then 0 else d.val; rw [if_neg (by decide)]),
    broadcastInDim_apply _ bcast_S128_S1x128_1 v (ix2 (0 : Fin 1) d) (ix1 d) (fun a => match a with
      | ⟨0, _⟩ => by show d.val = if (128 : Nat) = 1 then 0 else d.val; rw [if_neg (by decide)])]

theorem chanConst_apply (w : BitVec 32) (d : S128.Idx) : chanConst (F := Ideal) w d = Ideal.ofBits .f32 w := by
  unfold chanConst
  rw [broadcastInDim_apply _ bcast_S_S128 _ d ix0 (fun a => a.elim0)]
  rfl

theorem colMean_apply (x : Arr) (d : Fin 128) :
    colMean x (ix1 d) = Ideal.div (∑ n : Fin 50000, x (ix2 n d)) Cert.Spec.count := by
  unfold colMean
  show Ideal.div (Host.reduceAdd (F := Ideal) x (constant (F := Ideal) S_ .f32 0x00000000#32) reducesTo_S50000x128_S128_d0 h_S_ (ix1 d))
      (chanConst (F := Ideal) 0x47435000#32 (ix1 d)) = _
  rw [chanConst_apply]
  simp only [Host.reduceAdd, Ideal.hostReduceAdd_def]
  rw [Ideal.hostReduceAdd_single reducesTo_S50000x128_S128_d0 (by decide), constant_apply, Ideal.ofBits_zero_f32, zero_add]
  refine congrArg (fun s => Ideal.div s Cert.Spec.count) (Finset.sum_congr rfl fun k _ => ?_)
  exact congrArg x (funext fun a => Fin.ext (by match a with | ⟨0, _⟩ => rfl | ⟨1, _⟩ => rfl))

theorem dot_eq (h : Arr) (w : Mat) :
    Host.dotGeneral (F := Ideal) dot_S50000x128_S128x128_S50000x128_1_0_0_1_n_n none h w = Cert.Spec.product h w := by
  funext j
  obtain ⟨n, d, rfl⟩ : ∃ (n : Fin 50000) (d : Fin 128), j = ix2 n d := ⟨j 0, j 1, eq_ix2 j⟩
  exact Cert.LibDotPlain.dotGeneral_plain 50000 128 128 none .single h w n d

theorem pre_eq (agg : Arr → Arr) (h : Arr) (w : Mat) (b : Row) :
    pre agg h w b = Cert.Spec.shifted (agg (Cert.Spec.product h w)) (row b) := by
  unfold pre
  rw [dot_eq]
  funext j
  obtain ⟨n, d, rfl⟩ : ∃ (n : Fin 50000) (d : Fin 128), j = ix2 n d := ⟨j 0, j 1, eq_ix2 j⟩
  rw [addf_apply, spread_apply]
  rfl

theorem normOps_eq (x : Arr) (g β : Row) :
    normOps x g β = Cert.Spec.normalised x (Cert.Spec.varOfDeviations x) (row g) (row β) := by
  funext j
  obtain ⟨n, d, rfl⟩ : ∃ (n : Fin 50000) (d : Fin 128), j = ix2 n d := ⟨j 0, j 1, eq_ix2 j⟩

  have hm : ∀ m : Fin 50000, spread (colMean x) (ix2 m d) = Cert.Spec.mean x d := fun m => by
    rw [spread_apply, colMean_apply]; rfl

  have hv : colMean (mulf (subf x (spread (colMean x))) (subf x (spread (colMean x)))) (ix1 d)
      = Cert.Spec.varOfDeviations x d := by
    rw [colMean_apply]
    refine congrArg (fun s => Ideal.div s Cert.Spec.count) (Finset.sum_congr rfl fun m _ => ?_)
    rw [mulf_apply, subf_apply, hm]
  unfold normOps
  rw [addf_apply, mulf_apply, mulf_apply, subf_apply, hm, spread_apply, spread_apply, spread_apply]
  show _ * FloatOps.hostUnary .rsqrt (addf (colMean _) (chanConst _) (ix1 d)) * _ + _ = _
  rw [Ideal.hostUnary_rsqrt_def, addf_apply, hv, chanConst_apply]
  rfl

theorem clipOps_eq (y : Arr) : clipOps y = Cert.Spec.clipped y := by
  funext j
  unfold clipOps
  rw [maximumf_apply, broadcastInDim_apply _ bcast_S_S50000x128 _ j ix0 (fun a => a.elim0), constant_apply,
    Ideal.ofBits_zero_f32]
  rfl

theorem layer_plain (agg : Arr → Arr) (h : Arr) (w : Mat) (b g β : Row) :
    normOps (pre agg h w b) g β = Cert.Spec.layer Cert.Spec.varOfDeviations agg false h w (row b) (row g) (row β) := by
  rw [normOps_eq, pre_eq]; rfl

theorem layer_clipped (agg : Arr → Arr) (h : Arr) (w : Mat) (b g β : Row) :
    clipOps (normOps (pre agg h w b) g β)
      = Cert.Spec.layer Cert.Spec.varOfDeviations agg true h w (row b) (row g) (row β) := by
  rw [clipOps_eq, normOps_eq, pre_eq]; rfl

theorem weightSlice_apply (k : Nat) (hk : k < 5) (hs : S5x128x128.Slices ![k, 0, 0] S1x128x128)
    (ws : FVec Ideal S5x128x128 .f32) (q d : Fin 128) :
    shapeCast S128x128 (extractStridedSlice S1x128x128 ![k, 0, 0] ws hs) shapeCasts_S1x128x128_S128x128 (ix2 q d)
      = ws (ix3 (⟨k, hk⟩ : Fin 5) q d) := by
  rw [shapeCast_apply _ shapeCasts_S1x128x128_S128x128 (ix2 q d) (ix3 (0 : Fin 1) q d)
    (by rw [Shape.rowMajor_val_three, Shape.rowMajor_val_two]
        show (0 * 128 + q.val) * 128 + d.val = q.val * 128 + d.val; omega)]
  exact extractStridedSlice_apply ![k, 0, 0] ws hs (ix3 (0 : Fin 1) q d) (ix3 (⟨k, hk⟩ : Fin 5) q d) (fun a => match a with
    | ⟨0, _⟩ => by show k = k + 0; omega
    | ⟨1, _⟩ => by show q.val = 0 + q.val; omega
    | ⟨2, _⟩ => by show d.val = 0 + d.val; omega)

theorem chanSlice_apply (k : Nat) (hk : k < 5) (hs : S5x128.Slices ![k, 0] S1x128) (p : FVec Ideal S5x128 .f32)
    (d : Fin 128) :
    shapeCast S128 (extractStridedSlice S1x128 ![k, 0] p hs) shapeCasts_S1x128_S128 (ix1 d)
      = p (ix2 (⟨k, hk⟩ : Fin 5) d) := by
  rw [shapeCast_apply _ shapeCasts_S1x128_S128 (ix1 d) (ix2 (0 : Fin 1) d)
    (by rw [Shape.rowMajor_val_two, Shape.rowMajor_val_one]
        show 0 * 128 + d.val = d.val; omega)]
  exact extractStridedSlice_apply ![k, 0] p hs (ix2 (0 : Fin 1) d) (ix2 (⟨k, hk⟩ : Fin 5) d) (fun a => match a with
    | ⟨0, _⟩ => by show k = k + 0; omega
    | ⟨1, _⟩ => by show d.val = 0 + d.val; omega)

theorem wslice_eq (k : Nat) (hk : k < 5) (hs : S5x128x128.Slices ![k, 0, 0] S1x128x128) (ws : FVec Ideal S5x128x128 .f32) :
    wslice k hs ws = Cert.Network.weight ⟨k, hk⟩ ws := by
  funext j
  obtain ⟨q, d, rfl⟩ : ∃ (q d : Fin 128), j = ix2 q d := ⟨j 0, j 1, eq_ix2 j⟩
  exact weightSlice_apply k hk hs ws q d

theorem cslice_eq (k : Nat) (hk : k < 5) (hs : S5x128.Slices ![k, 0] S1x128) (p : FVec Ideal S5x128 .f32) :
    row (cslice k hs p) = Cert.Network.chan ⟨k, hk⟩ p :=
  funext fun d => chanSlice_apply k hk hs p d

/-- A layer of the program is the network's layer at its slices of the stacked parameters. -/
theorem layerP_eq (k : Nat) (hk : k < 5) (hw : S5x128x128.Slices ![k, 0, 0] S1x128x128) (hc : S5x128.Slices ![k, 0] S1x128)
    (agg : Arr → Arr) (h : Arr) (x4 : FVec Ideal S5x128x128 .f32) (x5 x6 x7 : FVec Ideal S5x128 .f32) :
    layerP k hw hc agg h x4 x5 x6 x7 = Cert.Network.step Cert.Spec.varOfDeviations agg ⟨k, hk⟩ false h x4 x5 x6 x7 := by
  unfold layerP
  rw [layer_plain, wslice_eq k hk, cslice_eq k hk, cslice_eq k hk, cslice_eq k hk]
  rfl

theorem layerC_eq (k : Nat) (hk : k < 5) (hw : S5x128x128.Slices ![k, 0, 0] S1x128x128) (hc : S5x128.Slices ![k, 0] S1x128)
    (agg : Arr → Arr) (h : Arr) (x4 : FVec Ideal S5x128x128 .f32) (x5 x6 x7 : FVec Ideal S5x128 .f32) :
    layerC k hw hc agg h x4 x5 x6 x7 = Cert.Network.step Cert.Spec.varOfDeviations agg ⟨k, hk⟩ true h x4 x5 x6 x7 := by
  unfold layerC layerP
  rw [layer_clipped, wslice_eq k hk, cslice_eq k hk, cslice_eq k hk, cslice_eq k hk]
  rfl

variable (x0 : (⟨S50000, .i32⟩ : BufTy).Contents (Elt Ideal)) (x1 : (⟨S50000x128, .f32⟩ : BufTy).Contents (Elt Ideal)) (x2 : (⟨S2x800000, .i32⟩ : BufTy).Contents (Elt Ideal))
  (x3 : (⟨S800000, .f32⟩ : BufTy).Contents (Elt Ideal)) (x4 : (⟨S5x128x128, .f32⟩ : BufTy).Contents (Elt Ideal)) (x5 x6 x7 : (⟨S5x128, .f32⟩ : BufTy).Contents (Elt Ideal))

theorem features_eq : feat5 x1 x2 x3 x4 x5 x6 x7 = Cert.Network.net Cert.Spec.varOfDeviations (agg x2 x3) x1 x4 x5 x6 x7 := by
  unfold feat5 feat4 feat3 feat2 feat1
  rw [layerP_eq 4 (by decide), layerC_eq 3 (by decide), layerC_eq 2 (by decide), layerC_eq 1 (by decide),
    layerC_eq 0 (by decide)]
  rfl

theorem pooled_eq : poolOps x0 (feat5 x1 x2 x3 x4 x5 x6 x7)
      = Cert.Pool.pooled (Cert.Network.net Cert.Spec.varOfDeviations (agg x2 x3) x1 x4 x5 x6 x7) (fun n => x0 (ix1 n)) := by
  rw [features_eq]
  exact Cert.Pool.scatterAdd_host x0 _

end Cert.ReferenceIdeal.RefNet

end
-- ==== Proof.RefSide.lean ====
/-
  The reference's two results as functions of its arguments.
-/
import proofs.«402385_j8315056685617_1_alg».proof.Proof.Gen.ReferenceIdeal
import proofs.«402385_j8315056685617_1_alg».proof.Proof.RefStages
import proofs.«402385_j8315056685617_1_alg».proof.Proof.RefNet
import proofs.«402385_j8315056685617_1_alg».proof.Proof.Network
import proofs.«402385_j8315056685617_1_alg».proof.Proof.Graph
import proofs.«402385_j8315056685617_1_alg».proof.Proof.Pool
import Idealize.ShloMosaic.Lib.StableHlo.Run

noncomputable section

namespace Cert.ReferenceIdeal.RefValue

open Cert.ReferenceIdeal Cert.ReferenceIdeal.Gen
open Idealize.ShloMosaic Idealize.ShloMosaic.TcCoe Idealize.SL.Sem

variable (m : (ℓ : Loc nD τ sig) → Buf (Elt Ideal) ℓ) (ρ : Dev nD → PrngReg) (c : Dev nD)

abbrev graphIds : IVec S50000 32 := m ((c.tc : Thread nD τ).loc main_arg0)
abbrev inputFeatures : Cert.Spec.Feat := m ((c.tc : Thread nD τ).loc main_arg1)
abbrev edgeEnds : IVec S2x800000 32 := m ((c.tc : Thread nD τ).loc main_arg2)
abbrev edgeWeights : FVec Ideal S800000 .f32 := m ((c.tc : Thread nD τ).loc main_arg3)
abbrev weightStack : Cert.Network.WeightStack.Idx → EReal := m ((c.tc : Thread nD τ).loc main_arg4)
abbrev biasStack : Cert.Network.ChanStack.Idx → EReal := m ((c.tc : Thread nD τ).loc main_arg5)
abbrev scaleStack : Cert.Network.ChanStack.Idx → EReal := m ((c.tc : Thread nD τ).loc main_arg6)
abbrev shiftStack : Cert.Network.ChanStack.Idx → EReal := m ((c.tc : Thread nD τ).loc main_arg7)

abbrev agg : Cert.Spec.Feat → Cert.Spec.Feat :=
  Cert.Graph.aggregate (Cert.Graph.rows (edgeEnds m c)) (Cert.Graph.cols (edgeEnds m c))
    (Cert.Graph.coeff (edgeEnds m c) (edgeWeights m c))

def features : Cert.Spec.Feat :=
  Cert.Network.net Cert.Spec.varOfDeviations (agg m c) (inputFeatures m c) (weightStack m c) (biasStack m c)
    (scaleStack m c) (shiftStack m c)

theorem run_values :
    θ_run (defs (F := Ideal)) (onTc (τ := τ) (main (F := Ideal))) ⟨m, fun _ => 0, ρ⟩ (fun r => ∀ c : Dev nD,
      r.2.mem ((c.tc : Thread nD τ).loc main_v288) = Cert.Pool.pooled (features m c) (fun n => graphIds m c (ValueIdx.ix1 n))
      ∧ r.2.mem ((c.tc : Thread nD τ).loc main_v285) = features m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono
    (fun r h c => ⟨(h c).1.trans (Cert.ReferenceIdeal.RefNet.pooled_eq _ _ _ _ _ _ _ _),
      (h c).2.1.trans (Cert.ReferenceIdeal.RefNet.features_eq _ _ _ _ _ _ _), (h c).2.2⟩)
    (Cert.ReferenceIdeal.RefRun.run m ρ)

end Cert.ReferenceIdeal.RefValue

end
-- ==== Proof.PreFacts.lean ====
/-
  The precondition unpacked: every float argument is finite and every edge source is a node index.
-/
import proofs.«402385_j8315056685617_1_alg».proof.Pre_finite_inputs
import proofs.«402385_j8315056685617_1_alg».proof.Proof.Gen.Pre_finite_inputs
import proofs.«402385_j8315056685617_1_alg».proof.Proof.Spec
import Idealize.ShloMosaic.Lib.ReduceAll
import Idealize.ShloMosaic.Lib.StableHlo.Predicate
import Idealize.ShloMosaic.Lib.ValueIdx

noncomputable section

namespace Cert.PreFacts

open Idealize.ShloMosaic Idealize.ShloMosaic.ValueIdx Cert.Pre_finite_inputs

instance : Subsingleton S_.Idx := ⟨fun a b => funext fun d => d.elim0⟩

theorem inf_word : Ideal.ofBits .f32 0x7F800000#32 = (⊤ : EReal) := by
  simp [Ideal.ofBits, Ideal.ieee]

theorem finite_of_abs_lt (x : EReal) (h : Ideal.cmp .olt (max x (-x)) (Ideal.ofBits .f32 0x7F800000#32) = 1#1) :
    Cert.Spec.Finite x := by
  rw [inf_word] at h
  simp only [Ideal.cmp, StableHlo.Predicate.ofBool_eq_one_iff, decide_eq_true_eq] at h
  induction x using EReal.rec with
  | bot => simp at h
  | coe r => exact ⟨r, rfl⟩
  | top => simp at h

theorem toNat_lt_of_signed (w : BitVec 32) (h0 : IntOp.cmpi .sge w 0#32 = 1#1) (h1 : IntOp.cmpi .slt w 50000#32 = 1#1) :
    w.toNat < 50000 := by
  rw [IntOp.cmpi_sge] at h0
  rw [IntOp.cmpi_slt] at h1
  have e0 : (0#32 : BitVec 32).toInt = 0 := by decide
  have e1 : (50000#32 : BitVec 32).toInt = 50000 := by decide
  rw [e0] at h0
  rw [e1] at h1
  rw [BitVec.toInt_eq_toNat_cond] at h0 h1
  split at h0 <;> omega

theorem all_finite {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi (cmpf .olt (Host.absf x) (broadcastInDim s ![] hb (constant (F := Ideal) S_ .f32 0x7F800000#32)))
        (constantI S_ 1 1#1) hr h0 ix0 = 1#1) :
    ∀ j, Cert.Spec.Finite (x j) := fun j =>
  finite_of_abs_lt (x j) (Host.reduce_andi_all _ _ hr h0 ix0 e j)

theorem row0_apply (a2 : IVec S2x800000 32) (hs : S2x800000.Slices ![0, 0] S1x800000) (hc : S1x800000.ShapeCasts S800000)
    (e : Fin 800000) :
    shapeCast S800000 (extractStridedSlice S1x800000 ![0, 0] a2 hs) hc (ix1 e) = a2 (ix2 0 e) := by

  have hpos : Shape.reshapeEquiv hc (ix1 e) = (ix2 (0 : Fin 1) e : S1x800000.Idx) := by
    refine Shape.reshapeEquiv_eq_of_rowMajor hc ?_
    rw [Shape.rowMajor_val_two, Shape.rowMajor_val_one]
    show (0 : Nat) * _ + e.val = e.val
    omega
  unfold shapeCast
  rw [hpos]

  unfold extractStridedSlice
  refine congrArg a2 (funext fun a => Fin.ext ?_)
  match a with
  | ⟨0, _⟩ => rfl
  | ⟨1, _⟩ => show 0 + e.val = e.val; omega

theorem row0_lt (a2 : IVec S2x800000 32) (hs : S2x800000.Slices ![0, 0] S1x800000) (hc : S1x800000.ShapeCasts S800000)
    (hb : S_.BroadcastsInDim S800000 (![] : Fin 0 → Fin S800000.rank)) (hr : S800000.ReducesTo [0] S_) (h0 : 0 < S_.numel)
    (ege : Host.reduce IntOp.andi (cmpi .sge (shapeCast S800000 (extractStridedSlice S1x800000 ![0, 0] a2 hs) hc)
        (broadcastInDim S800000 ![] hb (constantI S_ 32 0#32))) (constantI S_ 1 1#1) hr h0 ix0 = 1#1)
    (elt : Host.reduce IntOp.andi (cmpi .slt (shapeCast S800000 (extractStridedSlice S1x800000 ![0, 0] a2 hs) hc)
        (broadcastInDim S800000 ![] hb (constantI S_ 32 50000#32))) (constantI S_ 1 1#1) hr h0 ix0 = 1#1) :
    ∀ e : Fin 800000, (a2 (ix2 0 e)).toNat < 50000 := by
  intro e
  have g := Host.reduce_andi_all _ _ hr h0 ix0 ege (ix1 e)
  have l := Host.reduce_andi_all _ _ hr h0 ix0 elt (ix1 e)
  rw [← row0_apply a2 hs hc e]
  exact toNat_lt_of_signed _ g l

theorem of_pre (a0 : IVec S50000 32) (a1 : FVec Ideal S50000x128 .f32) (a2 : IVec S2x800000 32)
    (a3 : FVec Ideal S800000 .f32) (a4 : FVec Ideal S5x128x128 .f32) (a5 a6 a7 : FVec Ideal S5x128 .f32)
    (h : @Cert.Pre_finite_inputs.fn Cert.Pre_finite_inputs.Gen.facts Ideal _ a0 a1 a2 a3 a4 a5 a6 a7 = fun _ => 1#1) :
    (∀ j, Cert.Spec.Finite (a1 j)) ∧ (∀ j, Cert.Spec.Finite (a3 j)) ∧ (∀ j, Cert.Spec.Finite (a4 j))
      ∧ (∀ j, Cert.Spec.Finite (a5 j)) ∧ (∀ j, Cert.Spec.Finite (a6 j)) ∧ (∀ j, Cert.Spec.Finite (a7 j))
      ∧ ∀ e : Fin 800000, (a2 (ix2 0 e)).toNat < 50000 := by
  have e := congrFun h ix0
  simp only [Cert.Pre_finite_inputs.fn, Cert.Pre_finite_inputs.fn_part1, Cert.Pre_finite_inputs.fn_part2, andi,
    IntOp.andi_eq_one] at e
  obtain ⟨⟨⟨⟨⟨⟨⟨e1, e3⟩, e4⟩, e5⟩, e6⟩, e7⟩, ege⟩, elt⟩ := e
  exact ⟨all_finite a1 _ _ _ e1, all_finite a3 _ _ _ e3, all_finite a4 _ _ _ e4, all_finite a5 _ _ _ e5,
    all_finite a6 _ _ _ e6, all_finite a7 _ _ _ e7, row0_lt a2 _ _ _ _ _ ege elt⟩

end Cert.PreFacts

end
-- ==== Proof.GraphIndex.lean ====
/-
  If every edge source is a node index, the bounds-tested row lookup is the plain lookup.
-/
import proofs.«402385_j8315056685617_1_alg».proof.Proof.Graph
import Idealize.ShloMosaic.Lib.StableHlo.Predicate
import Idealize.ShloMosaic.Lib.ReduceAll
import Idealize.ShloMosaic.Lib.Pipeline.Value

noncomputable section

namespace Cert.Graph

open Idealize.ShloMosaic Idealize.ShloMosaic.ValueIdx
open Idealize.ShloMosaic.StableHlo.Predicate (slt_iff_toNat sge_iff_toNat sle_iff_toNat)

theorem rows_lt (ei : IVec S2x800000 32) (h : ∀ e : Fin 800000, (ei (ix2 0 e)).toNat < 50000) :
    ∀ e : S850000.Idx, (rows ei e).toNat < 50000 := by
  intro e
  have he850 : (e 0).val < 850000 := (e 0).isLt
  unfold rows
  by_cases he : (e 0).val < 800000
  ·
    have hc := concatenate_pair_apply_left (0 : Fin S850000.rank)
      (shapeCast S800000 (extractStridedSlice S1x800000 ![0, 0] ei slices_row0) casts_edges)
      (iotaInDim S50000 32 0) concat_edges e rfl (ix1 ⟨(e 0).val, he⟩)
      (fun b => by obtain rfl : b = 0 := Subsingleton.elim _ _; rfl)
    have hs := shapeCast_apply (extractStridedSlice S1x800000 ![0, 0] ei slices_row0) casts_edges
      (ix1 ⟨(e 0).val, he⟩) (ix2 (0 : Fin 1) ⟨(e 0).val, he⟩)
      (by rw [Shape.rowMajor_val_two, Shape.rowMajor_val_one]; show 0 * 800000 + (e 0).val = (e 0).val; omega)
    have hx := extractStridedSlice_apply (![0, 0] : Fin S2x800000.rank → Nat) ei slices_row0
      (ix2 (0 : Fin 1) ⟨(e 0).val, he⟩) (ix2 (0 : Fin 2) ⟨(e 0).val, he⟩)
      (fun a => match a with
        | ⟨0, _⟩ => rfl
        | ⟨1, _⟩ => (Nat.zero_add _).symm)
    rw [hc, hs, hx]
    exact h ⟨(e 0).val, he⟩
  ·
    have hlt : (e 0).val - 800000 < 50000 := by omega
    have hc := concatenate_pair_apply_right (0 : Fin S850000.rank)
      (shapeCast S800000 (extractStridedSlice S1x800000 ![0, 0] ei slices_row0) casts_edges)
      (iotaInDim S50000 32 0) concat_edges e rfl rfl (ix1 ⟨(e 0).val - 800000, hlt⟩)
      (fun b hb => absurd (Subsingleton.elim _ _) hb)
      (by show (e 0).val - 800000 + 800000 = (e 0).val; omega)
    rw [hc]
    show (BitVec.ofNat 32 ((e 0).val - 800000)).toNat < 50000
    rw [BitVec.toNat_ofNat, Nat.mod_eq_of_lt (by omega)]
    exact hlt

theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from rfl]
    exact foldl_andi_ones f hf l

theorem reduce_andi_ones {s t u : Shape} {axes : List (Fin s.rank)} (x : s.Idx → BitVec 1) (init : u.Idx → BitVec 1)
    (hr : s.ReducesTo axes t) (hu : 0 < u.numel) (hx : ∀ i, x i = 1#1) (hi : init (Shape.Idx.first hu) = 1#1)
    (j : t.Idx) : Host.reduce IntOp.andi x init hr hu j = 1#1 := by
  rw [Host.reduce_eq_foldl, hi]
  exact foldl_andi_ones x hx _

theorem wrapped_apply (src : IVec S850000 32) (k : S850000.Idx) (hk : (src k).toNat < 50000) :
    wrapped src k = src k := by
  show Scalar.select (IntOp.cmpi .slt (src k) 0#32) (IntOp.addi (src k) 50000#32) (src k) = src k
  have hc : IntOp.cmpi .slt (src k) 0#32 = 0#1 :=
    eq_zero_of_ne_one fun h1 => by
      have := (slt_iff_toNat (a := src k) (b := 0#32) (by omega) (by decide)).1 h1
      exact absurd this (by simp)
  rw [hc, select_zero]

theorem asColumn_apply (v : IVec S850000 32) (i : S850000x1.Idx) : ∃ k : S850000.Idx, asColumn v i = v k := ⟨_, rfl⟩

theorem boundsTest_eq_one (src : IVec S850000 32) (h : ∀ e : S850000.Idx, (src e).toNat < 50000) (k : S850000.Idx) :
    Host.reduce IntOp.andi
      (andi (cmpi .sge (asColumn (wrapped src)) (broadcastInDim S850000x1 ![] bcast_S_S850000x1 (constantI S_ 32 0#32)))
        (cmpi .sle (asColumn (wrapped src))
          (broadcastInDim S850000x1 ![0, 1] bcast_S1x1_S850000x1_0_1
            (broadcastInDim S1x1 ![1] bcast_S1_S1x1_1 (constantI S1 32 49999#32)))))
      (constantI S_ 1 1#1) reducesTo_S850000x1_S850000_d1 h_S_ k = 1#1 := by
  refine reduce_andi_ones _ _ _ _ (fun i => ?_) rfl k
  obtain ⟨k', hk'⟩ := asColumn_apply (wrapped src) i
  show IntOp.andi (IntOp.cmpi .sge (asColumn (wrapped src) i) 0#32) (IntOp.cmpi .sle (asColumn (wrapped src) i) 49999#32) = 1#1
  rw [hk', wrapped_apply src k' (h k')]
  have hk := h k'
  rw [(sge_iff_toNat (a := src k') (b := 0#32) (by omega) (by decide)).2 (Nat.zero_le _),
    (sle_iff_toNat (a := src k') (b := 49999#32) (by omega) (by decide)).2 (by show (src k').toNat ≤ 49999; omega)]
  rfl

theorem sourceRowsChecked_eq (src : IVec S850000 32) (h : ∀ e : S850000.Idx, (src e).toNat < 50000)
    (x : FVec Ideal S50000x128 .f32) : sourceRowsChecked src x = sourceRows src x := by
  funext j
  unfold sourceRowsChecked sourceRows
  rw [select_apply]
  have hm : broadcastInDim S850000x128 ![0] bcast_S850000_S850000x128_0
      (Host.reduce IntOp.andi
        (andi (cmpi .sge (asColumn (wrapped src)) (broadcastInDim S850000x1 ![] bcast_S_S850000x1 (constantI S_ 32 0#32)))
          (cmpi .sle (asColumn (wrapped src))
            (broadcastInDim S850000x1 ![0, 1] bcast_S1x1_S850000x1_0_1
              (broadcastInDim S1x1 ![1] bcast_S1_S1x1_1 (constantI S1 32 49999#32)))))
        (constantI S_ 1 1#1) reducesTo_S850000x1_S850000_d1 h_S_) j = 1#1 :=
    boundsTest_eq_one src h _
  rw [hm, select_one]

theorem aggregateChecked_eq (src tgt : IVec S850000 32) (h : ∀ e : S850000.Idx, (src e).toNat < 50000)
    (c : FVec Ideal S850000 .f32) (x : FVec Ideal S50000x128 .f32) :
    aggregateChecked src tgt c x = aggregate src tgt c x := by
  unfold aggregateChecked aggregate
  rw [sourceRowsChecked_eq src h x]

end Cert.Graph
-- ==== Proof.GraphFinite.lean ====
/-
  Finite inputs give finite edge coefficients, and the aggregation maps finite arrays to finite arrays.
-/
import proofs.«402385_j8315056685617_1_alg».proof.Proof.Graph
import proofs.«402385_j8315056685617_1_alg».proof.Proof.Spec

noncomputable section

namespace Cert.Graph

open Idealize.ShloMosaic Cert.Spec

private theorem gather_finite {s si t : Shape} {w : Nat} (d : GatherDims s si t) (x : s.Idx → EReal) (idx : IVec si w)
    (hx : ∀ i, Finite (x i)) : ∀ j, Finite (Host.gather d x idx j) :=
  fun _ => hx _

private theorem broadcast_finite {s : Shape} (t : Shape) (dims : Fin s.rank → Fin t.rank) (h : s.BroadcastsInDim t dims)
    (x : s.Idx → EReal) (hx : ∀ i, Finite (x i)) : ∀ j, Finite (broadcastInDim t dims h x j) :=
  fun _ => hx _

private theorem concatenate_finite (t : Shape) (a : Fin t.rank) (xs : List ((s : Shape) × (s.Idx → EReal)))
    (h : Shape.Concatenates (xs.map (·.1)) t a) (hxs : ∀ p ∈ xs, ∀ i, Finite (p.2 i)) :
    ∀ j, Finite (concatenate t a xs h j) := by
  intro j
  unfold concatenate
  exact hxs _ (List.getElem_mem _) _

private theorem scatterAdd_finite {s si u : Shape} {w : Nat} (d : ScatterDims s si u) (x : FVec Ideal s .f32)
    (idx : IVec si w) (upd : FVec Ideal u .f32) (hx : ∀ i, Finite (x i)) (hu : ∀ j, Finite (upd j)) :
    ∀ i, Finite (Host.scatterAdd d x idx upd i) := by
  intro i
  show Finite (x i + ∑ j ∈ Finset.univ.filter (fun j => d.resultIdx? j idx = some i), upd j)
  exact (hx i).add (Cert.Spec.Finite.sum _ _ hu)

private theorem mulf_finite {s : Shape} (x y : FVec Ideal s .f32) (hx : ∀ i, Finite (x i)) (hy : ∀ i, Finite (y i)) :
    ∀ i, Finite (mulf x y i) := by
  intro i
  show Finite (x i * y i)
  exact (hx i).mul (hy i)

private theorem zero_eq {s : Shape} (i : s.Idx) : constant (F := Ideal) s .f32 0x00000000#32 i = 0 := by
  show Ideal.ofBits .f32 0x00000000#32 = 0
  simp [Ideal.ofBits, Ideal.ieee]

private theorem zero_finite {s : Shape} : ∀ i, Finite (constant (F := Ideal) s .f32 0x00000000#32 i) :=
  fun i => ⟨0, zero_eq i⟩

private theorem one_finite {s : Shape} : ∀ i, Finite (constant (F := Ideal) s .f32 0x3F800000#32 i) := by
  intro i
  show Finite (Ideal.ofBits .f32 0x3F800000#32)
  exact ⟨1, by simp [Ideal.ofBits, Ideal.ieee, -EReal.coe_mul]; norm_num⟩

private theorem lt_of_cmp_ogt {x y : EReal} (h : Ideal.cmp .ogt x y = 1) : y < x := by
  by_contra hn
  simp [Ideal.cmp, hn] at h

private theorem rsqrt_pos_finite {r : ℝ} (hr : 0 < r) : Finite (Ideal.rsqrt (r : EReal)) := by
  rw [Ideal.rsqrt_coe, if_neg (not_lt.mpr hr.le), if_neg hr.ne']; exact Finite.coe _

private theorem select_rsqrt_finite {s : Shape} (d z z' : FVec Ideal s .f32) (hd : ∀ i, Finite (d i))
    (hz : ∀ i, z i = 0) (hz' : ∀ i, Finite (z' i)) :
    ∀ i, Finite (select (cmpf .ogt d z) (Host.rsqrt d) z' i) := by
  intro i
  show Finite (if Ideal.cmp .ogt (d i) (z i) = 1 then Ideal.rsqrt (d i) else z' i)
  split
  · rename_i hc
    rw [hz i] at hc
    have hpos := lt_of_cmp_ogt hc
    obtain ⟨r, hr⟩ := hd i
    rw [hr] at hpos ⊢
    exact rsqrt_pos_finite (EReal.coe_pos.mp hpos)
  · exact hz' i

private theorem weights_finite (ew : FVec Ideal S800000 .f32) (hew : ∀ e, Finite (ew e)) : ∀ e, Finite (weights ew e) := by
  have h1 : ∀ i, Finite (broadcastInDim S50000 ![] bcast_S_S50000 (constant (F := Ideal) S_ .f32 0x3F800000#32) i) :=
    broadcast_finite _ _ _ _ one_finite
  unfold weights
  refine concatenate_finite _ _ _ _ ?_
  intro p hp
  simp only [List.mem_cons, List.not_mem_nil, or_false] at hp
  rcases hp with rfl | rfl
  · exact hew
  · exact h1

private theorem degree_finite (ei : IVec S2x800000 32) (ew : FVec Ideal S800000 .f32) (hew : ∀ e, Finite (ew e)) :
    ∀ n, Finite (degree ei ew n) := by
  unfold degree
  exact scatterAdd_finite _ _ _ _ (broadcast_finite _ _ _ _ zero_finite) (weights_finite ew hew)

private theorem dinv_finite (ei : IVec S2x800000 32) (ew : FVec Ideal S800000 .f32) (hew : ∀ e, Finite (ew e)) :
    ∀ n, Finite (dinv ei ew n) := by
  unfold dinv
  exact select_rsqrt_finite _ _ _ (degree_finite ei ew hew) (fun _ => zero_eq _) (broadcast_finite _ _ _ _ zero_finite)

theorem coeff_finite (ei : IVec S2x800000 32) (ew : FVec Ideal S800000 .f32) (hew : ∀ e, Finite (ew e)) :
    ∀ e, Finite (coeff ei ew e) := by
  unfold coeff
  exact mulf_finite _ _
    (mulf_finite _ _ (gather_finite _ _ _ (dinv_finite ei ew hew)) (weights_finite ew hew))
    (gather_finite _ _ _ (dinv_finite ei ew hew))

theorem aggregate_finite (src tgt : IVec S850000 32) (c : FVec Ideal S850000 .f32) (hc : ∀ e, Finite (c e))
    (x : FVec Ideal S50000x128 .f32) (hx : ∀ j, Finite (x j)) : ∀ j, Finite (aggregate src tgt c x j) := by
  unfold aggregate accumulate sourceRows
  exact scatterAdd_finite _ _ _ _ (broadcast_finite _ _ _ _ zero_finite)
    (mulf_finite _ _ (gather_finite _ _ _ hx)
      (broadcast_finite _ _ _ _ (broadcast_finite _ _ _ _ hc)))

end Cert.Graph
-- ==== Proof.lean ====
/-
  Both idealized programs compute the same five-layer graph network and per-graph sum. Under the precondition the
  kernel program's bounds test passes at every edge, and the two variance forms agree because every input is finite.
-/
import proofs.«402385_j8315056685617_1_alg».proof.Defs
import proofs.«402385_j8315056685617_1_alg».proof.Proof.Gen.Kernel
import proofs.«402385_j8315056685617_1_alg».proof.Proof.Gen.Kernel.Frame
import proofs.«402385_j8315056685617_1_alg».proof.Proof.Gen.KernelIdeal
import proofs.«402385_j8315056685617_1_alg».proof.Proof.Gen.KernelIdeal.Frame
import proofs.«402385_j8315056685617_1_alg».proof.Proof.Gen.ReferenceIdeal
import proofs.«402385_j8315056685617_1_alg».proof.Proof.Gen.Pre_finite_inputs
import proofs.«402385_j8315056685617_1_alg».proof.Proof.KernelRun
import proofs.«402385_j8315056685617_1_alg».proof.Proof.KernelValue
import proofs.«402385_j8315056685617_1_alg».proof.Proof.RefSide
import proofs.«402385_j8315056685617_1_alg».proof.Proof.PreFacts
import proofs.«402385_j8315056685617_1_alg».proof.Proof.GraphIndex
import proofs.«402385_j8315056685617_1_alg».proof.Proof.GraphFinite
import proofs.«402385_j8315056685617_1_alg».proof.Proof.Network
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.RefValue.run_values m ρ)

theorem features_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hpre : Cert.Pre_KernelIdeal m)
    (h1 : Cert.ReferenceIdeal.RefValue.inputFeatures m' c = Cert.KernelIdeal.Chain.inputFeatures m c)
    (h2 : Cert.ReferenceIdeal.RefValue.edgeEnds m' c = Cert.KernelIdeal.Chain.edgeEnds m c)
    (h3 : Cert.ReferenceIdeal.RefValue.edgeWeights m' c = Cert.KernelIdeal.Chain.edgeWeights m c)
    (h4 : Cert.ReferenceIdeal.RefValue.weightStack m' c = Cert.KernelIdeal.Chain.weightStack m c)
    (h5 : Cert.ReferenceIdeal.RefValue.biasStack m' c = Cert.KernelIdeal.Chain.biasStack m c)
    (h6 : Cert.ReferenceIdeal.RefValue.scaleStack m' c = Cert.KernelIdeal.Chain.scaleStack m c)
    (h7 : Cert.ReferenceIdeal.RefValue.shiftStack m' c = Cert.KernelIdeal.Chain.shiftStack m c) :
    Cert.KernelIdeal.Chain.features m c = Cert.ReferenceIdeal.RefValue.features m' c := by
  obtain ⟨f1, f3, f4, f5, f6, f7, hrow⟩ := Cert.PreFacts.of_pre _ _ _ _ _ _ _ _ (hpre c)
  unfold Cert.KernelIdeal.Chain.features Cert.ReferenceIdeal.RefValue.features Cert.KernelIdeal.Chain.aggChecked
    Cert.ReferenceIdeal.RefValue.agg
  rw [h1, h2, h3, h4, h5, h6, h7]
  have hagg : Cert.Graph.aggregateChecked (Cert.Graph.rows (Cert.KernelIdeal.Chain.edgeEnds m c))
        (Cert.Graph.cols (Cert.KernelIdeal.Chain.edgeEnds m c))
        (Cert.Graph.coeff (Cert.KernelIdeal.Chain.edgeEnds m c) (Cert.KernelIdeal.Chain.edgeWeights m c))
      = Cert.Graph.aggregate (Cert.Graph.rows (Cert.KernelIdeal.Chain.edgeEnds m c))
          (Cert.Graph.cols (Cert.KernelIdeal.Chain.edgeEnds m c))
          (Cert.Graph.coeff (Cert.KernelIdeal.Chain.edgeEnds m c) (Cert.KernelIdeal.Chain.edgeWeights m c)) :=
    funext fun x => Cert.Graph.aggregateChecked_eq _ _ (Cert.Graph.rows_lt _ hrow) _ x
  rw [hagg]
  exact Cert.Network.net_eq _
    (fun a ha => Cert.Graph.aggregate_finite _ _ _ (Cert.Graph.coeff_finite _ _ f3) a ha) _ _ _ _ _ f1 f4 f5 f6 f7

theorem algebraic : Cert.algebraic_KernelIdeal_ReferenceIdeal := by
  intro m ρ m' ρ' hpre hagree
  refine ⟨fun c => Cert.Pool.pooled (Cert.ReferenceIdeal.RefValue.features m' c)
      (fun n => Cert.ReferenceIdeal.RefValue.graphIds m' c (ValueIdx.ix1 n)),
    fun c => Cert.ReferenceIdeal.RefValue.features m' c, ?_, Cert.ReferenceIdeal.RefValue.run_values m' ρ'⟩
  refine (θ_run Cert.KernelIdeal.defs _ _).mono (fun r h c => ?_) (Cert.KernelIdeal.ValueRun.run_values m ρ)
  obtain ⟨hp, hf, hargs⟩ := h c
  obtain ⟨h0, h1, h2, h3, h4, h5, h6, h7⟩ := hagree c
  have hfeat := features_agree m m' c hpre h1 h2 h3 h4 h5 h6 h7
  refine ⟨hp.trans ?_, hf.trans ?_, hargs⟩
  · rw [Cert.KernelIdeal.Chain.kernel_pooled, hfeat]
    exact congrArg (fun g : IVec Cert.KernelIdeal.S50000 32 =>
      Cert.Pool.pooled (Cert.ReferenceIdeal.RefValue.features m' c) (fun n => g (ValueIdx.ix1 n))) h0.symm
  · rw [Cert.KernelIdeal.Chain.kernel_features]
    exact hfeat

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
